-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v347)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v347) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1053) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x1x1048576x3 : Shape := ⟨5, ![1, 1, 1, 1048576, 3]⟩
abbrev S1x4x32x32x32 : Shape := ⟨5, ![1, 4, 32, 32, 32]⟩
abbrev S1x4x64x64x64 : Shape := ⟨5, ![1, 4, 64, 64, 64]⟩
abbrev S1x4x128x128x128 : Shape := ⟨5, ![1, 4, 128, 128, 128]⟩
abbrev S1x4x256x256x256 : Shape := ⟨5, ![1, 4, 256, 256, 256]⟩
abbrev S_ : Shape := ⟨0, ![]⟩

class Facts : Prop where
  bcast_S_S1x1x1x1048576x3 : S_.BroadcastsInDim S1x1x1x1048576x3 (![] : Fin 0 → Fin S1x1x1x1048576x3.rank)
  reducesTo_S1x1x1x1048576x3_S_d0_1_2_3_4 : S1x1x1x1048576x3.ReducesTo [0, 1, 2, 3, 4] S_
  h_S_ : 0 < S_.numel
  bcast_S_S1x4x32x32x32 : S_.BroadcastsInDim S1x4x32x32x32 (![] : Fin 0 → Fin S1x4x32x32x32.rank)
  reducesTo_S1x4x32x32x32_S_d0_1_2_3_4 : S1x4x32x32x32.ReducesTo [0, 1, 2, 3, 4] S_
  bcast_S_S1x4x64x64x64 : S_.BroadcastsInDim S1x4x64x64x64 (![] : Fin 0 → Fin S1x4x64x64x64.rank)
  reducesTo_S1x4x64x64x64_S_d0_1_2_3_4 : S1x4x64x64x64.ReducesTo [0, 1, 2, 3, 4] S_
  bcast_S_S1x4x128x128x128 : S_.BroadcastsInDim S1x4x128x128x128 (![] : Fin 0 → Fin S1x4x128x128x128.rank)
  reducesTo_S1x4x128x128x128_S_d0_1_2_3_4 : S1x4x128x128x128.ReducesTo [0, 1, 2, 3, 4] S_
  bcast_S_S1x4x256x256x256 : S_.BroadcastsInDim S1x4x256x256x256 (![] : Fin 0 → Fin S1x4x256x256x256.rank)
  reducesTo_S1x4x256x256x256_S_d0_1_2_3_4 : S1x4x256x256x256.ReducesTo [0, 1, 2, 3, 4] S_

variable [Facts]

def fn_part1 {F : FTy → Type} [FloatOps F] (main_arg4 : FVec F S1x4x256x256x256 .f32) (main_v13 : IVec S_ 1) (main_v16 : IVec S1x4x128x128x128 1) : IVec S_ 1 :=
  let main_c_5 : IVec S_ 1 := constantI S_ 1 1#1
  let main_v17 : IVec S_ 1 := (fun x v => Host.reduce IntOp.andi x v reducesTo_S1x4x128x128x128_S_d0_1_2_3_4 h_S_) main_v16 main_c_5
  let main_v18 : IVec S_ 1 := andi main_v13 main_v17
  let main_v19 : FVec F S1x4x256x256x256 .f32 := Host.absf main_arg4
  let main_cst_6 : FVec F S_ .f32 := constant S_ .f32 0x7F800000#32
  let main_v20 : FVec F S1x4x256x256x256 .f32 := broadcastInDim S1x4x256x256x256 ![] bcast_S_S1x4x256x256x256 main_cst_6
  let main_v21 : IVec S1x4x256x256x256 1 := cmpf .olt main_v19 main_v20
  let main_c_7 : IVec S_ 1 := constantI S_ 1 1#1
  let main_v22 : IVec S_ 1 := (fun x v => Host.reduce IntOp.andi x v reducesTo_S1x4x256x256x256_S_d0_1_2_3_4 h_S_) main_v21 main_c_7
  let main_v23 : IVec S_ 1 := andi main_v18 main_v22
  main_v23

def fn {F : FTy → Type} [FloatOps F] (main_arg0 : FVec F S1x1x1x1048576x3 .f32) (main_arg1 : FVec F S1x4x32x32x32 .f32) (main_arg2 : FVec F S1x4x64x64x64 .f32) (main_arg3 : FVec F S1x4x128x128x128 .f32) (main_arg4 : FVec F S1x4x256x256x256 .f32) : IVec S_ 1 :=
  let main_v0 : FVec F S1x1x1x1048576x3 .f32 := Host.absf main_arg0
  let main_cst : FVec F S_ .f32 := constant S_ .f32 0x7F800000#32
  let main_v1 : FVec F S1x1x1x1048576x3 .f32 := broadcastInDim S1x1x1x1048576x3 ![] bcast_S_S1x1x1x1048576x3 main_cst
  let main_v2 : IVec S1x1x1x1048576x3 1 := cmpf .olt main_v0 main_v1
  let main_c : IVec S_ 1 := constantI S_ 1 1#1
  let main_v3 : IVec S_ 1 := (fun x v => Host.reduce IntOp.andi x v reducesTo_S1x1x1x1048576x3_S_d0_1_2_3_4 h_S_) main_v2 main_c
  let main_v4 : FVec F S1x4x32x32x32 .f32 := Host.absf main_arg1
  let main_cst_0 : FVec F S_ .f32 := constant S_ .f32 0x7F800000#32
  let main_v5 : FVec F S1x4x32x32x32 .f32 := broadcastInDim S1x4x32x32x32 ![] bcast_S_S1x4x32x32x32 main_cst_0
  let main_v6 : IVec S1x4x32x32x32 1 := cmpf .olt main_v4 main_v5
  let main_c_1 : IVec S_ 1 := constantI S_ 1 1#1
  let main_v7 : IVec S_ 1 := (fun x v => Host.reduce IntOp.andi x v reducesTo_S1x4x32x32x32_S_d0_1_2_3_4 h_S_) main_v6 main_c_1
  let main_v8 : IVec S_ 1 := andi main_v3 main_v7
  let main_v9 : FVec F S1x4x64x64x64 .f32 := Host.absf main_arg2
  let main_cst_2 : FVec F S_ .f32 := constant S_ .f32 0x7F800000#32
  let main_v10 : FVec F S1x4x64x64x64 .f32 := broadcastInDim S1x4x64x64x64 ![] bcast_S_S1x4x64x64x64 main_cst_2
  let main_v11 : IVec S1x4x64x64x64 1 := cmpf .olt main_v9 main_v10
  let main_c_3 : IVec S_ 1 := constantI S_ 1 1#1
  let main_v12 : IVec S_ 1 := (fun x v => Host.reduce IntOp.andi x v reducesTo_S1x4x64x64x64_S_d0_1_2_3_4 h_S_) main_v11 main_c_3
  let main_v13 : IVec S_ 1 := andi main_v8 main_v12
  let main_v14 : FVec F S1x4x128x128x128 .f32 := Host.absf main_arg3
  let main_cst_4 : FVec F S_ .f32 := constant S_ .f32 0x7F800000#32
  let main_v15 : FVec F S1x4x128x128x128 .f32 := broadcastInDim S1x4x128x128x128 ![] bcast_S_S1x4x128x128x128 main_cst_4
  let main_v16 : IVec S1x4x128x128x128 1 := cmpf .olt main_v14 main_v15
  fn_part1 (F := F) main_arg4 main_v13 main_v16
-- ==== Kernel.lean ====
abbrev S1x1x1x1048576x3 : Shape := ⟨5, ![1, 1, 1, 1048576, 3]⟩
abbrev S1x4x32x32x32 : Shape := ⟨5, ![1, 4, 32, 32, 32]⟩
abbrev S1x4x64x64x64 : Shape := ⟨5, ![1, 4, 64, 64, 64]⟩
abbrev S1x4x128x128x128 : Shape := ⟨5, ![1, 4, 128, 128, 128]⟩
abbrev S1x4x256x256x256 : Shape := ⟨5, ![1, 4, 256, 256, 256]⟩
abbrev S1048576x3 : Shape := ⟨2, ![1048576, 3]⟩
abbrev S3x1048576 : Shape := ⟨2, ![3, 1048576]⟩
abbrev S4x32x32x32 : Shape := ⟨4, ![4, 32, 32, 32]⟩
abbrev S32x32x32x4 : Shape := ⟨4, ![32, 32, 32, 4]⟩
abbrev S32768x4 : Shape := ⟨2, ![32768, 4]⟩
abbrev S1048576x1 : Shape := ⟨2, ![1048576, 1]⟩
abbrev S1048576 : Shape := ⟨1, ![1048576]⟩
abbrev S_ : Shape := ⟨0, ![]⟩
abbrev S1x1048576 : Shape := ⟨2, ![1, 1048576]⟩
abbrev S8x1048576 : Shape := ⟨2, ![8, 1048576]⟩
abbrev S8388608 : Shape := ⟨1, ![8388608]⟩
abbrev S8388608x1 : Shape := ⟨2, ![8388608, 1]⟩
abbrev S1 : Shape := ⟨1, ![1]⟩
abbrev S1x1 : Shape := ⟨2, ![1, 1]⟩
abbrev S8388608x4 : Shape := ⟨2, ![8388608, 4]⟩
abbrev S8x1048576x4 : Shape := ⟨3, ![8, 1048576, 4]⟩
abbrev S8x4x1048576 : Shape := ⟨3, ![8, 4, 1048576]⟩
abbrev S32x1048576 : Shape := ⟨2, ![32, 1048576]⟩
abbrev S4x64x64x64 : Shape := ⟨4, ![4, 64, 64, 64]⟩
abbrev S64x64x64x4 : Shape := ⟨4, ![64, 64, 64, 4]⟩
abbrev S262144x4 : Shape := ⟨2, ![262144, 4]⟩
abbrev S4x128x128x128 : Shape := ⟨4, ![4, 128, 128, 128]⟩
abbrev S128x128x128x4 : Shape := ⟨4, ![128, 128, 128, 4]⟩
abbrev S2097152x4 : Shape := ⟨2, ![2097152, 4]⟩
abbrev S4x256x256x256 : Shape := ⟨4, ![4, 256, 256, 256]⟩
abbrev S256x256x256x4 : Shape := ⟨4, ![256, 256, 256, 4]⟩
abbrev S16777216x4 : Shape := ⟨2, ![16777216, 4]⟩
abbrev S16x1048576 : Shape := ⟨2, ![16, 1048576]⟩
abbrev S3x16384 : Shape := ⟨2, ![3, 16384]⟩
abbrev S32x16384 : Shape := ⟨2, ![32, 16384]⟩
abbrev S16x16384 : Shape := ⟨2, ![16, 16384]⟩
abbrev S1x16384 : Shape := ⟨2, ![1, 16384]⟩
abbrev S16384 : Shape := ⟨1, ![16384]⟩
abbrev S4x16384 : Shape := ⟨2, ![4, 16384]⟩
abbrev S1x16x1x1x1048576 : Shape := ⟨5, ![1, 16, 1, 1, 1048576]⟩

abbrev nBuf : Space → Nat
  | .hbm => 601
  | .vmem => 12
  | .smem => 0
  | _ => 0

abbrev hbmTy0_0 (i : Nat) : BufTy := match i % 128 with
  | 0 => ⟨S1x1x1x1048576x3, .f32⟩
  | 1 => ⟨S1x4x32x32x32, .f32⟩
  | 2 => ⟨S1x4x64x64x64, .f32⟩
  | 3 => ⟨S1x4x128x128x128, .f32⟩
  | 4 => ⟨S1x4x256x256x256, .f32⟩
  | 5 => ⟨S1048576x3, .f32⟩
  | 6 => ⟨S3x1048576, .f32⟩
  | 7 => ⟨S4x32x32x32, .f32⟩
  | 8 => ⟨S32x32x32x4, .f32⟩
  | 9 => ⟨S32768x4, .f32⟩
  | 10 => ⟨S1048576x1, .f32⟩
  | 11 => ⟨S1048576, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S_, .f32⟩
  | 19 => ⟨S1048576, .f32⟩
  | 20 => ⟨S1048576, .f32⟩
  | 21 => ⟨S_, .f32⟩
  | 22 => ⟨S_, .f32⟩
  | 23 => ⟨S_, .f32⟩
  | 24 => ⟨S1048576, .f32⟩
  | 25 => ⟨S1048576, .f32⟩
  | 26 => ⟨S_, .f32⟩
  | 27 => ⟨S1048576, .f32⟩
  | 28 => ⟨S1048576, .f32⟩
  | 29 => ⟨S1048576x1, .f32⟩
  | 30 => ⟨S1048576, .f32⟩
  | 31 => ⟨S_, .f32⟩
  | 32 => ⟨S1048576, .f32⟩
  | 33 => ⟨S1048576, .f32⟩
  | 34 => ⟨S_, .f32⟩
  | 35 => ⟨S1048576, .f32⟩
  | 36 => ⟨S1048576, .f32⟩
  | 37 => ⟨S_, .f32⟩
  | 38 => ⟨S1048576, .f32⟩
  | 39 => ⟨S1048576, .f32⟩
  | 40 => ⟨S_, .f32⟩
  | 41 => ⟨S_, .f32⟩
  | 42 => ⟨S_, .f32⟩
  | 43 => ⟨S1048576, .f32⟩
  | 44 => ⟨S1048576, .f32⟩
  | 45 => ⟨S_, .f32⟩
  | 46 => ⟨S1048576, .f32⟩
  | 47 => ⟨S1048576, .f32⟩
  | 48 => ⟨S1048576x1, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S_, .f32⟩
  | 60 => ⟨S_, .f32⟩
  | 61 => ⟨S_, .f32⟩
  | 62 => ⟨S1048576, .f32⟩
  | 63 => ⟨S1048576, .f32⟩
  | 64 => ⟨S_, .f32⟩
  | 65 => ⟨S1048576, .f32⟩
  | 66 => ⟨S1048576, .f32⟩
  | 67 => ⟨S1048576, .f32⟩
  | 68 => ⟨S1048576, .i32⟩
  | 69 => ⟨S_, .i32⟩
  | 70 => ⟨S1048576, .i32⟩
  | 71 => ⟨S1048576, .i32⟩
  | 72 => ⟨S_, .i32⟩
  | 73 => ⟨S1048576, .i32⟩
  | 74 => ⟨S1048576, .i32⟩
  | 75 => ⟨S1048576, .f32⟩
  | 76 => ⟨S1048576, .i32⟩
  | 77 => ⟨S_, .i32⟩
  | 78 => ⟨S1048576, .i32⟩
  | 79 => ⟨S1048576, .i32⟩
  | 80 => ⟨S_, .i32⟩
  | 81 => ⟨S1048576, .i32⟩
  | 82 => ⟨S1048576, .i32⟩
  | 83 => ⟨S1048576, .f32⟩
  | 84 => ⟨S1048576, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S1048576, .i32⟩
  | 104 => ⟨S1048576, .i32⟩
  | 105 => ⟨S1048576, .i32⟩
  | 106 => ⟨S1048576, .i32⟩
  | 107 => ⟨S1048576, .i32⟩
  | 108 => ⟨S1048576, .i32⟩
  | 109 => ⟨S1048576, .i32⟩
  | 110 => ⟨S1048576, .i32⟩
  | 111 => ⟨S1048576, .i32⟩
  | 112 => ⟨S1048576, .i32⟩
  | 113 => ⟨S1048576, .i32⟩
  | 114 => ⟨S1048576, .i32⟩
  | 115 => ⟨S1048576, .i32⟩
  | 116 => ⟨S1048576, .i32⟩
  | 117 => ⟨S1048576, .i32⟩
  | 118 => ⟨S1048576, .i32⟩
  | 119 => ⟨S1x1048576, .i32⟩
  | 120 => ⟨S1x1048576, .i32⟩
  | 121 => ⟨S1x1048576, .i32⟩
  | 122 => ⟨S1x1048576, .i32⟩
  | 123 => ⟨S1x1048576, .i32⟩
  | 124 => ⟨S1x1048576, .i32⟩
  | 125 => ⟨S1x1048576, .i32⟩
  | 126 => ⟨S1x1048576, .i32⟩
  | 127 => ⟨S8x1048576, .i32⟩
  | _ => ⟨S1x1x1x1048576x3, .f32⟩

abbrev hbmTy0_1 (i : Nat) : BufTy := match i % 128 with
  | 0 => ⟨S8388608, .i32⟩
  | 1 => ⟨S_, .i32⟩
  | 2 => ⟨S8388608, .i32⟩
  | 3 => ⟨S8388608, .i1⟩
  | 4 => ⟨S_, .i32⟩
  | 5 => ⟨S8388608, .i32⟩
  | 6 => ⟨S8388608, .i32⟩
  | 7 => ⟨S8388608, .i32⟩
  | 8 => ⟨S8388608x1, .i32⟩
  | 9 => ⟨S1, .i32⟩
  | 10 => ⟨S_, .i32⟩
  | 11 => ⟨S8388608x1, .i32⟩
  | 12 => ⟨S8388608x1, .i1⟩
  | 13 => ⟨S1x1, .i32⟩
  | 14 => ⟨S8388608x1, .i32⟩
  | 15 => ⟨S8388608x1, .i1⟩
  | 16 => ⟨S8388608x1, .i1⟩
  | 17 => ⟨S_, .i1⟩
  | 18 => ⟨S8388608, .i1⟩
  | 19 => ⟨S8388608x4, .f32⟩
  | 20 => ⟨S8388608x4, .i1⟩
  | 21 => ⟨S_, .f32⟩
  | 22 => ⟨S8388608x4, .f32⟩
  | 23 => ⟨S8388608x4, .f32⟩
  | 24 => ⟨S8x1048576x4, .f32⟩
  | 25 => ⟨S8x4x1048576, .f32⟩
  | 26 => ⟨S32x1048576, .f32⟩
  | 27 => ⟨S4x64x64x64, .f32⟩
  | 28 => ⟨S64x64x64x4, .f32⟩
  | 29 => ⟨S262144x4, .f32⟩
  | 30 => ⟨S1048576x1, .f32⟩
  | 31 => ⟨S1048576, .f32⟩
  | 32 => ⟨S_, .f32⟩
  | 33 => ⟨S1048576, .f32⟩
  | 34 => ⟨S1048576, .f32⟩
  | 35 => ⟨S_, .f32⟩
  | 36 => ⟨S1048576, .f32⟩
  | 37 => ⟨S1048576, .f32⟩
  | 38 => ⟨S_, .f32⟩
  | 39 => ⟨S1048576, .f32⟩
  | 40 => ⟨S1048576, .f32⟩
  | 41 => ⟨S_, .f32⟩
  | 42 => ⟨S_, .f32⟩
  | 43 => ⟨S_, .f32⟩
  | 44 => ⟨S1048576, .f32⟩
  | 45 => ⟨S1048576, .f32⟩
  | 46 => ⟨S_, .f32⟩
  | 47 => ⟨S1048576, .f32⟩
  | 48 => ⟨S1048576, .f32⟩
  | 49 => ⟨S1048576x1, .f32⟩
  | 50 => ⟨S1048576, .f32⟩
  | 51 => ⟨S_, .f32⟩
  | 52 => ⟨S1048576, .f32⟩
  | 53 => ⟨S1048576, .f32⟩
  | 54 => ⟨S_, .f32⟩
  | 55 => ⟨S1048576, .f32⟩
  | 56 => ⟨S1048576, .f32⟩
  | 57 => ⟨S_, .f32⟩
  | 58 => ⟨S1048576, .f32⟩
  | 59 => ⟨S1048576, .f32⟩
  | 60 => ⟨S_, .f32⟩
  | 61 => ⟨S_, .f32⟩
  | 62 => ⟨S_, .f32⟩
  | 63 => ⟨S1048576, .f32⟩
  | 64 => ⟨S1048576, .f32⟩
  | 65 => ⟨S_, .f32⟩
  | 66 => ⟨S1048576, .f32⟩
  | 67 => ⟨S1048576, .f32⟩
  | 68 => ⟨S1048576x1, .f32⟩
  | 69 => ⟨S1048576, .f32⟩
  | 70 => ⟨S_, .f32⟩
  | 71 => ⟨S1048576, .f32⟩
  | 72 => ⟨S1048576, .f32⟩
  | 73 => ⟨S_, .f32⟩
  | 74 => ⟨S1048576, .f32⟩
  | 75 => ⟨S1048576, .f32⟩
  | 76 => ⟨S_, .f32⟩
  | 77 => ⟨S1048576, .f32⟩
  | 78 => ⟨S1048576, .f32⟩
  | 79 => ⟨S_, .f32⟩
  | 80 => ⟨S_, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S1048576, .f32⟩
  | 88 => ⟨S1048576, .i32⟩
  | 89 => ⟨S_, .i32⟩
  | 90 => ⟨S1048576, .i32⟩
  | 91 => ⟨S1048576, .i32⟩
  | 92 => ⟨S_, .i32⟩
  | 93 => ⟨S1048576, .i32⟩
  | 94 => ⟨S1048576, .i32⟩
  | 95 => ⟨S1048576, .f32⟩
  | 96 => ⟨S1048576, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S1048576, .f32⟩
  | 104 => ⟨S1048576, .i32⟩
  | 105 => ⟨S_, .i32⟩
  | 106 => ⟨S1048576, .i32⟩
  | 107 => ⟨S1048576, .i32⟩
  | 108 => ⟨S_, .i32⟩
  | 109 => ⟨S1048576, .i32⟩
  | 110 => ⟨S1048576, .i32⟩
  | 111 => ⟨S_, .i32⟩
  | 112 => ⟨S1048576, .i32⟩
  | 113 => ⟨S1048576, .i32⟩
  | 114 => ⟨S_, .i32⟩
  | 115 => ⟨S1048576, .i32⟩
  | 116 => ⟨S1048576, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S1048576, .i32⟩
  | 124 => ⟨S1048576, .i32⟩
  | 125 => ⟨S1048576, .i32⟩
  | 126 => ⟨S1048576, .i32⟩
  | 127 => ⟨S1048576, .i32⟩
  | _ => ⟨S1x1x1x1048576x3, .f32⟩

abbrev hbmTy0_2 (i : Nat) : BufTy := match i % 128 with
  | 0 => ⟨S1048576, .i32⟩
  | 1 => ⟨S1048576, .i32⟩
  | 2 => ⟨S1048576, .i32⟩
  | 3 => ⟨S1048576, .i32⟩
  | 4 => ⟨S1048576, .i32⟩
  | 5 => ⟨S1048576, .i32⟩
  | 6 => ⟨S1048576, .i32⟩
  | 7 => ⟨S1048576, .i32⟩
  | 8 => ⟨S1048576, .i32⟩
  | 9 => ⟨S1048576, .i32⟩
  | 10 => ⟨S1048576, .i32⟩
  | 11 => ⟨S1x1048576, .i32⟩
  | 12 => ⟨S1x1048576, .i32⟩
  | 13 => ⟨S1x1048576, .i32⟩
  | 14 => ⟨S1x1048576, .i32⟩
  | 15 => ⟨S1x1048576, .i32⟩
  | 16 => ⟨S1x1048576, .i32⟩
  | 17 => ⟨S1x1048576, .i32⟩
  | 18 => ⟨S1x1048576, .i32⟩
  | 19 => ⟨S8x1048576, .i32⟩
  | 20 => ⟨S8388608, .i32⟩
  | 21 => ⟨S_, .i32⟩
  | 22 => ⟨S8388608, .i32⟩
  | 23 => ⟨S8388608, .i1⟩
  | 24 => ⟨S_, .i32⟩
  | 25 => ⟨S8388608, .i32⟩
  | 26 => ⟨S8388608, .i32⟩
  | 27 => ⟨S8388608, .i32⟩
  | 28 => ⟨S8388608x1, .i32⟩
  | 29 => ⟨S1, .i32⟩
  | 30 => ⟨S_, .i32⟩
  | 31 => ⟨S8388608x1, .i32⟩
  | 32 => ⟨S8388608x1, .i1⟩
  | 33 => ⟨S1x1, .i32⟩
  | 34 => ⟨S8388608x1, .i32⟩
  | 35 => ⟨S8388608x1, .i1⟩
  | 36 => ⟨S8388608x1, .i1⟩
  | 37 => ⟨S_, .i1⟩
  | 38 => ⟨S8388608, .i1⟩
  | 39 => ⟨S8388608x4, .f32⟩
  | 40 => ⟨S8388608x4, .i1⟩
  | 41 => ⟨S_, .f32⟩
  | 42 => ⟨S8388608x4, .f32⟩
  | 43 => ⟨S8388608x4, .f32⟩
  | 44 => ⟨S8x1048576x4, .f32⟩
  | 45 => ⟨S8x4x1048576, .f32⟩
  | 46 => ⟨S32x1048576, .f32⟩
  | 47 => ⟨S4x128x128x128, .f32⟩
  | 48 => ⟨S128x128x128x4, .f32⟩
  | 49 => ⟨S2097152x4, .f32⟩
  | 50 => ⟨S1048576x1, .f32⟩
  | 51 => ⟨S1048576, .f32⟩
  | 52 => ⟨S_, .f32⟩
  | 53 => ⟨S1048576, .f32⟩
  | 54 => ⟨S1048576, .f32⟩
  | 55 => ⟨S_, .f32⟩
  | 56 => ⟨S1048576, .f32⟩
  | 57 => ⟨S1048576, .f32⟩
  | 58 => ⟨S_, .f32⟩
  | 59 => ⟨S1048576, .f32⟩
  | 60 => ⟨S1048576, .f32⟩
  | 61 => ⟨S_, .f32⟩
  | 62 => ⟨S_, .f32⟩
  | 63 => ⟨S_, .f32⟩
  | 64 => ⟨S1048576, .f32⟩
  | 65 => ⟨S1048576, .f32⟩
  | 66 => ⟨S_, .f32⟩
  | 67 => ⟨S1048576, .f32⟩
  | 68 => ⟨S1048576, .f32⟩
  | 69 => ⟨S1048576x1, .f32⟩
  | 70 => ⟨S1048576, .f32⟩
  | 71 => ⟨S_, .f32⟩
  | 72 => ⟨S1048576, .f32⟩
  | 73 => ⟨S1048576, .f32⟩
  | 74 => ⟨S_, .f32⟩
  | 75 => ⟨S1048576, .f32⟩
  | 76 => ⟨S1048576, .f32⟩
  | 77 => ⟨S_, .f32⟩
  | 78 => ⟨S1048576, .f32⟩
  | 79 => ⟨S1048576, .f32⟩
  | 80 => ⟨S_, .f32⟩
  | 81 => ⟨S_, .f32⟩
  | 82 => ⟨S_, .f32⟩
  | 83 => ⟨S1048576, .f32⟩
  | 84 => ⟨S1048576, .f32⟩
  | 85 => ⟨S_, .f32⟩
  | 86 => ⟨S1048576, .f32⟩
  | 87 => ⟨S1048576, .f32⟩
  | 88 => ⟨S1048576x1, .f32⟩
  | 89 => ⟨S1048576, .f32⟩
  | 90 => ⟨S_, .f32⟩
  | 91 => ⟨S1048576, .f32⟩
  | 92 => ⟨S1048576, .f32⟩
  | 93 => ⟨S_, .f32⟩
  | 94 => ⟨S1048576, .f32⟩
  | 95 => ⟨S1048576, .f32⟩
  | 96 => ⟨S_, .f32⟩
  | 97 => ⟨S1048576, .f32⟩
  | 98 => ⟨S1048576, .f32⟩
  | 99 => ⟨S_, .f32⟩
  | 100 => ⟨S_, .f32⟩
  | 101 => ⟨S_, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S1048576, .f32⟩
  | 108 => ⟨S1048576, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S1048576, .f32⟩
  | 116 => ⟨S1048576, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S1048576, .f32⟩
  | 124 => ⟨S1048576, .i32⟩
  | 125 => ⟨S_, .i32⟩
  | 126 => ⟨S1048576, .i32⟩
  | 127 => ⟨S1048576, .i32⟩
  | _ => ⟨S1x1x1x1048576x3, .f32⟩

abbrev hbmTy0_3 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S1048576, .i32⟩
  | 16 => ⟨S1048576, .i32⟩
  | 17 => ⟨S1048576, .i32⟩
  | 18 => ⟨S1048576, .i32⟩
  | 19 => ⟨S1048576, .i32⟩
  | 20 => ⟨S1048576, .i32⟩
  | 21 => ⟨S1048576, .i32⟩
  | 22 => ⟨S1048576, .i32⟩
  | 23 => ⟨S1048576, .i32⟩
  | 24 => ⟨S1048576, .i32⟩
  | 25 => ⟨S1048576, .i32⟩
  | 26 => ⟨S1048576, .i32⟩
  | 27 => ⟨S1048576, .i32⟩
  | 28 => ⟨S1048576, .i32⟩
  | 29 => ⟨S1048576, .i32⟩
  | 30 => ⟨S1048576, .i32⟩
  | 31 => ⟨S1x1048576, .i32⟩
  | 32 => ⟨S1x1048576, .i32⟩
  | 33 => ⟨S1x1048576, .i32⟩
  | 34 => ⟨S1x1048576, .i32⟩
  | 35 => ⟨S1x1048576, .i32⟩
  | 36 => ⟨S1x1048576, .i32⟩
  | 37 => ⟨S1x1048576, .i32⟩
  | 38 => ⟨S1x1048576, .i32⟩
  | 39 => ⟨S8x1048576, .i32⟩
  | 40 => ⟨S8388608, .i32⟩
  | 41 => ⟨S_, .i32⟩
  | 42 => ⟨S8388608, .i32⟩
  | 43 => ⟨S8388608, .i1⟩
  | 44 => ⟨S_, .i32⟩
  | 45 => ⟨S8388608, .i32⟩
  | 46 => ⟨S8388608, .i32⟩
  | 47 => ⟨S8388608, .i32⟩
  | 48 => ⟨S8388608x1, .i32⟩
  | 49 => ⟨S1, .i32⟩
  | 50 => ⟨S_, .i32⟩
  | 51 => ⟨S8388608x1, .i32⟩
  | 52 => ⟨S8388608x1, .i1⟩
  | 53 => ⟨S1x1, .i32⟩
  | 54 => ⟨S8388608x1, .i32⟩
  | 55 => ⟨S8388608x1, .i1⟩
  | 56 => ⟨S8388608x1, .i1⟩
  | 57 => ⟨S_, .i1⟩
  | 58 => ⟨S8388608, .i1⟩
  | 59 => ⟨S8388608x4, .f32⟩
  | 60 => ⟨S8388608x4, .i1⟩
  | 61 => ⟨S_, .f32⟩
  | 62 => ⟨S8388608x4, .f32⟩
  | 63 => ⟨S8388608x4, .f32⟩
  | 64 => ⟨S8x1048576x4, .f32⟩
  | 65 => ⟨S8x4x1048576, .f32⟩
  | 66 => ⟨S32x1048576, .f32⟩
  | 67 => ⟨S4x256x256x256, .f32⟩
  | 68 => ⟨S256x256x256x4, .f32⟩
  | 69 => ⟨S16777216x4, .f32⟩
  | 70 => ⟨S1048576x1, .f32⟩
  | 71 => ⟨S1048576, .f32⟩
  | 72 => ⟨S_, .f32⟩
  | 73 => ⟨S1048576, .f32⟩
  | 74 => ⟨S1048576, .f32⟩
  | 75 => ⟨S_, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S_, .f32⟩
  | 83 => ⟨S_, .f32⟩
  | 84 => ⟨S1048576, .f32⟩
  | 85 => ⟨S1048576, .f32⟩
  | 86 => ⟨S_, .f32⟩
  | 87 => ⟨S1048576, .f32⟩
  | 88 => ⟨S1048576, .f32⟩
  | 89 => ⟨S1048576x1, .f32⟩
  | 90 => ⟨S1048576, .f32⟩
  | 91 => ⟨S_, .f32⟩
  | 92 => ⟨S1048576, .f32⟩
  | 93 => ⟨S1048576, .f32⟩
  | 94 => ⟨S_, .f32⟩
  | 95 => ⟨S1048576, .f32⟩
  | 96 => ⟨S1048576, .f32⟩
  | 97 => ⟨S_, .f32⟩
  | 98 => ⟨S1048576, .f32⟩
  | 99 => ⟨S1048576, .f32⟩
  | 100 => ⟨S_, .f32⟩
  | 101 => ⟨S_, .f32⟩
  | 102 => ⟨S_, .f32⟩
  | 103 => ⟨S1048576, .f32⟩
  | 104 => ⟨S1048576, .f32⟩
  | 105 => ⟨S_, .f32⟩
  | 106 => ⟨S1048576, .f32⟩
  | 107 => ⟨S1048576, .f32⟩
  | 108 => ⟨S1048576x1, .f32⟩
  | 109 => ⟨S1048576, .f32⟩
  | 110 => ⟨S_, .f32⟩
  | 111 => ⟨S1048576, .f32⟩
  | 112 => ⟨S1048576, .f32⟩
  | 113 => ⟨S_, .f32⟩
  | 114 => ⟨S1048576, .f32⟩
  | 115 => ⟨S1048576, .f32⟩
  | 116 => ⟨S_, .f32⟩
  | 117 => ⟨S1048576, .f32⟩
  | 118 => ⟨S1048576, .f32⟩
  | 119 => ⟨S_, .f32⟩
  | 120 => ⟨S_, .f32⟩
  | 121 => ⟨S_, .f32⟩
  | 122 => ⟨S1048576, .f32⟩
  | 123 => ⟨S1048576, .f32⟩
  | 124 => ⟨S_, .f32⟩
  | 125 => ⟨S1048576, .f32⟩
  | 126 => ⟨S1048576, .f32⟩
  | 127 => ⟨S1048576, .f32⟩
  | _ => ⟨S1x1x1x1048576x3, .f32⟩

abbrev hbmTy0_4 (i : Nat) : BufTy := match i % 128 with
  | 0 => ⟨S1048576, .i32⟩
  | 1 => ⟨S_, .i32⟩
  | 2 => ⟨S1048576, .i32⟩
  | 3 => ⟨S1048576, .i32⟩
  | 4 => ⟨S_, .i32⟩
  | 5 => ⟨S1048576, .i32⟩
  | 6 => ⟨S1048576, .i32⟩
  | 7 => ⟨S1048576, .f32⟩
  | 8 => ⟨S1048576, .i32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S1048576, .f32⟩
  | 16 => ⟨S1048576, .i32⟩
  | 17 => ⟨S_, .i32⟩
  | 18 => ⟨S1048576, .i32⟩
  | 19 => ⟨S1048576, .i32⟩
  | 20 => ⟨S_, .i32⟩
  | 21 => ⟨S1048576, .i32⟩
  | 22 => ⟨S1048576, .i32⟩
  | 23 => ⟨S_, .i32⟩
  | 24 => ⟨S1048576, .i32⟩
  | 25 => ⟨S1048576, .i32⟩
  | 26 => ⟨S_, .i32⟩
  | 27 => ⟨S1048576, .i32⟩
  | 28 => ⟨S1048576, .i32⟩
  | 29 => ⟨S_, .i32⟩
  | 30 => ⟨S1048576, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S1048576, .i32⟩
  | 37 => ⟨S1048576, .i32⟩
  | 38 => ⟨S1048576, .i32⟩
  | 39 => ⟨S1048576, .i32⟩
  | 40 => ⟨S1048576, .i32⟩
  | 41 => ⟨S1048576, .i32⟩
  | 42 => ⟨S1048576, .i32⟩
  | 43 => ⟨S1048576, .i32⟩
  | 44 => ⟨S1048576, .i32⟩
  | 45 => ⟨S1048576, .i32⟩
  | 46 => ⟨S1048576, .i32⟩
  | 47 => ⟨S1048576, .i32⟩
  | 48 => ⟨S1048576, .i32⟩
  | 49 => ⟨S1048576, .i32⟩
  | 50 => ⟨S1048576, .i32⟩
  | 51 => ⟨S1x1048576, .i32⟩
  | 52 => ⟨S1x1048576, .i32⟩
  | 53 => ⟨S1x1048576, .i32⟩
  | 54 => ⟨S1x1048576, .i32⟩
  | 55 => ⟨S1x1048576, .i32⟩
  | 56 => ⟨S1x1048576, .i32⟩
  | 57 => ⟨S1x1048576, .i32⟩
  | 58 => ⟨S1x1048576, .i32⟩
  | 59 => ⟨S8x1048576, .i32⟩
  | 60 => ⟨S8388608, .i32⟩
  | 61 => ⟨S_, .i32⟩
  | 62 => ⟨S8388608, .i32⟩
  | 63 => ⟨S8388608, .i1⟩
  | 64 => ⟨S_, .i32⟩
  | 65 => ⟨S8388608, .i32⟩
  | 66 => ⟨S8388608, .i32⟩
  | 67 => ⟨S8388608, .i32⟩
  | 68 => ⟨S8388608x1, .i32⟩
  | 69 => ⟨S1, .i32⟩
  | 70 => ⟨S_, .i32⟩
  | 71 => ⟨S8388608x1, .i32⟩
  | 72 => ⟨S8388608x1, .i1⟩
  | 73 => ⟨S1x1, .i32⟩
  | 74 => ⟨S8388608x1, .i32⟩
  | 75 => ⟨S8388608x1, .i1⟩
  | 76 => ⟨S8388608x1, .i1⟩
  | 77 => ⟨S_, .i1⟩
  | 78 => ⟨S8388608, .i1⟩
  | 79 => ⟨S8388608x4, .f32⟩
  | 80 => ⟨S8388608x4, .i1⟩
  | 81 => ⟨S_, .f32⟩
  | 82 => ⟨S8388608x4, .f32⟩
  | 83 => ⟨S8388608x4, .f32⟩
  | 84 => ⟨S8x1048576x4, .f32⟩
  | 85 => ⟨S8x4x1048576, .f32⟩
  | 86 => ⟨S32x1048576, .f32⟩
  | 87 => ⟨S16x1048576, .f32⟩
  | 88 => ⟨S1x16x1x1x1048576, .f32⟩
  | _ => ⟨S1x1x1x1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x1x1x1048576x3, .f32⟩

abbrev bufTy : (tb : Table) → Fin (tcTables nBuf tb) → BufTy
  | .hbm, ⟨i, _⟩ => hbmTy i
  | .local _ .vmem, ⟨0, _⟩ => ⟨S3x16384, .f32⟩
  | .local _ .vmem, ⟨1, _⟩ => ⟨S3x16384, .f32⟩
  | .local _ .vmem, ⟨2, _⟩ => ⟨S32x16384, .f32⟩
  | .local _ .vmem, ⟨3, _⟩ => ⟨S32x16384, .f32⟩
  | .local _ .vmem, ⟨4, _⟩ => ⟨S32x16384, .f32⟩
  | .local _ .vmem, ⟨5, _⟩ => ⟨S32x16384, .f32⟩
  | .local _ .vmem, ⟨6, _⟩ => ⟨S32x16384, .f32⟩
  | .local _ .vmem, ⟨7, _⟩ => ⟨S32x16384, .f32⟩
  | .local _ .vmem, ⟨8, _⟩ => ⟨S32x16384, .f32⟩
  | .local _ .vmem, ⟨9, _⟩ => ⟨S32x16384, .f32⟩
  | .local _ .vmem, ⟨10, _⟩ => ⟨S16x16384, .f32⟩
  | .local _ .vmem, ⟨11, _⟩ => ⟨S16x16384, .f32⟩
  | _, _ => ⟨S1x1x1x1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_v25 : Ref sig .tc := ⟨.hbm, 51, rfl⟩
abbrev main_v26 : Ref sig .tc := ⟨.hbm, 52, rfl⟩
abbrev main_cst_10 : Ref sig .tc := ⟨.hbm, 53, rfl⟩
abbrev main_v27 : Ref sig .tc := ⟨.hbm, 54, rfl⟩
abbrev main_v28 : Ref sig .tc := ⟨.hbm, 55, rfl⟩
abbrev main_cst_11 : Ref sig .tc := ⟨.hbm, 56, rfl⟩
abbrev main_v29 : Ref sig .tc := ⟨.hbm, 57, rfl⟩
abbrev main_v30 : Ref sig .tc := ⟨.hbm, 58, rfl⟩
abbrev main_cst_12 : Ref sig .tc := ⟨.hbm, 59, rfl⟩
abbrev main_cst_13 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c : Ref sig .tc := ⟨.hbm, 69, rfl⟩
abbrev main_v34 : Ref sig .tc := ⟨.hbm, 70, rfl⟩
abbrev main_v35 : Ref sig .tc := ⟨.hbm, 71, rfl⟩
abbrev main_c_14 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_15 : Ref sig .tc := ⟨.hbm, 77, rfl⟩
abbrev main_v40 : Ref sig .tc := ⟨.hbm, 78, rfl⟩
abbrev main_v41 : Ref sig .tc := ⟨.hbm, 79, rfl⟩
abbrev main_c_16 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_17 : Ref sig .tc := ⟨.hbm, 85, rfl⟩
abbrev main_v46 : Ref sig .tc := ⟨.hbm, 86, rfl⟩
abbrev main_v47 : Ref sig .tc := ⟨.hbm, 87, rfl⟩
abbrev main_c_18 : Ref sig .tc := ⟨.hbm, 88, rfl⟩
abbrev main_v48 : Ref sig .tc := ⟨.hbm, 89, rfl⟩
abbrev main_v49 : Ref sig .tc := ⟨.hbm, 90, rfl⟩
abbrev main_c_19 : Ref sig .tc := ⟨.hbm, 91, rfl⟩
abbrev main_v50 : Ref sig .tc := ⟨.hbm, 92, rfl⟩
abbrev main_v51 : Ref sig .tc := ⟨.hbm, 93, rfl⟩
abbrev main_c_20 : Ref sig .tc := ⟨.hbm, 94, rfl⟩
abbrev main_v52 : Ref sig .tc := ⟨.hbm, 95, rfl⟩
abbrev main_v53 : Ref sig .tc := ⟨.hbm, 96, rfl⟩
abbrev main_c_21 : Ref sig .tc := ⟨.hbm, 97, rfl⟩
abbrev main_v54 : Ref sig .tc := ⟨.hbm, 98, rfl⟩
abbrev main_v55 : Ref sig .tc := ⟨.hbm, 99, rfl⟩
abbrev main_c_22 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_call3_c : Ref sig .tc := ⟨.hbm, 129, rfl⟩
abbrev main_call3_v0 : Ref sig .tc := ⟨.hbm, 130, rfl⟩
abbrev main_call3_v1 : Ref sig .tc := ⟨.hbm, 131, rfl⟩
abbrev main_call3_c_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_c_1 : Ref sig .tc := ⟨.hbm, 137, rfl⟩
abbrev main_call3_c_2 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_c_3 : Ref sig .tc := ⟨.hbm, 145, rfl⟩
abbrev main_call3_v12 : Ref sig .tc := ⟨.hbm, 146, rfl⟩
abbrev main_call3_v13 : Ref sig .tc := ⟨.hbm, 147, rfl⟩
abbrev main_call3_v14 : Ref sig .tc := ⟨.hbm, 148, rfl⟩
abbrev main_call3_cst : Ref sig .tc := ⟨.hbm, 149, rfl⟩
abbrev main_call3_v15 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_cst_23 : Ref sig .tc := ⟨.hbm, 160, rfl⟩
abbrev main_v93 : Ref sig .tc := ⟨.hbm, 161, rfl⟩
abbrev main_v94 : Ref sig .tc := ⟨.hbm, 162, rfl⟩
abbrev main_cst_24 : Ref sig .tc := ⟨.hbm, 163, rfl⟩
abbrev main_v95 : Ref sig .tc := ⟨.hbm, 164, rfl⟩
abbrev main_v96 : Ref sig .tc := ⟨.hbm, 165, rfl⟩
abbrev main_cst_25 : Ref sig .tc := ⟨.hbm, 166, rfl⟩
abbrev main_v97 : Ref sig .tc := ⟨.hbm, 167, rfl⟩
abbrev main_v98 : Ref sig .tc := ⟨.hbm, 168, rfl⟩
abbrev main_cst_26 : Ref sig .tc := ⟨.hbm, 169, rfl⟩
abbrev main_cst_27 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_cst_28 : Ref sig .tc := ⟨.hbm, 179, rfl⟩
abbrev main_v102 : Ref sig .tc := ⟨.hbm, 180, rfl⟩
abbrev main_v103 : Ref sig .tc := ⟨.hbm, 181, rfl⟩
abbrev main_cst_29 : Ref sig .tc := ⟨.hbm, 182, rfl⟩
abbrev main_v104 : Ref sig .tc := ⟨.hbm, 183, rfl⟩
abbrev main_v105 : Ref sig .tc := ⟨.hbm, 184, rfl⟩
abbrev main_cst_30 : Ref sig .tc := ⟨.hbm, 185, rfl⟩
abbrev main_v106 : Ref sig .tc := ⟨.hbm, 186, rfl⟩
abbrev main_v107 : Ref sig .tc := ⟨.hbm, 187, rfl⟩
abbrev main_cst_31 : Ref sig .tc := ⟨.hbm, 188, rfl⟩
abbrev main_cst_32 : Ref sig .tc := ⟨.hbm, 189, rfl⟩
abbrev main_call5_v0 : Ref sig .tc := ⟨.hbm, 190, rfl⟩
abbrev main_call5_v1 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_33 : Ref sig .tc := ⟨.hbm, 198, rfl⟩
abbrev main_v111 : Ref sig .tc := ⟨.hbm, 199, rfl⟩
abbrev main_v112 : Ref sig .tc := ⟨.hbm, 200, rfl⟩
abbrev main_cst_34 : Ref sig .tc := ⟨.hbm, 201, rfl⟩
abbrev main_v113 : Ref sig .tc := ⟨.hbm, 202, rfl⟩
abbrev main_v114 : Ref sig .tc := ⟨.hbm, 203, rfl⟩
abbrev main_cst_35 : Ref sig .tc := ⟨.hbm, 204, rfl⟩
abbrev main_v115 : Ref sig .tc := ⟨.hbm, 205, rfl⟩
abbrev main_v116 : Ref sig .tc := ⟨.hbm, 206, rfl⟩
abbrev main_cst_36 : Ref sig .tc := ⟨.hbm, 207, rfl⟩
abbrev main_cst_37 : Ref sig .tc := ⟨.hbm, 208, rfl⟩
abbrev main_call6_v0 : Ref sig .tc := ⟨.hbm, 209, rfl⟩
abbrev main_call6_v1 : Ref sig .tc := ⟨.hbm, 210, rfl⟩
abbrev main_call6_v2 : Ref sig .tc := ⟨.hbm, 211, rfl⟩
abbrev main_call6_v3 : Ref sig .tc := ⟨.hbm, 212, rfl⟩
abbrev main_call6_v4 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_c_38 : Ref sig .tc := ⟨.hbm, 217, rfl⟩
abbrev main_v120 : Ref sig .tc := ⟨.hbm, 218, rfl⟩
abbrev main_v121 : Ref sig .tc := ⟨.hbm, 219, rfl⟩
abbrev main_c_39 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_c_40 : Ref sig .tc := ⟨.hbm, 225, rfl⟩
abbrev main_v126 : Ref sig .tc := ⟨.hbm, 226, rfl⟩
abbrev main_v127 : Ref sig .tc := ⟨.hbm, 227, rfl⟩
abbrev main_c_41 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_c_42 : Ref sig .tc := ⟨.hbm, 233, rfl⟩
abbrev main_v132 : Ref sig .tc := ⟨.hbm, 234, rfl⟩
abbrev main_v133 : Ref sig .tc := ⟨.hbm, 235, rfl⟩
abbrev main_c_43 : Ref sig .tc := ⟨.hbm, 236, rfl⟩
abbrev main_v134 : Ref sig .tc := ⟨.hbm, 237, rfl⟩
abbrev main_v135 : Ref sig .tc := ⟨.hbm, 238, rfl⟩
abbrev main_c_44 : Ref sig .tc := ⟨.hbm, 239, rfl⟩
abbrev main_v136 : Ref sig .tc := ⟨.hbm, 240, rfl⟩
abbrev main_v137 : Ref sig .tc := ⟨.hbm, 241, rfl⟩
abbrev main_c_45 : Ref sig .tc := ⟨.hbm, 242, rfl⟩
abbrev main_v138 : Ref sig .tc := ⟨.hbm, 243, rfl⟩
abbrev main_v139 : Ref sig .tc := ⟨.hbm, 244, rfl⟩
abbrev main_c_46 : Ref sig .tc := ⟨.hbm, 245, rfl⟩
abbrev main_v140 : Ref sig .tc := ⟨.hbm, 246, rfl⟩
abbrev main_v141 : Ref sig .tc := ⟨.hbm, 247, rfl⟩
abbrev main_c_47 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_call7_c : Ref sig .tc := ⟨.hbm, 277, rfl⟩
abbrev main_call7_v0 : Ref sig .tc := ⟨.hbm, 278, rfl⟩
abbrev main_call7_v1 : Ref sig .tc := ⟨.hbm, 279, rfl⟩
abbrev main_call7_c_0 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_call7_v5 : Ref sig .tc := ⟨.hbm, 284, rfl⟩
abbrev main_call7_c_1 : Ref sig .tc := ⟨.hbm, 285, rfl⟩
abbrev main_call7_c_2 : Ref sig .tc := ⟨.hbm, 286, rfl⟩
abbrev main_call7_v6 : Ref sig .tc := ⟨.hbm, 287, rfl⟩
abbrev main_call7_v7 : Ref sig .tc := ⟨.hbm, 288, rfl⟩
abbrev main_call7_v8 : Ref sig .tc := ⟨.hbm, 289, rfl⟩
abbrev main_call7_v9 : Ref sig .tc := ⟨.hbm, 290, rfl⟩
abbrev main_call7_v10 : Ref sig .tc := ⟨.hbm, 291, rfl⟩
abbrev main_call7_v11 : Ref sig .tc := ⟨.hbm, 292, rfl⟩
abbrev main_call7_c_3 : Ref sig .tc := ⟨.hbm, 293, rfl⟩
abbrev main_call7_v12 : Ref sig .tc := ⟨.hbm, 294, rfl⟩
abbrev main_call7_v13 : Ref sig .tc := ⟨.hbm, 295, rfl⟩
abbrev main_call7_v14 : Ref sig .tc := ⟨.hbm, 296, rfl⟩
abbrev main_call7_cst : Ref sig .tc := ⟨.hbm, 297, rfl⟩
abbrev main_call7_v15 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_v173 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_v177 : Ref sig .tc := ⟨.hbm, 306, rfl⟩
abbrev main_v178 : Ref sig .tc := ⟨.hbm, 307, rfl⟩
abbrev main_cst_48 : Ref sig .tc := ⟨.hbm, 308, rfl⟩
abbrev main_v179 : Ref sig .tc := ⟨.hbm, 309, rfl⟩
abbrev main_v180 : Ref sig .tc := ⟨.hbm, 310, rfl⟩
abbrev main_cst_49 : Ref sig .tc := ⟨.hbm, 311, rfl⟩
abbrev main_v181 : Ref sig .tc := ⟨.hbm, 312, rfl⟩
abbrev main_v182 : Ref sig .tc := ⟨.hbm, 313, rfl⟩
abbrev main_cst_50 : Ref sig .tc := ⟨.hbm, 314, rfl⟩
abbrev main_v183 : Ref sig .tc := ⟨.hbm, 315, rfl⟩
abbrev main_v184 : Ref sig .tc := ⟨.hbm, 316, rfl⟩
abbrev main_cst_51 : Ref sig .tc := ⟨.hbm, 317, rfl⟩
abbrev main_cst_52 : Ref sig .tc := ⟨.hbm, 318, rfl⟩
abbrev main_call8_v0 : Ref sig .tc := ⟨.hbm, 319, rfl⟩
abbrev main_call8_v1 : Ref sig .tc := ⟨.hbm, 320, rfl⟩
abbrev main_call8_v2 : Ref sig .tc := ⟨.hbm, 321, rfl⟩
abbrev main_call8_v3 : Ref sig .tc := ⟨.hbm, 322, rfl⟩
abbrev main_call8_v4 : Ref sig .tc := ⟨.hbm, 323, rfl⟩
abbrev main_v185 : Ref sig .tc := ⟨.hbm, 324, rfl⟩
abbrev main_v186 : Ref sig .tc := ⟨.hbm, 325, rfl⟩
abbrev main_v187 : Ref sig .tc := ⟨.hbm, 326, rfl⟩
abbrev main_cst_53 : Ref sig .tc := ⟨.hbm, 327, rfl⟩
abbrev main_v188 : Ref sig .tc := ⟨.hbm, 328, rfl⟩
abbrev main_v189 : Ref sig .tc := ⟨.hbm, 329, rfl⟩
abbrev main_cst_54 : Ref sig .tc := ⟨.hbm, 330, rfl⟩
abbrev main_v190 : Ref sig .tc := ⟨.hbm, 331, rfl⟩
abbrev main_v191 : Ref sig .tc := ⟨.hbm, 332, rfl⟩
abbrev main_cst_55 : Ref sig .tc := ⟨.hbm, 333, rfl⟩
abbrev main_v192 : Ref sig .tc := ⟨.hbm, 334, rfl⟩
abbrev main_v193 : Ref sig .tc := ⟨.hbm, 335, rfl⟩
abbrev main_cst_56 : Ref sig .tc := ⟨.hbm, 336, rfl⟩
abbrev main_cst_57 : Ref sig .tc := ⟨.hbm, 337, rfl⟩
abbrev main_call9_v0 : Ref sig .tc := ⟨.hbm, 338, rfl⟩
abbrev main_call9_v1 : Ref sig .tc := ⟨.hbm, 339, rfl⟩
abbrev main_call9_v2 : Ref sig .tc := ⟨.hbm, 340, rfl⟩
abbrev main_call9_v3 : Ref sig .tc := ⟨.hbm, 341, rfl⟩
abbrev main_call9_v4 : Ref sig .tc := ⟨.hbm, 342, rfl⟩
abbrev main_v194 : Ref sig .tc := ⟨.hbm, 343, rfl⟩
abbrev main_v195 : Ref sig .tc := ⟨.hbm, 344, rfl⟩
abbrev main_v196 : Ref sig .tc := ⟨.hbm, 345, rfl⟩
abbrev main_cst_58 : Ref sig .tc := ⟨.hbm, 346, rfl⟩
abbrev main_v197 : Ref sig .tc := ⟨.hbm, 347, rfl⟩
abbrev main_v198 : Ref sig .tc := ⟨.hbm, 348, rfl⟩
abbrev main_cst_59 : Ref sig .tc := ⟨.hbm, 349, rfl⟩
abbrev main_v199 : Ref sig .tc := ⟨.hbm, 350, rfl⟩
abbrev main_v200 : Ref sig .tc := ⟨.hbm, 351, rfl⟩
abbrev main_cst_60 : Ref sig .tc := ⟨.hbm, 352, rfl⟩
abbrev main_v201 : Ref sig .tc := ⟨.hbm, 353, rfl⟩
abbrev main_v202 : Ref sig .tc := ⟨.hbm, 354, rfl⟩
abbrev main_cst_61 : Ref sig .tc := ⟨.hbm, 355, rfl⟩
abbrev main_cst_62 : Ref sig .tc := ⟨.hbm, 356, rfl⟩
abbrev main_call10_v0 : Ref sig .tc := ⟨.hbm, 357, rfl⟩
abbrev main_call10_v1 : Ref sig .tc := ⟨.hbm, 358, rfl⟩
abbrev main_call10_v2 : Ref sig .tc := ⟨.hbm, 359, rfl⟩
abbrev main_call10_v3 : Ref sig .tc := ⟨.hbm, 360, rfl⟩
abbrev main_call10_v4 : Ref sig .tc := ⟨.hbm, 361, rfl⟩
abbrev main_v203 : Ref sig .tc := ⟨.hbm, 362, rfl⟩
abbrev main_v204 : Ref sig .tc := ⟨.hbm, 363, rfl⟩
abbrev main_v205 : Ref sig .tc := ⟨.hbm, 364, rfl⟩
abbrev main_c_63 : Ref sig .tc := ⟨.hbm, 365, rfl⟩
abbrev main_v206 : Ref sig .tc := ⟨.hbm, 366, rfl⟩
abbrev main_v207 : Ref sig .tc := ⟨.hbm, 367, rfl⟩
abbrev main_c_64 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_c_65 : Ref sig .tc := ⟨.hbm, 373, rfl⟩
abbrev main_v212 : Ref sig .tc := ⟨.hbm, 374, rfl⟩
abbrev main_v213 : Ref sig .tc := ⟨.hbm, 375, rfl⟩
abbrev main_c_66 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_v217 : Ref sig .tc := ⟨.hbm, 380, rfl⟩
abbrev main_c_67 : Ref sig .tc := ⟨.hbm, 381, rfl⟩
abbrev main_v218 : Ref sig .tc := ⟨.hbm, 382, rfl⟩
abbrev main_v219 : Ref sig .tc := ⟨.hbm, 383, rfl⟩
abbrev main_c_68 : Ref sig .tc := ⟨.hbm, 384, rfl⟩
abbrev main_v220 : Ref sig .tc := ⟨.hbm, 385, rfl⟩
abbrev main_v221 : Ref sig .tc := ⟨.hbm, 386, rfl⟩
abbrev main_c_69 : Ref sig .tc := ⟨.hbm, 387, rfl⟩
abbrev main_v222 : Ref sig .tc := ⟨.hbm, 388, rfl⟩
abbrev main_v223 : Ref sig .tc := ⟨.hbm, 389, rfl⟩
abbrev main_c_70 : Ref sig .tc := ⟨.hbm, 390, rfl⟩
abbrev main_v224 : Ref sig .tc := ⟨.hbm, 391, rfl⟩
abbrev main_v225 : Ref sig .tc := ⟨.hbm, 392, rfl⟩
abbrev main_c_71 : Ref sig .tc := ⟨.hbm, 393, rfl⟩
abbrev main_v226 : Ref sig .tc := ⟨.hbm, 394, rfl⟩
abbrev main_v227 : Ref sig .tc := ⟨.hbm, 395, rfl⟩
abbrev main_c_72 : Ref sig .tc := ⟨.hbm, 396, rfl⟩
abbrev main_v228 : Ref sig .tc := ⟨.hbm, 397, rfl⟩
abbrev main_v229 : Ref sig .tc := ⟨.hbm, 398, rfl⟩
abbrev main_v230 : Ref sig .tc := ⟨.hbm, 399, rfl⟩
abbrev main_v231 : Ref sig .tc := ⟨.hbm, 400, rfl⟩
abbrev main_v232 : Ref sig .tc := ⟨.hbm, 401, rfl⟩
abbrev main_v233 : Ref sig .tc := ⟨.hbm, 402, rfl⟩
abbrev main_v234 : Ref sig .tc := ⟨.hbm, 403, rfl⟩
abbrev main_v235 : Ref sig .tc := ⟨.hbm, 404, rfl⟩
abbrev main_v236 : Ref sig .tc := ⟨.hbm, 405, rfl⟩
abbrev main_v237 : Ref sig .tc := ⟨.hbm, 406, rfl⟩
abbrev main_v238 : Ref sig .tc := ⟨.hbm, 407, rfl⟩
abbrev main_v239 : Ref sig .tc := ⟨.hbm, 408, rfl⟩
abbrev main_v240 : Ref sig .tc := ⟨.hbm, 409, rfl⟩
abbrev main_v241 : Ref sig .tc := ⟨.hbm, 410, rfl⟩
abbrev main_v242 : Ref sig .tc := ⟨.hbm, 411, rfl⟩
abbrev main_v243 : Ref sig .tc := ⟨.hbm, 412, rfl⟩
abbrev main_v244 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_v248 : Ref sig .tc := ⟨.hbm, 417, rfl⟩
abbrev main_v249 : Ref sig .tc := ⟨.hbm, 418, rfl⟩
abbrev main_v250 : Ref sig .tc := ⟨.hbm, 419, rfl⟩
abbrev main_v251 : Ref sig .tc := ⟨.hbm, 420, rfl⟩
abbrev main_v252 : Ref sig .tc := ⟨.hbm, 421, rfl⟩
abbrev main_v253 : Ref sig .tc := ⟨.hbm, 422, rfl⟩
abbrev main_v254 : Ref sig .tc := ⟨.hbm, 423, rfl⟩
abbrev main_v255 : Ref sig .tc := ⟨.hbm, 424, rfl⟩
abbrev main_call11_c : Ref sig .tc := ⟨.hbm, 425, rfl⟩
abbrev main_call11_v0 : Ref sig .tc := ⟨.hbm, 426, rfl⟩
abbrev main_call11_v1 : Ref sig .tc := ⟨.hbm, 427, rfl⟩
abbrev main_call11_c_0 : Ref sig .tc := ⟨.hbm, 428, rfl⟩
abbrev main_call11_v2 : Ref sig .tc := ⟨.hbm, 429, rfl⟩
abbrev main_call11_v3 : Ref sig .tc := ⟨.hbm, 430, rfl⟩
abbrev main_call11_v4 : Ref sig .tc := ⟨.hbm, 431, rfl⟩
abbrev main_call11_v5 : Ref sig .tc := ⟨.hbm, 432, rfl⟩
abbrev main_call11_c_1 : Ref sig .tc := ⟨.hbm, 433, rfl⟩
abbrev main_call11_c_2 : Ref sig .tc := ⟨.hbm, 434, rfl⟩
abbrev main_call11_v6 : Ref sig .tc := ⟨.hbm, 435, rfl⟩
abbrev main_call11_v7 : Ref sig .tc := ⟨.hbm, 436, rfl⟩
abbrev main_call11_v8 : Ref sig .tc := ⟨.hbm, 437, rfl⟩
abbrev main_call11_v9 : Ref sig .tc := ⟨.hbm, 438, rfl⟩
abbrev main_call11_v10 : Ref sig .tc := ⟨.hbm, 439, rfl⟩
abbrev main_call11_v11 : Ref sig .tc := ⟨.hbm, 440, rfl⟩
abbrev main_call11_c_3 : Ref sig .tc := ⟨.hbm, 441, rfl⟩
abbrev main_call11_v12 : Ref sig .tc := ⟨.hbm, 442, rfl⟩
abbrev main_call11_v13 : Ref sig .tc := ⟨.hbm, 443, rfl⟩
abbrev main_call11_v14 : Ref sig .tc := ⟨.hbm, 444, rfl⟩
abbrev main_call11_cst : Ref sig .tc := ⟨.hbm, 445, rfl⟩
abbrev main_call11_v15 : Ref sig .tc := ⟨.hbm, 446, rfl⟩
abbrev main_v256 : Ref sig .tc := ⟨.hbm, 447, rfl⟩
abbrev main_v257 : Ref sig .tc := ⟨.hbm, 448, rfl⟩
abbrev main_v258 : Ref sig .tc := ⟨.hbm, 449, rfl⟩
abbrev main_v259 : Ref sig .tc := ⟨.hbm, 450, rfl⟩
abbrev main_v260 : Ref sig .tc := ⟨.hbm, 451, rfl⟩
abbrev main_v261 : Ref sig .tc := ⟨.hbm, 452, rfl⟩
abbrev main_v262 : Ref sig .tc := ⟨.hbm, 453, rfl⟩
abbrev main_v263 : Ref sig .tc := ⟨.hbm, 454, rfl⟩
abbrev main_v264 : Ref sig .tc := ⟨.hbm, 455, rfl⟩
abbrev main_cst_73 : Ref sig .tc := ⟨.hbm, 456, rfl⟩
abbrev main_v265 : Ref sig .tc := ⟨.hbm, 457, rfl⟩
abbrev main_v266 : Ref sig .tc := ⟨.hbm, 458, rfl⟩
abbrev main_cst_74 : Ref sig .tc := ⟨.hbm, 459, rfl⟩
abbrev main_v267 : Ref sig .tc := ⟨.hbm, 460, rfl⟩
abbrev main_v268 : Ref sig .tc := ⟨.hbm, 461, rfl⟩
abbrev main_cst_75 : Ref sig .tc := ⟨.hbm, 462, rfl⟩
abbrev main_v269 : Ref sig .tc := ⟨.hbm, 463, rfl⟩
abbrev main_v270 : Ref sig .tc := ⟨.hbm, 464, rfl⟩
abbrev main_cst_76 : Ref sig .tc := ⟨.hbm, 465, rfl⟩
abbrev main_cst_77 : Ref sig .tc := ⟨.hbm, 466, rfl⟩
abbrev main_call12_v0 : Ref sig .tc := ⟨.hbm, 467, rfl⟩
abbrev main_call12_v1 : Ref sig .tc := ⟨.hbm, 468, rfl⟩
abbrev main_call12_v2 : Ref sig .tc := ⟨.hbm, 469, rfl⟩
abbrev main_call12_v3 : Ref sig .tc := ⟨.hbm, 470, rfl⟩
abbrev main_call12_v4 : Ref sig .tc := ⟨.hbm, 471, rfl⟩
abbrev main_v271 : Ref sig .tc := ⟨.hbm, 472, rfl⟩
abbrev main_v272 : Ref sig .tc := ⟨.hbm, 473, rfl⟩
abbrev main_v273 : Ref sig .tc := ⟨.hbm, 474, rfl⟩
abbrev main_cst_78 : Ref sig .tc := ⟨.hbm, 475, rfl⟩
abbrev main_v274 : Ref sig .tc := ⟨.hbm, 476, rfl⟩
abbrev main_v275 : Ref sig .tc := ⟨.hbm, 477, rfl⟩
abbrev main_cst_79 : Ref sig .tc := ⟨.hbm, 478, rfl⟩
abbrev main_v276 : Ref sig .tc := ⟨.hbm, 479, rfl⟩
abbrev main_v277 : Ref sig .tc := ⟨.hbm, 480, rfl⟩
abbrev main_cst_80 : Ref sig .tc := ⟨.hbm, 481, rfl⟩
abbrev main_v278 : Ref sig .tc := ⟨.hbm, 482, rfl⟩
abbrev main_v279 : Ref sig .tc := ⟨.hbm, 483, rfl⟩
abbrev main_cst_81 : Ref sig .tc := ⟨.hbm, 484, rfl⟩
abbrev main_cst_82 : Ref sig .tc := ⟨.hbm, 485, rfl⟩
abbrev main_call13_v0 : Ref sig .tc := ⟨.hbm, 486, rfl⟩
abbrev main_call13_v1 : Ref sig .tc := ⟨.hbm, 487, rfl⟩
abbrev main_call13_v2 : Ref sig .tc := ⟨.hbm, 488, rfl⟩
abbrev main_call13_v3 : Ref sig .tc := ⟨.hbm, 489, rfl⟩
abbrev main_call13_v4 : Ref sig .tc := ⟨.hbm, 490, rfl⟩
abbrev main_v280 : Ref sig .tc := ⟨.hbm, 491, rfl⟩
abbrev main_v281 : Ref sig .tc := ⟨.hbm, 492, rfl⟩
abbrev main_v282 : Ref sig .tc := ⟨.hbm, 493, rfl⟩
abbrev main_cst_83 : Ref sig .tc := ⟨.hbm, 494, rfl⟩
abbrev main_v283 : Ref sig .tc := ⟨.hbm, 495, rfl⟩
abbrev main_v284 : Ref sig .tc := ⟨.hbm, 496, rfl⟩
abbrev main_cst_84 : Ref sig .tc := ⟨.hbm, 497, rfl⟩
abbrev main_v285 : Ref sig .tc := ⟨.hbm, 498, rfl⟩
abbrev main_v286 : Ref sig .tc := ⟨.hbm, 499, rfl⟩
abbrev main_cst_85 : Ref sig .tc := ⟨.hbm, 500, rfl⟩
abbrev main_v287 : Ref sig .tc := ⟨.hbm, 501, rfl⟩
abbrev main_v288 : Ref sig .tc := ⟨.hbm, 502, rfl⟩
abbrev main_cst_86 : Ref sig .tc := ⟨.hbm, 503, rfl⟩
abbrev main_cst_87 : Ref sig .tc := ⟨.hbm, 504, rfl⟩
abbrev main_call14_v0 : Ref sig .tc := ⟨.hbm, 505, rfl⟩
abbrev main_call14_v1 : Ref sig .tc := ⟨.hbm, 506, rfl⟩
abbrev main_call14_v2 : Ref sig .tc := ⟨.hbm, 507, rfl⟩
abbrev main_call14_v3 : Ref sig .tc := ⟨.hbm, 508, rfl⟩
abbrev main_call14_v4 : Ref sig .tc := ⟨.hbm, 509, rfl⟩
abbrev main_v289 : Ref sig .tc := ⟨.hbm, 510, rfl⟩
abbrev main_v290 : Ref sig .tc := ⟨.hbm, 511, rfl⟩
abbrev main_v291 : Ref sig .tc := ⟨.hbm, 512, rfl⟩
abbrev main_c_88 : Ref sig .tc := ⟨.hbm, 513, rfl⟩
abbrev main_v292 : Ref sig .tc := ⟨.hbm, 514, rfl⟩
abbrev main_v293 : Ref sig .tc := ⟨.hbm, 515, rfl⟩
abbrev main_c_89 : Ref sig .tc := ⟨.hbm, 516, rfl⟩
abbrev main_v294 : Ref sig .tc := ⟨.hbm, 517, rfl⟩
abbrev main_v295 : Ref sig .tc := ⟨.hbm, 518, rfl⟩
abbrev main_v296 : Ref sig .tc := ⟨.hbm, 519, rfl⟩
abbrev main_v297 : Ref sig .tc := ⟨.hbm, 520, rfl⟩
abbrev main_c_90 : Ref sig .tc := ⟨.hbm, 521, rfl⟩
abbrev main_v298 : Ref sig .tc := ⟨.hbm, 522, rfl⟩
abbrev main_v299 : Ref sig .tc := ⟨.hbm, 523, rfl⟩
abbrev main_c_91 : Ref sig .tc := ⟨.hbm, 524, rfl⟩
abbrev main_v300 : Ref sig .tc := ⟨.hbm, 525, rfl⟩
abbrev main_v301 : Ref sig .tc := ⟨.hbm, 526, rfl⟩
abbrev main_v302 : Ref sig .tc := ⟨.hbm, 527, rfl⟩
abbrev main_v303 : Ref sig .tc := ⟨.hbm, 528, rfl⟩
abbrev main_c_92 : Ref sig .tc := ⟨.hbm, 529, rfl⟩
abbrev main_v304 : Ref sig .tc := ⟨.hbm, 530, rfl⟩
abbrev main_v305 : Ref sig .tc := ⟨.hbm, 531, rfl⟩
abbrev main_c_93 : Ref sig .tc := ⟨.hbm, 532, rfl⟩
abbrev main_v306 : Ref sig .tc := ⟨.hbm, 533, rfl⟩
abbrev main_v307 : Ref sig .tc := ⟨.hbm, 534, rfl⟩
abbrev main_c_94 : Ref sig .tc := ⟨.hbm, 535, rfl⟩
abbrev main_v308 : Ref sig .tc := ⟨.hbm, 536, rfl⟩
abbrev main_v309 : Ref sig .tc := ⟨.hbm, 537, rfl⟩
abbrev main_c_95 : Ref sig .tc := ⟨.hbm, 538, rfl⟩
abbrev main_v310 : Ref sig .tc := ⟨.hbm, 539, rfl⟩
abbrev main_v311 : Ref sig .tc := ⟨.hbm, 540, rfl⟩
abbrev main_c_96 : Ref sig .tc := ⟨.hbm, 541, rfl⟩
abbrev main_v312 : Ref sig .tc := ⟨.hbm, 542, rfl⟩
abbrev main_v313 : Ref sig .tc := ⟨.hbm, 543, rfl⟩
abbrev main_c_97 : Ref sig .tc := ⟨.hbm, 544, rfl⟩
abbrev main_v314 : Ref sig .tc := ⟨.hbm, 545, rfl⟩
abbrev main_v315 : Ref sig .tc := ⟨.hbm, 546, rfl⟩
abbrev main_v316 : Ref sig .tc := ⟨.hbm, 547, rfl⟩
abbrev main_v317 : Ref sig .tc := ⟨.hbm, 548, rfl⟩
abbrev main_v318 : Ref sig .tc := ⟨.hbm, 549, rfl⟩
abbrev main_v319 : Ref sig .tc := ⟨.hbm, 550, rfl⟩
abbrev main_v320 : Ref sig .tc := ⟨.hbm, 551, rfl⟩
abbrev main_v321 : Ref sig .tc := ⟨.hbm, 552, rfl⟩
abbrev main_v322 : Ref sig .tc := ⟨.hbm, 553, rfl⟩
abbrev main_v323 : Ref sig .tc := ⟨.hbm, 554, rfl⟩
abbrev main_v324 : Ref sig .tc := ⟨.hbm, 555, rfl⟩
abbrev main_v325 : Ref sig .tc := ⟨.hbm, 556, rfl⟩
abbrev main_v326 : Ref sig .tc := ⟨.hbm, 557, rfl⟩
abbrev main_v327 : Ref sig .tc := ⟨.hbm, 558, rfl⟩
abbrev main_v328 : Ref sig .tc := ⟨.hbm, 559, rfl⟩
abbrev main_v329 : Ref sig .tc := ⟨.hbm, 560, rfl⟩
abbrev main_v330 : Ref sig .tc := ⟨.hbm, 561, rfl⟩
abbrev main_v331 : Ref sig .tc := ⟨.hbm, 562, rfl⟩
abbrev main_v332 : Ref sig .tc := ⟨.hbm, 563, rfl⟩
abbrev main_v333 : Ref sig .tc := ⟨.hbm, 564, rfl⟩
abbrev main_v334 : Ref sig .tc := ⟨.hbm, 565, rfl⟩
abbrev main_v335 : Ref sig .tc := ⟨.hbm, 566, rfl⟩
abbrev main_v336 : Ref sig .tc := ⟨.hbm, 567, rfl⟩
abbrev main_v337 : Ref sig .tc := ⟨.hbm, 568, rfl⟩
abbrev main_v338 : Ref sig .tc := ⟨.hbm, 569, rfl⟩
abbrev main_v339 : Ref sig .tc := ⟨.hbm, 570, rfl⟩
abbrev main_v340 : Ref sig .tc := ⟨.hbm, 571, rfl⟩
abbrev main_v341 : Ref sig .tc := ⟨.hbm, 572, rfl⟩
abbrev main_call15_c : Ref sig .tc := ⟨.hbm, 573, rfl⟩
abbrev main_call15_v0 : Ref sig .tc := ⟨.hbm, 574, rfl⟩
abbrev main_call15_v1 : Ref sig .tc := ⟨.hbm, 575, rfl⟩
abbrev main_call15_c_0 : Ref sig .tc := ⟨.hbm, 576, rfl⟩
abbrev main_call15_v2 : Ref sig .tc := ⟨.hbm, 577, rfl⟩
abbrev main_call15_v3 : Ref sig .tc := ⟨.hbm, 578, rfl⟩
abbrev main_call15_v4 : Ref sig .tc := ⟨.hbm, 579, rfl⟩
abbrev main_call15_v5 : Ref sig .tc := ⟨.hbm, 580, rfl⟩
abbrev main_call15_c_1 : Ref sig .tc := ⟨.hbm, 581, rfl⟩
abbrev main_call15_c_2 : Ref sig .tc := ⟨.hbm, 582, rfl⟩
abbrev main_call15_v6 : Ref sig .tc := ⟨.hbm, 583, rfl⟩
abbrev main_call15_v7 : Ref sig .tc := ⟨.hbm, 584, rfl⟩
abbrev main_call15_v8 : Ref sig .tc := ⟨.hbm, 585, rfl⟩
abbrev main_call15_v9 : Ref sig .tc := ⟨.hbm, 586, rfl⟩
abbrev main_call15_v10 : Ref sig .tc := ⟨.hbm, 587, rfl⟩
abbrev main_call15_v11 : Ref sig .tc := ⟨.hbm, 588, rfl⟩
abbrev main_call15_c_3 : Ref sig .tc := ⟨.hbm, 589, rfl⟩
abbrev main_call15_v12 : Ref sig .tc := ⟨.hbm, 590, rfl⟩
abbrev main_call15_v13 : Ref sig .tc := ⟨.hbm, 591, rfl⟩
abbrev main_call15_v14 : Ref sig .tc := ⟨.hbm, 592, rfl⟩
abbrev main_call15_cst : Ref sig .tc := ⟨.hbm, 593, rfl⟩
abbrev main_call15_v15 : Ref sig .tc := ⟨.hbm, 594, rfl⟩
abbrev main_v342 : Ref sig .tc := ⟨.hbm, 595, rfl⟩
abbrev main_v343 : Ref sig .tc := ⟨.hbm, 596, rfl⟩
abbrev main_v344 : Ref sig .tc := ⟨.hbm, 597, rfl⟩
abbrev main_v345 : Ref sig .tc := ⟨.hbm, 598, rfl⟩
abbrev main_v346 : Ref sig .tc := ⟨.hbm, 599, rfl⟩
abbrev main_v347 : Ref sig .tc := ⟨.hbm, 600, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x1x1x1048576x3_S1048576x3 : S1x1x1x1048576x3.ShapeCasts S1048576x3
  transposes_S1048576x3_S3x1048576_1_0 : S1048576x3.Transposes [1, 0] S3x1048576
  shapeCasts_S1x4x32x32x32_S4x32x32x32 : S1x4x32x32x32.ShapeCasts S4x32x32x32
  transposes_S4x32x32x32_S32x32x32x4_1_2_3_0 : S4x32x32x32.Transposes [1, 2, 3, 0] S32x32x32x4
  shapeCasts_S32x32x32x4_S32768x4 : S32x32x32x4.ShapeCasts S32768x4
  slices_S1048576x3_S1048576x1_0_0 : S1048576x3.Slices ![0, 0] S1048576x1
  shapeCasts_S1048576x1_S1048576 : S1048576x1.ShapeCasts S1048576
  bcast_S_S1048576 : S_.BroadcastsInDim S1048576 (![] : Fin 0 → Fin S1048576.rank)
  slices_S1048576x3_S1048576x1_0_1 : S1048576x3.Slices ![0, 1] S1048576x1
  slices_S1048576x3_S1048576x1_0_2 : S1048576x3.Slices ![0, 2] S1048576x1
  bcast_S1048576_S1x1048576_1 : S1048576.BroadcastsInDim S1x1048576 (![1] : Fin 1 → Fin S1x1048576.rank)
  concatenates_S1x1048576_S1x1048576_S1x1048576_S1x1048576_S1x1048576_S1x1048576_S1x1048576_S1x1048576_S8x1048576_d0 : Shape.Concatenates [S1x1048576, S1x1048576, S1x1048576, S1x1048576, S1x1048576, S1x1048576, S1x1048576, S1x1048576] S8x1048576 0
  shapeCasts_S8x1048576_S8388608 : S8x1048576.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S8388608x4_0 : S8388608.BroadcastsInDim S8388608x4 (![0] : Fin 1 → Fin S8388608x4.rank)
  bcast_S_S8388608x4 : S_.BroadcastsInDim S8388608x4 (![] : Fin 0 → Fin S8388608x4.rank)
  shapeCasts_S8388608x4_S8x1048576x4 : S8388608x4.ShapeCasts S8x1048576x4
  transposes_S8x1048576x4_S8x4x1048576_0_2_1 : S8x1048576x4.Transposes [0, 2, 1] S8x4x1048576
  shapeCasts_S8x4x1048576_S32x1048576 : S8x4x1048576.ShapeCasts S32x1048576
  shapeCasts_S1x4x64x64x64_S4x64x64x64 : S1x4x64x64x64.ShapeCasts S4x64x64x64
  transposes_S4x64x64x64_S64x64x64x4_1_2_3_0 : S4x64x64x64.Transposes [1, 2, 3, 0] S64x64x64x4
  shapeCasts_S64x64x64x4_S262144x4 : S64x64x64x4.ShapeCasts S262144x4
  shapeCasts_S1x4x128x128x128_S4x128x128x128 : S1x4x128x128x128.ShapeCasts S4x128x128x128
  transposes_S4x128x128x128_S128x128x128x4_1_2_3_0 : S4x128x128x128.Transposes [1, 2, 3, 0] S128x128x128x4
  shapeCasts_S128x128x128x4_S2097152x4 : S128x128x128x4.ShapeCasts S2097152x4
  shapeCasts_S1x4x256x256x256_S4x256x256x256 : S1x4x256x256x256.ShapeCasts S4x256x256x256
  transposes_S4x256x256x256_S256x256x256x4_1_2_3_0 : S4x256x256x256.Transposes [1, 2, 3, 0] S256x256x256x4
  shapeCasts_S256x256x256x4_S16777216x4 : S256x256x256x4.ShapeCasts S16777216x4
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  slices_S3x16384_o0_0_S1x16384 : S3x16384.Slices ![0, 0] S1x16384
  shapeCasts_S1x16384_S16384 : S1x16384.ShapeCasts S16384
  slices_S3x16384_o1_0_S1x16384 : S3x16384.Slices ![1, 0] S1x16384
  slices_S3x16384_o2_0_S1x16384 : S3x16384.Slices ![2, 0] S1x16384
  inb_S32x16384_S4x16384_0_0 : ∀ a, (![0, 0] : Fin 2 → Nat) a + S4x16384.size a ≤ S32x16384.size a
  h_S4x16384 : 0 < S4x16384.numel
  shapeCasts_S4x16384_S4x16384 : S4x16384.ShapeCasts S4x16384
  inb_S32x16384_S4x16384_4_0 : ∀ a, (![4, 0] : Fin 2 → Nat) a + S4x16384.size a ≤ S32x16384.size a
  inb_S32x16384_S4x16384_8_0 : ∀ a, (![8, 0] : Fin 2 → Nat) a + S4x16384.size a ≤ S32x16384.size a
  inb_S32x16384_S4x16384_12_0 : ∀ a, (![12, 0] : Fin 2 → Nat) a + S4x16384.size a ≤ S32x16384.size a
  inb_S32x16384_S4x16384_16_0 : ∀ a, (![16, 0] : Fin 2 → Nat) a + S4x16384.size a ≤ S32x16384.size a
  inb_S32x16384_S4x16384_20_0 : ∀ a, (![20, 0] : Fin 2 → Nat) a + S4x16384.size a ≤ S32x16384.size a
  inb_S32x16384_S4x16384_24_0 : ∀ a, (![24, 0] : Fin 2 → Nat) a + S4x16384.size a ≤ S32x16384.size a
  inb_S32x16384_S4x16384_28_0 : ∀ a, (![28, 0] : Fin 2 → Nat) a + S4x16384.size a ≤ S32x16384.size a
  shapeCasts_S16384_S1x16384 : S16384.ShapeCasts S1x16384
  shapeCasts_S1x16384_S1x16384 : S1x16384.ShapeCasts S1x16384
  broadcasts_S1x16384_S4x16384 : S1x16384.Broadcasts S4x16384
  inb_S16x16384_S4x16384_0_0 : ∀ a, (![0, 0] : Fin 2 → Nat) a + S4x16384.size a ≤ S16x16384.size a
  inb_S16x16384_S4x16384_4_0 : ∀ a, (![4, 0] : Fin 2 → Nat) a + S4x16384.size a ≤ S16x16384.size a
  inb_S16x16384_S4x16384_8_0 : ∀ a, (![8, 0] : Fin 2 → Nat) a + S4x16384.size a ≤ S16x16384.size a
  inb_S16x16384_S4x16384_12_0 : ∀ a, (![12, 0] : Fin 2 → Nat) a + S4x16384.size a ≤ S16x16384.size a
  shapeCasts_S16x1048576_S1x16x1x1x1048576 : S16x1048576.ShapeCasts S1x16x1x1x1048576
  gather_S32768x4_S8388608x1_S8388608x4_1_0_n_n_0_1_14_wf : GatherDims.WF S32768x4 S8388608x1 S8388608x4 [1] [0] [] [0] [] 1 ![1, 4]
  gather_S262144x4_S8388608x1_S8388608x4_1_0_n_n_0_1_14_wf : GatherDims.WF S262144x4 S8388608x1 S8388608x4 [1] [0] [] [0] [] 1 ![1, 4]
  gather_S2097152x4_S8388608x1_S8388608x4_1_0_n_n_0_1_14_wf : GatherDims.WF S2097152x4 S8388608x1 S8388608x4 [1] [0] [] [0] [] 1 ![1, 4]
  gather_S16777216x4_S8388608x1_S8388608x4_1_0_n_n_0_1_14_wf : GatherDims.WF S16777216x4 S8388608x1 S8388608x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x1048576.size a
  hwx0_0 : ∀ i : grid0.Coords, EltTy.bits .f32 = 32 ∨ (Rect.block (s := S3x1048576) S3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x1048576.size a
  hwx0_1 : ∀ i : grid0.Coords, EltTy.bits .f32 = 32 ∨ (Rect.block (s := S32x1048576) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S32x1048576.size a
  hwx0_2 : ∀ i : grid0.Coords, EltTy.bits .f32 = 32 ∨ (Rect.block (s := S32x1048576) S32x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16384.size a ≤ S32x1048576.size a
  hwx0_3 : ∀ i : grid0.Coords, EltTy.bits .f32 = 32 ∨ (Rect.block (s := S32x1048576) S32x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16384.size a ≤ S32x1048576.size a
  hwx0_4 : ∀ i : grid0.Coords, EltTy.bits .f32 = 32 ∨ (Rect.block (s := S32x1048576) S32x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x16384.size a ≤ S16x1048576.size a
  hwx0_5 : ∀ i : grid0.Coords, EltTy.bits .f32 = 32 ∨ (Rect.block (s := S16x1048576) S16x16384.size (cc0_transform_5 i) (hinb0_5 i)).WholeWords (EltTy.packing .f32)

variable [Facts₀]

def gather_S32768x4_S8388608x1_S8388608x4_1_0_n_n_0_1_14 : GatherDims S32768x4 S8388608x1 S8388608x4 where
  offsetDims := [1]
  collapsedSliceDims := [0]
  operandBatchingDims := []
  startIndicesBatchingDims := []
  startIndexMap := [0]
  indexVectorDim := 1
  sliceSizes := ![1, 4]
  wf := gather_S32768x4_S8388608x1_S8388608x4_1_0_n_n_0_1_14_wf
def gather_S262144x4_S8388608x1_S8388608x4_1_0_n_n_0_1_14 : GatherDims S262144x4 S8388608x1 S8388608x4 where
  offsetDims := [1]
  collapsedSliceDims := [0]
  operandBatchingDims := []
  startIndicesBatchingDims := []
  startIndexMap := [0]
  indexVectorDim := 1
  sliceSizes := ![1, 4]
  wf := gather_S262144x4_S8388608x1_S8388608x4_1_0_n_n_0_1_14_wf
def gather_S2097152x4_S8388608x1_S8388608x4_1_0_n_n_0_1_14 : GatherDims S2097152x4 S8388608x1 S8388608x4 where
  offsetDims := [1]
  collapsedSliceDims := [0]
  operandBatchingDims := []
  startIndicesBatchingDims := []
  startIndexMap := [0]
  indexVectorDim := 1
  sliceSizes := ![1, 4]
  wf := gather_S2097152x4_S8388608x1_S8388608x4_1_0_n_n_0_1_14_wf
def gather_S16777216x4_S8388608x1_S8388608x4_1_0_n_n_0_1_14 : GatherDims S16777216x4 S8388608x1 S8388608x4 where
  offsetDims := [1]
  collapsedSliceDims := [0]
  operandBatchingDims := []
  startIndicesBatchingDims := []
  startIndexMap := [0]
  indexVectorDim := 1
  sliceSizes := ![1, 4]
  wf := gather_S16777216x4_S8388608x1_S8388608x4_1_0_n_n_0_1_14_wf

abbrev win0_0 : Pipeline.Window sig grid0 :=
  Pipeline.Window.ofSpec (Memref.whole main_v1) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v173) S32x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v259) S32x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v345) S32x16384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v346) S16x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x1x1x1048576x3 : Shape := ⟨5, ![1, 1, 1, 1048576, 3]⟩
abbrev S1x4x32x32x32 : Shape := ⟨5, ![1, 4, 32, 32, 32]⟩
abbrev S1x4x64x64x64 : Shape := ⟨5, ![1, 4, 64, 64, 64]⟩
abbrev S1x4x128x128x128 : Shape := ⟨5, ![1, 4, 128, 128, 128]⟩
abbrev S1x4x256x256x256 : Shape := ⟨5, ![1, 4, 256, 256, 256]⟩
abbrev S1048576x3 : Shape := ⟨2, ![1048576, 3]⟩
abbrev S4x32x32x32 : Shape := ⟨4, ![4, 32, 32, 32]⟩
abbrev S1048576x1 : Shape := ⟨2, ![1048576, 1]⟩
abbrev S1048576 : Shape := ⟨1, ![1048576]⟩
abbrev S_ : Shape := ⟨0, ![]⟩
abbrev S4x1048576 : Shape := ⟨2, ![4, 1048576]⟩
abbrev S1x1048576 : Shape := ⟨2, ![1, 1048576]⟩
abbrev S1x4x1x1x1048576 : Shape := ⟨5, ![1, 4, 1, 1, 1048576]⟩
abbrev S4x64x64x64 : Shape := ⟨4, ![4, 64, 64, 64]⟩
abbrev S4x128x128x128 : Shape := ⟨4, ![4, 128, 128, 128]⟩
abbrev S4x256x256x256 : Shape := ⟨4, ![4, 256, 256, 256]⟩
abbrev S1x16x1x1x1048576 : Shape := ⟨5, ![1, 16, 1, 1, 1048576]⟩

abbrev nBuf : Space → Nat
  | .hbm => 1419
  | .vmem => 0
  | .smem => 0
  | _ => 0

abbrev hbmTy0_0 (i : Nat) : BufTy := match i % 128 with
  | 0 => ⟨S1x1x1x1048576x3, .f32⟩
  | 1 => ⟨S1x4x32x32x32, .f32⟩
  | 2 => ⟨S1x4x64x64x64, .f32⟩
  | 3 => ⟨S1x4x128x128x128, .f32⟩
  | 4 => ⟨S1x4x256x256x256, .f32⟩
  | 5 => ⟨S1048576x3, .f32⟩
  | 6 => ⟨S4x32x32x32, .f32⟩
  | 7 => ⟨S1048576x1, .f32⟩
  | 8 => ⟨S1048576, .f32⟩
  | 9 => ⟨S_, .f32⟩
  | 10 => ⟨S1048576, .f32⟩
  | 11 => ⟨S1048576, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S_, .f32⟩
  | 19 => ⟨S_, .i32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S1048576x1, .f32⟩
  | 27 => ⟨S1048576, .f32⟩
  | 28 => ⟨S_, .f32⟩
  | 29 => ⟨S1048576, .f32⟩
  | 30 => ⟨S1048576, .f32⟩
  | 31 => ⟨S_, .f32⟩
  | 32 => ⟨S1048576, .f32⟩
  | 33 => ⟨S1048576, .f32⟩
  | 34 => ⟨S_, .f32⟩
  | 35 => ⟨S1048576, .f32⟩
  | 36 => ⟨S1048576, .f32⟩
  | 37 => ⟨S_, .f32⟩
  | 38 => ⟨S_, .i32⟩
  | 39 => ⟨S_, .f32⟩
  | 40 => ⟨S1048576, .f32⟩
  | 41 => ⟨S1048576, .f32⟩
  | 42 => ⟨S_, .f32⟩
  | 43 => ⟨S1048576, .f32⟩
  | 44 => ⟨S1048576, .f32⟩
  | 45 => ⟨S1048576x1, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S_, .i32⟩
  | 58 => ⟨S_, .f32⟩
  | 59 => ⟨S1048576, .f32⟩
  | 60 => ⟨S1048576, .f32⟩
  | 61 => ⟨S_, .f32⟩
  | 62 => ⟨S1048576, .f32⟩
  | 63 => ⟨S1048576, .f32⟩
  | 64 => ⟨S1048576, .f32⟩
  | 65 => ⟨S1048576, .f32⟩
  | 66 => ⟨S1048576, .f32⟩
  | 67 => ⟨S1048576, .f32⟩
  | 68 => ⟨S1048576, .f32⟩
  | 69 => ⟨S1048576, .f32⟩
  | 70 => ⟨S1048576, .f32⟩
  | 71 => ⟨S_, .f32⟩
  | 72 => ⟨S1048576, .f32⟩
  | 73 => ⟨S1048576, .f32⟩
  | 74 => ⟨S_, .f32⟩
  | 75 => ⟨S1048576, .f32⟩
  | 76 => ⟨S1048576, .f32⟩
  | 77 => ⟨S1048576, .f32⟩
  | 78 => ⟨S1048576, .f32⟩
  | 79 => ⟨S_, .f32⟩
  | 80 => ⟨S1048576, .f32⟩
  | 81 => ⟨S1048576, .f32⟩
  | 82 => ⟨S_, .f32⟩
  | 83 => ⟨S1048576, .f32⟩
  | 84 => ⟨S1048576, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S_, .f32⟩
  | 91 => ⟨S1048576, .f32⟩
  | 92 => ⟨S1048576, .f32⟩
  | 93 => ⟨S1048576, .f32⟩
  | 94 => ⟨S1048576, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i32⟩
  | 101 => ⟨S1048576, .i32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S_, .i32⟩
  | 123 => ⟨S1048576, .i32⟩
  | 124 => ⟨S1048576, .i1⟩
  | 125 => ⟨S_, .i32⟩
  | 126 => ⟨S1048576, .i32⟩
  | 127 => ⟨S1048576, .i32⟩
  | _ => ⟨S1x1x1x1048576x3, .f32⟩

abbrev hbmTy0_1 (i : Nat) : BufTy := match i % 128 with
  | 0 => ⟨S1048576, .i32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S1048576x1, .i32⟩
  | 9 => ⟨S1048576x1, .i32⟩
  | 10 => ⟨S1048576x1, .i32⟩
  | 11 => ⟨S1048576x3, .i32⟩
  | 12 => ⟨S4x1048576, .f32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S1048576x1, .i32⟩
  | 36 => ⟨S1048576x1, .i32⟩
  | 37 => ⟨S1048576x3, .i32⟩
  | 38 => ⟨S4x1048576, .f32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S1048576x1, .i32⟩
  | 61 => ⟨S1048576x1, .i32⟩
  | 62 => ⟨S1048576x1, .i32⟩
  | 63 => ⟨S1048576x3, .i32⟩
  | 64 => ⟨S4x1048576, .f32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S_, .i32⟩
  | 80 => ⟨S1048576, .i32⟩
  | 81 => ⟨S1048576, .i1⟩
  | 82 => ⟨S_, .i32⟩
  | 83 => ⟨S1048576, .i32⟩
  | 84 => ⟨S1048576, .i32⟩
  | 85 => ⟨S1048576, .i32⟩
  | 86 => ⟨S1048576x1, .i32⟩
  | 87 => ⟨S1048576x1, .i32⟩
  | 88 => ⟨S1048576x1, .i32⟩
  | 89 => ⟨S1048576x3, .i32⟩
  | 90 => ⟨S4x1048576, .f32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S1048576x1, .i32⟩
  | 113 => ⟨S1048576x1, .i32⟩
  | 114 => ⟨S1048576x1, .i32⟩
  | 115 => ⟨S1048576x3, .i32⟩
  | 116 => ⟨S4x1048576, .f32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S_, .i32⟩
  | 125 => ⟨S1048576, .i32⟩
  | 126 => ⟨S1048576, .i1⟩
  | 127 => ⟨S_, .i32⟩
  | _ => ⟨S1x1x1x1048576x3, .f32⟩

abbrev hbmTy0_2 (i : Nat) : BufTy := match i % 128 with
  | 0 => ⟨S1048576, .i32⟩
  | 1 => ⟨S1048576, .i32⟩
  | 2 => ⟨S1048576, .i32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S1048576x1, .i32⟩
  | 11 => ⟨S1048576x1, .i32⟩
  | 12 => ⟨S1048576x1, .i32⟩
  | 13 => ⟨S1048576x3, .i32⟩
  | 14 => ⟨S4x1048576, .f32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S1048576x1, .i32⟩
  | 37 => ⟨S1048576x1, .i32⟩
  | 38 => ⟨S1048576x1, .i32⟩
  | 39 => ⟨S1048576x3, .i32⟩
  | 40 => ⟨S4x1048576, .f32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S1048576x1, .i32⟩
  | 63 => ⟨S1048576x1, .i32⟩
  | 64 => ⟨S1048576x1, .i32⟩
  | 65 => ⟨S1048576x3, .i32⟩
  | 66 => ⟨S4x1048576, .f32⟩
  | 67 => ⟨S4x1048576, .f32⟩
  | 68 => ⟨S1x1048576, .f32⟩
  | 69 => ⟨S4x1048576, .f32⟩
  | 70 => ⟨S4x1048576, .f32⟩
  | 71 => ⟨S4x1048576, .f32⟩
  | 72 => ⟨S4x1048576, .f32⟩
  | 73 => ⟨S1x1048576, .f32⟩
  | 74 => ⟨S4x1048576, .f32⟩
  | 75 => ⟨S4x1048576, .f32⟩
  | 76 => ⟨S4x1048576, .f32⟩
  | 77 => ⟨S4x1048576, .f32⟩
  | 78 => ⟨S1x1048576, .f32⟩
  | 79 => ⟨S4x1048576, .f32⟩
  | 80 => ⟨S4x1048576, .f32⟩
  | 81 => ⟨S4x1048576, .f32⟩
  | 82 => ⟨S4x1048576, .f32⟩
  | 83 => ⟨S1x1048576, .f32⟩
  | 84 => ⟨S4x1048576, .f32⟩
  | 85 => ⟨S4x1048576, .f32⟩
  | 86 => ⟨S4x1048576, .f32⟩
  | 87 => ⟨S4x1048576, .f32⟩
  | 88 => ⟨S1x1048576, .f32⟩
  | 89 => ⟨S4x1048576, .f32⟩
  | 90 => ⟨S4x1048576, .f32⟩
  | 91 => ⟨S4x1048576, .f32⟩
  | 92 => ⟨S4x1048576, .f32⟩
  | 93 => ⟨S1x1048576, .f32⟩
  | 94 => ⟨S4x1048576, .f32⟩
  | 95 => ⟨S4x1048576, .f32⟩
  | 96 => ⟨S4x1048576, .f32⟩
  | 97 => ⟨S4x1048576, .f32⟩
  | 98 => ⟨S1x1048576, .f32⟩
  | 99 => ⟨S4x1048576, .f32⟩
  | 100 => ⟨S4x1048576, .f32⟩
  | 101 => ⟨S4x1048576, .f32⟩
  | 102 => ⟨S1x4x1x1x1048576, .f32⟩
  | 103 => ⟨S4x64x64x64, .f32⟩
  | 104 => ⟨S1048576x1, .f32⟩
  | 105 => ⟨S1048576, .f32⟩
  | 106 => ⟨S_, .f32⟩
  | 107 => ⟨S1048576, .f32⟩
  | 108 => ⟨S1048576, .f32⟩
  | 109 => ⟨S_, .f32⟩
  | 110 => ⟨S1048576, .f32⟩
  | 111 => ⟨S1048576, .f32⟩
  | 112 => ⟨S_, .f32⟩
  | 113 => ⟨S1048576, .f32⟩
  | 114 => ⟨S1048576, .f32⟩
  | 115 => ⟨S_, .f32⟩
  | 116 => ⟨S_, .i32⟩
  | 117 => ⟨S_, .f32⟩
  | 118 => ⟨S1048576, .f32⟩
  | 119 => ⟨S1048576, .f32⟩
  | 120 => ⟨S_, .f32⟩
  | 121 => ⟨S1048576, .f32⟩
  | 122 => ⟨S1048576, .f32⟩
  | 123 => ⟨S1048576x1, .f32⟩
  | 124 => ⟨S1048576, .f32⟩
  | 125 => ⟨S_, .f32⟩
  | 126 => ⟨S1048576, .f32⟩
  | 127 => ⟨S1048576, .f32⟩
  | _ => ⟨S1x1x1x1048576x3, .f32⟩

abbrev hbmTy0_3 (i : Nat) : BufTy := match i % 128 with
  | 0 => ⟨S_, .f32⟩
  | 1 => ⟨S1048576, .f32⟩
  | 2 => ⟨S1048576, .f32⟩
  | 3 => ⟨S_, .f32⟩
  | 4 => ⟨S1048576, .f32⟩
  | 5 => ⟨S1048576, .f32⟩
  | 6 => ⟨S_, .f32⟩
  | 7 => ⟨S_, .i32⟩
  | 8 => ⟨S_, .f32⟩
  | 9 => ⟨S1048576, .f32⟩
  | 10 => ⟨S1048576, .f32⟩
  | 11 => ⟨S_, .f32⟩
  | 12 => ⟨S1048576, .f32⟩
  | 13 => ⟨S1048576, .f32⟩
  | 14 => ⟨S1048576x1, .f32⟩
  | 15 => ⟨S1048576, .f32⟩
  | 16 => ⟨S_, .f32⟩
  | 17 => ⟨S1048576, .f32⟩
  | 18 => ⟨S1048576, .f32⟩
  | 19 => ⟨S_, .f32⟩
  | 20 => ⟨S1048576, .f32⟩
  | 21 => ⟨S1048576, .f32⟩
  | 22 => ⟨S_, .f32⟩
  | 23 => ⟨S1048576, .f32⟩
  | 24 => ⟨S1048576, .f32⟩
  | 25 => ⟨S_, .f32⟩
  | 26 => ⟨S_, .i32⟩
  | 27 => ⟨S_, .f32⟩
  | 28 => ⟨S1048576, .f32⟩
  | 29 => ⟨S1048576, .f32⟩
  | 30 => ⟨S_, .f32⟩
  | 31 => ⟨S1048576, .f32⟩
  | 32 => ⟨S1048576, .f32⟩
  | 33 => ⟨S1048576, .f32⟩
  | 34 => ⟨S1048576, .f32⟩
  | 35 => ⟨S1048576, .f32⟩
  | 36 => ⟨S1048576, .f32⟩
  | 37 => ⟨S1048576, .f32⟩
  | 38 => ⟨S1048576, .f32⟩
  | 39 => ⟨S1048576, .f32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S_, .f32⟩
  | 52 => ⟨S1048576, .f32⟩
  | 53 => ⟨S1048576, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S_, .f32⟩
  | 60 => ⟨S1048576, .f32⟩
  | 61 => ⟨S1048576, .f32⟩
  | 62 => ⟨S1048576, .f32⟩
  | 63 => ⟨S1048576, .i32⟩
  | 64 => ⟨S_, .i32⟩
  | 65 => ⟨S1048576, .i32⟩
  | 66 => ⟨S1048576, .i32⟩
  | 67 => ⟨S_, .i32⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i32⟩
  | 81 => ⟨S_, .i32⟩
  | 82 => ⟨S1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S1048576x1, .i32⟩
  | 106 => ⟨S1048576x1, .i32⟩
  | 107 => ⟨S1048576x1, .i32⟩
  | 108 => ⟨S1048576x3, .i32⟩
  | 109 => ⟨S4x1048576, .f32⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S_, .i32⟩
  | 125 => ⟨S1048576, .i32⟩
  | 126 => ⟨S1048576, .i1⟩
  | 127 => ⟨S_, .i32⟩
  | _ => ⟨S1x1x1x1048576x3, .f32⟩

abbrev hbmTy0_4 (i : Nat) : BufTy := match i % 128 with
  | 0 => ⟨S1048576, .i32⟩
  | 1 => ⟨S1048576, .i32⟩
  | 2 => ⟨S1048576, .i32⟩
  | 3 => ⟨S1048576x1, .i32⟩
  | 4 => ⟨S1048576x1, .i32⟩
  | 5 => ⟨S1048576x1, .i32⟩
  | 6 => ⟨S1048576x3, .i32⟩
  | 7 => ⟨S4x1048576, .f32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S1048576x1, .i32⟩
  | 30 => ⟨S1048576x1, .i32⟩
  | 31 => ⟨S1048576x1, .i32⟩
  | 32 => ⟨S1048576x3, .i32⟩
  | 33 => ⟨S4x1048576, .f32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S1048576x1, .i32⟩
  | 56 => ⟨S1048576x1, .i32⟩
  | 57 => ⟨S1048576x1, .i32⟩
  | 58 => ⟨S1048576x3, .i32⟩
  | 59 => ⟨S4x1048576, .f32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S1048576x1, .i32⟩
  | 82 => ⟨S1048576x1, .i32⟩
  | 83 => ⟨S1048576x1, .i32⟩
  | 84 => ⟨S1048576x3, .i32⟩
  | 85 => ⟨S4x1048576, .f32⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x1, .i32⟩
  | 109 => ⟨S1048576x1, .i32⟩
  | 110 => ⟨S1048576x3, .i32⟩
  | 111 => ⟨S4x1048576, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S_, .i32⟩
  | 127 => ⟨S1048576, .i32⟩
  | _ => ⟨S1x1x1x1048576x3, .f32⟩

abbrev hbmTy0_5 (i : Nat) : BufTy := match i % 128 with
  | 0 => ⟨S1048576, .i1⟩
  | 1 => ⟨S_, .i32⟩
  | 2 => ⟨S1048576, .i32⟩
  | 3 => ⟨S1048576, .i32⟩
  | 4 => ⟨S1048576, .i32⟩
  | 5 => ⟨S1048576x1, .i32⟩
  | 6 => ⟨S1048576x1, .i32⟩
  | 7 => ⟨S1048576x1, .i32⟩
  | 8 => ⟨S1048576x3, .i32⟩
  | 9 => ⟨S4x1048576, .f32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x1, .i32⟩
  | 33 => ⟨S1048576x1, .i32⟩
  | 34 => ⟨S1048576x3, .i32⟩
  | 35 => ⟨S4x1048576, .f32⟩
  | 36 => ⟨S4x1048576, .f32⟩
  | 37 => ⟨S1x1048576, .f32⟩
  | 38 => ⟨S4x1048576, .f32⟩
  | 39 => ⟨S4x1048576, .f32⟩
  | 40 => ⟨S4x1048576, .f32⟩
  | 41 => ⟨S4x1048576, .f32⟩
  | 42 => ⟨S1x1048576, .f32⟩
  | 43 => ⟨S4x1048576, .f32⟩
  | 44 => ⟨S4x1048576, .f32⟩
  | 45 => ⟨S4x1048576, .f32⟩
  | 46 => ⟨S4x1048576, .f32⟩
  | 47 => ⟨S1x1048576, .f32⟩
  | 48 => ⟨S4x1048576, .f32⟩
  | 49 => ⟨S4x1048576, .f32⟩
  | 50 => ⟨S4x1048576, .f32⟩
  | 51 => ⟨S4x1048576, .f32⟩
  | 52 => ⟨S1x1048576, .f32⟩
  | 53 => ⟨S4x1048576, .f32⟩
  | 54 => ⟨S4x1048576, .f32⟩
  | 55 => ⟨S4x1048576, .f32⟩
  | 56 => ⟨S4x1048576, .f32⟩
  | 57 => ⟨S1x1048576, .f32⟩
  | 58 => ⟨S4x1048576, .f32⟩
  | 59 => ⟨S4x1048576, .f32⟩
  | 60 => ⟨S4x1048576, .f32⟩
  | 61 => ⟨S4x1048576, .f32⟩
  | 62 => ⟨S1x1048576, .f32⟩
  | 63 => ⟨S4x1048576, .f32⟩
  | 64 => ⟨S4x1048576, .f32⟩
  | 65 => ⟨S4x1048576, .f32⟩
  | 66 => ⟨S4x1048576, .f32⟩
  | 67 => ⟨S1x1048576, .f32⟩
  | 68 => ⟨S4x1048576, .f32⟩
  | 69 => ⟨S4x1048576, .f32⟩
  | 70 => ⟨S4x1048576, .f32⟩
  | 71 => ⟨S1x4x1x1x1048576, .f32⟩
  | 72 => ⟨S4x128x128x128, .f32⟩
  | 73 => ⟨S1048576x1, .f32⟩
  | 74 => ⟨S1048576, .f32⟩
  | 75 => ⟨S_, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S_, .i32⟩
  | 86 => ⟨S_, .f32⟩
  | 87 => ⟨S1048576, .f32⟩
  | 88 => ⟨S1048576, .f32⟩
  | 89 => ⟨S_, .f32⟩
  | 90 => ⟨S1048576, .f32⟩
  | 91 => ⟨S1048576, .f32⟩
  | 92 => ⟨S1048576x1, .f32⟩
  | 93 => ⟨S1048576, .f32⟩
  | 94 => ⟨S_, .f32⟩
  | 95 => ⟨S1048576, .f32⟩
  | 96 => ⟨S1048576, .f32⟩
  | 97 => ⟨S_, .f32⟩
  | 98 => ⟨S1048576, .f32⟩
  | 99 => ⟨S1048576, .f32⟩
  | 100 => ⟨S_, .f32⟩
  | 101 => ⟨S1048576, .f32⟩
  | 102 => ⟨S1048576, .f32⟩
  | 103 => ⟨S_, .f32⟩
  | 104 => ⟨S_, .i32⟩
  | 105 => ⟨S_, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S1048576x1, .f32⟩
  | 112 => ⟨S1048576, .f32⟩
  | 113 => ⟨S_, .f32⟩
  | 114 => ⟨S1048576, .f32⟩
  | 115 => ⟨S1048576, .f32⟩
  | 116 => ⟨S_, .f32⟩
  | 117 => ⟨S1048576, .f32⟩
  | 118 => ⟨S1048576, .f32⟩
  | 119 => ⟨S_, .f32⟩
  | 120 => ⟨S1048576, .f32⟩
  | 121 => ⟨S1048576, .f32⟩
  | 122 => ⟨S_, .f32⟩
  | 123 => ⟨S_, .i32⟩
  | 124 => ⟨S_, .f32⟩
  | 125 => ⟨S1048576, .f32⟩
  | 126 => ⟨S1048576, .f32⟩
  | 127 => ⟨S_, .f32⟩
  | _ => ⟨S1x1x1x1048576x3, .f32⟩

abbrev hbmTy0_6 (i : Nat) : BufTy := match i % 128 with
  | 0 => ⟨S1048576, .f32⟩
  | 1 => ⟨S1048576, .f32⟩
  | 2 => ⟨S1048576, .f32⟩
  | 3 => ⟨S1048576, .f32⟩
  | 4 => ⟨S1048576, .f32⟩
  | 5 => ⟨S1048576, .f32⟩
  | 6 => ⟨S1048576, .f32⟩
  | 7 => ⟨S1048576, .f32⟩
  | 8 => ⟨S1048576, .f32⟩
  | 9 => ⟨S_, .f32⟩
  | 10 => ⟨S1048576, .f32⟩
  | 11 => ⟨S1048576, .f32⟩
  | 12 => ⟨S_, .f32⟩
  | 13 => ⟨S1048576, .f32⟩
  | 14 => ⟨S1048576, .f32⟩
  | 15 => ⟨S1048576, .f32⟩
  | 16 => ⟨S1048576, .f32⟩
  | 17 => ⟨S_, .f32⟩
  | 18 => ⟨S1048576, .f32⟩
  | 19 => ⟨S1048576, .f32⟩
  | 20 => ⟨S_, .f32⟩
  | 21 => ⟨S1048576, .f32⟩
  | 22 => ⟨S1048576, .f32⟩
  | 23 => ⟨S1048576, .f32⟩
  | 24 => ⟨S1048576, .f32⟩
  | 25 => ⟨S_, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S1048576, .f32⟩
  | 32 => ⟨S1048576, .i32⟩
  | 33 => ⟨S_, .i32⟩
  | 34 => ⟨S1048576, .i32⟩
  | 35 => ⟨S1048576, .i32⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i32⟩
  | 43 => ⟨S_, .i32⟩
  | 44 => ⟨S1048576, .i32⟩
  | 45 => ⟨S1048576, .i32⟩
  | 46 => ⟨S1048576, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S1048576x1, .i32⟩
  | 75 => ⟨S1048576x1, .i32⟩
  | 76 => ⟨S1048576x1, .i32⟩
  | 77 => ⟨S1048576x3, .i32⟩
  | 78 => ⟨S4x1048576, .f32⟩
  | 79 => ⟨S_, .i32⟩
  | 80 => ⟨S1048576, .i32⟩
  | 81 => ⟨S1048576, .i1⟩
  | 82 => ⟨S_, .i32⟩
  | 83 => ⟨S1048576, .i32⟩
  | 84 => ⟨S1048576, .i32⟩
  | 85 => ⟨S1048576, .i32⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S1048576x1, .i32⟩
  | 101 => ⟨S1048576x1, .i32⟩
  | 102 => ⟨S1048576x1, .i32⟩
  | 103 => ⟨S1048576x3, .i32⟩
  | 104 => ⟨S4x1048576, .f32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x1, .i32⟩
  | _ => ⟨S1x1x1x1048576x3, .f32⟩

abbrev hbmTy0_7 (i : Nat) : BufTy := match i % 128 with
  | 0 => ⟨S1048576x1, .i32⟩
  | 1 => ⟨S1048576x3, .i32⟩
  | 2 => ⟨S4x1048576, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576x1, .i32⟩
  | 26 => ⟨S1048576x1, .i32⟩
  | 27 => ⟨S1048576x3, .i32⟩
  | 28 => ⟨S4x1048576, .f32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S1048576x1, .i32⟩
  | 51 => ⟨S1048576x1, .i32⟩
  | 52 => ⟨S1048576x1, .i32⟩
  | 53 => ⟨S1048576x3, .i32⟩
  | 54 => ⟨S4x1048576, .f32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1048576x1, .i32⟩
  | 78 => ⟨S1048576x1, .i32⟩
  | 79 => ⟨S1048576x3, .i32⟩
  | 80 => ⟨S4x1048576, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x1, .i32⟩
  | 104 => ⟨S1048576x1, .i32⟩
  | 105 => ⟨S1048576x3, .i32⟩
  | 106 => ⟨S4x1048576, .f32⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S_, .i32⟩
  | 122 => ⟨S1048576, .i32⟩
  | 123 => ⟨S1048576, .i1⟩
  | 124 => ⟨S_, .i32⟩
  | 125 => ⟨S1048576, .i32⟩
  | 126 => ⟨S1048576, .i32⟩
  | 127 => ⟨S1048576, .i32⟩
  | _ => ⟨S1x1x1x1048576x3, .f32⟩

abbrev hbmTy0_8 (i : Nat) : BufTy := match i % 128 with
  | 0 => ⟨S1048576x1, .i32⟩
  | 1 => ⟨S1048576x1, .i32⟩
  | 2 => ⟨S1048576x1, .i32⟩
  | 3 => ⟨S1048576x3, .i32⟩
  | 4 => ⟨S4x1048576, .f32⟩
  | 5 => ⟨S4x1048576, .f32⟩
  | 6 => ⟨S1x1048576, .f32⟩
  | 7 => ⟨S4x1048576, .f32⟩
  | 8 => ⟨S4x1048576, .f32⟩
  | 9 => ⟨S4x1048576, .f32⟩
  | 10 => ⟨S4x1048576, .f32⟩
  | 11 => ⟨S1x1048576, .f32⟩
  | 12 => ⟨S4x1048576, .f32⟩
  | 13 => ⟨S4x1048576, .f32⟩
  | 14 => ⟨S4x1048576, .f32⟩
  | 15 => ⟨S4x1048576, .f32⟩
  | 16 => ⟨S1x1048576, .f32⟩
  | 17 => ⟨S4x1048576, .f32⟩
  | 18 => ⟨S4x1048576, .f32⟩
  | 19 => ⟨S4x1048576, .f32⟩
  | 20 => ⟨S4x1048576, .f32⟩
  | 21 => ⟨S1x1048576, .f32⟩
  | 22 => ⟨S4x1048576, .f32⟩
  | 23 => ⟨S4x1048576, .f32⟩
  | 24 => ⟨S4x1048576, .f32⟩
  | 25 => ⟨S4x1048576, .f32⟩
  | 26 => ⟨S1x1048576, .f32⟩
  | 27 => ⟨S4x1048576, .f32⟩
  | 28 => ⟨S4x1048576, .f32⟩
  | 29 => ⟨S4x1048576, .f32⟩
  | 30 => ⟨S4x1048576, .f32⟩
  | 31 => ⟨S1x1048576, .f32⟩
  | 32 => ⟨S4x1048576, .f32⟩
  | 33 => ⟨S4x1048576, .f32⟩
  | 34 => ⟨S4x1048576, .f32⟩
  | 35 => ⟨S4x1048576, .f32⟩
  | 36 => ⟨S1x1048576, .f32⟩
  | 37 => ⟨S4x1048576, .f32⟩
  | 38 => ⟨S4x1048576, .f32⟩
  | 39 => ⟨S4x1048576, .f32⟩
  | 40 => ⟨S1x4x1x1x1048576, .f32⟩
  | 41 => ⟨S4x256x256x256, .f32⟩
  | 42 => ⟨S1048576x1, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S_, .i32⟩
  | 55 => ⟨S_, .f32⟩
  | 56 => ⟨S1048576, .f32⟩
  | 57 => ⟨S1048576, .f32⟩
  | 58 => ⟨S_, .f32⟩
  | 59 => ⟨S1048576, .f32⟩
  | 60 => ⟨S1048576, .f32⟩
  | 61 => ⟨S1048576x1, .f32⟩
  | 62 => ⟨S1048576, .f32⟩
  | 63 => ⟨S_, .f32⟩
  | 64 => ⟨S1048576, .f32⟩
  | 65 => ⟨S1048576, .f32⟩
  | 66 => ⟨S_, .f32⟩
  | 67 => ⟨S1048576, .f32⟩
  | 68 => ⟨S1048576, .f32⟩
  | 69 => ⟨S_, .f32⟩
  | 70 => ⟨S1048576, .f32⟩
  | 71 => ⟨S1048576, .f32⟩
  | 72 => ⟨S_, .f32⟩
  | 73 => ⟨S_, .i32⟩
  | 74 => ⟨S_, .f32⟩
  | 75 => ⟨S1048576, .f32⟩
  | 76 => ⟨S1048576, .f32⟩
  | 77 => ⟨S_, .f32⟩
  | 78 => ⟨S1048576, .f32⟩
  | 79 => ⟨S1048576, .f32⟩
  | 80 => ⟨S1048576x1, .f32⟩
  | 81 => ⟨S1048576, .f32⟩
  | 82 => ⟨S_, .f32⟩
  | 83 => ⟨S1048576, .f32⟩
  | 84 => ⟨S1048576, .f32⟩
  | 85 => ⟨S_, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S_, .f32⟩
  | 92 => ⟨S_, .i32⟩
  | 93 => ⟨S_, .f32⟩
  | 94 => ⟨S1048576, .f32⟩
  | 95 => ⟨S1048576, .f32⟩
  | 96 => ⟨S_, .f32⟩
  | 97 => ⟨S1048576, .f32⟩
  | 98 => ⟨S1048576, .f32⟩
  | 99 => ⟨S1048576, .f32⟩
  | 100 => ⟨S1048576, .f32⟩
  | 101 => ⟨S1048576, .f32⟩
  | 102 => ⟨S1048576, .f32⟩
  | 103 => ⟨S1048576, .f32⟩
  | 104 => ⟨S1048576, .f32⟩
  | 105 => ⟨S1048576, .f32⟩
  | 106 => ⟨S_, .f32⟩
  | 107 => ⟨S1048576, .f32⟩
  | 108 => ⟨S1048576, .f32⟩
  | 109 => ⟨S_, .f32⟩
  | 110 => ⟨S1048576, .f32⟩
  | 111 => ⟨S1048576, .f32⟩
  | 112 => ⟨S1048576, .f32⟩
  | 113 => ⟨S1048576, .f32⟩
  | 114 => ⟨S_, .f32⟩
  | 115 => ⟨S1048576, .f32⟩
  | 116 => ⟨S1048576, .f32⟩
  | 117 => ⟨S_, .f32⟩
  | 118 => ⟨S1048576, .f32⟩
  | 119 => ⟨S1048576, .f32⟩
  | 120 => ⟨S1048576, .f32⟩
  | 121 => ⟨S1048576, .f32⟩
  | 122 => ⟨S_, .f32⟩
  | 123 => ⟨S1048576, .f32⟩
  | 124 => ⟨S1048576, .f32⟩
  | 125 => ⟨S_, .f32⟩
  | 126 => ⟨S1048576, .f32⟩
  | 127 => ⟨S1048576, .f32⟩
  | _ => ⟨S1x1x1x1048576x3, .f32⟩

abbrev hbmTy0_9 (i : Nat) : BufTy := match i % 128 with
  | 0 => ⟨S1048576, .f32⟩
  | 1 => ⟨S1048576, .i32⟩
  | 2 => ⟨S_, .i32⟩
  | 3 => ⟨S1048576, .i32⟩
  | 4 => ⟨S1048576, .i32⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S_, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S1048576x1, .i32⟩
  | 44 => ⟨S1048576x1, .i32⟩
  | 45 => ⟨S1048576x1, .i32⟩
  | 46 => ⟨S1048576x3, .i32⟩
  | 47 => ⟨S4x1048576, .f32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S1048576x1, .i32⟩
  | 70 => ⟨S1048576x1, .i32⟩
  | 71 => ⟨S1048576x1, .i32⟩
  | 72 => ⟨S1048576x3, .i32⟩
  | 73 => ⟨S4x1048576, .f32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S1048576x1, .i32⟩
  | 96 => ⟨S1048576x1, .i32⟩
  | 97 => ⟨S1048576x1, .i32⟩
  | 98 => ⟨S1048576x3, .i32⟩
  | 99 => ⟨S4x1048576, .f32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S1048576x1, .i32⟩
  | 122 => ⟨S1048576x1, .i32⟩
  | 123 => ⟨S1048576x1, .i32⟩
  | 124 => ⟨S1048576x3, .i32⟩
  | 125 => ⟨S4x1048576, .f32⟩
  | 126 => ⟨S_, .i32⟩
  | 127 => ⟨S1048576, .i32⟩
  | _ => ⟨S1x1x1x1048576x3, .f32⟩

abbrev hbmTy0_10 (i : Nat) : BufTy := match i % 128 with
  | 0 => ⟨S1048576, .i1⟩
  | 1 => ⟨S_, .i32⟩
  | 2 => ⟨S1048576, .i32⟩
  | 3 => ⟨S1048576, .i32⟩
  | 4 => ⟨S1048576, .i32⟩
  | 5 => ⟨S_, .i32⟩
  | 6 => ⟨S1048576, .i32⟩
  | 7 => ⟨S1048576, .i1⟩
  | 8 => ⟨S_, .i32⟩
  | 9 => ⟨S1048576, .i32⟩
  | 10 => ⟨S1048576, .i32⟩
  | 11 => ⟨S1048576, .i32⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i32⟩
  | 18 => ⟨S1048576, .i32⟩
  | 19 => ⟨S1048576x1, .i32⟩
  | 20 => ⟨S1048576x1, .i32⟩
  | 21 => ⟨S1048576x1, .i32⟩
  | 22 => ⟨S1048576x3, .i32⟩
  | 23 => ⟨S4x1048576, .f32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x1, .i32⟩
  | 48 => ⟨S1048576x3, .i32⟩
  | 49 => ⟨S4x1048576, .f32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x1, .i32⟩
  | 73 => ⟨S1048576x1, .i32⟩
  | 74 => ⟨S1048576x3, .i32⟩
  | 75 => ⟨S4x1048576, .f32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i32⟩
  | 82 => ⟨S1048576, .i32⟩
  | 83 => ⟨S_, .i32⟩
  | 84 => ⟨S1048576, .i32⟩
  | 85 => ⟨S1048576, .i1⟩
  | 86 => ⟨S_, .i32⟩
  | 87 => ⟨S1048576, .i32⟩
  | 88 => ⟨S1048576, .i32⟩
  | 89 => ⟨S1048576, .i32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i32⟩
  | 96 => ⟨S1048576, .i32⟩
  | 97 => ⟨S1048576x1, .i32⟩
  | 98 => ⟨S1048576x1, .i32⟩
  | 99 => ⟨S1048576x1, .i32⟩
  | 100 => ⟨S1048576x3, .i32⟩
  | 101 => ⟨S4x1048576, .f32⟩
  | 102 => ⟨S4x1048576, .f32⟩
  | 103 => ⟨S1x1048576, .f32⟩
  | 104 => ⟨S4x1048576, .f32⟩
  | 105 => ⟨S4x1048576, .f32⟩
  | 106 => ⟨S4x1048576, .f32⟩
  | 107 => ⟨S4x1048576, .f32⟩
  | 108 => ⟨S1x1048576, .f32⟩
  | 109 => ⟨S4x1048576, .f32⟩
  | 110 => ⟨S4x1048576, .f32⟩
  | 111 => ⟨S4x1048576, .f32⟩
  | 112 => ⟨S4x1048576, .f32⟩
  | 113 => ⟨S1x1048576, .f32⟩
  | 114 => ⟨S4x1048576, .f32⟩
  | 115 => ⟨S4x1048576, .f32⟩
  | 116 => ⟨S4x1048576, .f32⟩
  | 117 => ⟨S4x1048576, .f32⟩
  | 118 => ⟨S1x1048576, .f32⟩
  | 119 => ⟨S4x1048576, .f32⟩
  | 120 => ⟨S4x1048576, .f32⟩
  | 121 => ⟨S4x1048576, .f32⟩
  | 122 => ⟨S4x1048576, .f32⟩
  | 123 => ⟨S1x1048576, .f32⟩
  | 124 => ⟨S4x1048576, .f32⟩
  | 125 => ⟨S4x1048576, .f32⟩
  | 126 => ⟨S4x1048576, .f32⟩
  | 127 => ⟨S4x1048576, .f32⟩
  | _ => ⟨S1x1x1x1048576x3, .f32⟩

abbrev hbmTy0_11 (i : Nat) : BufTy := match i % 128 with
  | 0 => ⟨S1x1048576, .f32⟩
  | 1 => ⟨S4x1048576, .f32⟩
  | 2 => ⟨S4x1048576, .f32⟩
  | 3 => ⟨S4x1048576, .f32⟩
  | 4 => ⟨S4x1048576, .f32⟩
  | 5 => ⟨S1x1048576, .f32⟩
  | 6 => ⟨S4x1048576, .f32⟩
  | 7 => ⟨S4x1048576, .f32⟩
  | 8 => ⟨S4x1048576, .f32⟩
  | 9 => ⟨S1x4x1x1x1048576, .f32⟩
  | 10 => ⟨S1x16x1x1x1048576, .f32⟩
  | _ => ⟨S1x1x1x1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S1x1x1x1048576x3, .f32⟩

abbrev bufTy : (tb : Table) → Fin (tcTables nBuf tb) → BufTy
  | .hbm, ⟨i, _⟩ => hbmTy i
  | _, _ => ⟨S1x1x1x1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_c_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_8 : Ref sig .tc := ⟨.hbm, 47, rfl⟩
abbrev main_v22 : Ref sig .tc := ⟨.hbm, 48, rfl⟩
abbrev main_v23 : Ref sig .tc := ⟨.hbm, 49, rfl⟩
abbrev main_cst_9 : Ref sig .tc := ⟨.hbm, 50, rfl⟩
abbrev main_v24 : Ref sig .tc := ⟨.hbm, 51, rfl⟩
abbrev main_v25 : Ref sig .tc := ⟨.hbm, 52, rfl⟩
abbrev main_cst_10 : Ref sig .tc := ⟨.hbm, 53, rfl⟩
abbrev main_v26 : Ref sig .tc := ⟨.hbm, 54, rfl⟩
abbrev main_v27 : Ref sig .tc := ⟨.hbm, 55, rfl⟩
abbrev main_cst_11 : Ref sig .tc := ⟨.hbm, 56, rfl⟩
abbrev main_c_12 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_13 : Ref sig .tc := ⟨.hbm, 71, rfl⟩
abbrev main_v36 : Ref sig .tc := ⟨.hbm, 72, rfl⟩
abbrev main_v37 : Ref sig .tc := ⟨.hbm, 73, rfl⟩
abbrev main_cst_14 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_15 : Ref sig .tc := ⟨.hbm, 79, rfl⟩
abbrev main_v42 : Ref sig .tc := ⟨.hbm, 80, rfl⟩
abbrev main_v43 : Ref sig .tc := ⟨.hbm, 81, rfl⟩
abbrev main_cst_16 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_17 : Ref sig .tc := ⟨.hbm, 87, rfl⟩
abbrev main_v48 : Ref sig .tc := ⟨.hbm, 88, rfl⟩
abbrev main_v49 : Ref sig .tc := ⟨.hbm, 89, rfl⟩
abbrev main_cst_18 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_19 : Ref sig .tc := ⟨.hbm, 95, rfl⟩
abbrev main_v54 : Ref sig .tc := ⟨.hbm, 96, rfl⟩
abbrev main_v55 : Ref sig .tc := ⟨.hbm, 97, rfl⟩
abbrev main_c_20 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c_21 : Ref sig .tc := ⟨.hbm, 102, rfl⟩
abbrev main_v59 : Ref sig .tc := ⟨.hbm, 103, rfl⟩
abbrev main_v60 : Ref sig .tc := ⟨.hbm, 104, rfl⟩
abbrev main_c_22 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_23 : Ref sig .tc := ⟨.hbm, 109, rfl⟩
abbrev main_v64 : Ref sig .tc := ⟨.hbm, 110, rfl⟩
abbrev main_v65 : Ref sig .tc := ⟨.hbm, 111, rfl⟩
abbrev main_c_24 : Ref sig .tc := ⟨.hbm, 112, rfl⟩
abbrev main_v66 : Ref sig .tc := ⟨.hbm, 113, rfl⟩
abbrev main_v67 : Ref sig .tc := ⟨.hbm, 114, rfl⟩
abbrev main_c_25 : Ref sig .tc := ⟨.hbm, 115, rfl⟩
abbrev main_v68 : Ref sig .tc := ⟨.hbm, 116, rfl⟩
abbrev main_v69 : Ref sig .tc := ⟨.hbm, 117, rfl⟩
abbrev main_c_26 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_27 : Ref sig .tc := ⟨.hbm, 122, rfl⟩
abbrev main_v73 : Ref sig .tc := ⟨.hbm, 123, rfl⟩
abbrev main_v74 : Ref sig .tc := ⟨.hbm, 124, rfl⟩
abbrev main_c_28 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_29 : Ref sig .tc := ⟨.hbm, 129, rfl⟩
abbrev main_v78 : Ref sig .tc := ⟨.hbm, 130, rfl⟩
abbrev main_v79 : Ref sig .tc := ⟨.hbm, 131, rfl⟩
abbrev main_c_30 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c_31 : Ref sig .tc := ⟨.hbm, 141, rfl⟩
abbrev main_v88 : Ref sig .tc := ⟨.hbm, 142, rfl⟩
abbrev main_v89 : Ref sig .tc := ⟨.hbm, 143, rfl⟩
abbrev main_c_32 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_33 : Ref sig .tc := ⟨.hbm, 148, rfl⟩
abbrev main_v93 : Ref sig .tc := ⟨.hbm, 149, rfl⟩
abbrev main_v94 : Ref sig .tc := ⟨.hbm, 150, rfl⟩
abbrev main_c_34 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_c_35 : Ref sig .tc := ⟨.hbm, 155, rfl⟩
abbrev main_v98 : Ref sig .tc := ⟨.hbm, 156, rfl⟩
abbrev main_v99 : Ref sig .tc := ⟨.hbm, 157, rfl⟩
abbrev main_c_36 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_37 : Ref sig .tc := ⟨.hbm, 167, rfl⟩
abbrev main_v108 : Ref sig .tc := ⟨.hbm, 168, rfl⟩
abbrev main_v109 : Ref sig .tc := ⟨.hbm, 169, rfl⟩
abbrev main_c_38 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_c_39 : Ref sig .tc := ⟨.hbm, 174, rfl⟩
abbrev main_v113 : Ref sig .tc := ⟨.hbm, 175, rfl⟩
abbrev main_v114 : Ref sig .tc := ⟨.hbm, 176, rfl⟩
abbrev main_c_40 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_c_41 : Ref sig .tc := ⟨.hbm, 181, rfl⟩
abbrev main_v118 : Ref sig .tc := ⟨.hbm, 182, rfl⟩
abbrev main_v119 : Ref sig .tc := ⟨.hbm, 183, rfl⟩
abbrev main_c_42 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_c_43 : Ref sig .tc := ⟨.hbm, 193, rfl⟩
abbrev main_v128 : Ref sig .tc := ⟨.hbm, 194, rfl⟩
abbrev main_v129 : Ref sig .tc := ⟨.hbm, 195, rfl⟩
abbrev main_c_44 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_45 : Ref sig .tc := ⟨.hbm, 200, rfl⟩
abbrev main_v133 : Ref sig .tc := ⟨.hbm, 201, rfl⟩
abbrev main_v134 : Ref sig .tc := ⟨.hbm, 202, rfl⟩
abbrev main_c_46 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_47 : Ref sig .tc := ⟨.hbm, 207, rfl⟩
abbrev main_v138 : Ref sig .tc := ⟨.hbm, 208, rfl⟩
abbrev main_v139 : Ref sig .tc := ⟨.hbm, 209, rfl⟩
abbrev main_c_48 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_c_49 : Ref sig .tc := ⟨.hbm, 219, rfl⟩
abbrev main_v148 : Ref sig .tc := ⟨.hbm, 220, rfl⟩
abbrev main_v149 : Ref sig .tc := ⟨.hbm, 221, rfl⟩
abbrev main_c_50 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_c_51 : Ref sig .tc := ⟨.hbm, 226, rfl⟩
abbrev main_v153 : Ref sig .tc := ⟨.hbm, 227, rfl⟩
abbrev main_v154 : Ref sig .tc := ⟨.hbm, 228, rfl⟩
abbrev main_c_52 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_c_53 : Ref sig .tc := ⟨.hbm, 233, rfl⟩
abbrev main_v158 : Ref sig .tc := ⟨.hbm, 234, rfl⟩
abbrev main_v159 : Ref sig .tc := ⟨.hbm, 235, rfl⟩
abbrev main_c_54 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_c_55 : Ref sig .tc := ⟨.hbm, 245, rfl⟩
abbrev main_v168 : Ref sig .tc := ⟨.hbm, 246, rfl⟩
abbrev main_v169 : Ref sig .tc := ⟨.hbm, 247, rfl⟩
abbrev main_c_56 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_c_57 : Ref sig .tc := ⟨.hbm, 252, rfl⟩
abbrev main_v173 : Ref sig .tc := ⟨.hbm, 253, rfl⟩
abbrev main_v174 : Ref sig .tc := ⟨.hbm, 254, rfl⟩
abbrev main_c_58 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_c_59 : Ref sig .tc := ⟨.hbm, 259, rfl⟩
abbrev main_v178 : Ref sig .tc := ⟨.hbm, 260, rfl⟩
abbrev main_v179 : Ref sig .tc := ⟨.hbm, 261, rfl⟩
abbrev main_c_60 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_c_61 : Ref sig .tc := ⟨.hbm, 271, rfl⟩
abbrev main_v188 : Ref sig .tc := ⟨.hbm, 272, rfl⟩
abbrev main_v189 : Ref sig .tc := ⟨.hbm, 273, rfl⟩
abbrev main_c_62 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_c_63 : Ref sig .tc := ⟨.hbm, 278, rfl⟩
abbrev main_v193 : Ref sig .tc := ⟨.hbm, 279, rfl⟩
abbrev main_v194 : Ref sig .tc := ⟨.hbm, 280, rfl⟩
abbrev main_c_64 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_c_65 : Ref sig .tc := ⟨.hbm, 285, rfl⟩
abbrev main_v198 : Ref sig .tc := ⟨.hbm, 286, rfl⟩
abbrev main_v199 : Ref sig .tc := ⟨.hbm, 287, rfl⟩
abbrev main_c_66 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_c_67 : Ref sig .tc := ⟨.hbm, 297, rfl⟩
abbrev main_v208 : Ref sig .tc := ⟨.hbm, 298, rfl⟩
abbrev main_v209 : Ref sig .tc := ⟨.hbm, 299, rfl⟩
abbrev main_c_68 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_c_69 : Ref sig .tc := ⟨.hbm, 304, rfl⟩
abbrev main_v213 : Ref sig .tc := ⟨.hbm, 305, rfl⟩
abbrev main_v214 : Ref sig .tc := ⟨.hbm, 306, rfl⟩
abbrev main_c_70 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_c_71 : Ref sig .tc := ⟨.hbm, 311, rfl⟩
abbrev main_v218 : Ref sig .tc := ⟨.hbm, 312, rfl⟩
abbrev main_v219 : Ref sig .tc := ⟨.hbm, 313, rfl⟩
abbrev main_c_72 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_cst_73 : Ref sig .tc := ⟨.hbm, 362, rfl⟩
abbrev main_v267 : Ref sig .tc := ⟨.hbm, 363, rfl⟩
abbrev main_v268 : Ref sig .tc := ⟨.hbm, 364, rfl⟩
abbrev main_cst_74 : Ref sig .tc := ⟨.hbm, 365, rfl⟩
abbrev main_v269 : Ref sig .tc := ⟨.hbm, 366, rfl⟩
abbrev main_v270 : Ref sig .tc := ⟨.hbm, 367, rfl⟩
abbrev main_cst_75 : Ref sig .tc := ⟨.hbm, 368, rfl⟩
abbrev main_v271 : Ref sig .tc := ⟨.hbm, 369, rfl⟩
abbrev main_v272 : Ref sig .tc := ⟨.hbm, 370, rfl⟩
abbrev main_cst_76 : Ref sig .tc := ⟨.hbm, 371, rfl⟩
abbrev main_c_77 : Ref sig .tc := ⟨.hbm, 372, rfl⟩
abbrev main_call3_v0 : Ref sig .tc := ⟨.hbm, 373, rfl⟩
abbrev main_call3_v1 : Ref sig .tc := ⟨.hbm, 374, rfl⟩
abbrev main_call3_v2 : Ref sig .tc := ⟨.hbm, 375, rfl⟩
abbrev main_call3_v3 : Ref sig .tc := ⟨.hbm, 376, rfl⟩
abbrev main_call3_v4 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_cst_78 : Ref sig .tc := ⟨.hbm, 381, rfl⟩
abbrev main_v276 : Ref sig .tc := ⟨.hbm, 382, rfl⟩
abbrev main_v277 : Ref sig .tc := ⟨.hbm, 383, rfl⟩
abbrev main_cst_79 : Ref sig .tc := ⟨.hbm, 384, rfl⟩
abbrev main_v278 : Ref sig .tc := ⟨.hbm, 385, rfl⟩
abbrev main_v279 : Ref sig .tc := ⟨.hbm, 386, rfl⟩
abbrev main_cst_80 : Ref sig .tc := ⟨.hbm, 387, rfl⟩
abbrev main_v280 : Ref sig .tc := ⟨.hbm, 388, rfl⟩
abbrev main_v281 : Ref sig .tc := ⟨.hbm, 389, rfl⟩
abbrev main_cst_81 : Ref sig .tc := ⟨.hbm, 390, rfl⟩
abbrev main_c_82 : Ref sig .tc := ⟨.hbm, 391, rfl⟩
abbrev main_call4_v0 : Ref sig .tc := ⟨.hbm, 392, rfl⟩
abbrev main_call4_v1 : Ref sig .tc := ⟨.hbm, 393, rfl⟩
abbrev main_call4_v2 : Ref sig .tc := ⟨.hbm, 394, rfl⟩
abbrev main_call4_v3 : Ref sig .tc := ⟨.hbm, 395, rfl⟩
abbrev main_call4_v4 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_cst_83 : Ref sig .tc := ⟨.hbm, 400, rfl⟩
abbrev main_v285 : Ref sig .tc := ⟨.hbm, 401, rfl⟩
abbrev main_v286 : Ref sig .tc := ⟨.hbm, 402, rfl⟩
abbrev main_cst_84 : Ref sig .tc := ⟨.hbm, 403, rfl⟩
abbrev main_v287 : Ref sig .tc := ⟨.hbm, 404, rfl⟩
abbrev main_v288 : Ref sig .tc := ⟨.hbm, 405, rfl⟩
abbrev main_cst_85 : Ref sig .tc := ⟨.hbm, 406, rfl⟩
abbrev main_v289 : Ref sig .tc := ⟨.hbm, 407, rfl⟩
abbrev main_v290 : Ref sig .tc := ⟨.hbm, 408, rfl⟩
abbrev main_cst_86 : Ref sig .tc := ⟨.hbm, 409, rfl⟩
abbrev main_c_87 : Ref sig .tc := ⟨.hbm, 410, rfl⟩
abbrev main_call5_v0 : Ref sig .tc := ⟨.hbm, 411, rfl⟩
abbrev main_call5_v1 : Ref sig .tc := ⟨.hbm, 412, rfl⟩
abbrev main_call5_v2 : Ref sig .tc := ⟨.hbm, 413, rfl⟩
abbrev main_call5_v3 : Ref sig .tc := ⟨.hbm, 414, rfl⟩
abbrev main_call5_v4 : Ref sig .tc := ⟨.hbm, 415, rfl⟩
abbrev main_v291 : Ref sig .tc := ⟨.hbm, 416, rfl⟩
abbrev main_v292 : Ref sig .tc := ⟨.hbm, 417, rfl⟩
abbrev main_v293 : Ref sig .tc := ⟨.hbm, 418, rfl⟩
abbrev main_v294 : Ref sig .tc := ⟨.hbm, 419, rfl⟩
abbrev main_v295 : Ref sig .tc := ⟨.hbm, 420, rfl⟩
abbrev main_v296 : Ref sig .tc := ⟨.hbm, 421, rfl⟩
abbrev main_v297 : Ref sig .tc := ⟨.hbm, 422, rfl⟩
abbrev main_v298 : Ref sig .tc := ⟨.hbm, 423, rfl⟩
abbrev main_cst_88 : Ref sig .tc := ⟨.hbm, 424, rfl⟩
abbrev main_v299 : Ref sig .tc := ⟨.hbm, 425, rfl⟩
abbrev main_v300 : Ref sig .tc := ⟨.hbm, 426, rfl⟩
abbrev main_cst_89 : Ref sig .tc := ⟨.hbm, 427, rfl⟩
abbrev main_v301 : Ref sig .tc := ⟨.hbm, 428, rfl⟩
abbrev main_v302 : Ref sig .tc := ⟨.hbm, 429, rfl⟩
abbrev main_v303 : Ref sig .tc := ⟨.hbm, 430, rfl⟩
abbrev main_v304 : Ref sig .tc := ⟨.hbm, 431, rfl⟩
abbrev main_cst_90 : Ref sig .tc := ⟨.hbm, 432, rfl⟩
abbrev main_v305 : Ref sig .tc := ⟨.hbm, 433, rfl⟩
abbrev main_v306 : Ref sig .tc := ⟨.hbm, 434, rfl⟩
abbrev main_cst_91 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_cst_92 : Ref sig .tc := ⟨.hbm, 440, rfl⟩
abbrev main_v311 : Ref sig .tc := ⟨.hbm, 441, rfl⟩
abbrev main_v312 : Ref sig .tc := ⟨.hbm, 442, rfl⟩
abbrev main_cst_93 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_v316 : Ref sig .tc := ⟨.hbm, 447, rfl⟩
abbrev main_c_94 : Ref sig .tc := ⟨.hbm, 448, rfl⟩
abbrev main_v317 : Ref sig .tc := ⟨.hbm, 449, rfl⟩
abbrev main_v318 : Ref sig .tc := ⟨.hbm, 450, rfl⟩
abbrev main_c_95 : Ref sig .tc := ⟨.hbm, 451, rfl⟩
abbrev main_v319 : Ref sig .tc := ⟨.hbm, 452, rfl⟩
abbrev main_v320 : Ref sig .tc := ⟨.hbm, 453, rfl⟩
abbrev main_v321 : Ref sig .tc := ⟨.hbm, 454, rfl⟩
abbrev main_c_96 : Ref sig .tc := ⟨.hbm, 455, rfl⟩
abbrev main_v322 : Ref sig .tc := ⟨.hbm, 456, rfl⟩
abbrev main_v323 : Ref sig .tc := ⟨.hbm, 457, rfl⟩
abbrev main_c_97 : Ref sig .tc := ⟨.hbm, 458, rfl⟩
abbrev main_v324 : Ref sig .tc := ⟨.hbm, 459, rfl⟩
abbrev main_v325 : Ref sig .tc := ⟨.hbm, 460, rfl⟩
abbrev main_v326 : Ref sig .tc := ⟨.hbm, 461, rfl⟩
abbrev main_c_98 : Ref sig .tc := ⟨.hbm, 462, rfl⟩
abbrev main_v327 : Ref sig .tc := ⟨.hbm, 463, rfl⟩
abbrev main_v328 : Ref sig .tc := ⟨.hbm, 464, rfl⟩
abbrev main_c_99 : Ref sig .tc := ⟨.hbm, 465, rfl⟩
abbrev main_v329 : Ref sig .tc := ⟨.hbm, 466, rfl⟩
abbrev main_v330 : Ref sig .tc := ⟨.hbm, 467, rfl⟩
abbrev main_c_100 : Ref sig .tc := ⟨.hbm, 468, rfl⟩
abbrev main_v331 : Ref sig .tc := ⟨.hbm, 469, rfl⟩
abbrev main_v332 : Ref sig .tc := ⟨.hbm, 470, rfl⟩
abbrev main_c_101 : Ref sig .tc := ⟨.hbm, 471, rfl⟩
abbrev main_v333 : Ref sig .tc := ⟨.hbm, 472, rfl⟩
abbrev main_v334 : Ref sig .tc := ⟨.hbm, 473, rfl⟩
abbrev main_v335 : Ref sig .tc := ⟨.hbm, 474, rfl⟩
abbrev main_c_102 : Ref sig .tc := ⟨.hbm, 475, rfl⟩
abbrev main_v336 : Ref sig .tc := ⟨.hbm, 476, rfl⟩
abbrev main_v337 : Ref sig .tc := ⟨.hbm, 477, rfl⟩
abbrev main_c_103 : Ref sig .tc := ⟨.hbm, 478, rfl⟩
abbrev main_v338 : Ref sig .tc := ⟨.hbm, 479, rfl⟩
abbrev main_v339 : Ref sig .tc := ⟨.hbm, 480, rfl⟩
abbrev main_v340 : Ref sig .tc := ⟨.hbm, 481, rfl⟩
abbrev main_c_104 : Ref sig .tc := ⟨.hbm, 482, rfl⟩
abbrev main_v341 : Ref sig .tc := ⟨.hbm, 483, rfl⟩
abbrev main_v342 : Ref sig .tc := ⟨.hbm, 484, rfl⟩
abbrev main_c_105 : Ref sig .tc := ⟨.hbm, 485, rfl⟩
abbrev main_v343 : Ref sig .tc := ⟨.hbm, 486, rfl⟩
abbrev main_v344 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_v349 : Ref sig .tc := ⟨.hbm, 492, rfl⟩
abbrev main_v350 : Ref sig .tc := ⟨.hbm, 493, rfl⟩
abbrev main_c_106 : Ref sig .tc := ⟨.hbm, 494, rfl⟩
abbrev main_v351 : Ref sig .tc := ⟨.hbm, 495, rfl⟩
abbrev main_v352 : Ref sig .tc := ⟨.hbm, 496, rfl⟩
abbrev main_c_107 : Ref sig .tc := ⟨.hbm, 497, rfl⟩
abbrev main_v353 : Ref sig .tc := ⟨.hbm, 498, rfl⟩
abbrev main_v354 : Ref sig .tc := ⟨.hbm, 499, rfl⟩
abbrev main_v355 : Ref sig .tc := ⟨.hbm, 500, rfl⟩
abbrev main_c_108 : Ref sig .tc := ⟨.hbm, 501, rfl⟩
abbrev main_v356 : Ref sig .tc := ⟨.hbm, 502, rfl⟩
abbrev main_v357 : Ref sig .tc := ⟨.hbm, 503, rfl⟩
abbrev main_c_109 : Ref sig .tc := ⟨.hbm, 504, rfl⟩
abbrev main_v358 : Ref sig .tc := ⟨.hbm, 505, rfl⟩
abbrev main_v359 : Ref sig .tc := ⟨.hbm, 506, rfl⟩
abbrev main_v360 : Ref sig .tc := ⟨.hbm, 507, rfl⟩
abbrev main_c_110 : Ref sig .tc := ⟨.hbm, 508, rfl⟩
abbrev main_v361 : Ref sig .tc := ⟨.hbm, 509, rfl⟩
abbrev main_v362 : Ref sig .tc := ⟨.hbm, 510, rfl⟩
abbrev main_c_111 : Ref sig .tc := ⟨.hbm, 511, rfl⟩
abbrev main_v363 : Ref sig .tc := ⟨.hbm, 512, rfl⟩
abbrev main_v364 : Ref sig .tc := ⟨.hbm, 513, rfl⟩
abbrev main_v365 : Ref sig .tc := ⟨.hbm, 514, rfl⟩
abbrev main_v366 : Ref sig .tc := ⟨.hbm, 515, rfl⟩
abbrev main_v367 : Ref sig .tc := ⟨.hbm, 516, rfl⟩
abbrev main_v368 : Ref sig .tc := ⟨.hbm, 517, rfl⟩
abbrev main_v369 : Ref sig .tc := ⟨.hbm, 518, rfl⟩
abbrev main_v370 : Ref sig .tc := ⟨.hbm, 519, rfl⟩
abbrev main_c_112 : Ref sig .tc := ⟨.hbm, 520, rfl⟩
abbrev main_v371 : Ref sig .tc := ⟨.hbm, 521, rfl⟩
abbrev main_v372 : Ref sig .tc := ⟨.hbm, 522, rfl⟩
abbrev main_c_113 : Ref sig .tc := ⟨.hbm, 523, rfl⟩
abbrev main_v373 : Ref sig .tc := ⟨.hbm, 524, rfl⟩
abbrev main_v374 : Ref sig .tc := ⟨.hbm, 525, rfl⟩
abbrev main_v375 : Ref sig .tc := ⟨.hbm, 526, rfl⟩
abbrev main_c_114 : Ref sig .tc := ⟨.hbm, 527, rfl⟩
abbrev main_v376 : Ref sig .tc := ⟨.hbm, 528, rfl⟩
abbrev main_v377 : Ref sig .tc := ⟨.hbm, 529, rfl⟩
abbrev main_c_115 : Ref sig .tc := ⟨.hbm, 530, rfl⟩
abbrev main_v378 : Ref sig .tc := ⟨.hbm, 531, rfl⟩
abbrev main_v379 : Ref sig .tc := ⟨.hbm, 532, rfl⟩
abbrev main_v380 : Ref sig .tc := ⟨.hbm, 533, rfl⟩
abbrev main_c_116 : Ref sig .tc := ⟨.hbm, 534, rfl⟩
abbrev main_v381 : Ref sig .tc := ⟨.hbm, 535, rfl⟩
abbrev main_v382 : Ref sig .tc := ⟨.hbm, 536, rfl⟩
abbrev main_c_117 : Ref sig .tc := ⟨.hbm, 537, rfl⟩
abbrev main_v383 : Ref sig .tc := ⟨.hbm, 538, rfl⟩
abbrev main_v384 : Ref sig .tc := ⟨.hbm, 539, rfl⟩
abbrev main_v385 : Ref sig .tc := ⟨.hbm, 540, rfl⟩
abbrev main_v386 : Ref sig .tc := ⟨.hbm, 541, rfl⟩
abbrev main_v387 : Ref sig .tc := ⟨.hbm, 542, rfl⟩
abbrev main_v388 : Ref sig .tc := ⟨.hbm, 543, rfl⟩
abbrev main_v389 : Ref sig .tc := ⟨.hbm, 544, rfl⟩
abbrev main_v390 : Ref sig .tc := ⟨.hbm, 545, rfl⟩
abbrev main_c_118 : Ref sig .tc := ⟨.hbm, 546, rfl⟩
abbrev main_v391 : Ref sig .tc := ⟨.hbm, 547, rfl⟩
abbrev main_v392 : Ref sig .tc := ⟨.hbm, 548, rfl⟩
abbrev main_c_119 : Ref sig .tc := ⟨.hbm, 549, rfl⟩
abbrev main_v393 : Ref sig .tc := ⟨.hbm, 550, rfl⟩
abbrev main_v394 : Ref sig .tc := ⟨.hbm, 551, rfl⟩
abbrev main_v395 : Ref sig .tc := ⟨.hbm, 552, rfl⟩
abbrev main_c_120 : Ref sig .tc := ⟨.hbm, 553, rfl⟩
abbrev main_v396 : Ref sig .tc := ⟨.hbm, 554, rfl⟩
abbrev main_v397 : Ref sig .tc := ⟨.hbm, 555, rfl⟩
abbrev main_c_121 : Ref sig .tc := ⟨.hbm, 556, rfl⟩
abbrev main_v398 : Ref sig .tc := ⟨.hbm, 557, rfl⟩
abbrev main_v399 : Ref sig .tc := ⟨.hbm, 558, rfl⟩
abbrev main_v400 : Ref sig .tc := ⟨.hbm, 559, rfl⟩
abbrev main_c_122 : Ref sig .tc := ⟨.hbm, 560, rfl⟩
abbrev main_v401 : Ref sig .tc := ⟨.hbm, 561, rfl⟩
abbrev main_v402 : Ref sig .tc := ⟨.hbm, 562, rfl⟩
abbrev main_c_123 : Ref sig .tc := ⟨.hbm, 563, rfl⟩
abbrev main_v403 : Ref sig .tc := ⟨.hbm, 564, rfl⟩
abbrev main_v404 : Ref sig .tc := ⟨.hbm, 565, rfl⟩
abbrev main_v405 : Ref sig .tc := ⟨.hbm, 566, rfl⟩
abbrev main_v406 : Ref sig .tc := ⟨.hbm, 567, rfl⟩
abbrev main_v407 : Ref sig .tc := ⟨.hbm, 568, rfl⟩
abbrev main_v408 : Ref sig .tc := ⟨.hbm, 569, rfl⟩
abbrev main_v409 : Ref sig .tc := ⟨.hbm, 570, rfl⟩
abbrev main_v410 : Ref sig .tc := ⟨.hbm, 571, rfl⟩
abbrev main_c_124 : Ref sig .tc := ⟨.hbm, 572, rfl⟩
abbrev main_v411 : Ref sig .tc := ⟨.hbm, 573, rfl⟩
abbrev main_v412 : Ref sig .tc := ⟨.hbm, 574, rfl⟩
abbrev main_c_125 : Ref sig .tc := ⟨.hbm, 575, rfl⟩
abbrev main_v413 : Ref sig .tc := ⟨.hbm, 576, rfl⟩
abbrev main_v414 : Ref sig .tc := ⟨.hbm, 577, rfl⟩
abbrev main_v415 : Ref sig .tc := ⟨.hbm, 578, rfl⟩
abbrev main_c_126 : Ref sig .tc := ⟨.hbm, 579, rfl⟩
abbrev main_v416 : Ref sig .tc := ⟨.hbm, 580, rfl⟩
abbrev main_v417 : Ref sig .tc := ⟨.hbm, 581, rfl⟩
abbrev main_c_127 : Ref sig .tc := ⟨.hbm, 582, rfl⟩
abbrev main_v418 : Ref sig .tc := ⟨.hbm, 583, rfl⟩
abbrev main_v419 : Ref sig .tc := ⟨.hbm, 584, rfl⟩
abbrev main_v420 : Ref sig .tc := ⟨.hbm, 585, rfl⟩
abbrev main_c_128 : Ref sig .tc := ⟨.hbm, 586, rfl⟩
abbrev main_v421 : Ref sig .tc := ⟨.hbm, 587, rfl⟩
abbrev main_v422 : Ref sig .tc := ⟨.hbm, 588, rfl⟩
abbrev main_c_129 : Ref sig .tc := ⟨.hbm, 589, rfl⟩
abbrev main_v423 : Ref sig .tc := ⟨.hbm, 590, rfl⟩
abbrev main_v424 : Ref sig .tc := ⟨.hbm, 591, rfl⟩
abbrev main_v425 : Ref sig .tc := ⟨.hbm, 592, rfl⟩
abbrev main_v426 : Ref sig .tc := ⟨.hbm, 593, rfl⟩
abbrev main_v427 : Ref sig .tc := ⟨.hbm, 594, rfl⟩
abbrev main_v428 : Ref sig .tc := ⟨.hbm, 595, rfl⟩
abbrev main_v429 : Ref sig .tc := ⟨.hbm, 596, rfl⟩
abbrev main_v430 : Ref sig .tc := ⟨.hbm, 597, rfl⟩
abbrev main_c_130 : Ref sig .tc := ⟨.hbm, 598, rfl⟩
abbrev main_v431 : Ref sig .tc := ⟨.hbm, 599, rfl⟩
abbrev main_v432 : Ref sig .tc := ⟨.hbm, 600, rfl⟩
abbrev main_c_131 : Ref sig .tc := ⟨.hbm, 601, rfl⟩
abbrev main_v433 : Ref sig .tc := ⟨.hbm, 602, rfl⟩
abbrev main_v434 : Ref sig .tc := ⟨.hbm, 603, rfl⟩
abbrev main_v435 : Ref sig .tc := ⟨.hbm, 604, rfl⟩
abbrev main_c_132 : Ref sig .tc := ⟨.hbm, 605, rfl⟩
abbrev main_v436 : Ref sig .tc := ⟨.hbm, 606, rfl⟩
abbrev main_v437 : Ref sig .tc := ⟨.hbm, 607, rfl⟩
abbrev main_c_133 : Ref sig .tc := ⟨.hbm, 608, rfl⟩
abbrev main_v438 : Ref sig .tc := ⟨.hbm, 609, rfl⟩
abbrev main_v439 : Ref sig .tc := ⟨.hbm, 610, rfl⟩
abbrev main_v440 : Ref sig .tc := ⟨.hbm, 611, rfl⟩
abbrev main_c_134 : Ref sig .tc := ⟨.hbm, 612, rfl⟩
abbrev main_v441 : Ref sig .tc := ⟨.hbm, 613, rfl⟩
abbrev main_v442 : Ref sig .tc := ⟨.hbm, 614, rfl⟩
abbrev main_c_135 : Ref sig .tc := ⟨.hbm, 615, rfl⟩
abbrev main_v443 : Ref sig .tc := ⟨.hbm, 616, rfl⟩
abbrev main_v444 : Ref sig .tc := ⟨.hbm, 617, rfl⟩
abbrev main_v445 : Ref sig .tc := ⟨.hbm, 618, rfl⟩
abbrev main_v446 : Ref sig .tc := ⟨.hbm, 619, rfl⟩
abbrev main_v447 : Ref sig .tc := ⟨.hbm, 620, rfl⟩
abbrev main_v448 : Ref sig .tc := ⟨.hbm, 621, rfl⟩
abbrev main_v449 : Ref sig .tc := ⟨.hbm, 622, rfl⟩
abbrev main_v450 : Ref sig .tc := ⟨.hbm, 623, rfl⟩
abbrev main_c_136 : Ref sig .tc := ⟨.hbm, 624, rfl⟩
abbrev main_v451 : Ref sig .tc := ⟨.hbm, 625, rfl⟩
abbrev main_v452 : Ref sig .tc := ⟨.hbm, 626, rfl⟩
abbrev main_c_137 : Ref sig .tc := ⟨.hbm, 627, rfl⟩
abbrev main_v453 : Ref sig .tc := ⟨.hbm, 628, rfl⟩
abbrev main_v454 : Ref sig .tc := ⟨.hbm, 629, rfl⟩
abbrev main_v455 : Ref sig .tc := ⟨.hbm, 630, rfl⟩
abbrev main_c_138 : Ref sig .tc := ⟨.hbm, 631, rfl⟩
abbrev main_v456 : Ref sig .tc := ⟨.hbm, 632, rfl⟩
abbrev main_v457 : Ref sig .tc := ⟨.hbm, 633, rfl⟩
abbrev main_c_139 : Ref sig .tc := ⟨.hbm, 634, rfl⟩
abbrev main_v458 : Ref sig .tc := ⟨.hbm, 635, rfl⟩
abbrev main_v459 : Ref sig .tc := ⟨.hbm, 636, rfl⟩
abbrev main_v460 : Ref sig .tc := ⟨.hbm, 637, rfl⟩
abbrev main_c_140 : Ref sig .tc := ⟨.hbm, 638, rfl⟩
abbrev main_v461 : Ref sig .tc := ⟨.hbm, 639, rfl⟩
abbrev main_v462 : Ref sig .tc := ⟨.hbm, 640, rfl⟩
abbrev main_c_141 : Ref sig .tc := ⟨.hbm, 641, rfl⟩
abbrev main_v463 : Ref sig .tc := ⟨.hbm, 642, rfl⟩
abbrev main_v464 : Ref sig .tc := ⟨.hbm, 643, rfl⟩
abbrev main_v465 : Ref sig .tc := ⟨.hbm, 644, rfl⟩
abbrev main_v466 : Ref sig .tc := ⟨.hbm, 645, rfl⟩
abbrev main_v467 : Ref sig .tc := ⟨.hbm, 646, rfl⟩
abbrev main_v468 : Ref sig .tc := ⟨.hbm, 647, rfl⟩
abbrev main_v469 : Ref sig .tc := ⟨.hbm, 648, rfl⟩
abbrev main_v470 : Ref sig .tc := ⟨.hbm, 649, rfl⟩
abbrev main_c_142 : Ref sig .tc := ⟨.hbm, 650, rfl⟩
abbrev main_v471 : Ref sig .tc := ⟨.hbm, 651, rfl⟩
abbrev main_v472 : Ref sig .tc := ⟨.hbm, 652, rfl⟩
abbrev main_c_143 : Ref sig .tc := ⟨.hbm, 653, rfl⟩
abbrev main_v473 : Ref sig .tc := ⟨.hbm, 654, rfl⟩
abbrev main_v474 : Ref sig .tc := ⟨.hbm, 655, rfl⟩
abbrev main_v475 : Ref sig .tc := ⟨.hbm, 656, rfl⟩
abbrev main_c_144 : Ref sig .tc := ⟨.hbm, 657, rfl⟩
abbrev main_v476 : Ref sig .tc := ⟨.hbm, 658, rfl⟩
abbrev main_v477 : Ref sig .tc := ⟨.hbm, 659, rfl⟩
abbrev main_c_145 : Ref sig .tc := ⟨.hbm, 660, rfl⟩
abbrev main_v478 : Ref sig .tc := ⟨.hbm, 661, rfl⟩
abbrev main_v479 : Ref sig .tc := ⟨.hbm, 662, rfl⟩
abbrev main_v480 : Ref sig .tc := ⟨.hbm, 663, rfl⟩
abbrev main_c_146 : Ref sig .tc := ⟨.hbm, 664, rfl⟩
abbrev main_v481 : Ref sig .tc := ⟨.hbm, 665, rfl⟩
abbrev main_v482 : Ref sig .tc := ⟨.hbm, 666, rfl⟩
abbrev main_c_147 : Ref sig .tc := ⟨.hbm, 667, rfl⟩
abbrev main_v483 : Ref sig .tc := ⟨.hbm, 668, rfl⟩
abbrev main_v484 : Ref sig .tc := ⟨.hbm, 669, rfl⟩
abbrev main_v485 : Ref sig .tc := ⟨.hbm, 670, rfl⟩
abbrev main_v486 : Ref sig .tc := ⟨.hbm, 671, rfl⟩
abbrev main_v487 : Ref sig .tc := ⟨.hbm, 672, rfl⟩
abbrev main_v488 : Ref sig .tc := ⟨.hbm, 673, rfl⟩
abbrev main_v489 : Ref sig .tc := ⟨.hbm, 674, rfl⟩
abbrev main_v490 : Ref sig .tc := ⟨.hbm, 675, rfl⟩
abbrev main_v491 : Ref sig .tc := ⟨.hbm, 676, rfl⟩
abbrev main_v492 : Ref sig .tc := ⟨.hbm, 677, rfl⟩
abbrev main_v493 : Ref sig .tc := ⟨.hbm, 678, rfl⟩
abbrev main_v494 : Ref sig .tc := ⟨.hbm, 679, rfl⟩
abbrev main_v495 : Ref sig .tc := ⟨.hbm, 680, rfl⟩
abbrev main_v496 : Ref sig .tc := ⟨.hbm, 681, rfl⟩
abbrev main_v497 : Ref sig .tc := ⟨.hbm, 682, rfl⟩
abbrev main_v498 : Ref sig .tc := ⟨.hbm, 683, rfl⟩
abbrev main_v499 : Ref sig .tc := ⟨.hbm, 684, rfl⟩
abbrev main_v500 : Ref sig .tc := ⟨.hbm, 685, rfl⟩
abbrev main_v501 : Ref sig .tc := ⟨.hbm, 686, rfl⟩
abbrev main_v502 : Ref sig .tc := ⟨.hbm, 687, rfl⟩
abbrev main_v503 : Ref sig .tc := ⟨.hbm, 688, rfl⟩
abbrev main_v504 : Ref sig .tc := ⟨.hbm, 689, rfl⟩
abbrev main_v505 : Ref sig .tc := ⟨.hbm, 690, rfl⟩
abbrev main_v506 : Ref sig .tc := ⟨.hbm, 691, rfl⟩
abbrev main_v507 : Ref sig .tc := ⟨.hbm, 692, rfl⟩
abbrev main_v508 : Ref sig .tc := ⟨.hbm, 693, rfl⟩
abbrev main_v509 : Ref sig .tc := ⟨.hbm, 694, rfl⟩
abbrev main_v510 : Ref sig .tc := ⟨.hbm, 695, rfl⟩
abbrev main_v511 : Ref sig .tc := ⟨.hbm, 696, rfl⟩
abbrev main_v512 : Ref sig .tc := ⟨.hbm, 697, rfl⟩
abbrev main_v513 : Ref sig .tc := ⟨.hbm, 698, rfl⟩
abbrev main_v514 : Ref sig .tc := ⟨.hbm, 699, rfl⟩
abbrev main_v515 : Ref sig .tc := ⟨.hbm, 700, rfl⟩
abbrev main_v516 : Ref sig .tc := ⟨.hbm, 701, rfl⟩
abbrev main_v517 : Ref sig .tc := ⟨.hbm, 702, rfl⟩
abbrev main_v518 : Ref sig .tc := ⟨.hbm, 703, rfl⟩
abbrev main_v519 : Ref sig .tc := ⟨.hbm, 704, rfl⟩
abbrev main_v520 : Ref sig .tc := ⟨.hbm, 705, rfl⟩
abbrev main_v521 : Ref sig .tc := ⟨.hbm, 706, rfl⟩
abbrev main_v522 : Ref sig .tc := ⟨.hbm, 707, rfl⟩
abbrev main_v523 : Ref sig .tc := ⟨.hbm, 708, rfl⟩
abbrev main_v524 : Ref sig .tc := ⟨.hbm, 709, rfl⟩
abbrev main_v525 : Ref sig .tc := ⟨.hbm, 710, rfl⟩
abbrev main_v526 : Ref sig .tc := ⟨.hbm, 711, rfl⟩
abbrev main_v527 : Ref sig .tc := ⟨.hbm, 712, rfl⟩
abbrev main_v528 : Ref sig .tc := ⟨.hbm, 713, rfl⟩
abbrev main_v529 : Ref sig .tc := ⟨.hbm, 714, rfl⟩
abbrev main_cst_148 : Ref sig .tc := ⟨.hbm, 715, rfl⟩
abbrev main_v530 : Ref sig .tc := ⟨.hbm, 716, rfl⟩
abbrev main_v531 : Ref sig .tc := ⟨.hbm, 717, rfl⟩
abbrev main_cst_149 : Ref sig .tc := ⟨.hbm, 718, rfl⟩
abbrev main_v532 : Ref sig .tc := ⟨.hbm, 719, rfl⟩
abbrev main_v533 : Ref sig .tc := ⟨.hbm, 720, rfl⟩
abbrev main_cst_150 : Ref sig .tc := ⟨.hbm, 721, rfl⟩
abbrev main_v534 : Ref sig .tc := ⟨.hbm, 722, rfl⟩
abbrev main_v535 : Ref sig .tc := ⟨.hbm, 723, rfl⟩
abbrev main_cst_151 : Ref sig .tc := ⟨.hbm, 724, rfl⟩
abbrev main_c_152 : Ref sig .tc := ⟨.hbm, 725, rfl⟩
abbrev main_call6_v0 : Ref sig .tc := ⟨.hbm, 726, rfl⟩
abbrev main_call6_v1 : Ref sig .tc := ⟨.hbm, 727, rfl⟩
abbrev main_call6_v2 : Ref sig .tc := ⟨.hbm, 728, rfl⟩
abbrev main_call6_v3 : Ref sig .tc := ⟨.hbm, 729, rfl⟩
abbrev main_call6_v4 : Ref sig .tc := ⟨.hbm, 730, rfl⟩
abbrev main_v536 : Ref sig .tc := ⟨.hbm, 731, rfl⟩
abbrev main_v537 : Ref sig .tc := ⟨.hbm, 732, rfl⟩
abbrev main_v538 : Ref sig .tc := ⟨.hbm, 733, rfl⟩
abbrev main_cst_153 : Ref sig .tc := ⟨.hbm, 734, rfl⟩
abbrev main_v539 : Ref sig .tc := ⟨.hbm, 735, rfl⟩
abbrev main_v540 : Ref sig .tc := ⟨.hbm, 736, rfl⟩
abbrev main_cst_154 : Ref sig .tc := ⟨.hbm, 737, rfl⟩
abbrev main_v541 : Ref sig .tc := ⟨.hbm, 738, rfl⟩
abbrev main_v542 : Ref sig .tc := ⟨.hbm, 739, rfl⟩
abbrev main_cst_155 : Ref sig .tc := ⟨.hbm, 740, rfl⟩
abbrev main_v543 : Ref sig .tc := ⟨.hbm, 741, rfl⟩
abbrev main_v544 : Ref sig .tc := ⟨.hbm, 742, rfl⟩
abbrev main_cst_156 : Ref sig .tc := ⟨.hbm, 743, rfl⟩
abbrev main_c_157 : Ref sig .tc := ⟨.hbm, 744, rfl⟩
abbrev main_call7_v0 : Ref sig .tc := ⟨.hbm, 745, rfl⟩
abbrev main_call7_v1 : Ref sig .tc := ⟨.hbm, 746, rfl⟩
abbrev main_call7_v2 : Ref sig .tc := ⟨.hbm, 747, rfl⟩
abbrev main_call7_v3 : Ref sig .tc := ⟨.hbm, 748, rfl⟩
abbrev main_call7_v4 : Ref sig .tc := ⟨.hbm, 749, rfl⟩
abbrev main_v545 : Ref sig .tc := ⟨.hbm, 750, rfl⟩
abbrev main_v546 : Ref sig .tc := ⟨.hbm, 751, rfl⟩
abbrev main_v547 : Ref sig .tc := ⟨.hbm, 752, rfl⟩
abbrev main_cst_158 : Ref sig .tc := ⟨.hbm, 753, rfl⟩
abbrev main_v548 : Ref sig .tc := ⟨.hbm, 754, rfl⟩
abbrev main_v549 : Ref sig .tc := ⟨.hbm, 755, rfl⟩
abbrev main_cst_159 : Ref sig .tc := ⟨.hbm, 756, rfl⟩
abbrev main_v550 : Ref sig .tc := ⟨.hbm, 757, rfl⟩
abbrev main_v551 : Ref sig .tc := ⟨.hbm, 758, rfl⟩
abbrev main_cst_160 : Ref sig .tc := ⟨.hbm, 759, rfl⟩
abbrev main_v552 : Ref sig .tc := ⟨.hbm, 760, rfl⟩
abbrev main_v553 : Ref sig .tc := ⟨.hbm, 761, rfl⟩
abbrev main_cst_161 : Ref sig .tc := ⟨.hbm, 762, rfl⟩
abbrev main_c_162 : Ref sig .tc := ⟨.hbm, 763, rfl⟩
abbrev main_call8_v0 : Ref sig .tc := ⟨.hbm, 764, rfl⟩
abbrev main_call8_v1 : Ref sig .tc := ⟨.hbm, 765, rfl⟩
abbrev main_call8_v2 : Ref sig .tc := ⟨.hbm, 766, rfl⟩
abbrev main_call8_v3 : Ref sig .tc := ⟨.hbm, 767, rfl⟩
abbrev main_call8_v4 : Ref sig .tc := ⟨.hbm, 768, rfl⟩
abbrev main_v554 : Ref sig .tc := ⟨.hbm, 769, rfl⟩
abbrev main_v555 : Ref sig .tc := ⟨.hbm, 770, rfl⟩
abbrev main_v556 : Ref sig .tc := ⟨.hbm, 771, rfl⟩
abbrev main_v557 : Ref sig .tc := ⟨.hbm, 772, rfl⟩
abbrev main_v558 : Ref sig .tc := ⟨.hbm, 773, rfl⟩
abbrev main_v559 : Ref sig .tc := ⟨.hbm, 774, rfl⟩
abbrev main_v560 : Ref sig .tc := ⟨.hbm, 775, rfl⟩
abbrev main_v561 : Ref sig .tc := ⟨.hbm, 776, rfl⟩
abbrev main_cst_163 : Ref sig .tc := ⟨.hbm, 777, rfl⟩
abbrev main_v562 : Ref sig .tc := ⟨.hbm, 778, rfl⟩
abbrev main_v563 : Ref sig .tc := ⟨.hbm, 779, rfl⟩
abbrev main_cst_164 : Ref sig .tc := ⟨.hbm, 780, rfl⟩
abbrev main_v564 : Ref sig .tc := ⟨.hbm, 781, rfl⟩
abbrev main_v565 : Ref sig .tc := ⟨.hbm, 782, rfl⟩
abbrev main_v566 : Ref sig .tc := ⟨.hbm, 783, rfl⟩
abbrev main_v567 : Ref sig .tc := ⟨.hbm, 784, rfl⟩
abbrev main_cst_165 : Ref sig .tc := ⟨.hbm, 785, rfl⟩
abbrev main_v568 : Ref sig .tc := ⟨.hbm, 786, rfl⟩
abbrev main_v569 : Ref sig .tc := ⟨.hbm, 787, rfl⟩
abbrev main_cst_166 : Ref sig .tc := ⟨.hbm, 788, rfl⟩
abbrev main_v570 : Ref sig .tc := ⟨.hbm, 789, rfl⟩
abbrev main_v571 : Ref sig .tc := ⟨.hbm, 790, rfl⟩
abbrev main_v572 : Ref sig .tc := ⟨.hbm, 791, rfl⟩
abbrev main_v573 : Ref sig .tc := ⟨.hbm, 792, rfl⟩
abbrev main_cst_167 : Ref sig .tc := ⟨.hbm, 793, rfl⟩
abbrev main_v574 : Ref sig .tc := ⟨.hbm, 794, rfl⟩
abbrev main_v575 : Ref sig .tc := ⟨.hbm, 795, rfl⟩
abbrev main_cst_168 : Ref sig .tc := ⟨.hbm, 796, rfl⟩
abbrev main_v576 : Ref sig .tc := ⟨.hbm, 797, rfl⟩
abbrev main_v577 : Ref sig .tc := ⟨.hbm, 798, rfl⟩
abbrev main_v578 : Ref sig .tc := ⟨.hbm, 799, rfl⟩
abbrev main_v579 : Ref sig .tc := ⟨.hbm, 800, rfl⟩
abbrev main_c_169 : Ref sig .tc := ⟨.hbm, 801, rfl⟩
abbrev main_v580 : Ref sig .tc := ⟨.hbm, 802, rfl⟩
abbrev main_v581 : Ref sig .tc := ⟨.hbm, 803, rfl⟩
abbrev main_c_170 : Ref sig .tc := ⟨.hbm, 804, rfl⟩
abbrev main_v582 : Ref sig .tc := ⟨.hbm, 805, rfl⟩
abbrev main_v583 : Ref sig .tc := ⟨.hbm, 806, rfl⟩
abbrev main_v584 : Ref sig .tc := ⟨.hbm, 807, rfl⟩
abbrev main_c_171 : Ref sig .tc := ⟨.hbm, 808, rfl⟩
abbrev main_v585 : Ref sig .tc := ⟨.hbm, 809, rfl⟩
abbrev main_v586 : Ref sig .tc := ⟨.hbm, 810, rfl⟩
abbrev main_c_172 : Ref sig .tc := ⟨.hbm, 811, rfl⟩
abbrev main_v587 : Ref sig .tc := ⟨.hbm, 812, rfl⟩
abbrev main_v588 : Ref sig .tc := ⟨.hbm, 813, rfl⟩
abbrev main_v589 : Ref sig .tc := ⟨.hbm, 814, rfl⟩
abbrev main_c_173 : Ref sig .tc := ⟨.hbm, 815, rfl⟩
abbrev main_v590 : Ref sig .tc := ⟨.hbm, 816, rfl⟩
abbrev main_v591 : Ref sig .tc := ⟨.hbm, 817, rfl⟩
abbrev main_c_174 : Ref sig .tc := ⟨.hbm, 818, rfl⟩
abbrev main_v592 : Ref sig .tc := ⟨.hbm, 819, rfl⟩
abbrev main_v593 : Ref sig .tc := ⟨.hbm, 820, rfl⟩
abbrev main_c_175 : Ref sig .tc := ⟨.hbm, 821, rfl⟩
abbrev main_v594 : Ref sig .tc := ⟨.hbm, 822, rfl⟩
abbrev main_v595 : Ref sig .tc := ⟨.hbm, 823, rfl⟩
abbrev main_c_176 : Ref sig .tc := ⟨.hbm, 824, rfl⟩
abbrev main_v596 : Ref sig .tc := ⟨.hbm, 825, rfl⟩
abbrev main_v597 : Ref sig .tc := ⟨.hbm, 826, rfl⟩
abbrev main_v598 : Ref sig .tc := ⟨.hbm, 827, rfl⟩
abbrev main_c_177 : Ref sig .tc := ⟨.hbm, 828, rfl⟩
abbrev main_v599 : Ref sig .tc := ⟨.hbm, 829, rfl⟩
abbrev main_v600 : Ref sig .tc := ⟨.hbm, 830, rfl⟩
abbrev main_c_178 : Ref sig .tc := ⟨.hbm, 831, rfl⟩
abbrev main_v601 : Ref sig .tc := ⟨.hbm, 832, rfl⟩
abbrev main_v602 : Ref sig .tc := ⟨.hbm, 833, rfl⟩
abbrev main_v603 : Ref sig .tc := ⟨.hbm, 834, rfl⟩
abbrev main_c_179 : Ref sig .tc := ⟨.hbm, 835, rfl⟩
abbrev main_v604 : Ref sig .tc := ⟨.hbm, 836, rfl⟩
abbrev main_v605 : Ref sig .tc := ⟨.hbm, 837, rfl⟩
abbrev main_c_180 : Ref sig .tc := ⟨.hbm, 838, rfl⟩
abbrev main_v606 : Ref sig .tc := ⟨.hbm, 839, rfl⟩
abbrev main_v607 : Ref sig .tc := ⟨.hbm, 840, rfl⟩
abbrev main_v608 : Ref sig .tc := ⟨.hbm, 841, rfl⟩
abbrev main_v609 : Ref sig .tc := ⟨.hbm, 842, rfl⟩
abbrev main_v610 : Ref sig .tc := ⟨.hbm, 843, rfl⟩
abbrev main_v611 : Ref sig .tc := ⟨.hbm, 844, rfl⟩
abbrev main_v612 : Ref sig .tc := ⟨.hbm, 845, rfl⟩
abbrev main_v613 : Ref sig .tc := ⟨.hbm, 846, rfl⟩
abbrev main_c_181 : Ref sig .tc := ⟨.hbm, 847, rfl⟩
abbrev main_v614 : Ref sig .tc := ⟨.hbm, 848, rfl⟩
abbrev main_v615 : Ref sig .tc := ⟨.hbm, 849, rfl⟩
abbrev main_c_182 : Ref sig .tc := ⟨.hbm, 850, rfl⟩
abbrev main_v616 : Ref sig .tc := ⟨.hbm, 851, rfl⟩
abbrev main_v617 : Ref sig .tc := ⟨.hbm, 852, rfl⟩
abbrev main_v618 : Ref sig .tc := ⟨.hbm, 853, rfl⟩
abbrev main_c_183 : Ref sig .tc := ⟨.hbm, 854, rfl⟩
abbrev main_v619 : Ref sig .tc := ⟨.hbm, 855, rfl⟩
abbrev main_v620 : Ref sig .tc := ⟨.hbm, 856, rfl⟩
abbrev main_c_184 : Ref sig .tc := ⟨.hbm, 857, rfl⟩
abbrev main_v621 : Ref sig .tc := ⟨.hbm, 858, rfl⟩
abbrev main_v622 : Ref sig .tc := ⟨.hbm, 859, rfl⟩
abbrev main_v623 : Ref sig .tc := ⟨.hbm, 860, rfl⟩
abbrev main_c_185 : Ref sig .tc := ⟨.hbm, 861, rfl⟩
abbrev main_v624 : Ref sig .tc := ⟨.hbm, 862, rfl⟩
abbrev main_v625 : Ref sig .tc := ⟨.hbm, 863, rfl⟩
abbrev main_c_186 : Ref sig .tc := ⟨.hbm, 864, rfl⟩
abbrev main_v626 : Ref sig .tc := ⟨.hbm, 865, rfl⟩
abbrev main_v627 : Ref sig .tc := ⟨.hbm, 866, rfl⟩
abbrev main_v628 : Ref sig .tc := ⟨.hbm, 867, rfl⟩
abbrev main_v629 : Ref sig .tc := ⟨.hbm, 868, rfl⟩
abbrev main_v630 : Ref sig .tc := ⟨.hbm, 869, rfl⟩
abbrev main_v631 : Ref sig .tc := ⟨.hbm, 870, rfl⟩
abbrev main_v632 : Ref sig .tc := ⟨.hbm, 871, rfl⟩
abbrev main_v633 : Ref sig .tc := ⟨.hbm, 872, rfl⟩
abbrev main_c_187 : Ref sig .tc := ⟨.hbm, 873, rfl⟩
abbrev main_v634 : Ref sig .tc := ⟨.hbm, 874, rfl⟩
abbrev main_v635 : Ref sig .tc := ⟨.hbm, 875, rfl⟩
abbrev main_c_188 : Ref sig .tc := ⟨.hbm, 876, rfl⟩
abbrev main_v636 : Ref sig .tc := ⟨.hbm, 877, rfl⟩
abbrev main_v637 : Ref sig .tc := ⟨.hbm, 878, rfl⟩
abbrev main_v638 : Ref sig .tc := ⟨.hbm, 879, rfl⟩
abbrev main_c_189 : Ref sig .tc := ⟨.hbm, 880, rfl⟩
abbrev main_v639 : Ref sig .tc := ⟨.hbm, 881, rfl⟩
abbrev main_v640 : Ref sig .tc := ⟨.hbm, 882, rfl⟩
abbrev main_c_190 : Ref sig .tc := ⟨.hbm, 883, rfl⟩
abbrev main_v641 : Ref sig .tc := ⟨.hbm, 884, rfl⟩
abbrev main_v642 : Ref sig .tc := ⟨.hbm, 885, rfl⟩
abbrev main_v643 : Ref sig .tc := ⟨.hbm, 886, rfl⟩
abbrev main_c_191 : Ref sig .tc := ⟨.hbm, 887, rfl⟩
abbrev main_v644 : Ref sig .tc := ⟨.hbm, 888, rfl⟩
abbrev main_v645 : Ref sig .tc := ⟨.hbm, 889, rfl⟩
abbrev main_c_192 : Ref sig .tc := ⟨.hbm, 890, rfl⟩
abbrev main_v646 : Ref sig .tc := ⟨.hbm, 891, rfl⟩
abbrev main_v647 : Ref sig .tc := ⟨.hbm, 892, rfl⟩
abbrev main_v648 : Ref sig .tc := ⟨.hbm, 893, rfl⟩
abbrev main_v649 : Ref sig .tc := ⟨.hbm, 894, rfl⟩
abbrev main_v650 : Ref sig .tc := ⟨.hbm, 895, rfl⟩
abbrev main_v651 : Ref sig .tc := ⟨.hbm, 896, rfl⟩
abbrev main_v652 : Ref sig .tc := ⟨.hbm, 897, rfl⟩
abbrev main_v653 : Ref sig .tc := ⟨.hbm, 898, rfl⟩
abbrev main_c_193 : Ref sig .tc := ⟨.hbm, 899, rfl⟩
abbrev main_v654 : Ref sig .tc := ⟨.hbm, 900, rfl⟩
abbrev main_v655 : Ref sig .tc := ⟨.hbm, 901, rfl⟩
abbrev main_c_194 : Ref sig .tc := ⟨.hbm, 902, rfl⟩
abbrev main_v656 : Ref sig .tc := ⟨.hbm, 903, rfl⟩
abbrev main_v657 : Ref sig .tc := ⟨.hbm, 904, rfl⟩
abbrev main_v658 : Ref sig .tc := ⟨.hbm, 905, rfl⟩
abbrev main_c_195 : Ref sig .tc := ⟨.hbm, 906, rfl⟩
abbrev main_v659 : Ref sig .tc := ⟨.hbm, 907, rfl⟩
abbrev main_v660 : Ref sig .tc := ⟨.hbm, 908, rfl⟩
abbrev main_c_196 : Ref sig .tc := ⟨.hbm, 909, rfl⟩
abbrev main_v661 : Ref sig .tc := ⟨.hbm, 910, rfl⟩
abbrev main_v662 : Ref sig .tc := ⟨.hbm, 911, rfl⟩
abbrev main_v663 : Ref sig .tc := ⟨.hbm, 912, rfl⟩
abbrev main_c_197 : Ref sig .tc := ⟨.hbm, 913, rfl⟩
abbrev main_v664 : Ref sig .tc := ⟨.hbm, 914, rfl⟩
abbrev main_v665 : Ref sig .tc := ⟨.hbm, 915, rfl⟩
abbrev main_c_198 : Ref sig .tc := ⟨.hbm, 916, rfl⟩
abbrev main_v666 : Ref sig .tc := ⟨.hbm, 917, rfl⟩
abbrev main_v667 : Ref sig .tc := ⟨.hbm, 918, rfl⟩
abbrev main_v668 : Ref sig .tc := ⟨.hbm, 919, rfl⟩
abbrev main_v669 : Ref sig .tc := ⟨.hbm, 920, rfl⟩
abbrev main_v670 : Ref sig .tc := ⟨.hbm, 921, rfl⟩
abbrev main_v671 : Ref sig .tc := ⟨.hbm, 922, rfl⟩
abbrev main_v672 : Ref sig .tc := ⟨.hbm, 923, rfl⟩
abbrev main_v673 : Ref sig .tc := ⟨.hbm, 924, rfl⟩
abbrev main_c_199 : Ref sig .tc := ⟨.hbm, 925, rfl⟩
abbrev main_v674 : Ref sig .tc := ⟨.hbm, 926, rfl⟩
abbrev main_v675 : Ref sig .tc := ⟨.hbm, 927, rfl⟩
abbrev main_c_200 : Ref sig .tc := ⟨.hbm, 928, rfl⟩
abbrev main_v676 : Ref sig .tc := ⟨.hbm, 929, rfl⟩
abbrev main_v677 : Ref sig .tc := ⟨.hbm, 930, rfl⟩
abbrev main_v678 : Ref sig .tc := ⟨.hbm, 931, rfl⟩
abbrev main_c_201 : Ref sig .tc := ⟨.hbm, 932, rfl⟩
abbrev main_v679 : Ref sig .tc := ⟨.hbm, 933, rfl⟩
abbrev main_v680 : Ref sig .tc := ⟨.hbm, 934, rfl⟩
abbrev main_c_202 : Ref sig .tc := ⟨.hbm, 935, rfl⟩
abbrev main_v681 : Ref sig .tc := ⟨.hbm, 936, rfl⟩
abbrev main_v682 : Ref sig .tc := ⟨.hbm, 937, rfl⟩
abbrev main_v683 : Ref sig .tc := ⟨.hbm, 938, rfl⟩
abbrev main_c_203 : Ref sig .tc := ⟨.hbm, 939, rfl⟩
abbrev main_v684 : Ref sig .tc := ⟨.hbm, 940, rfl⟩
abbrev main_v685 : Ref sig .tc := ⟨.hbm, 941, rfl⟩
abbrev main_c_204 : Ref sig .tc := ⟨.hbm, 942, rfl⟩
abbrev main_v686 : Ref sig .tc := ⟨.hbm, 943, rfl⟩
abbrev main_v687 : Ref sig .tc := ⟨.hbm, 944, rfl⟩
abbrev main_v688 : Ref sig .tc := ⟨.hbm, 945, rfl⟩
abbrev main_v689 : Ref sig .tc := ⟨.hbm, 946, rfl⟩
abbrev main_v690 : Ref sig .tc := ⟨.hbm, 947, rfl⟩
abbrev main_v691 : Ref sig .tc := ⟨.hbm, 948, rfl⟩
abbrev main_v692 : Ref sig .tc := ⟨.hbm, 949, rfl⟩
abbrev main_v693 : Ref sig .tc := ⟨.hbm, 950, rfl⟩
abbrev main_c_205 : Ref sig .tc := ⟨.hbm, 951, rfl⟩
abbrev main_v694 : Ref sig .tc := ⟨.hbm, 952, rfl⟩
abbrev main_v695 : Ref sig .tc := ⟨.hbm, 953, rfl⟩
abbrev main_c_206 : Ref sig .tc := ⟨.hbm, 954, rfl⟩
abbrev main_v696 : Ref sig .tc := ⟨.hbm, 955, rfl⟩
abbrev main_v697 : Ref sig .tc := ⟨.hbm, 956, rfl⟩
abbrev main_v698 : Ref sig .tc := ⟨.hbm, 957, rfl⟩
abbrev main_c_207 : Ref sig .tc := ⟨.hbm, 958, rfl⟩
abbrev main_v699 : Ref sig .tc := ⟨.hbm, 959, rfl⟩
abbrev main_v700 : Ref sig .tc := ⟨.hbm, 960, rfl⟩
abbrev main_c_208 : Ref sig .tc := ⟨.hbm, 961, rfl⟩
abbrev main_v701 : Ref sig .tc := ⟨.hbm, 962, rfl⟩
abbrev main_v702 : Ref sig .tc := ⟨.hbm, 963, rfl⟩
abbrev main_v703 : Ref sig .tc := ⟨.hbm, 964, rfl⟩
abbrev main_c_209 : Ref sig .tc := ⟨.hbm, 965, rfl⟩
abbrev main_v704 : Ref sig .tc := ⟨.hbm, 966, rfl⟩
abbrev main_v705 : Ref sig .tc := ⟨.hbm, 967, rfl⟩
abbrev main_c_210 : Ref sig .tc := ⟨.hbm, 968, rfl⟩
abbrev main_v706 : Ref sig .tc := ⟨.hbm, 969, rfl⟩
abbrev main_v707 : Ref sig .tc := ⟨.hbm, 970, rfl⟩
abbrev main_v708 : Ref sig .tc := ⟨.hbm, 971, rfl⟩
abbrev main_v709 : Ref sig .tc := ⟨.hbm, 972, rfl⟩
abbrev main_v710 : Ref sig .tc := ⟨.hbm, 973, rfl⟩
abbrev main_v711 : Ref sig .tc := ⟨.hbm, 974, rfl⟩
abbrev main_v712 : Ref sig .tc := ⟨.hbm, 975, rfl⟩
abbrev main_v713 : Ref sig .tc := ⟨.hbm, 976, rfl⟩
abbrev main_c_211 : Ref sig .tc := ⟨.hbm, 977, rfl⟩
abbrev main_v714 : Ref sig .tc := ⟨.hbm, 978, rfl⟩
abbrev main_v715 : Ref sig .tc := ⟨.hbm, 979, rfl⟩
abbrev main_c_212 : Ref sig .tc := ⟨.hbm, 980, rfl⟩
abbrev main_v716 : Ref sig .tc := ⟨.hbm, 981, rfl⟩
abbrev main_v717 : Ref sig .tc := ⟨.hbm, 982, rfl⟩
abbrev main_v718 : Ref sig .tc := ⟨.hbm, 983, rfl⟩
abbrev main_c_213 : Ref sig .tc := ⟨.hbm, 984, rfl⟩
abbrev main_v719 : Ref sig .tc := ⟨.hbm, 985, rfl⟩
abbrev main_v720 : Ref sig .tc := ⟨.hbm, 986, rfl⟩
abbrev main_c_214 : Ref sig .tc := ⟨.hbm, 987, rfl⟩
abbrev main_v721 : Ref sig .tc := ⟨.hbm, 988, rfl⟩
abbrev main_v722 : Ref sig .tc := ⟨.hbm, 989, rfl⟩
abbrev main_v723 : Ref sig .tc := ⟨.hbm, 990, rfl⟩
abbrev main_c_215 : Ref sig .tc := ⟨.hbm, 991, rfl⟩
abbrev main_v724 : Ref sig .tc := ⟨.hbm, 992, rfl⟩
abbrev main_v725 : Ref sig .tc := ⟨.hbm, 993, rfl⟩
abbrev main_c_216 : Ref sig .tc := ⟨.hbm, 994, rfl⟩
abbrev main_v726 : Ref sig .tc := ⟨.hbm, 995, rfl⟩
abbrev main_v727 : Ref sig .tc := ⟨.hbm, 996, rfl⟩
abbrev main_v728 : Ref sig .tc := ⟨.hbm, 997, rfl⟩
abbrev main_v729 : Ref sig .tc := ⟨.hbm, 998, rfl⟩
abbrev main_v730 : Ref sig .tc := ⟨.hbm, 999, rfl⟩
abbrev main_v731 : Ref sig .tc := ⟨.hbm, 1000, rfl⟩
abbrev main_v732 : Ref sig .tc := ⟨.hbm, 1001, rfl⟩
abbrev main_v733 : Ref sig .tc := ⟨.hbm, 1002, rfl⟩
abbrev main_c_217 : Ref sig .tc := ⟨.hbm, 1003, rfl⟩
abbrev main_v734 : Ref sig .tc := ⟨.hbm, 1004, rfl⟩
abbrev main_v735 : Ref sig .tc := ⟨.hbm, 1005, rfl⟩
abbrev main_c_218 : Ref sig .tc := ⟨.hbm, 1006, rfl⟩
abbrev main_v736 : Ref sig .tc := ⟨.hbm, 1007, rfl⟩
abbrev main_v737 : Ref sig .tc := ⟨.hbm, 1008, rfl⟩
abbrev main_v738 : Ref sig .tc := ⟨.hbm, 1009, rfl⟩
abbrev main_c_219 : Ref sig .tc := ⟨.hbm, 1010, rfl⟩
abbrev main_v739 : Ref sig .tc := ⟨.hbm, 1011, rfl⟩
abbrev main_v740 : Ref sig .tc := ⟨.hbm, 1012, rfl⟩
abbrev main_c_220 : Ref sig .tc := ⟨.hbm, 1013, rfl⟩
abbrev main_v741 : Ref sig .tc := ⟨.hbm, 1014, rfl⟩
abbrev main_v742 : Ref sig .tc := ⟨.hbm, 1015, rfl⟩
abbrev main_v743 : Ref sig .tc := ⟨.hbm, 1016, rfl⟩
abbrev main_c_221 : Ref sig .tc := ⟨.hbm, 1017, rfl⟩
abbrev main_v744 : Ref sig .tc := ⟨.hbm, 1018, rfl⟩
abbrev main_v745 : Ref sig .tc := ⟨.hbm, 1019, rfl⟩
abbrev main_c_222 : Ref sig .tc := ⟨.hbm, 1020, rfl⟩
abbrev main_v746 : Ref sig .tc := ⟨.hbm, 1021, rfl⟩
abbrev main_v747 : Ref sig .tc := ⟨.hbm, 1022, rfl⟩
abbrev main_v748 : Ref sig .tc := ⟨.hbm, 1023, rfl⟩
abbrev main_v749 : Ref sig .tc := ⟨.hbm, 1024, rfl⟩
abbrev main_v750 : Ref sig .tc := ⟨.hbm, 1025, rfl⟩
abbrev main_v751 : Ref sig .tc := ⟨.hbm, 1026, rfl⟩
abbrev main_v752 : Ref sig .tc := ⟨.hbm, 1027, rfl⟩
abbrev main_v753 : Ref sig .tc := ⟨.hbm, 1028, rfl⟩
abbrev main_v754 : Ref sig .tc := ⟨.hbm, 1029, rfl⟩
abbrev main_v755 : Ref sig .tc := ⟨.hbm, 1030, rfl⟩
abbrev main_v756 : Ref sig .tc := ⟨.hbm, 1031, rfl⟩
abbrev main_v757 : Ref sig .tc := ⟨.hbm, 1032, rfl⟩
abbrev main_v758 : Ref sig .tc := ⟨.hbm, 1033, rfl⟩
abbrev main_v759 : Ref sig .tc := ⟨.hbm, 1034, rfl⟩
abbrev main_v760 : Ref sig .tc := ⟨.hbm, 1035, rfl⟩
abbrev main_v761 : Ref sig .tc := ⟨.hbm, 1036, rfl⟩
abbrev main_v762 : Ref sig .tc := ⟨.hbm, 1037, rfl⟩
abbrev main_v763 : Ref sig .tc := ⟨.hbm, 1038, rfl⟩
abbrev main_v764 : Ref sig .tc := ⟨.hbm, 1039, rfl⟩
abbrev main_v765 : Ref sig .tc := ⟨.hbm, 1040, rfl⟩
abbrev main_v766 : Ref sig .tc := ⟨.hbm, 1041, rfl⟩
abbrev main_v767 : Ref sig .tc := ⟨.hbm, 1042, rfl⟩
abbrev main_v768 : Ref sig .tc := ⟨.hbm, 1043, rfl⟩
abbrev main_v769 : Ref sig .tc := ⟨.hbm, 1044, rfl⟩
abbrev main_v770 : Ref sig .tc := ⟨.hbm, 1045, rfl⟩
abbrev main_v771 : Ref sig .tc := ⟨.hbm, 1046, rfl⟩
abbrev main_v772 : Ref sig .tc := ⟨.hbm, 1047, rfl⟩
abbrev main_v773 : Ref sig .tc := ⟨.hbm, 1048, rfl⟩
abbrev main_v774 : Ref sig .tc := ⟨.hbm, 1049, rfl⟩
abbrev main_v775 : Ref sig .tc := ⟨.hbm, 1050, rfl⟩
abbrev main_v776 : Ref sig .tc := ⟨.hbm, 1051, rfl⟩
abbrev main_v777 : Ref sig .tc := ⟨.hbm, 1052, rfl⟩
abbrev main_v778 : Ref sig .tc := ⟨.hbm, 1053, rfl⟩
abbrev main_v779 : Ref sig .tc := ⟨.hbm, 1054, rfl⟩
abbrev main_v780 : Ref sig .tc := ⟨.hbm, 1055, rfl⟩
abbrev main_v781 : Ref sig .tc := ⟨.hbm, 1056, rfl⟩
abbrev main_v782 : Ref sig .tc := ⟨.hbm, 1057, rfl⟩
abbrev main_v783 : Ref sig .tc := ⟨.hbm, 1058, rfl⟩
abbrev main_v784 : Ref sig .tc := ⟨.hbm, 1059, rfl⟩
abbrev main_v785 : Ref sig .tc := ⟨.hbm, 1060, rfl⟩
abbrev main_v786 : Ref sig .tc := ⟨.hbm, 1061, rfl⟩
abbrev main_v787 : Ref sig .tc := ⟨.hbm, 1062, rfl⟩
abbrev main_v788 : Ref sig .tc := ⟨.hbm, 1063, rfl⟩
abbrev main_v789 : Ref sig .tc := ⟨.hbm, 1064, rfl⟩
abbrev main_v790 : Ref sig .tc := ⟨.hbm, 1065, rfl⟩
abbrev main_v791 : Ref sig .tc := ⟨.hbm, 1066, rfl⟩
abbrev main_v792 : Ref sig .tc := ⟨.hbm, 1067, rfl⟩
abbrev main_cst_223 : Ref sig .tc := ⟨.hbm, 1068, rfl⟩
abbrev main_v793 : Ref sig .tc := ⟨.hbm, 1069, rfl⟩
abbrev main_v794 : Ref sig .tc := ⟨.hbm, 1070, rfl⟩
abbrev main_cst_224 : Ref sig .tc := ⟨.hbm, 1071, rfl⟩
abbrev main_v795 : Ref sig .tc := ⟨.hbm, 1072, rfl⟩
abbrev main_v796 : Ref sig .tc := ⟨.hbm, 1073, rfl⟩
abbrev main_cst_225 : Ref sig .tc := ⟨.hbm, 1074, rfl⟩
abbrev main_v797 : Ref sig .tc := ⟨.hbm, 1075, rfl⟩
abbrev main_v798 : Ref sig .tc := ⟨.hbm, 1076, rfl⟩
abbrev main_cst_226 : Ref sig .tc := ⟨.hbm, 1077, rfl⟩
abbrev main_c_227 : Ref sig .tc := ⟨.hbm, 1078, rfl⟩
abbrev main_call9_v0 : Ref sig .tc := ⟨.hbm, 1079, rfl⟩
abbrev main_call9_v1 : Ref sig .tc := ⟨.hbm, 1080, rfl⟩
abbrev main_call9_v2 : Ref sig .tc := ⟨.hbm, 1081, rfl⟩
abbrev main_call9_v3 : Ref sig .tc := ⟨.hbm, 1082, rfl⟩
abbrev main_call9_v4 : Ref sig .tc := ⟨.hbm, 1083, rfl⟩
abbrev main_v799 : Ref sig .tc := ⟨.hbm, 1084, rfl⟩
abbrev main_v800 : Ref sig .tc := ⟨.hbm, 1085, rfl⟩
abbrev main_v801 : Ref sig .tc := ⟨.hbm, 1086, rfl⟩
abbrev main_cst_228 : Ref sig .tc := ⟨.hbm, 1087, rfl⟩
abbrev main_v802 : Ref sig .tc := ⟨.hbm, 1088, rfl⟩
abbrev main_v803 : Ref sig .tc := ⟨.hbm, 1089, rfl⟩
abbrev main_cst_229 : Ref sig .tc := ⟨.hbm, 1090, rfl⟩
abbrev main_v804 : Ref sig .tc := ⟨.hbm, 1091, rfl⟩
abbrev main_v805 : Ref sig .tc := ⟨.hbm, 1092, rfl⟩
abbrev main_cst_230 : Ref sig .tc := ⟨.hbm, 1093, rfl⟩
abbrev main_v806 : Ref sig .tc := ⟨.hbm, 1094, rfl⟩
abbrev main_v807 : Ref sig .tc := ⟨.hbm, 1095, rfl⟩
abbrev main_cst_231 : Ref sig .tc := ⟨.hbm, 1096, rfl⟩
abbrev main_c_232 : Ref sig .tc := ⟨.hbm, 1097, rfl⟩
abbrev main_call10_v0 : Ref sig .tc := ⟨.hbm, 1098, rfl⟩
abbrev main_call10_v1 : Ref sig .tc := ⟨.hbm, 1099, rfl⟩
abbrev main_call10_v2 : Ref sig .tc := ⟨.hbm, 1100, rfl⟩
abbrev main_call10_v3 : Ref sig .tc := ⟨.hbm, 1101, rfl⟩
abbrev main_call10_v4 : Ref sig .tc := ⟨.hbm, 1102, rfl⟩
abbrev main_v808 : Ref sig .tc := ⟨.hbm, 1103, rfl⟩
abbrev main_v809 : Ref sig .tc := ⟨.hbm, 1104, rfl⟩
abbrev main_v810 : Ref sig .tc := ⟨.hbm, 1105, rfl⟩
abbrev main_cst_233 : Ref sig .tc := ⟨.hbm, 1106, rfl⟩
abbrev main_v811 : Ref sig .tc := ⟨.hbm, 1107, rfl⟩
abbrev main_v812 : Ref sig .tc := ⟨.hbm, 1108, rfl⟩
abbrev main_cst_234 : Ref sig .tc := ⟨.hbm, 1109, rfl⟩
abbrev main_v813 : Ref sig .tc := ⟨.hbm, 1110, rfl⟩
abbrev main_v814 : Ref sig .tc := ⟨.hbm, 1111, rfl⟩
abbrev main_cst_235 : Ref sig .tc := ⟨.hbm, 1112, rfl⟩
abbrev main_v815 : Ref sig .tc := ⟨.hbm, 1113, rfl⟩
abbrev main_v816 : Ref sig .tc := ⟨.hbm, 1114, rfl⟩
abbrev main_cst_236 : Ref sig .tc := ⟨.hbm, 1115, rfl⟩
abbrev main_c_237 : Ref sig .tc := ⟨.hbm, 1116, rfl⟩
abbrev main_call11_v0 : Ref sig .tc := ⟨.hbm, 1117, rfl⟩
abbrev main_call11_v1 : Ref sig .tc := ⟨.hbm, 1118, rfl⟩
abbrev main_call11_v2 : Ref sig .tc := ⟨.hbm, 1119, rfl⟩
abbrev main_call11_v3 : Ref sig .tc := ⟨.hbm, 1120, rfl⟩
abbrev main_call11_v4 : Ref sig .tc := ⟨.hbm, 1121, rfl⟩
abbrev main_v817 : Ref sig .tc := ⟨.hbm, 1122, rfl⟩
abbrev main_v818 : Ref sig .tc := ⟨.hbm, 1123, rfl⟩
abbrev main_v819 : Ref sig .tc := ⟨.hbm, 1124, rfl⟩
abbrev main_v820 : Ref sig .tc := ⟨.hbm, 1125, rfl⟩
abbrev main_v821 : Ref sig .tc := ⟨.hbm, 1126, rfl⟩
abbrev main_v822 : Ref sig .tc := ⟨.hbm, 1127, rfl⟩
abbrev main_v823 : Ref sig .tc := ⟨.hbm, 1128, rfl⟩
abbrev main_v824 : Ref sig .tc := ⟨.hbm, 1129, rfl⟩
abbrev main_cst_238 : Ref sig .tc := ⟨.hbm, 1130, rfl⟩
abbrev main_v825 : Ref sig .tc := ⟨.hbm, 1131, rfl⟩
abbrev main_v826 : Ref sig .tc := ⟨.hbm, 1132, rfl⟩
abbrev main_cst_239 : Ref sig .tc := ⟨.hbm, 1133, rfl⟩
abbrev main_v827 : Ref sig .tc := ⟨.hbm, 1134, rfl⟩
abbrev main_v828 : Ref sig .tc := ⟨.hbm, 1135, rfl⟩
abbrev main_v829 : Ref sig .tc := ⟨.hbm, 1136, rfl⟩
abbrev main_v830 : Ref sig .tc := ⟨.hbm, 1137, rfl⟩
abbrev main_cst_240 : Ref sig .tc := ⟨.hbm, 1138, rfl⟩
abbrev main_v831 : Ref sig .tc := ⟨.hbm, 1139, rfl⟩
abbrev main_v832 : Ref sig .tc := ⟨.hbm, 1140, rfl⟩
abbrev main_cst_241 : Ref sig .tc := ⟨.hbm, 1141, rfl⟩
abbrev main_v833 : Ref sig .tc := ⟨.hbm, 1142, rfl⟩
abbrev main_v834 : Ref sig .tc := ⟨.hbm, 1143, rfl⟩
abbrev main_v835 : Ref sig .tc := ⟨.hbm, 1144, rfl⟩
abbrev main_v836 : Ref sig .tc := ⟨.hbm, 1145, rfl⟩
abbrev main_cst_242 : Ref sig .tc := ⟨.hbm, 1146, rfl⟩
abbrev main_v837 : Ref sig .tc := ⟨.hbm, 1147, rfl⟩
abbrev main_v838 : Ref sig .tc := ⟨.hbm, 1148, rfl⟩
abbrev main_cst_243 : Ref sig .tc := ⟨.hbm, 1149, rfl⟩
abbrev main_v839 : Ref sig .tc := ⟨.hbm, 1150, rfl⟩
abbrev main_v840 : Ref sig .tc := ⟨.hbm, 1151, rfl⟩
abbrev main_v841 : Ref sig .tc := ⟨.hbm, 1152, rfl⟩
abbrev main_v842 : Ref sig .tc := ⟨.hbm, 1153, rfl⟩
abbrev main_c_244 : Ref sig .tc := ⟨.hbm, 1154, rfl⟩
abbrev main_v843 : Ref sig .tc := ⟨.hbm, 1155, rfl⟩
abbrev main_v844 : Ref sig .tc := ⟨.hbm, 1156, rfl⟩
abbrev main_c_245 : Ref sig .tc := ⟨.hbm, 1157, rfl⟩
abbrev main_v845 : Ref sig .tc := ⟨.hbm, 1158, rfl⟩
abbrev main_v846 : Ref sig .tc := ⟨.hbm, 1159, rfl⟩
abbrev main_v847 : Ref sig .tc := ⟨.hbm, 1160, rfl⟩
abbrev main_c_246 : Ref sig .tc := ⟨.hbm, 1161, rfl⟩
abbrev main_v848 : Ref sig .tc := ⟨.hbm, 1162, rfl⟩
abbrev main_v849 : Ref sig .tc := ⟨.hbm, 1163, rfl⟩
abbrev main_c_247 : Ref sig .tc := ⟨.hbm, 1164, rfl⟩
abbrev main_v850 : Ref sig .tc := ⟨.hbm, 1165, rfl⟩
abbrev main_v851 : Ref sig .tc := ⟨.hbm, 1166, rfl⟩
abbrev main_v852 : Ref sig .tc := ⟨.hbm, 1167, rfl⟩
abbrev main_c_248 : Ref sig .tc := ⟨.hbm, 1168, rfl⟩
abbrev main_v853 : Ref sig .tc := ⟨.hbm, 1169, rfl⟩
abbrev main_v854 : Ref sig .tc := ⟨.hbm, 1170, rfl⟩
abbrev main_c_249 : Ref sig .tc := ⟨.hbm, 1171, rfl⟩
abbrev main_v855 : Ref sig .tc := ⟨.hbm, 1172, rfl⟩
abbrev main_v856 : Ref sig .tc := ⟨.hbm, 1173, rfl⟩
abbrev main_c_250 : Ref sig .tc := ⟨.hbm, 1174, rfl⟩
abbrev main_v857 : Ref sig .tc := ⟨.hbm, 1175, rfl⟩
abbrev main_v858 : Ref sig .tc := ⟨.hbm, 1176, rfl⟩
abbrev main_c_251 : Ref sig .tc := ⟨.hbm, 1177, rfl⟩
abbrev main_v859 : Ref sig .tc := ⟨.hbm, 1178, rfl⟩
abbrev main_v860 : Ref sig .tc := ⟨.hbm, 1179, rfl⟩
abbrev main_v861 : Ref sig .tc := ⟨.hbm, 1180, rfl⟩
abbrev main_c_252 : Ref sig .tc := ⟨.hbm, 1181, rfl⟩
abbrev main_v862 : Ref sig .tc := ⟨.hbm, 1182, rfl⟩
abbrev main_v863 : Ref sig .tc := ⟨.hbm, 1183, rfl⟩
abbrev main_c_253 : Ref sig .tc := ⟨.hbm, 1184, rfl⟩
abbrev main_v864 : Ref sig .tc := ⟨.hbm, 1185, rfl⟩
abbrev main_v865 : Ref sig .tc := ⟨.hbm, 1186, rfl⟩
abbrev main_v866 : Ref sig .tc := ⟨.hbm, 1187, rfl⟩
abbrev main_c_254 : Ref sig .tc := ⟨.hbm, 1188, rfl⟩
abbrev main_v867 : Ref sig .tc := ⟨.hbm, 1189, rfl⟩
abbrev main_v868 : Ref sig .tc := ⟨.hbm, 1190, rfl⟩
abbrev main_c_255 : Ref sig .tc := ⟨.hbm, 1191, rfl⟩
abbrev main_v869 : Ref sig .tc := ⟨.hbm, 1192, rfl⟩
abbrev main_v870 : Ref sig .tc := ⟨.hbm, 1193, rfl⟩
abbrev main_v871 : Ref sig .tc := ⟨.hbm, 1194, rfl⟩
abbrev main_v872 : Ref sig .tc := ⟨.hbm, 1195, rfl⟩
abbrev main_v873 : Ref sig .tc := ⟨.hbm, 1196, rfl⟩
abbrev main_v874 : Ref sig .tc := ⟨.hbm, 1197, rfl⟩
abbrev main_v875 : Ref sig .tc := ⟨.hbm, 1198, rfl⟩
abbrev main_v876 : Ref sig .tc := ⟨.hbm, 1199, rfl⟩
abbrev main_c_256 : Ref sig .tc := ⟨.hbm, 1200, rfl⟩
abbrev main_v877 : Ref sig .tc := ⟨.hbm, 1201, rfl⟩
abbrev main_v878 : Ref sig .tc := ⟨.hbm, 1202, rfl⟩
abbrev main_c_257 : Ref sig .tc := ⟨.hbm, 1203, rfl⟩
abbrev main_v879 : Ref sig .tc := ⟨.hbm, 1204, rfl⟩
abbrev main_v880 : Ref sig .tc := ⟨.hbm, 1205, rfl⟩
abbrev main_v881 : Ref sig .tc := ⟨.hbm, 1206, rfl⟩
abbrev main_c_258 : Ref sig .tc := ⟨.hbm, 1207, rfl⟩
abbrev main_v882 : Ref sig .tc := ⟨.hbm, 1208, rfl⟩
abbrev main_v883 : Ref sig .tc := ⟨.hbm, 1209, rfl⟩
abbrev main_c_259 : Ref sig .tc := ⟨.hbm, 1210, rfl⟩
abbrev main_v884 : Ref sig .tc := ⟨.hbm, 1211, rfl⟩
abbrev main_v885 : Ref sig .tc := ⟨.hbm, 1212, rfl⟩
abbrev main_v886 : Ref sig .tc := ⟨.hbm, 1213, rfl⟩
abbrev main_c_260 : Ref sig .tc := ⟨.hbm, 1214, rfl⟩
abbrev main_v887 : Ref sig .tc := ⟨.hbm, 1215, rfl⟩
abbrev main_v888 : Ref sig .tc := ⟨.hbm, 1216, rfl⟩
abbrev main_c_261 : Ref sig .tc := ⟨.hbm, 1217, rfl⟩
abbrev main_v889 : Ref sig .tc := ⟨.hbm, 1218, rfl⟩
abbrev main_v890 : Ref sig .tc := ⟨.hbm, 1219, rfl⟩
abbrev main_v891 : Ref sig .tc := ⟨.hbm, 1220, rfl⟩
abbrev main_v892 : Ref sig .tc := ⟨.hbm, 1221, rfl⟩
abbrev main_v893 : Ref sig .tc := ⟨.hbm, 1222, rfl⟩
abbrev main_v894 : Ref sig .tc := ⟨.hbm, 1223, rfl⟩
abbrev main_v895 : Ref sig .tc := ⟨.hbm, 1224, rfl⟩
abbrev main_v896 : Ref sig .tc := ⟨.hbm, 1225, rfl⟩
abbrev main_c_262 : Ref sig .tc := ⟨.hbm, 1226, rfl⟩
abbrev main_v897 : Ref sig .tc := ⟨.hbm, 1227, rfl⟩
abbrev main_v898 : Ref sig .tc := ⟨.hbm, 1228, rfl⟩
abbrev main_c_263 : Ref sig .tc := ⟨.hbm, 1229, rfl⟩
abbrev main_v899 : Ref sig .tc := ⟨.hbm, 1230, rfl⟩
abbrev main_v900 : Ref sig .tc := ⟨.hbm, 1231, rfl⟩
abbrev main_v901 : Ref sig .tc := ⟨.hbm, 1232, rfl⟩
abbrev main_c_264 : Ref sig .tc := ⟨.hbm, 1233, rfl⟩
abbrev main_v902 : Ref sig .tc := ⟨.hbm, 1234, rfl⟩
abbrev main_v903 : Ref sig .tc := ⟨.hbm, 1235, rfl⟩
abbrev main_c_265 : Ref sig .tc := ⟨.hbm, 1236, rfl⟩
abbrev main_v904 : Ref sig .tc := ⟨.hbm, 1237, rfl⟩
abbrev main_v905 : Ref sig .tc := ⟨.hbm, 1238, rfl⟩
abbrev main_v906 : Ref sig .tc := ⟨.hbm, 1239, rfl⟩
abbrev main_c_266 : Ref sig .tc := ⟨.hbm, 1240, rfl⟩
abbrev main_v907 : Ref sig .tc := ⟨.hbm, 1241, rfl⟩
abbrev main_v908 : Ref sig .tc := ⟨.hbm, 1242, rfl⟩
abbrev main_c_267 : Ref sig .tc := ⟨.hbm, 1243, rfl⟩
abbrev main_v909 : Ref sig .tc := ⟨.hbm, 1244, rfl⟩
abbrev main_v910 : Ref sig .tc := ⟨.hbm, 1245, rfl⟩
abbrev main_v911 : Ref sig .tc := ⟨.hbm, 1246, rfl⟩
abbrev main_v912 : Ref sig .tc := ⟨.hbm, 1247, rfl⟩
abbrev main_v913 : Ref sig .tc := ⟨.hbm, 1248, rfl⟩
abbrev main_v914 : Ref sig .tc := ⟨.hbm, 1249, rfl⟩
abbrev main_v915 : Ref sig .tc := ⟨.hbm, 1250, rfl⟩
abbrev main_v916 : Ref sig .tc := ⟨.hbm, 1251, rfl⟩
abbrev main_c_268 : Ref sig .tc := ⟨.hbm, 1252, rfl⟩
abbrev main_v917 : Ref sig .tc := ⟨.hbm, 1253, rfl⟩
abbrev main_v918 : Ref sig .tc := ⟨.hbm, 1254, rfl⟩
abbrev main_c_269 : Ref sig .tc := ⟨.hbm, 1255, rfl⟩
abbrev main_v919 : Ref sig .tc := ⟨.hbm, 1256, rfl⟩
abbrev main_v920 : Ref sig .tc := ⟨.hbm, 1257, rfl⟩
abbrev main_v921 : Ref sig .tc := ⟨.hbm, 1258, rfl⟩
abbrev main_c_270 : Ref sig .tc := ⟨.hbm, 1259, rfl⟩
abbrev main_v922 : Ref sig .tc := ⟨.hbm, 1260, rfl⟩
abbrev main_v923 : Ref sig .tc := ⟨.hbm, 1261, rfl⟩
abbrev main_c_271 : Ref sig .tc := ⟨.hbm, 1262, rfl⟩
abbrev main_v924 : Ref sig .tc := ⟨.hbm, 1263, rfl⟩
abbrev main_v925 : Ref sig .tc := ⟨.hbm, 1264, rfl⟩
abbrev main_v926 : Ref sig .tc := ⟨.hbm, 1265, rfl⟩
abbrev main_c_272 : Ref sig .tc := ⟨.hbm, 1266, rfl⟩
abbrev main_v927 : Ref sig .tc := ⟨.hbm, 1267, rfl⟩
abbrev main_v928 : Ref sig .tc := ⟨.hbm, 1268, rfl⟩
abbrev main_c_273 : Ref sig .tc := ⟨.hbm, 1269, rfl⟩
abbrev main_v929 : Ref sig .tc := ⟨.hbm, 1270, rfl⟩
abbrev main_v930 : Ref sig .tc := ⟨.hbm, 1271, rfl⟩
abbrev main_v931 : Ref sig .tc := ⟨.hbm, 1272, rfl⟩
abbrev main_v932 : Ref sig .tc := ⟨.hbm, 1273, rfl⟩
abbrev main_v933 : Ref sig .tc := ⟨.hbm, 1274, rfl⟩
abbrev main_v934 : Ref sig .tc := ⟨.hbm, 1275, rfl⟩
abbrev main_v935 : Ref sig .tc := ⟨.hbm, 1276, rfl⟩
abbrev main_v936 : Ref sig .tc := ⟨.hbm, 1277, rfl⟩
abbrev main_c_274 : Ref sig .tc := ⟨.hbm, 1278, rfl⟩
abbrev main_v937 : Ref sig .tc := ⟨.hbm, 1279, rfl⟩
abbrev main_v938 : Ref sig .tc := ⟨.hbm, 1280, rfl⟩
abbrev main_c_275 : Ref sig .tc := ⟨.hbm, 1281, rfl⟩
abbrev main_v939 : Ref sig .tc := ⟨.hbm, 1282, rfl⟩
abbrev main_v940 : Ref sig .tc := ⟨.hbm, 1283, rfl⟩
abbrev main_v941 : Ref sig .tc := ⟨.hbm, 1284, rfl⟩
abbrev main_c_276 : Ref sig .tc := ⟨.hbm, 1285, rfl⟩
abbrev main_v942 : Ref sig .tc := ⟨.hbm, 1286, rfl⟩
abbrev main_v943 : Ref sig .tc := ⟨.hbm, 1287, rfl⟩
abbrev main_c_277 : Ref sig .tc := ⟨.hbm, 1288, rfl⟩
abbrev main_v944 : Ref sig .tc := ⟨.hbm, 1289, rfl⟩
abbrev main_v945 : Ref sig .tc := ⟨.hbm, 1290, rfl⟩
abbrev main_v946 : Ref sig .tc := ⟨.hbm, 1291, rfl⟩
abbrev main_c_278 : Ref sig .tc := ⟨.hbm, 1292, rfl⟩
abbrev main_v947 : Ref sig .tc := ⟨.hbm, 1293, rfl⟩
abbrev main_v948 : Ref sig .tc := ⟨.hbm, 1294, rfl⟩
abbrev main_c_279 : Ref sig .tc := ⟨.hbm, 1295, rfl⟩
abbrev main_v949 : Ref sig .tc := ⟨.hbm, 1296, rfl⟩
abbrev main_v950 : Ref sig .tc := ⟨.hbm, 1297, rfl⟩
abbrev main_v951 : Ref sig .tc := ⟨.hbm, 1298, rfl⟩
abbrev main_v952 : Ref sig .tc := ⟨.hbm, 1299, rfl⟩
abbrev main_v953 : Ref sig .tc := ⟨.hbm, 1300, rfl⟩
abbrev main_v954 : Ref sig .tc := ⟨.hbm, 1301, rfl⟩
abbrev main_v955 : Ref sig .tc := ⟨.hbm, 1302, rfl⟩
abbrev main_v956 : Ref sig .tc := ⟨.hbm, 1303, rfl⟩
abbrev main_c_280 : Ref sig .tc := ⟨.hbm, 1304, rfl⟩
abbrev main_v957 : Ref sig .tc := ⟨.hbm, 1305, rfl⟩
abbrev main_v958 : Ref sig .tc := ⟨.hbm, 1306, rfl⟩
abbrev main_c_281 : Ref sig .tc := ⟨.hbm, 1307, rfl⟩
abbrev main_v959 : Ref sig .tc := ⟨.hbm, 1308, rfl⟩
abbrev main_v960 : Ref sig .tc := ⟨.hbm, 1309, rfl⟩
abbrev main_v961 : Ref sig .tc := ⟨.hbm, 1310, rfl⟩
abbrev main_c_282 : Ref sig .tc := ⟨.hbm, 1311, rfl⟩
abbrev main_v962 : Ref sig .tc := ⟨.hbm, 1312, rfl⟩
abbrev main_v963 : Ref sig .tc := ⟨.hbm, 1313, rfl⟩
abbrev main_c_283 : Ref sig .tc := ⟨.hbm, 1314, rfl⟩
abbrev main_v964 : Ref sig .tc := ⟨.hbm, 1315, rfl⟩
abbrev main_v965 : Ref sig .tc := ⟨.hbm, 1316, rfl⟩
abbrev main_v966 : Ref sig .tc := ⟨.hbm, 1317, rfl⟩
abbrev main_c_284 : Ref sig .tc := ⟨.hbm, 1318, rfl⟩
abbrev main_v967 : Ref sig .tc := ⟨.hbm, 1319, rfl⟩
abbrev main_v968 : Ref sig .tc := ⟨.hbm, 1320, rfl⟩
abbrev main_c_285 : Ref sig .tc := ⟨.hbm, 1321, rfl⟩
abbrev main_v969 : Ref sig .tc := ⟨.hbm, 1322, rfl⟩
abbrev main_v970 : Ref sig .tc := ⟨.hbm, 1323, rfl⟩
abbrev main_v971 : Ref sig .tc := ⟨.hbm, 1324, rfl⟩
abbrev main_v972 : Ref sig .tc := ⟨.hbm, 1325, rfl⟩
abbrev main_v973 : Ref sig .tc := ⟨.hbm, 1326, rfl⟩
abbrev main_v974 : Ref sig .tc := ⟨.hbm, 1327, rfl⟩
abbrev main_v975 : Ref sig .tc := ⟨.hbm, 1328, rfl⟩
abbrev main_v976 : Ref sig .tc := ⟨.hbm, 1329, rfl⟩
abbrev main_c_286 : Ref sig .tc := ⟨.hbm, 1330, rfl⟩
abbrev main_v977 : Ref sig .tc := ⟨.hbm, 1331, rfl⟩
abbrev main_v978 : Ref sig .tc := ⟨.hbm, 1332, rfl⟩
abbrev main_c_287 : Ref sig .tc := ⟨.hbm, 1333, rfl⟩
abbrev main_v979 : Ref sig .tc := ⟨.hbm, 1334, rfl⟩
abbrev main_v980 : Ref sig .tc := ⟨.hbm, 1335, rfl⟩
abbrev main_v981 : Ref sig .tc := ⟨.hbm, 1336, rfl⟩
abbrev main_c_288 : Ref sig .tc := ⟨.hbm, 1337, rfl⟩
abbrev main_v982 : Ref sig .tc := ⟨.hbm, 1338, rfl⟩
abbrev main_v983 : Ref sig .tc := ⟨.hbm, 1339, rfl⟩
abbrev main_c_289 : Ref sig .tc := ⟨.hbm, 1340, rfl⟩
abbrev main_v984 : Ref sig .tc := ⟨.hbm, 1341, rfl⟩
abbrev main_v985 : Ref sig .tc := ⟨.hbm, 1342, rfl⟩
abbrev main_v986 : Ref sig .tc := ⟨.hbm, 1343, rfl⟩
abbrev main_c_290 : Ref sig .tc := ⟨.hbm, 1344, rfl⟩
abbrev main_v987 : Ref sig .tc := ⟨.hbm, 1345, rfl⟩
abbrev main_v988 : Ref sig .tc := ⟨.hbm, 1346, rfl⟩
abbrev main_c_291 : Ref sig .tc := ⟨.hbm, 1347, rfl⟩
abbrev main_v989 : Ref sig .tc := ⟨.hbm, 1348, rfl⟩
abbrev main_v990 : Ref sig .tc := ⟨.hbm, 1349, rfl⟩
abbrev main_v991 : Ref sig .tc := ⟨.hbm, 1350, rfl⟩
abbrev main_v992 : Ref sig .tc := ⟨.hbm, 1351, rfl⟩
abbrev main_v993 : Ref sig .tc := ⟨.hbm, 1352, rfl⟩
abbrev main_v994 : Ref sig .tc := ⟨.hbm, 1353, rfl⟩
abbrev main_v995 : Ref sig .tc := ⟨.hbm, 1354, rfl⟩
abbrev main_v996 : Ref sig .tc := ⟨.hbm, 1355, rfl⟩
abbrev main_c_292 : Ref sig .tc := ⟨.hbm, 1356, rfl⟩
abbrev main_v997 : Ref sig .tc := ⟨.hbm, 1357, rfl⟩
abbrev main_v998 : Ref sig .tc := ⟨.hbm, 1358, rfl⟩
abbrev main_c_293 : Ref sig .tc := ⟨.hbm, 1359, rfl⟩
abbrev main_v999 : Ref sig .tc := ⟨.hbm, 1360, rfl⟩
abbrev main_v1000 : Ref sig .tc := ⟨.hbm, 1361, rfl⟩
abbrev main_v1001 : Ref sig .tc := ⟨.hbm, 1362, rfl⟩
abbrev main_c_294 : Ref sig .tc := ⟨.hbm, 1363, rfl⟩
abbrev main_v1002 : Ref sig .tc := ⟨.hbm, 1364, rfl⟩
abbrev main_v1003 : Ref sig .tc := ⟨.hbm, 1365, rfl⟩
abbrev main_c_295 : Ref sig .tc := ⟨.hbm, 1366, rfl⟩
abbrev main_v1004 : Ref sig .tc := ⟨.hbm, 1367, rfl⟩
abbrev main_v1005 : Ref sig .tc := ⟨.hbm, 1368, rfl⟩
abbrev main_v1006 : Ref sig .tc := ⟨.hbm, 1369, rfl⟩
abbrev main_c_296 : Ref sig .tc := ⟨.hbm, 1370, rfl⟩
abbrev main_v1007 : Ref sig .tc := ⟨.hbm, 1371, rfl⟩
abbrev main_v1008 : Ref sig .tc := ⟨.hbm, 1372, rfl⟩
abbrev main_c_297 : Ref sig .tc := ⟨.hbm, 1373, rfl⟩
abbrev main_v1009 : Ref sig .tc := ⟨.hbm, 1374, rfl⟩
abbrev main_v1010 : Ref sig .tc := ⟨.hbm, 1375, rfl⟩
abbrev main_v1011 : Ref sig .tc := ⟨.hbm, 1376, rfl⟩
abbrev main_v1012 : Ref sig .tc := ⟨.hbm, 1377, rfl⟩
abbrev main_v1013 : Ref sig .tc := ⟨.hbm, 1378, rfl⟩
abbrev main_v1014 : Ref sig .tc := ⟨.hbm, 1379, rfl⟩
abbrev main_v1015 : Ref sig .tc := ⟨.hbm, 1380, rfl⟩
abbrev main_v1016 : Ref sig .tc := ⟨.hbm, 1381, rfl⟩
abbrev main_v1017 : Ref sig .tc := ⟨.hbm, 1382, rfl⟩
abbrev main_v1018 : Ref sig .tc := ⟨.hbm, 1383, rfl⟩
abbrev main_v1019 : Ref sig .tc := ⟨.hbm, 1384, rfl⟩
abbrev main_v1020 : Ref sig .tc := ⟨.hbm, 1385, rfl⟩
abbrev main_v1021 : Ref sig .tc := ⟨.hbm, 1386, rfl⟩
abbrev main_v1022 : Ref sig .tc := ⟨.hbm, 1387, rfl⟩
abbrev main_v1023 : Ref sig .tc := ⟨.hbm, 1388, rfl⟩
abbrev main_v1024 : Ref sig .tc := ⟨.hbm, 1389, rfl⟩
abbrev main_v1025 : Ref sig .tc := ⟨.hbm, 1390, rfl⟩
abbrev main_v1026 : Ref sig .tc := ⟨.hbm, 1391, rfl⟩
abbrev main_v1027 : Ref sig .tc := ⟨.hbm, 1392, rfl⟩
abbrev main_v1028 : Ref sig .tc := ⟨.hbm, 1393, rfl⟩
abbrev main_v1029 : Ref sig .tc := ⟨.hbm, 1394, rfl⟩
abbrev main_v1030 : Ref sig .tc := ⟨.hbm, 1395, rfl⟩
abbrev main_v1031 : Ref sig .tc := ⟨.hbm, 1396, rfl⟩
abbrev main_v1032 : Ref sig .tc := ⟨.hbm, 1397, rfl⟩
abbrev main_v1033 : Ref sig .tc := ⟨.hbm, 1398, rfl⟩
abbrev main_v1034 : Ref sig .tc := ⟨.hbm, 1399, rfl⟩
abbrev main_v1035 : Ref sig .tc := ⟨.hbm, 1400, rfl⟩
abbrev main_v1036 : Ref sig .tc := ⟨.hbm, 1401, rfl⟩
abbrev main_v1037 : Ref sig .tc := ⟨.hbm, 1402, rfl⟩
abbrev main_v1038 : Ref sig .tc := ⟨.hbm, 1403, rfl⟩
abbrev main_v1039 : Ref sig .tc := ⟨.hbm, 1404, rfl⟩
abbrev main_v1040 : Ref sig .tc := ⟨.hbm, 1405, rfl⟩
abbrev main_v1041 : Ref sig .tc := ⟨.hbm, 1406, rfl⟩
abbrev main_v1042 : Ref sig .tc := ⟨.hbm, 1407, rfl⟩
abbrev main_v1043 : Ref sig .tc := ⟨.hbm, 1408, rfl⟩
abbrev main_v1044 : Ref sig .tc := ⟨.hbm, 1409, rfl⟩
abbrev main_v1045 : Ref sig .tc := ⟨.hbm, 1410, rfl⟩
abbrev main_v1046 : Ref sig .tc := ⟨.hbm, 1411, rfl⟩
abbrev main_v1047 : Ref sig .tc := ⟨.hbm, 1412, rfl⟩
abbrev main_v1048 : Ref sig .tc := ⟨.hbm, 1413, rfl⟩
abbrev main_v1049 : Ref sig .tc := ⟨.hbm, 1414, rfl⟩
abbrev main_v1050 : Ref sig .tc := ⟨.hbm, 1415, rfl⟩
abbrev main_v1051 : Ref sig .tc := ⟨.hbm, 1416, rfl⟩
abbrev main_v1052 : Ref sig .tc := ⟨.hbm, 1417, rfl⟩
abbrev main_v1053 : Ref sig .tc := ⟨.hbm, 1418, rfl⟩

abbrev nD : Nat := 1
abbrev τ : Topo := Topo.v7x

variable {F : FTy → Type} [FloatOps F]

class Facts₀ : Prop where
  shapeCasts_S1x1x1x1048576x3_S1048576x3 : S1x1x1x1048576x3.ShapeCasts S1048576x3
  shapeCasts_S1x4x32x32x32_S4x32x32x32 : S1x4x32x32x32.ShapeCasts S4x32x32x32
  slices_S1048576x3_S1048576x1_0_0 : S1048576x3.Slices ![0, 0] S1048576x1
  shapeCasts_S1048576x1_S1048576 : S1048576x1.ShapeCasts S1048576
  bcast_S_S1048576 : S_.BroadcastsInDim S1048576 (![] : Fin 0 → Fin S1048576.rank)
  slices_S1048576x3_S1048576x1_0_1 : S1048576x3.Slices ![0, 1] S1048576x1
  slices_S1048576x3_S1048576x1_0_2 : S1048576x3.Slices ![0, 2] S1048576x1
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576_S1x1048576_1 : S1048576.BroadcastsInDim S1x1048576 (![1] : Fin 1 → Fin S1x1048576.rank)
  bcast_S1x1048576_S4x1048576_0_1 : S1x1048576.BroadcastsInDim S4x1048576 (![0, 1] : Fin 2 → Fin S4x1048576.rank)
  shapeCasts_S4x1048576_S1x4x1x1x1048576 : S4x1048576.ShapeCasts S1x4x1x1x1048576
  shapeCasts_S1x4x64x64x64_S4x64x64x64 : S1x4x64x64x64.ShapeCasts S4x64x64x64
  shapeCasts_S1x4x128x128x128_S4x128x128x128 : S1x4x128x128x128.ShapeCasts S4x128x128x128
  shapeCasts_S1x4x256x256x256_S4x256x256x256 : S1x4x256x256x256.ShapeCasts S4x256x256x256
  concatenates_S1x4x1x1x1048576_S1x4x1x1x1048576_S1x4x1x1x1048576_S1x4x1x1x1048576_S1x16x1x1x1048576_d1 : Shape.Concatenates [S1x4x1x1x1048576, S1x4x1x1x1048576, S1x4x1x1x1048576, S1x4x1x1x1048576] S1x16x1x1x1048576 1
  gather_S4x32x32x32_S1048576x3_S4x1048576_0_123_n_n_123_1_4111_wf : GatherDims.WF S4x32x32x32 S1048576x3 S4x1048576 [0] [1, 2, 3] [] [1, 2, 3] [] 1 ![4, 1, 1, 1]
  gather_S4x64x64x64_S1048576x3_S4x1048576_0_123_n_n_123_1_4111_wf : GatherDims.WF S4x64x64x64 S1048576x3 S4x1048576 [0] [1, 2, 3] [] [1, 2, 3] [] 1 ![4, 1, 1, 1]
  gather_S4x128x128x128_S1048576x3_S4x1048576_0_123_n_n_123_1_4111_wf : GatherDims.WF S4x128x128x128 S1048576x3 S4x1048576 [0] [1, 2, 3] [] [1, 2, 3] [] 1 ![4, 1, 1, 1]
  gather_S4x256x256x256_S1048576x3_S4x1048576_0_123_n_n_123_1_4111_wf : GatherDims.WF S4x256x256x256 S1048576x3 S4x1048576 [0] [1, 2, 3] [] [1, 2, 3] [] 1 ![4, 1, 1, 1]

variable [Facts₀]

def gather_S4x32x32x32_S1048576x3_S4x1048576_0_123_n_n_123_1_4111 : GatherDims S4x32x32x32 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x32x32x32_S1048576x3_S4x1048576_0_123_n_n_123_1_4111_wf
def gather_S4x64x64x64_S1048576x3_S4x1048576_0_123_n_n_123_1_4111 : GatherDims S4x64x64x64 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x64x64x64_S1048576x3_S4x1048576_0_123_n_n_123_1_4111_wf
def gather_S4x128x128x128_S1048576x3_S4x1048576_0_123_n_n_123_1_4111 : GatherDims S4x128x128x128 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x128x128x128_S1048576x3_S4x1048576_0_123_n_n_123_1_4111_wf
def gather_S4x256x256x256_S1048576x3_S4x1048576_0_123_n_n_123_1_4111 : GatherDims S4x256x256x256 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x256x256x256_S1048576x3_S4x1048576_0_123_n_n_123_1_4111_wf

class Facts : Prop extends Facts₀ where

variable [Facts]
-- ==== Proof.KBlocks.lean ====
/- The blocks of the five input arrays and of the output array at a grid point, and the output block as a function of the input blocks, for any float instance. -/
import proofs.«104267_j36455682409092_2_alg».proof.Proof.Gen.KernelIdeal.Launch
import proofs.«104267_j36455682409092_2_alg».proof.Proof.Gen.KernelIdeal.Skeleton
import proofs.«104267_j36455682409092_2_alg».proof.Proof.Gen.KernelIdeal.Points
import Idealize.ShloMosaic.Lib.Pipeline.FrameBody
import Idealize.ShloMosaic.Lib.Pipeline.FrameSuffix

noncomputable section

namespace Cert.KernelIdeal.Blk

open Cert.KernelIdeal Cert.KernelIdeal.Gen
open Idealize.ShloMosaic Idealize.ShloMosaic.TcCoe
open Idealize.SL Idealize.SL.Sem

variable {F : FTy → Type} [FloatOps F]

abbrev hostBefore : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

variable (m : (ℓ : Loc nD τ sig) → Buf (Elt F) ℓ)

abbrev V0 (c : Dev nD) : Valuation τ sig (Elt F) := StableHlo.after (List.flatten (hostBefore (F := F))) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rP : Rect S3x16384 := Rect.unit (s := S3x16384) ![0, 0] S3x16384.size inb_S3x16384_S3x16384_0_0

abbrev rC0 : Rect S32x16384 := Rect.unit (s := S32x16384) ![0, 0] S4x16384.size inb_S32x16384_S4x16384_0_0
abbrev rC1 : Rect S32x16384 := Rect.unit (s := S32x16384) ![4, 0] S4x16384.size inb_S32x16384_S4x16384_4_0
abbrev rC2 : Rect S32x16384 := Rect.unit (s := S32x16384) ![8, 0] S4x16384.size inb_S32x16384_S4x16384_8_0
abbrev rC3 : Rect S32x16384 := Rect.unit (s := S32x16384) ![12, 0] S4x16384.size inb_S32x16384_S4x16384_12_0
abbrev rC4 : Rect S32x16384 := Rect.unit (s := S32x16384) ![16, 0] S4x16384.size inb_S32x16384_S4x16384_16_0
abbrev rC5 : Rect S32x16384 := Rect.unit (s := S32x16384) ![20, 0] S4x16384.size inb_S32x16384_S4x16384_20_0
abbrev rC6 : Rect S32x16384 := Rect.unit (s := S32x16384) ![24, 0] S4x16384.size inb_S32x16384_S4x16384_24_0
abbrev rC7 : Rect S32x16384 := Rect.unit (s := S32x16384) ![28, 0] S4x16384.size inb_S32x16384_S4x16384_28_0

abbrev rO0 : Rect S16x16384 := Rect.unit (s := S16x16384) ![0, 0] S4x16384.size inb_S16x16384_S4x16384_0_0
abbrev rO1 : Rect S16x16384 := Rect.unit (s := S16x16384) ![4, 0] S4x16384.size inb_S16x16384_S4x16384_4_0
abbrev rO2 : Rect S16x16384 := Rect.unit (s := S16x16384) ![8, 0] S4x16384.size inb_S16x16384_S4x16384_8_0
abbrev rO3 : Rect S16x16384 := Rect.unit (s := S16x16384) ![12, 0] S4x16384.size inb_S16x16384_S4x16384_12_0

def piece0 (p : Vec F S3x16384 .f32) (a : Vec F S32x16384 .f32) : FVec F S4x16384 .f32 :=
  k0_pay22 (k0_pay11 (k0_pay6 (View.ld p rP)) (k0_pay8 (View.ld p rP))) (k0_pay12 (k0_pay7 (View.ld p rP)) (k0_pay9 (View.ld p rP)))
    (k0_pay13 (View.ld a rC0)) (k0_pay14 (View.ld a rC1)) (k0_pay15 (View.ld a rC2)) (k0_pay16 (View.ld a rC3))
    (k0_pay17 (View.ld a rC4)) (k0_pay18 (View.ld a rC5)) (k0_pay19 (View.ld a rC6)) (k0_pay20 (View.ld a rC7))
    (k0_pay21 (k0_pay10 (View.ld p rP)))

def piece1 (p : Vec F S3x16384 .f32) (a : Vec F S32x16384 .f32) : FVec F S4x16384 .f32 :=
  k0_pay31 (k0_pay25 (k0_pay23 (k0_pay3 (View.ld p rP)))) (k0_pay26 (Scalar.ofBits .f32 0x427C0000#32) (k0_pay24 (k0_pay4 (View.ld p rP))))
    (k0_pay27 (k0_pay5 (View.ld p rP)))
    (k0_pay28 (View.ld a rC0)) (k0_pay29 (View.ld a rC1)) (k0_pay30 (View.ld a rC2)) (View.ld a rC3)
    (View.ld a rC4) (View.ld a rC5) (View.ld a rC6) (View.ld a rC7)

def piece2 (p : Vec F S3x16384 .f32) (a : Vec F S32x16384 .f32) : FVec F S4x16384 .f32 :=
  k0_pay44 (k0_pay36 (View.ld a rC6)) (k0_pay38 (k0_pay35 (k0_pay4 (View.ld p rP)))) (k0_pay39 (k0_pay33 (k0_pay5 (View.ld p rP))))
    (k0_pay40 (k0_pay34 (k0_pay32 (k0_pay3 (View.ld p rP))) (Scalar.ofBits .f32 0x42FE0000#32)) (View.ld a rC0) (View.ld a rC1))
    (k0_pay41 (k0_pay34 (k0_pay32 (k0_pay3 (View.ld p rP))) (Scalar.ofBits .f32 0x42FE0000#32)) (View.ld a rC2) (View.ld a rC3))
    (k0_pay42 (k0_pay34 (k0_pay32 (k0_pay3 (View.ld p rP))) (Scalar.ofBits .f32 0x42FE0000#32)) (View.ld a rC4) (View.ld a rC5))
    (k0_pay43 (k0_pay34 (k0_pay32 (k0_pay3 (View.ld p rP))) (Scalar.ofBits .f32 0x42FE0000#32)) (View.ld a rC6) (View.ld a rC7))

def piece3 (p : Vec F S3x16384 .f32) (a : Vec F S32x16384 .f32) : FVec F S4x16384 .f32 :=
  k0_pay1 (k0_pay49 (k0_pay45 (k0_pay3 (View.ld p rP))) (k0_pay48 (k0_pay3 (View.ld p rP)))) (k0_pay50 (k0_pay46 (k0_pay4 (View.ld p rP))))
    (k0_pay51 (k0_pay47 (k0_pay5 (View.ld p rP))))
    (k0_pay52 (View.ld a rC0)) (k0_pay53 (View.ld a rC1)) (k0_pay54 (View.ld a rC2)) (k0_pay55 (View.ld a rC3))
    (k0_pay56 (View.ld a rC4)) (k0_pay57 (View.ld a rC5)) (k0_pay58 (View.ld a rC6)) (View.ld a rC7)

def outBlk (p : Vec F S3x16384 .f32) (a0 a1 a2 a3 : Vec F S32x16384 .f32) : Vec F S16x16384 .f32 :=
  View.canon [⟨rO3, piece3 p a3⟩, ⟨rO2, piece2 p a2⟩, ⟨rO1, piece1 p a1⟩, ⟨rO0, piece0 p a0⟩]

end Cert.KernelIdeal.Blk

end
-- ==== Proof.KFrame.lean ====
/- Every weakly fair execution of the kernel program terminates, and leaves its five argument arrays as they were launched. -/
import proofs.«104267_j36455682409092_2_alg».proof.Proof.KBlocks
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover_out (p0 p1 p2 p3 : Vec F S4x16384 .f32) (y : S16x16384.Idx) :
    ∃ pc ∈ ([⟨Blk.rO3, p3⟩, ⟨Blk.rO2, p2⟩, ⟨Blk.rO1, p1⟩, ⟨Blk.rO0, p0⟩] : List (View.Piece (Elt F) S16x16384 .f32)), y ∈ pc.1.set :=
  View.cover_of_tiled [⟨Blk.rO3, p3⟩, ⟨Blk.rO2, p2⟩, ⟨Blk.rO1, p1⟩, ⟨Blk.rO0, p0⟩] S4x16384.size (by rfl) y

set_option maxHeartbeats 1000000 in

theorem sound_kernel (c : Dev nD) (E : Set ℕ) (i : grid0.Coords)
    (arg1 : Memref sig .tc .vmem S3x16384 .f32) (harg1 : arg1.IsWhole)
    (arg2 : Memref sig .tc .vmem S32x16384 .f32) (harg2 : arg2.IsWhole)
    (arg3 : Memref sig .tc .vmem S32x16384 .f32) (harg3 : arg3.IsWhole)
    (arg4 : Memref sig .tc .vmem S32x16384 .f32) (harg4 : arg4.IsWhole)
    (arg5 : Memref sig .tc .vmem S32x16384 .f32) (harg5 : arg5.IsWhole)
    (arg6 : Memref sig .tc .vmem S16x16384 .f32) (harg6 : arg6.IsWhole)
    (p : Vec F S3x16384 .f32) (a0 a1 a2 a3 : Vec F S32x16384 .f32) (K : PUnit → sProp 𝕄) :
    iprop(owns (c : Thread nD τ) arg1 fullShare p ∗ owns (c : Thread nD τ) arg2 fullShare a0
        ∗ owns (c : Thread nD τ) arg3 fullShare a1 ∗ owns (c : Thread nD τ) arg4 fullShare a2
        ∗ owns (c : Thread nD τ) arg5 fullShare a3 ∗ (∃ d, owns (c : Thread nD τ) arg6 fullShare d)
        ∗ (iprop(owns (c : Thread nD τ) arg1 fullShare p ∗ owns (c : Thread nD τ) arg2 fullShare a0
            ∗ owns (c : Thread nD τ) arg3 fullShare a1 ∗ owns (c : Thread nD τ) arg4 fullShare a2
            ∗ owns (c : Thread nD τ) arg5 fullShare a3
            ∗ owns (c : Thread nD τ) arg6 fullShare (Blk.outBlk p a0 a1 a2 a3)) -∗ K ⟨⟩))
      ⊢ wp frame (wpE (defs₀ (F := F)) Variants.none c none) E
          (cc0__lambda_ i arg1 harg1 arg2 harg2 arg3 harg3 arg4 harg4 arg5 harg5 arg6 harg6) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _ _ _)

def dats (_ : Fin 1) (c : Dev nD) : Pipeline.Dat τ (Elt F) Unit ℕ (UR sig nD τ) ℕ cfg0 c where
  A w := Blk.V m c (Pipeline.arrRef spec0 w)
  after w t := match w with
    | ⟨0, _⟩ => Blk.iblk m c 0 t
    | ⟨1, _⟩ => Blk.iblk m c 1 t
    | ⟨2, _⟩ => Blk.iblk m c 2 t
    | ⟨3, _⟩ => Blk.iblk m c 3 t
    | ⟨4, _⟩ => Blk.iblk m c 4 t
    | ⟨5, _⟩ => Blk.outBlk (Blk.iblk m c 0 t) (Blk.iblk m c 1 t) (Blk.iblk m c 2 t) (Blk.iblk m c 3 t) (Blk.iblk m c 4 t)
  Φ _ := Pipeline.ΦA spec0 c
  q _ := fullShare
  owed _ := 0

theorem A_eq (c : Dev nD) (w : Fin cfg0.W) : (dats m 0 c).A w = Blk.V m c (Pipeline.arrRef spec0 w) := by
  dsimp only [dats]

theorem after_in0 (c : Dev nD) (t : Fin cfg0.N) : (dats m 0 c).after 0 t = Blk.iblk m c 0 t := by dsimp only [dats]
theorem after_in1 (c : Dev nD) (t : Fin cfg0.N) : (dats m 0 c).after 1 t = Blk.iblk m c 1 t := by dsimp only [dats]
theorem after_in2 (c : Dev nD) (t : Fin cfg0.N) : (dats m 0 c).after 2 t = Blk.iblk m c 2 t := by dsimp only [dats]
theorem after_in3 (c : Dev nD) (t : Fin cfg0.N) : (dats m 0 c).after 3 t = Blk.iblk m c 3 t := by dsimp only [dats]
theorem after_in4 (c : Dev nD) (t : Fin cfg0.N) : (dats m 0 c).after 4 t = Blk.iblk m c 4 t := by dsimp only [dats]

theorem after_out (c : Dev nD) (t : Fin cfg0.N) : (dats m 0 c).after 5 t
    = Blk.outBlk (Blk.iblk m c 0 t) (Blk.iblk m c 1 t) (Blk.iblk m c 2 t) (Blk.iblk m c 3 t) (Blk.iblk m c 4 t) := by
  dsimp only [dats]

theorem before_in0 (c : Dev nD) (t : Fin cfg0.N) (d) : (dats m 0 c).before 0 t d = Blk.iblk m c 0 t := by
  rw [(dats m 0 c).before_fetched 0 t (fetch0_0 t) d]
  unfold Dat.fetched Dat.blockOf Blk.iblk
  rw [A_eq]
  rfl

theorem before_in1 (c : Dev nD) (t : Fin cfg0.N) (d) : (dats m 0 c).before 1 t d = Blk.iblk m c 1 t := by
  rw [(dats m 0 c).before_fetched 1 t (fetch0_1 t) d]
  unfold Dat.fetched Dat.blockOf Blk.iblk
  rw [A_eq]
  rfl

theorem before_in2 (c : Dev nD) (t : Fin cfg0.N) (d) : (dats m 0 c).before 2 t d = Blk.iblk m c 2 t := by
  rw [(dats m 0 c).before_fetched 2 t (fetch0_2 t) d]
  unfold Dat.fetched Dat.blockOf Blk.iblk
  rw [A_eq]
  rfl

theorem before_in3 (c : Dev nD) (t : Fin cfg0.N) (d) : (dats m 0 c).before 3 t d = Blk.iblk m c 3 t := by
  rw [(dats m 0 c).before_fetched 3 t (fetch0_3 t) d]
  unfold Dat.fetched Dat.blockOf Blk.iblk
  rw [A_eq]
  rfl

theorem before_in4 (c : Dev nD) (t : Fin cfg0.N) (d) : (dats m 0 c).before 4 t d = Blk.iblk m c 4 t := by
  rw [(dats m 0 c).before_fetched 4 t (fetch0_4 t) d]
  unfold Dat.fetched Dat.blockOf Blk.iblk
  rw [A_eq]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (Blk.iblk m c 0 t) (Blk.iblk m c 1 t) (Blk.iblk m c 2 t) (Blk.iblk m c 3 t) (Blk.iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

theorem before_sub : (Blk.hostBefore (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub,
    hostOps0_14_sub, hostOps0_15_sub, hostOps0_16_sub, hostOps0_17_sub, hostOps0_18_sub, hostOps0_19_sub, hostOps0_20_sub,
    hostOps0_21_sub, hostOps0_22_sub, hostOps0_23_sub, hostOps0_24_sub, hostOps0_25_sub, hostOps0_26_sub, hostOps0_27_sub,
    hostOps0_28_sub, hostOps0_29_sub, hostOps0_30_sub, hostOps0_31_sub, hostOps0_32_sub⟩

set_option maxHeartbeats 4000000 in

theorem before_fresh : (Blk.hostBefore (F := F)).Forall fun ops => ops.Forall fun op => op.fresh = ∅ := by
  simp only [List.Forall]; repeat' constructor

theorem hmain : Pipeline.HMainK (Ix := Unit) (Name := ℕ) (U := UR sig nD τ) (Lvl := ℕ) cfgs 0 defs₀ Variants.none m (main (F := F)) (Blk.V m)
      (fun _ => Pipeline.chain [StableHlo.seq hostOps1]) :=
  Pipeline.hmain_around cfgs 0 defs₀ Variants.none m main Blk.hostBefore [hostOps1] before_sub before_fresh main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  rw [StableHlo.reshape_writes, Finset.mem_singleton]
  exact StableHlo.devRef_ne_of_ne (by revert w; decide)

set_option backward.isDefEq.respectTransparency.types false in

theorem run_main : θ_run defs (onTc (τ := τ) (main (F := F))) (s₀ m ρ)
    (Pipeline.FramePost cfgs (dats m) 0 (Pipeline.afterTail₀ cfgs (dats m) 0 (Blk.V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Blk.V0 m) (opss := [hostOps1]) (hsub := tail_sub) (hfresh := tail_fresh) (hkeep := tail_keeps)
    (hmain := hmain m) (hA := A_eq m) (hΦ := fun _ _ => rfl)

set_option maxHeartbeats 40000000 in

theorem before_keeps_args : ∀ op ∈ List.flatten (Blk.hostBefore (F := F)),
    Proc.devRef (τ := τ) .tc main_arg0 ∉ op.writes ∧ Proc.devRef (τ := τ) .tc main_arg1 ∉ op.writes
      ∧ Proc.devRef (τ := τ) .tc main_arg2 ∉ op.writes ∧ Proc.devRef (τ := τ) .tc main_arg3 ∉ op.writes
      ∧ Proc.devRef (τ := τ) .tc main_arg4 ∉ op.writes :=
  List.forall_iff_forall_mem.mp (by
    simp only [Blk.hostBefore, hostOps0, hostOps0_1, hostOps0_2, hostOps0_3, hostOps0_4, hostOps0_5, hostOps0_6, hostOps0_7,
      hostOps0_8, hostOps0_9, hostOps0_10, hostOps0_11, hostOps0_12, hostOps0_13, hostOps0_14, hostOps0_15, hostOps0_16,
      hostOps0_17, hostOps0_18, hostOps0_19, hostOps0_20, hostOps0_21, hostOps0_22, hostOps0_23, hostOps0_24, hostOps0_25,
      hostOps0_26, hostOps0_27, hostOps0_28, hostOps0_29, hostOps0_30, hostOps0_31, hostOps0_32,
      List.flatten_cons, List.flatten_nil, List.append_nil, List.cons_append, List.nil_append, List.Forall,
      StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))

theorem V_main_arg0 (c : Dev nD) : Blk.V m c main_arg0 = m ((c : Thread nD τ).loc main_arg0) :=
  StableHlo.after_of_forall_not_mem (b := Proc.devRef .tc main_arg0) _ _ fun op h => (before_keeps_args op h).1
theorem V_main_arg1 (c : Dev nD) : Blk.V m c main_arg1 = m ((c : Thread nD τ).loc main_arg1) :=
  StableHlo.after_of_forall_not_mem (b := Proc.devRef .tc main_arg1) _ _ fun op h => (before_keeps_args op h).2.1
theorem V_main_arg2 (c : Dev nD) : Blk.V m c main_arg2 = m ((c : Thread nD τ).loc main_arg2) :=
  StableHlo.after_of_forall_not_mem (b := Proc.devRef .tc main_arg2) _ _ fun op h => (before_keeps_args op h).2.2.1
theorem V_main_arg3 (c : Dev nD) : Blk.V m c main_arg3 = m ((c : Thread nD τ).loc main_arg3) :=
  StableHlo.after_of_forall_not_mem (b := Proc.devRef .tc main_arg3) _ _ fun op h => (before_keeps_args op h).2.2.2.1
theorem V_main_arg4 (c : Dev nD) : Blk.V m c main_arg4 = m ((c : Thread nD τ).loc main_arg4) :=
  StableHlo.after_of_forall_not_mem (b := Proc.devRef .tc main_arg4) _ _ fun op h => (before_keeps_args op h).2.2.2.2

theorem tail_bypass (c : Dev nD) (b : Ref sig .tc) (hb : b ≠ main_v347) (ha : ∀ w, Pipeline.arrRef spec0 w ≠ b) :
    Pipeline.afterTail₀ cfgs (dats m) 0 (Blk.V0 m) [hostOps1] c b = Blk.V m c b := by
  unfold Pipeline.afterTail₀
  rw [StableHlo.after_of_forall_not_mem (b := Proc.devRef .tc b) _ _ (fun op hop => by
      obtain rfl := List.mem_singleton.mp (by simpa only [List.flatten_cons, List.flatten_nil, List.append_nil] using hop)
      rw [StableHlo.reshape_writes, Finset.mem_singleton]
      exact StableHlo.devRef_ne_of_ne hb),
    Pipeline.withArrays_of_ne _ c (Blk.V0 m c) _ b ha]

theorem W_main_arg0 (c : Dev nD) :
    Pipeline.afterTail₀ cfgs (dats m) 0 (Blk.V0 m) [hostOps1] c main_arg0 = m ((c : Thread nD τ).loc main_arg0) :=
  (tail_bypass m c main_arg0 (by decide) (by decide)).trans (V_main_arg0 m c)
theorem W_main_arg1 (c : Dev nD) :
    Pipeline.afterTail₀ cfgs (dats m) 0 (Blk.V0 m) [hostOps1] c main_arg1 = m ((c : Thread nD τ).loc main_arg1) :=
  (tail_bypass m c main_arg1 (by decide) (by decide)).trans (V_main_arg1 m c)
theorem W_main_arg2 (c : Dev nD) :
    Pipeline.afterTail₀ cfgs (dats m) 0 (Blk.V0 m) [hostOps1] c main_arg2 = m ((c : Thread nD τ).loc main_arg2) :=
  (tail_bypass m c main_arg2 (by decide) (by decide)).trans (V_main_arg2 m c)
theorem W_main_arg3 (c : Dev nD) :
    Pipeline.afterTail₀ cfgs (dats m) 0 (Blk.V0 m) [hostOps1] c main_arg3 = m ((c : Thread nD τ).loc main_arg3) :=
  (tail_bypass m c main_arg3 (by decide) (by decide)).trans (V_main_arg3 m c)
theorem W_main_arg4 (c : Dev nD) :
    Pipeline.afterTail₀ cfgs (dats m) 0 (Blk.V0 m) [hostOps1] c main_arg4 = m ((c : Thread nD τ).loc main_arg4) :=
  (tail_bypass m c main_arg4 (by decide) (by decide)).trans (V_main_arg4 m c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c)⟩)
    (run_main m ρ)

end Cert.KernelIdeal.Frm

end
-- ==== Proof.KBlocksBits.lean ====
/- The blocks of the five input arrays and of the output array at a grid point, and the output block as a function of the input blocks, for any float instance. -/
import proofs.«104267_j36455682409092_2_alg».proof.Proof.Gen.Kernel.Launch
import proofs.«104267_j36455682409092_2_alg».proof.Proof.Gen.Kernel.Skeleton
import proofs.«104267_j36455682409092_2_alg».proof.Proof.Gen.Kernel.Points
import Idealize.ShloMosaic.Lib.Pipeline.FrameBody
import Idealize.ShloMosaic.Lib.Pipeline.FrameSuffix

noncomputable section

namespace Cert.Kernel.Blk

open Cert.Kernel Cert.Kernel.Gen
open Idealize.ShloMosaic Idealize.ShloMosaic.TcCoe
open Idealize.SL Idealize.SL.Sem

variable {F : FTy → Type} [FloatOps F]

abbrev hostBefore : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

variable (m : (ℓ : Loc nD τ sig) → Buf (Elt F) ℓ)

abbrev V0 (c : Dev nD) : Valuation τ sig (Elt F) := StableHlo.after (List.flatten (hostBefore (F := F))) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rP : Rect S3x16384 := Rect.unit (s := S3x16384) ![0, 0] S3x16384.size inb_S3x16384_S3x16384_0_0

abbrev rC0 : Rect S32x16384 := Rect.unit (s := S32x16384) ![0, 0] S4x16384.size inb_S32x16384_S4x16384_0_0
abbrev rC1 : Rect S32x16384 := Rect.unit (s := S32x16384) ![4, 0] S4x16384.size inb_S32x16384_S4x16384_4_0
abbrev rC2 : Rect S32x16384 := Rect.unit (s := S32x16384) ![8, 0] S4x16384.size inb_S32x16384_S4x16384_8_0
abbrev rC3 : Rect S32x16384 := Rect.unit (s := S32x16384) ![12, 0] S4x16384.size inb_S32x16384_S4x16384_12_0
abbrev rC4 : Rect S32x16384 := Rect.unit (s := S32x16384) ![16, 0] S4x16384.size inb_S32x16384_S4x16384_16_0
abbrev rC5 : Rect S32x16384 := Rect.unit (s := S32x16384) ![20, 0] S4x16384.size inb_S32x16384_S4x16384_20_0
abbrev rC6 : Rect S32x16384 := Rect.unit (s := S32x16384) ![24, 0] S4x16384.size inb_S32x16384_S4x16384_24_0
abbrev rC7 : Rect S32x16384 := Rect.unit (s := S32x16384) ![28, 0] S4x16384.size inb_S32x16384_S4x16384_28_0

abbrev rO0 : Rect S16x16384 := Rect.unit (s := S16x16384) ![0, 0] S4x16384.size inb_S16x16384_S4x16384_0_0
abbrev rO1 : Rect S16x16384 := Rect.unit (s := S16x16384) ![4, 0] S4x16384.size inb_S16x16384_S4x16384_4_0
abbrev rO2 : Rect S16x16384 := Rect.unit (s := S16x16384) ![8, 0] S4x16384.size inb_S16x16384_S4x16384_8_0
abbrev rO3 : Rect S16x16384 := Rect.unit (s := S16x16384) ![12, 0] S4x16384.size inb_S16x16384_S4x16384_12_0

def piece0 (p : Vec F S3x16384 .f32) (a : Vec F S32x16384 .f32) : FVec F S4x16384 .f32 :=
  k0_pay22 (k0_pay11 (k0_pay6 (View.ld p rP)) (k0_pay8 (View.ld p rP))) (k0_pay12 (k0_pay7 (View.ld p rP)) (k0_pay9 (View.ld p rP)))
    (k0_pay13 (View.ld a rC0)) (k0_pay14 (View.ld a rC1)) (k0_pay15 (View.ld a rC2)) (k0_pay16 (View.ld a rC3))
    (k0_pay17 (View.ld a rC4)) (k0_pay18 (View.ld a rC5)) (k0_pay19 (View.ld a rC6)) (k0_pay20 (View.ld a rC7))
    (k0_pay21 (k0_pay10 (View.ld p rP)))

def piece1 (p : Vec F S3x16384 .f32) (a : Vec F S32x16384 .f32) : FVec F S4x16384 .f32 :=
  k0_pay31 (k0_pay25 (k0_pay23 (k0_pay3 (View.ld p rP)))) (k0_pay26 (Scalar.ofBits .f32 0x427C0000#32) (k0_pay24 (k0_pay4 (View.ld p rP))))
    (k0_pay27 (k0_pay5 (View.ld p rP)))
    (k0_pay28 (View.ld a rC0)) (k0_pay29 (View.ld a rC1)) (k0_pay30 (View.ld a rC2)) (View.ld a rC3)
    (View.ld a rC4) (View.ld a rC5) (View.ld a rC6) (View.ld a rC7)

def piece2 (p : Vec F S3x16384 .f32) (a : Vec F S32x16384 .f32) : FVec F S4x16384 .f32 :=
  k0_pay44 (k0_pay36 (View.ld a rC6)) (k0_pay38 (k0_pay35 (k0_pay4 (View.ld p rP)))) (k0_pay39 (k0_pay33 (k0_pay5 (View.ld p rP))))
    (k0_pay40 (k0_pay34 (k0_pay32 (k0_pay3 (View.ld p rP))) (Scalar.ofBits .f32 0x42FE0000#32)) (View.ld a rC0) (View.ld a rC1))
    (k0_pay41 (k0_pay34 (k0_pay32 (k0_pay3 (View.ld p rP))) (Scalar.ofBits .f32 0x42FE0000#32)) (View.ld a rC2) (View.ld a rC3))
    (k0_pay42 (k0_pay34 (k0_pay32 (k0_pay3 (View.ld p rP))) (Scalar.ofBits .f32 0x42FE0000#32)) (View.ld a rC4) (View.ld a rC5))
    (k0_pay43 (k0_pay34 (k0_pay32 (k0_pay3 (View.ld p rP))) (Scalar.ofBits .f32 0x42FE0000#32)) (View.ld a rC6) (View.ld a rC7))

def piece3 (p : Vec F S3x16384 .f32) (a : Vec F S32x16384 .f32) : FVec F S4x16384 .f32 :=
  k0_pay1 (k0_pay49 (k0_pay45 (k0_pay3 (View.ld p rP))) (k0_pay48 (k0_pay3 (View.ld p rP)))) (k0_pay50 (k0_pay46 (k0_pay4 (View.ld p rP))))
    (k0_pay51 (k0_pay47 (k0_pay5 (View.ld p rP))))
    (k0_pay52 (View.ld a rC0)) (k0_pay53 (View.ld a rC1)) (k0_pay54 (View.ld a rC2)) (k0_pay55 (View.ld a rC3))
    (k0_pay56 (View.ld a rC4)) (k0_pay57 (View.ld a rC5)) (k0_pay58 (View.ld a rC6)) (View.ld a rC7)

def outBlk (p : Vec F S3x16384 .f32) (a0 a1 a2 a3 : Vec F S32x16384 .f32) : Vec F S16x16384 .f32 :=
  View.canon [⟨rO3, piece3 p a3⟩, ⟨rO2, piece2 p a2⟩, ⟨rO1, piece1 p a1⟩, ⟨rO0, piece0 p a0⟩]

end Cert.Kernel.Blk

end
-- ==== Proof.KFrameBits.lean ====
/- Every weakly fair execution of the kernel program terminates, and leaves its five argument arrays as they were launched. -/
import proofs.«104267_j36455682409092_2_alg».proof.Proof.KBlocksBits
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover_out (p0 p1 p2 p3 : Vec F S4x16384 .f32) (y : S16x16384.Idx) :
    ∃ pc ∈ ([⟨Blk.rO3, p3⟩, ⟨Blk.rO2, p2⟩, ⟨Blk.rO1, p1⟩, ⟨Blk.rO0, p0⟩] : List (View.Piece (Elt F) S16x16384 .f32)), y ∈ pc.1.set :=
  View.cover_of_tiled [⟨Blk.rO3, p3⟩, ⟨Blk.rO2, p2⟩, ⟨Blk.rO1, p1⟩, ⟨Blk.rO0, p0⟩] S4x16384.size (by rfl) y

set_option maxHeartbeats 1000000 in

theorem sound_kernel (c : Dev nD) (E : Set ℕ) (i : grid0.Coords)
    (arg1 : Memref sig .tc .vmem S3x16384 .f32) (harg1 : arg1.IsWhole)
    (arg2 : Memref sig .tc .vmem S32x16384 .f32) (harg2 : arg2.IsWhole)
    (arg3 : Memref sig .tc .vmem S32x16384 .f32) (harg3 : arg3.IsWhole)
    (arg4 : Memref sig .tc .vmem S32x16384 .f32) (harg4 : arg4.IsWhole)
    (arg5 : Memref sig .tc .vmem S32x16384 .f32) (harg5 : arg5.IsWhole)
    (arg6 : Memref sig .tc .vmem S16x16384 .f32) (harg6 : arg6.IsWhole)
    (p : Vec F S3x16384 .f32) (a0 a1 a2 a3 : Vec F S32x16384 .f32) (K : PUnit → sProp 𝕄) :
    iprop(owns (c : Thread nD τ) arg1 fullShare p ∗ owns (c : Thread nD τ) arg2 fullShare a0
        ∗ owns (c : Thread nD τ) arg3 fullShare a1 ∗ owns (c : Thread nD τ) arg4 fullShare a2
        ∗ owns (c : Thread nD τ) arg5 fullShare a3 ∗ (∃ d, owns (c : Thread nD τ) arg6 fullShare d)
        ∗ (iprop(owns (c : Thread nD τ) arg1 fullShare p ∗ owns (c : Thread nD τ) arg2 fullShare a0
            ∗ owns (c : Thread nD τ) arg3 fullShare a1 ∗ owns (c : Thread nD τ) arg4 fullShare a2
            ∗ owns (c : Thread nD τ) arg5 fullShare a3
            ∗ owns (c : Thread nD τ) arg6 fullShare (Blk.outBlk p a0 a1 a2 a3)) -∗ K ⟨⟩))
      ⊢ wp frame (wpE (defs₀ (F := F)) Variants.none c none) E
          (cc0__lambda_ i arg1 harg1 arg2 harg2 arg3 harg3 arg4 harg4 arg5 harg5 arg6 harg6) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _ _ _)

def dats (_ : Fin 1) (c : Dev nD) : Pipeline.Dat τ (Elt F) Unit ℕ (UR sig nD τ) ℕ cfg0 c where
  A w := Blk.V m c (Pipeline.arrRef spec0 w)
  after w t := match w with
    | ⟨0, _⟩ => Blk.iblk m c 0 t
    | ⟨1, _⟩ => Blk.iblk m c 1 t
    | ⟨2, _⟩ => Blk.iblk m c 2 t
    | ⟨3, _⟩ => Blk.iblk m c 3 t
    | ⟨4, _⟩ => Blk.iblk m c 4 t
    | ⟨5, _⟩ => Blk.outBlk (Blk.iblk m c 0 t) (Blk.iblk m c 1 t) (Blk.iblk m c 2 t) (Blk.iblk m c 3 t) (Blk.iblk m c 4 t)
  Φ _ := Pipeline.ΦA spec0 c
  q _ := fullShare
  owed _ := 0

theorem A_eq (c : Dev nD) (w : Fin cfg0.W) : (dats m 0 c).A w = Blk.V m c (Pipeline.arrRef spec0 w) := by
  dsimp only [dats]

theorem after_in0 (c : Dev nD) (t : Fin cfg0.N) : (dats m 0 c).after 0 t = Blk.iblk m c 0 t := by dsimp only [dats]
theorem after_in1 (c : Dev nD) (t : Fin cfg0.N) : (dats m 0 c).after 1 t = Blk.iblk m c 1 t := by dsimp only [dats]
theorem after_in2 (c : Dev nD) (t : Fin cfg0.N) : (dats m 0 c).after 2 t = Blk.iblk m c 2 t := by dsimp only [dats]
theorem after_in3 (c : Dev nD) (t : Fin cfg0.N) : (dats m 0 c).after 3 t = Blk.iblk m c 3 t := by dsimp only [dats]
theorem after_in4 (c : Dev nD) (t : Fin cfg0.N) : (dats m 0 c).after 4 t = Blk.iblk m c 4 t := by dsimp only [dats]

theorem after_out (c : Dev nD) (t : Fin cfg0.N) : (dats m 0 c).after 5 t
    = Blk.outBlk (Blk.iblk m c 0 t) (Blk.iblk m c 1 t) (Blk.iblk m c 2 t) (Blk.iblk m c 3 t) (Blk.iblk m c 4 t) := by
  dsimp only [dats]

theorem before_in0 (c : Dev nD) (t : Fin cfg0.N) (d) : (dats m 0 c).before 0 t d = Blk.iblk m c 0 t := by
  rw [(dats m 0 c).before_fetched 0 t (fetch0_0 t) d]
  unfold Dat.fetched Dat.blockOf Blk.iblk
  rw [A_eq]
  rfl

theorem before_in1 (c : Dev nD) (t : Fin cfg0.N) (d) : (dats m 0 c).before 1 t d = Blk.iblk m c 1 t := by
  rw [(dats m 0 c).before_fetched 1 t (fetch0_1 t) d]
  unfold Dat.fetched Dat.blockOf Blk.iblk
  rw [A_eq]
  rfl

theorem before_in2 (c : Dev nD) (t : Fin cfg0.N) (d) : (dats m 0 c).before 2 t d = Blk.iblk m c 2 t := by
  rw [(dats m 0 c).before_fetched 2 t (fetch0_2 t) d]
  unfold Dat.fetched Dat.blockOf Blk.iblk
  rw [A_eq]
  rfl

theorem before_in3 (c : Dev nD) (t : Fin cfg0.N) (d) : (dats m 0 c).before 3 t d = Blk.iblk m c 3 t := by
  rw [(dats m 0 c).before_fetched 3 t (fetch0_3 t) d]
  unfold Dat.fetched Dat.blockOf Blk.iblk
  rw [A_eq]
  rfl

theorem before_in4 (c : Dev nD) (t : Fin cfg0.N) (d) : (dats m 0 c).before 4 t d = Blk.iblk m c 4 t := by
  rw [(dats m 0 c).before_fetched 4 t (fetch0_4 t) d]
  unfold Dat.fetched Dat.blockOf Blk.iblk
  rw [A_eq]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (Blk.iblk m c 0 t) (Blk.iblk m c 1 t) (Blk.iblk m c 2 t) (Blk.iblk m c 3 t) (Blk.iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

theorem before_sub : (Blk.hostBefore (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub,
    hostOps0_14_sub, hostOps0_15_sub, hostOps0_16_sub, hostOps0_17_sub, hostOps0_18_sub, hostOps0_19_sub, hostOps0_20_sub,
    hostOps0_21_sub, hostOps0_22_sub, hostOps0_23_sub, hostOps0_24_sub, hostOps0_25_sub, hostOps0_26_sub, hostOps0_27_sub,
    hostOps0_28_sub, hostOps0_29_sub, hostOps0_30_sub, hostOps0_31_sub, hostOps0_32_sub⟩

set_option maxHeartbeats 4000000 in

theorem before_fresh : (Blk.hostBefore (F := F)).Forall fun ops => ops.Forall fun op => op.fresh = ∅ := by
  simp only [List.Forall]; repeat' constructor

theorem hmain : Pipeline.HMainK (Ix := Unit) (Name := ℕ) (U := UR sig nD τ) (Lvl := ℕ) cfgs 0 defs₀ Variants.none m (main (F := F)) (Blk.V m)
      (fun _ => Pipeline.chain [StableHlo.seq hostOps1]) :=
  Pipeline.hmain_around cfgs 0 defs₀ Variants.none m main Blk.hostBefore [hostOps1] before_sub before_fresh main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  rw [StableHlo.reshape_writes, Finset.mem_singleton]
  exact StableHlo.devRef_ne_of_ne (by revert w; decide)

set_option backward.isDefEq.respectTransparency.types false in

theorem run_main : θ_run defs (onTc (τ := τ) (main (F := F))) (s₀ m ρ)
    (Pipeline.FramePost cfgs (dats m) 0 (Pipeline.afterTail₀ cfgs (dats m) 0 (Blk.V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Blk.V0 m) (opss := [hostOps1]) (hsub := tail_sub) (hfresh := tail_fresh) (hkeep := tail_keeps)
    (hmain := hmain m) (hA := A_eq m) (hΦ := fun _ _ => rfl)

set_option maxHeartbeats 40000000 in

theorem before_keeps_args : ∀ op ∈ List.flatten (Blk.hostBefore (F := F)),
    Proc.devRef (τ := τ) .tc main_arg0 ∉ op.writes ∧ Proc.devRef (τ := τ) .tc main_arg1 ∉ op.writes
      ∧ Proc.devRef (τ := τ) .tc main_arg2 ∉ op.writes ∧ Proc.devRef (τ := τ) .tc main_arg3 ∉ op.writes
      ∧ Proc.devRef (τ := τ) .tc main_arg4 ∉ op.writes :=
  List.forall_iff_forall_mem.mp (by
    simp only [Blk.hostBefore, hostOps0, hostOps0_1, hostOps0_2, hostOps0_3, hostOps0_4, hostOps0_5, hostOps0_6, hostOps0_7,
      hostOps0_8, hostOps0_9, hostOps0_10, hostOps0_11, hostOps0_12, hostOps0_13, hostOps0_14, hostOps0_15, hostOps0_16,
      hostOps0_17, hostOps0_18, hostOps0_19, hostOps0_20, hostOps0_21, hostOps0_22, hostOps0_23, hostOps0_24, hostOps0_25,
      hostOps0_26, hostOps0_27, hostOps0_28, hostOps0_29, hostOps0_30, hostOps0_31, hostOps0_32,
      List.flatten_cons, List.flatten_nil, List.append_nil, List.cons_append, List.nil_append, List.Forall,
      StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))

theorem V_main_arg0 (c : Dev nD) : Blk.V m c main_arg0 = m ((c : Thread nD τ).loc main_arg0) :=
  StableHlo.after_of_forall_not_mem (b := Proc.devRef .tc main_arg0) _ _ fun op h => (before_keeps_args op h).1
theorem V_main_arg1 (c : Dev nD) : Blk.V m c main_arg1 = m ((c : Thread nD τ).loc main_arg1) :=
  StableHlo.after_of_forall_not_mem (b := Proc.devRef .tc main_arg1) _ _ fun op h => (before_keeps_args op h).2.1
theorem V_main_arg2 (c : Dev nD) : Blk.V m c main_arg2 = m ((c : Thread nD τ).loc main_arg2) :=
  StableHlo.after_of_forall_not_mem (b := Proc.devRef .tc main_arg2) _ _ fun op h => (before_keeps_args op h).2.2.1
theorem V_main_arg3 (c : Dev nD) : Blk.V m c main_arg3 = m ((c : Thread nD τ).loc main_arg3) :=
  StableHlo.after_of_forall_not_mem (b := Proc.devRef .tc main_arg3) _ _ fun op h => (before_keeps_args op h).2.2.2.1
theorem V_main_arg4 (c : Dev nD) : Blk.V m c main_arg4 = m ((c : Thread nD τ).loc main_arg4) :=
  StableHlo.after_of_forall_not_mem (b := Proc.devRef .tc main_arg4) _ _ fun op h => (before_keeps_args op h).2.2.2.2

theorem tail_bypass (c : Dev nD) (b : Ref sig .tc) (hb : b ≠ main_v347) (ha : ∀ w, Pipeline.arrRef spec0 w ≠ b) :
    Pipeline.afterTail₀ cfgs (dats m) 0 (Blk.V0 m) [hostOps1] c b = Blk.V m c b := by
  unfold Pipeline.afterTail₀
  rw [StableHlo.after_of_forall_not_mem (b := Proc.devRef .tc b) _ _ (fun op hop => by
      obtain rfl := List.mem_singleton.mp (by simpa only [List.flatten_cons, List.flatten_nil, List.append_nil] using hop)
      rw [StableHlo.reshape_writes, Finset.mem_singleton]
      exact StableHlo.devRef_ne_of_ne hb),
    Pipeline.withArrays_of_ne _ c (Blk.V0 m c) _ b ha]

theorem W_main_arg0 (c : Dev nD) :
    Pipeline.afterTail₀ cfgs (dats m) 0 (Blk.V0 m) [hostOps1] c main_arg0 = m ((c : Thread nD τ).loc main_arg0) :=
  (tail_bypass m c main_arg0 (by decide) (by decide)).trans (V_main_arg0 m c)
theorem W_main_arg1 (c : Dev nD) :
    Pipeline.afterTail₀ cfgs (dats m) 0 (Blk.V0 m) [hostOps1] c main_arg1 = m ((c : Thread nD τ).loc main_arg1) :=
  (tail_bypass m c main_arg1 (by decide) (by decide)).trans (V_main_arg1 m c)
theorem W_main_arg2 (c : Dev nD) :
    Pipeline.afterTail₀ cfgs (dats m) 0 (Blk.V0 m) [hostOps1] c main_arg2 = m ((c : Thread nD τ).loc main_arg2) :=
  (tail_bypass m c main_arg2 (by decide) (by decide)).trans (V_main_arg2 m c)
theorem W_main_arg3 (c : Dev nD) :
    Pipeline.afterTail₀ cfgs (dats m) 0 (Blk.V0 m) [hostOps1] c main_arg3 = m ((c : Thread nD τ).loc main_arg3) :=
  (tail_bypass m c main_arg3 (by decide) (by decide)).trans (V_main_arg3 m c)
theorem W_main_arg4 (c : Dev nD) :
    Pipeline.afterTail₀ cfgs (dats m) 0 (Blk.V0 m) [hostOps1] c main_arg4 = m ((c : Thread nD τ).loc main_arg4) :=
  (tail_bypass m c main_arg4 (by decide) (by decide)).trans (V_main_arg4 m c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c)⟩)
    (run_main m ρ)

end Cert.Kernel.Frm

end
-- ==== Proof.Sampling.lean ====
/- Trilinear sampling of a volume [1, 4, S, S, S] with smoothstep weights and border clamping, as one function of the argument arrays, index by index, over the extended reals. -/
import Idealize.ShloMosaic.PureOps.Ideal
import Idealize.ShloMosaic.Lib.ValueIdx

noncomputable section

namespace Cert.Sampling

open Idealize.ShloMosaic Idealize.ShloMosaic.ValueIdx

/-- A point's coordinate in cell units, clamped to the volume: min(S − 1, max(0, (p + 1)·½·(S − 1))), `sw` the float word of S − 1. -/
def coord (sw : BitVec 32) (p : EReal) : EReal :=
  min (Ideal.ofBits .f32 sw) (max (Ideal.ofBits .f32 0x00000000#32)
    ((p + Ideal.ofBits .f32 0x3F800000#32) * Ideal.ofBits .f32 0x3F000000#32 * Ideal.ofBits .f32 sw))

/-- The smoothstep weight t²(3 − 2t) of the fractional part t = x − ⌊x⌋. -/
def smooth (x : EReal) : EReal :=
  (x - Ideal.liftRound Int.floor x) * (x - Ideal.liftRound Int.floor x)
    * (Ideal.ofBits .f32 0x40400000#32 - Ideal.ofBits .f32 0x40000000#32 * (x - Ideal.liftRound Int.floor x))

/-- The lower cell ⌊coord⌋ as a signed 32-bit integer. -/
def cell (sw : BitVec 32) (p : EReal) : BitVec 32 := Ideal.fptosi 32 (Ideal.liftRound Int.floor (coord sw p))

/-- The upper cell min(i + 1, S − 1), `mx` the integer S − 1. -/
def next (mx i : BitVec 32) : BitVec 32 := IntOp.minsi (IntOp.addi i 1#32) mx

/-- One linear interpolation a + (b − a)·t. -/
def lerp (a b t : EReal) : EReal := a + (b - a) * t

/-- Eight corners `q z y x` (false the lower cell, true the upper) interpolated along x, then y, then z. -/
def trilerp (q : Bool → Bool → Bool → EReal) (tx ty tz : EReal) : EReal :=
  lerp (lerp (lerp (q false false false) (q false false true) tx) (lerp (q false true false) (q false true true) tx) ty)
       (lerp (lerp (q true false false) (q true false true) tx) (lerp (q true true false) (q true true true) tx) ty) tz

/-- The lower or the upper cell. -/
def pick (mx lo : BitVec 32) (b : Bool) : BitVec 32 := if b then next mx lo else lo

/-- Row 4·k + c of a stacked corner array [32, N]: corner k = 4·z + 2·y + x, channel c. -/
def cornerRow (bz bY bx : Bool) (c : Fin 4) : Fin 32 :=
  ⟨4 * (4 * bz.toNat + 2 * bY.toNat + bx.toNat) + c.val, by
    have := c.isLt; cases bz <;> cases bY <;> cases bx <;> simp <;> omega⟩

/-- A signed 32-bit integer that is a cell of an axis of extent S. -/
def Inb (S : Nat) (i : BitVec 32) : Prop := 0 ≤ i.toInt ∧ i.toInt < S

/-- A signed 32-bit index read into an axis of extent S, clamped to the axis. -/
def clampFin (S : Nat) (hS : 0 < S) (i : BitVec 32) : Fin S := ⟨min i.toInt.toNat (S - 1), by omega⟩

/-- Channel c of a volume [1, 4, S, S, S] at the cells (z, y, x). -/
def volRead {S : Nat} (hS : 0 < S) (vol : (⟨5, ![1, 4, S, S, S]⟩ : Shape).Idx → EReal) (c : Fin 4) (z y x : BitVec 32) : EReal :=
  vol (ix5 (0 : Fin 1) c (clampFin S hS z) (clampFin S hS y) (clampFin S hS x))

/-- The sample at (px, py, pz) of a scalar field over cells. -/
def sample (sw mx : BitVec 32) (rd : BitVec 32 → BitVec 32 → BitVec 32 → EReal) (px py pz : EReal) : EReal :=
  trilerp (fun bz bY bx => rd (pick mx (cell sw pz) bz) (pick mx (cell sw py) bY) (pick mx (cell sw px) bx))
    (smooth (coord sw px)) (smooth (coord sw py)) (smooth (coord sw pz))

/-- Channel c of one volume sampled at point n of the grid [1, 1, 1, N, 3] (components x, y, z). -/
def feat {S : Nat} (hS : 0 < S) (sw mx : BitVec 32) (grid : (⟨5, ![1, 1, 1, 1048576, 3]⟩ : Shape).Idx → EReal)
    (vol : (⟨5, ![1, 4, S, S, S]⟩ : Shape).Idx → EReal) (c : Fin 4) (n : Fin 1048576) : EReal :=
  sample sw mx (volRead hS vol c)
    (grid (ix5 (0 : Fin 1) (0 : Fin 1) (0 : Fin 1) n (0 : Fin 3)))
    (grid (ix5 (0 : Fin 1) (0 : Fin 1) (0 : Fin 1) n (1 : Fin 3)))
    (grid (ix5 (0 : Fin 1) (0 : Fin 1) (0 : Fin 1) n (2 : Fin 3)))

/-- Row 4·v + c of the sixteen output rows: channel c of volume v. -/
def row16 (grid : (⟨5, ![1, 1, 1, 1048576, 3]⟩ : Shape).Idx → EReal)
    (v0 : (⟨5, ![1, 4, 32, 32, 32]⟩ : Shape).Idx → EReal) (v1 : (⟨5, ![1, 4, 64, 64, 64]⟩ : Shape).Idx → EReal)
    (v2 : (⟨5, ![1, 4, 128, 128, 128]⟩ : Shape).Idx → EReal) (v3 : (⟨5, ![1, 4, 256, 256, 256]⟩ : Shape).Idx → EReal)
    (r : Fin 16) (n : Fin 1048576) : EReal :=
  if h0 : r.val < 4 then feat (S := 32) (by omega) 0x41F80000#32 31#32 grid v0 ⟨r.val, h0⟩ n
  else if h1 : r.val < 8 then feat (S := 64) (by omega) 0x427C0000#32 63#32 grid v1 ⟨r.val - 4, by omega⟩ n
  else if h2 : r.val < 12 then feat (S := 128) (by omega) 0x42FE0000#32 127#32 grid v2 ⟨r.val - 8, by omega⟩ n
  else feat (S := 256) (by omega) 0x437F0000#32 255#32 grid v3 ⟨r.val - 12, by omega⟩ n

/-- The whole result [1, 16, 1, 1, N]. -/
def result (grid : (⟨5, ![1, 1, 1, 1048576, 3]⟩ : Shape).Idx → EReal)
    (v0 : (⟨5, ![1, 4, 32, 32, 32]⟩ : Shape).Idx → EReal) (v1 : (⟨5, ![1, 4, 64, 64, 64]⟩ : Shape).Idx → EReal)
    (v2 : (⟨5, ![1, 4, 128, 128, 128]⟩ : Shape).Idx → EReal) (v3 : (⟨5, ![1, 4, 256, 256, 256]⟩ : Shape).Idx → EReal) :
    (⟨5, ![1, 16, 1, 1, 1048576]⟩ : Shape).Idx → EReal :=
  fun i => row16 grid v0 v1 v2 v3 (i 1) (i 4)

end Cert.Sampling

end
-- ==== Proof.KBodyV.lean ====
/-
  The kernel body's output block read at an index: each four-row piece is the trilinear interpolation of the eight
  corner rows of its stacked array with the smoothstep weights of the three coordinates, and the block is the four
  pieces stacked. The payloads are pointwise up to a few re-indexings, read here as functions; the rest unfolds.
-/
import proofs.«104267_j36455682409092_2_alg».proof.Proof.KBlocks
import proofs.«104267_j36455682409092_2_alg».proof.Proof.Sampling
import Idealize.ShloMosaic.Lib.ValueIdx
import Idealize.ShloMosaic.Lib.Pipeline.Value
import Idealize.ShloMosaic.Lib.ValueLayout
import Idealize.ShloMosaic.Lib.Pipeline.FrameBody

noncomputable section

namespace Cert.KernelIdeal.Body

open Idealize.ShloMosaic Idealize.ShloMosaic.ValueIdx Cert.KernelIdeal Cert.KernelIdeal.Gen
open Cert.Sampling

/-- The whole block of points, loaded whole. -/
theorem ld_rP (p : Vec Ideal S3x16384 .f32) : View.ld p Blk.rP = p :=
  View.ld_unit_zero (S := S3x16384) (funext fun d => by match d with | ⟨0, _⟩ => rfl | ⟨1, _⟩ => rfl) _ p

/-- Four rows of the stacked corner array from row o on. -/
theorem ld_rows (o : Nat) (inb : ∀ a, (![o, 0] : Fin 2 → Nat) a + S4x16384.size a ≤ S32x16384.size a)
    (a : Vec Ideal S32x16384 .f32) :
    View.ld a (Rect.unit (s := S32x16384) ![o, 0] S4x16384.size inb)
      = fun i => a (ix2 ⟨o + (i 0).val, by have h : o + 4 ≤ 32 := inb 0; have : (i 0).val < 4 := (i 0).isLt; omega⟩ (i 1)) := by
  funext i
  refine congrArg a ?_
  funext d
  match d with
  | ⟨0, _⟩ => exact Fin.ext (by show o + 1 * (i 0).val = o + (i 0).val; omega)
  | ⟨1, _⟩ => exact Fin.ext (by show 0 + 1 * (i 1).val = (i 1).val; omega)

/-- Row o of the points as a vector over the block's columns. -/
theorem row_eq (o : Nat) (ho : o < 3) (h : S3x16384.Slices ![o, 0] S1x16384) (v : FVec Ideal S3x16384 .f32) :
    shapeCast S16384 (extractStridedSlice S1x16384 ![o, 0] v h) shapeCasts_S1x16384_S16384
      = fun i => v (ix2 ⟨o, ho⟩ (i 0)) := by
  funext i
  obtain ⟨j, rfl⟩ : ∃ j : Fin 16384, i = ix1 j := ⟨i 0, eq_ix1 i⟩
  rw [shapeCast_1a_a_apply, slice2_axis0_apply o _ _ (0 : Fin 1) j ⟨o, ho⟩ rfl]

/-- A per-column vector spread over the four rows. -/
theorem spread_eq (t : FVec Ideal S16384 .f32) :
    broadcastTo S4x16384 (shapeCast S1x16384 t shapeCasts_S16384_S1x16384) broadcasts_S1x16384_S4x16384
      = fun i => t (ix1 (i 1)) := by
  funext i
  obtain ⟨c, j, rfl⟩ : ∃ (c : Fin 4) (j : Fin 16384), i = ix2 c j := ⟨i 0, i 1, eq_ix2 i⟩
  rw [broadcastTo_1b_ab_apply, shapeCast_a_1a_apply]

theorem piece0_apply (p : Vec Ideal S3x16384 .f32) (a : Vec Ideal S32x16384 .f32) (c : Fin 4) (j : Fin 16384) :
    Blk.piece0 (F := Ideal) p a (ix2 c j) = Cert.Sampling.trilerp (fun bz bY bx => a (ix2 (Cert.Sampling.cornerRow bz bY bx c) j))
      (Cert.Sampling.smooth (Cert.Sampling.coord 0x41F80000#32 (p (ix2 (0 : Fin 3) j))))
      (Cert.Sampling.smooth (Cert.Sampling.coord 0x41F80000#32 (p (ix2 (1 : Fin 3) j))))
      (Cert.Sampling.smooth (Cert.Sampling.coord 0x41F80000#32 (p (ix2 (2 : Fin 3) j)))) := by
  simp only [Blk.piece0, k0_pay22, k0_pay21, k0_pay10, k0_pay11, k0_pay12, k0_pay6, k0_pay7, k0_pay8, k0_pay9, k0_pay13,
    k0_pay14, k0_pay15, k0_pay16, k0_pay17, k0_pay18, k0_pay19, k0_pay20, k0_pay3, k0_pay4, k0_pay5, k0_pay2,
    shapeCast_self, spread_eq, ld_rows, ld_rP, row_eq 0 (by decide), row_eq 1 (by decide), row_eq 2 (by decide)]
  rfl

theorem piece1_apply (p : Vec Ideal S3x16384 .f32) (a : Vec Ideal S32x16384 .f32) (c : Fin 4) (j : Fin 16384) :
    Blk.piece1 (F := Ideal) p a (ix2 c j) = Cert.Sampling.trilerp (fun bz bY bx => a (ix2 (Cert.Sampling.cornerRow bz bY bx c) j))
      (Cert.Sampling.smooth (Cert.Sampling.coord 0x427C0000#32 (p (ix2 (0 : Fin 3) j))))
      (Cert.Sampling.smooth (Cert.Sampling.coord 0x427C0000#32 (p (ix2 (1 : Fin 3) j))))
      (Cert.Sampling.smooth (Cert.Sampling.coord 0x427C0000#32 (p (ix2 (2 : Fin 3) j)))) := by
  simp only [Blk.piece1, k0_pay31, k0_pay23, k0_pay24, k0_pay25, k0_pay26, k0_pay27, k0_pay28, k0_pay29, k0_pay30, k0_pay3, k0_pay4, k0_pay5, k0_pay2,
    shapeCast_self, spread_eq, ld_rows, ld_rP, row_eq 0 (by decide), row_eq 1 (by decide), row_eq 2 (by decide)]
  rfl

theorem piece2_apply (p : Vec Ideal S3x16384 .f32) (a : Vec Ideal S32x16384 .f32) (c : Fin 4) (j : Fin 16384) :
    Blk.piece2 (F := Ideal) p a (ix2 c j) = Cert.Sampling.trilerp (fun bz bY bx => a (ix2 (Cert.Sampling.cornerRow bz bY bx c) j))
      (Cert.Sampling.smooth (Cert.Sampling.coord 0x42FE0000#32 (p (ix2 (0 : Fin 3) j))))
      (Cert.Sampling.smooth (Cert.Sampling.coord 0x42FE0000#32 (p (ix2 (1 : Fin 3) j))))
      (Cert.Sampling.smooth (Cert.Sampling.coord 0x42FE0000#32 (p (ix2 (2 : Fin 3) j)))) := by
  simp only [Blk.piece2, k0_pay44, k0_pay32, k0_pay33, k0_pay34, k0_pay35, k0_pay36, k0_pay37, k0_pay38, k0_pay39, k0_pay40,
    k0_pay41, k0_pay42, k0_pay43, k0_pay3, k0_pay4, k0_pay5, k0_pay2,
    shapeCast_self, spread_eq, ld_rows, ld_rP, row_eq 0 (by decide), row_eq 1 (by decide), row_eq 2 (by decide)]
  rfl

theorem piece3_apply (p : Vec Ideal S3x16384 .f32) (a : Vec Ideal S32x16384 .f32) (c : Fin 4) (j : Fin 16384) :
    Blk.piece3 (F := Ideal) p a (ix2 c j) = Cert.Sampling.trilerp (fun bz bY bx => a (ix2 (Cert.Sampling.cornerRow bz bY bx c) j))
      (Cert.Sampling.smooth (Cert.Sampling.coord 0x437F0000#32 (p (ix2 (0 : Fin 3) j))))
      (Cert.Sampling.smooth (Cert.Sampling.coord 0x437F0000#32 (p (ix2 (1 : Fin 3) j))))
      (Cert.Sampling.smooth (Cert.Sampling.coord 0x437F0000#32 (p (ix2 (2 : Fin 3) j)))) := by
  simp only [Blk.piece3, k0_pay1, k0_pay45, k0_pay46, k0_pay47, k0_pay48, k0_pay49, k0_pay50, k0_pay51, k0_pay52, k0_pay53,
    k0_pay54, k0_pay55, k0_pay56, k0_pay57, k0_pay58, k0_pay3, k0_pay4, k0_pay5, k0_pay2,
    shapeCast_self, spread_eq, ld_rows, ld_rP, row_eq 0 (by decide), row_eq 1 (by decide), row_eq 2 (by decide)]
  rfl

theorem not_mem_rows (o : Nat) (inb : ∀ a, (![o, 0] : Fin 2 → Nat) a + S4x16384.size a ≤ S16x16384.size a)
    (r : Fin 16) (j : Fin 16384) (h : r.val < o ∨ o + 4 ≤ r.val) :
    ix2 r j ∉ (Rect.unit (s := S16x16384) ![o, 0] S4x16384.size inb).set := fun hm => by
  have := (Rect.mem_set_unit.mp hm) 0
  exact absurd this (by show ¬ (o ≤ r.val ∧ r.val < o + 4); omega)

theorem row_emb (o : Nat) (inb : ∀ a, (![o, 0] : Fin 2 → Nat) a + S4x16384.size a ≤ S16x16384.size a)
    (r : Fin 16) (c : Fin 4) (j : Fin 16384) (h : r.val = o + c.val) :
    (Rect.unit (s := S16x16384) ![o, 0] S4x16384.size inb).emb (ix2 c j) = ix2 r j := by
  funext d
  match d with
  | ⟨0, _⟩ => exact Fin.ext (by show o + 1 * c.val = r.val; omega)
  | ⟨1, _⟩ => exact Fin.ext (by show 0 + 1 * j.val = j.val; omega)

/-- The last store of four rows from row o on: inside it the stored piece, outside it the earlier stores. -/
theorem canon_step (o : Nat) (inb : ∀ a, (![o, 0] : Fin 2 → Nat) a + S4x16384.size a ≤ S16x16384.size a)
    (w : FVec Ideal S4x16384 .f32) (L : List (View.Piece (Elt Ideal) S16x16384 .f32)) (r : Fin 16) (j : Fin 16384) :
    (View.canon (⟨Rect.unit (s := S16x16384) ![o, 0] S4x16384.size inb, w⟩ :: L) : Vec Ideal S16x16384 .f32) (ix2 r j)
      = if h : o ≤ r.val ∧ r.val < o + 4 then w (ix2 (⟨r.val - o, by omega⟩ : Fin 4) j)
        else (View.canon L : Vec Ideal S16x16384 .f32) (ix2 r j) := by
  by_cases h : o ≤ r.val ∧ r.val < o + 4
  · rw [dif_pos h, ← row_emb o inb r (⟨r.val - o, by omega⟩ : Fin 4) j (by show r.val = o + (r.val - o); omega)]
    exact View.canon_cons_emb (Val := Elt Ideal) (e := .f32) (Rect.unit (s := S16x16384) ![o, 0] S4x16384.size inb) w L _
  · rw [dif_neg h]
    exact View.canon_cons_of_not_mem _ _ (not_mem_rows o inb r j (by omega))

theorem outBlk_apply (p : Vec Ideal S3x16384 .f32) (a0 a1 a2 a3 : Vec Ideal S32x16384 .f32) (r : Fin 16) (j : Fin 16384) :
    Blk.outBlk (F := Ideal) p a0 a1 a2 a3 (ix2 r j) =
      if h0 : r.val < 4 then Blk.piece0 p a0 (ix2 (⟨r.val, h0⟩ : Fin 4) j)
      else if h1 : r.val < 8 then Blk.piece1 p a1 (ix2 (⟨r.val - 4, by omega⟩ : Fin 4) j)
      else if h2 : r.val < 12 then Blk.piece2 p a2 (ix2 (⟨r.val - 8, by omega⟩ : Fin 4) j)
      else Blk.piece3 p a3 (ix2 (⟨r.val - 12, by omega⟩ : Fin 4) j) := by
  have hr := r.isLt
  unfold Blk.outBlk
  by_cases h0 : r.val < 4
  · rw [dif_pos h0, canon_step, dif_neg (by omega), canon_step, dif_neg (by omega), canon_step, dif_neg (by omega),
      canon_step, dif_pos (by omega)]
    rfl
  rw [dif_neg h0, canon_step]
  by_cases h1 : r.val < 8
  · rw [dif_pos h1, dif_neg (by omega), canon_step, dif_neg (by omega), canon_step, dif_pos (by omega)]
  rw [dif_neg h1]
  by_cases h2 : r.val < 12
  · rw [dif_pos h2, dif_neg (by omega), canon_step, dif_pos (by omega)]
  rw [dif_neg h2, dif_pos (by omega)]

end Cert.KernelIdeal.Body
end
-- ==== Proof.LibIndex.lean ====
/- A cell ⌊s⌋ of a coordinate clamped to [0, S − 1], as a signed 32-bit integer, lies in [0, S); for S ≤ 256: adding S to a negative index never happens, z·S² + y·S + x does not overflow, and clamping into the axis is the identity. -/
import proofs.«104267_j36455682409092_2_alg».proof.Proof.Sampling

noncomputable section

namespace Cert.Sampling

open Idealize.ShloMosaic

theorem ofBits_31 : Ideal.ofBits .f32 0x41F80000#32 = ((31 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_zero : Ideal.ofBits .f32 0x00000000#32 = 0 := by
  simp [Ideal.ofBits, Ideal.ieee]

theorem sitofp_31 : (((31#32 : BitVec 32).toInt : ℝ) : EReal) = Ideal.ofBits .f32 0x41F80000#32 := by
  rw [ofBits_31]; norm_num [show (31#32 : BitVec 32).toInt = 31 from by decide]
theorem sitofp_63 : (((63#32 : BitVec 32).toInt : ℝ) : EReal) = Ideal.ofBits .f32 0x427C0000#32 := by
  rw [ofBits_63]; norm_num [show (63#32 : BitVec 32).toInt = 63 from by decide]
theorem sitofp_127 : (((127#32 : BitVec 32).toInt : ℝ) : EReal) = Ideal.ofBits .f32 0x42FE0000#32 := by
  rw [ofBits_127]; norm_num [show (127#32 : BitVec 32).toInt = 127 from by decide]
theorem sitofp_255 : (((255#32 : BitVec 32).toInt : ℝ) : EReal) = Ideal.ofBits .f32 0x437F0000#32 := by
  rw [ofBits_255]; norm_num [show (255#32 : BitVec 32).toInt = 255 from by decide]

theorem bmod_small {m : Int} (h0 : -2147483648 ≤ m) (h1 : m < 2147483648) : m.bmod (2 ^ 32) = m :=
  Int.bmod_eq_of_le_mul_two (by omega) (by omega)

theorem toInt_ofNat_small {n : Nat} (hn : n < 2147483648) : (BitVec.ofNat 32 n).toInt = (n : Int) := by
  rw [BitVec.toInt_ofNat', bmod_small (by omega) (by omega)]

theorem toInt_add_small {a b : BitVec 32} (h0 : -2147483648 ≤ a.toInt + b.toInt) (h1 : a.toInt + b.toInt < 2147483648) :
    (a + b).toInt = a.toInt + b.toInt := by
  rw [BitVec.toInt_add, bmod_small h0 h1]

theorem toInt_mul_small {a b : BitVec 32} (h0 : -2147483648 ≤ a.toInt * b.toInt) (h1 : a.toInt * b.toInt < 2147483648) :
    (a * b).toInt = a.toInt * b.toInt := by
  rw [BitVec.toInt_mul, bmod_small h0 h1]

theorem clamp_real {h : ℝ} (hh : 0 ≤ h) (y : EReal) :
    ∃ r : ℝ, 0 ≤ r ∧ r ≤ h ∧ min (h : EReal) (max 0 y) = (r : EReal) := by
  have h0 : (0 : EReal) ≤ min (h : EReal) (max 0 y) := le_min (by exact_mod_cast hh) (le_max_left _ _)
  have h1 : min (h : EReal) (max 0 y) ≤ (h : EReal) := min_le_left _ _
  generalize min (h : EReal) (max 0 y) = m at h0 h1
  induction m using EReal.rec with
  | bot => simp at h0
  | top => simp at h1
  | coe r => exact ⟨r, by exact_mod_cast h0, by exact_mod_cast h1, rfl⟩

theorem cell_of_real {S : Nat} (hS : 0 < S) (hS' : S ≤ 256) {r : ℝ} (h0 : 0 ≤ r) (h1 : r ≤ ((S - 1 : Nat) : ℝ)) :
    Inb S (Ideal.fptosi 32 (Ideal.liftRound Int.floor (r : EReal))) := by
  have hf0 : 0 ≤ ⌊r⌋ := Int.floor_nonneg.mpr h0
  have hf1 : ⌊r⌋ ≤ ((S - 1 : Nat) : Int) := by
    have : ⌊r⌋ ≤ ⌊((S - 1 : Nat) : ℝ)⌋ := Int.floor_le_floor h1
    rwa [Int.floor_natCast] at this
  have hc : (0 : ℝ) ≤ ((⌊r⌋ : Int) : ℝ) := by exact_mod_cast hf0
  rw [Ideal.liftRound_coe, Ideal.fptosi, Ideal.toIntClamped_coe, if_pos hc, Int.floor_intCast]
  unfold Inb
  rw [BitVec.toInt_ofInt]
  generalize ⌊r⌋ = n at hf0 hf1
  have hn : max (-((2 ^ (32 - 1) : Nat) : Int)) (min (((2 ^ (32 - 1) : Nat) : Int) - 1) n) = n := by
    norm_num; omega
  rw [hn, bmod_small (by omega) (by omega)]
  omega

theorem cell_inb_of {S : Nat} (hS : 0 < S) (hS' : S ≤ 256) {sw : BitVec 32}
    (hsw : Ideal.ofBits .f32 sw = (((S - 1 : Nat) : ℝ) : EReal)) (p : EReal) : Inb S (cell sw p) := by
  unfold cell coord
  rw [hsw, ofBits_zero]
  obtain ⟨r, h0, h1, hr⟩ := clamp_real (h := ((S - 1 : Nat) : ℝ)) (Nat.cast_nonneg _)
    ((p + Ideal.ofBits .f32 0x3F800000#32) * Ideal.ofBits .f32 0x3F000000#32 * (((S - 1 : Nat) : ℝ) : EReal))
  rw [hr]
  exact cell_of_real hS hS' h0 h1

theorem cell_inb_32 (p : EReal) : Inb 32 (cell 0x41F80000#32 p) :=
  cell_inb_of (S := 32) (by norm_num) (by norm_num) (by rw [ofBits_31]; norm_num) p
theorem cell_inb_64 (p : EReal) : Inb 64 (cell 0x427C0000#32 p) :=
  cell_inb_of (S := 64) (by norm_num) (by norm_num) (by rw [ofBits_63]; norm_num) p
theorem cell_inb_128 (p : EReal) : Inb 128 (cell 0x42FE0000#32 p) :=
  cell_inb_of (S := 128) (by norm_num) (by norm_num) (by rw [ofBits_127]; norm_num) p
theorem cell_inb_256 (p : EReal) : Inb 256 (cell 0x437F0000#32 p) :=
  cell_inb_of (S := 256) (by norm_num) (by norm_num) (by rw [ofBits_255]; norm_num) p

theorem next_inb {S : Nat} (hS : 0 < S) (hS' : S ≤ 256) {i : BitVec 32} (h : Inb S i) : Inb S (next (BitVec.ofNat 32 (S - 1)) i) := by
  obtain ⟨h0, h1⟩ := h
  have hm : (BitVec.ofNat 32 (S - 1)).toInt = ((S - 1 : Nat) : Int) := toInt_ofNat_small (by omega)
  have h1' : (1#32 : BitVec 32).toInt = 1 := by decide
  have ha : (i + 1#32).toInt = i.toInt + 1 := by
    rw [toInt_add_small] <;> rw [h1'] <;> omega
  unfold next IntOp.minsi IntOp.addi Inb
  rw [BitVec.slt]
  split
  · rename_i hlt
    rw [decide_eq_true_eq, ha, hm] at hlt
    rw [ha]; omega
  · rw [hm]; omega

theorem pick_inb {S : Nat} (hS : 0 < S) (hS' : S ≤ 256) {i : BitVec 32} (h : Inb S i) (b : Bool) : Inb S (pick (BitVec.ofNat 32 (S - 1)) i b) := by
  cases b
  · exact h
  · exact next_inb hS hS' h

theorem wrap_eq {S : Nat} {i : BitVec 32} (h : Inb S i) (d : BitVec 32) :
    Scalar.select (IntOp.cmpi .slt i 0#32) (IntOp.addi i d) i = i := by
  have hz : (0#32 : BitVec 32).toInt = 0 := by decide
  have hs : i.slt 0#32 = false := by
    rw [BitVec.slt, hz, decide_eq_false_iff_not]
    exact not_lt.mpr h.1
  unfold Scalar.select IntOp.cmpi
  simp only [hs]
  rw [if_neg (by decide)]

theorem clampFin_val {S : Nat} (hS : 0 < S) {i : BitVec 32} (h : Inb S i) : (clampFin S hS i).val = i.toInt.toNat := by
  obtain ⟨h0, h1⟩ := h
  unfold clampFin
  show min i.toInt.toNat (S - 1) = i.toInt.toNat
  omega

theorem flat_toInt {S : Nat} (hS : 0 < S) (hS' : S ≤ 256) {z y x : BitVec 32} (hz : Inb S z) (hy : Inb S y) (hx : Inb S x) :
    (IntOp.addi (IntOp.addi (IntOp.muli z (BitVec.ofNat 32 (S * S))) (IntOp.muli y (BitVec.ofNat 32 S))) x).toInt
      = z.toInt * (S * S) + y.toInt * S + x.toInt := by
  obtain ⟨hz0, hz1⟩ := hz
  obtain ⟨hy0, hy1⟩ := hy
  obtain ⟨hx0, hx1⟩ := hx
  have hSS : S * S ≤ 65536 := Nat.mul_le_mul hS' hS'
  have e1 : (BitVec.ofNat 32 (S * S)).toInt = ((S * S : Nat) : Int) := toInt_ofNat_small (by omega)
  have e2 : (BitVec.ofNat 32 S).toInt = (S : Int) := toInt_ofNat_small (by omega)
  have bz0 : 0 ≤ z.toInt * ((S * S : Nat) : Int) := Int.mul_nonneg hz0 (Int.natCast_nonneg _)
  have bz1 : z.toInt * ((S * S : Nat) : Int) ≤ 255 * 65536 :=
    Int.mul_le_mul (by omega) (by exact_mod_cast hSS) (Int.natCast_nonneg _) (by norm_num)
  have by0 : 0 ≤ y.toInt * (S : Int) := Int.mul_nonneg hy0 (Int.natCast_nonneg _)
  have by1 : y.toInt * (S : Int) ≤ 255 * 256 :=
    Int.mul_le_mul (by omega) (by exact_mod_cast hS') (Int.natCast_nonneg _) (by norm_num)
  have m1 : (z * BitVec.ofNat 32 (S * S)).toInt = z.toInt * ((S * S : Nat) : Int) := by
    rw [toInt_mul_small] <;> rw [e1] <;> omega
  have m2 : (y * BitVec.ofNat 32 S).toInt = y.toInt * (S : Int) := by
    rw [toInt_mul_small] <;> rw [e2] <;> omega
  have a1 : (z * BitVec.ofNat 32 (S * S) + y * BitVec.ofNat 32 S).toInt
      = z.toInt * ((S * S : Nat) : Int) + y.toInt * (S : Int) := by
    rw [toInt_add_small] <;> rw [m1, m2] <;> omega
  unfold IntOp.addi IntOp.muli
  rw [toInt_add_small, a1]
  · push_cast; ring
  · rw [a1]; omega
  · rw [a1]; omega

theorem flat_inb {S : Nat} (hS : 0 < S) (hS' : S ≤ 256) {z y x : BitVec 32} (hz : Inb S z) (hy : Inb S y) (hx : Inb S x) :
    Inb (S * S * S) (IntOp.addi (IntOp.addi (IntOp.muli z (BitVec.ofNat 32 (S * S))) (IntOp.muli y (BitVec.ofNat 32 S))) x) := by
  unfold Inb
  rw [flat_toInt hS hS' hz hy hx]
  obtain ⟨hz0, hz1⟩ := hz
  obtain ⟨hy0, hy1⟩ := hy
  obtain ⟨hx0, hx1⟩ := hx
  have hs0 : (0 : Int) ≤ (S : Int) := Int.natCast_nonneg _
  have hss0 : (0 : Int) ≤ (S : Int) * (S : Int) := Int.mul_nonneg hs0 hs0
  have uz : z.toInt * ((S : Int) * (S : Int)) ≤ ((S : Int) - 1) * ((S : Int) * (S : Int)) :=
    Int.mul_le_mul_of_nonneg_right (by omega) hss0
  have uy : y.toInt * (S : Int) ≤ ((S : Int) - 1) * (S : Int) :=
    Int.mul_le_mul_of_nonneg_right (by omega) hs0
  have lz : 0 ≤ z.toInt * ((S : Int) * (S : Int)) := Int.mul_nonneg hz0 hss0
  have ly : 0 ≤ y.toInt * (S : Int) := Int.mul_nonneg hy0 hs0
  have hsum : ((S : Int) - 1) * ((S : Int) * (S : Int)) + ((S : Int) - 1) * (S : Int) + ((S : Int) - 1)
      = (S : Int) * (S : Int) * (S : Int) - 1 := by ring
  refine ⟨by omega, ?_⟩
  push_cast
  omega

theorem mask_true {n : Nat} (hn : n ≤ 16777216) {i : BitVec 32} (h : Inb n i) :
    IntOp.andi (IntOp.cmpi .sge i 0#32) (IntOp.cmpi .sle i (BitVec.ofNat 32 (n - 1))) = 1#1 := by
  obtain ⟨h0, h1⟩ := h
  have hz : (0#32 : BitVec 32).toInt = 0 := by decide
  have hm : (BitVec.ofNat 32 (n - 1)).toInt = ((n - 1 : Nat) : Int) := toInt_ofNat_small (by omega)
  have ha : (0#32 : BitVec 32).sle i = true := by
    rw [BitVec.sle, hz, decide_eq_true_eq]; exact h0
  have hb : i.sle (BitVec.ofNat 32 (n - 1)) = true := by
    rw [BitVec.sle, hm, decide_eq_true_eq]; omega
  unfold IntOp.andi IntOp.cmpi
  simp only [ha, hb]
  decide

end Cert.Sampling

end
-- ==== Proof.LibTake.lean ====
/- A row take from a volume laid channels-last as a table [S³, C], and the re-laying of the taken rows [8·N, C] as [8·C, N], read at an index, at any extents (the last lemma at S ≤ 256). -/
import proofs.«104267_j36455682409092_2_alg».proof.Proof.Sampling
import proofs.«104267_j36455682409092_2_alg».proof.Proof.LibIndex
import Idealize.ShloMosaic.Lib.ValueIdx
import Idealize.ShloMosaic.Lib.Pipeline.Value
import Idealize.ShloMosaic.Lib.ValueLayout
import Idealize.ShloMosaic.PureOps.Reduce

noncomputable section

namespace Cert.Sampling

open Idealize.ShloMosaic Idealize.ShloMosaic.ValueIdx

variable {α : Type}

abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

theorem concat8_rows_apply {N : Nat} (u : Fin 8 → (⟨2, ![1, N]⟩ : Shape).Idx → α)
    (h : Shape.Concatenates [(⟨2, ![1, N]⟩ : Shape), ⟨2, ![1, N]⟩, ⟨2, ![1, N]⟩, ⟨2, ![1, N]⟩, ⟨2, ![1, N]⟩, ⟨2, ![1, N]⟩,
      ⟨2, ![1, N]⟩, ⟨2, ![1, N]⟩] ⟨2, ![8, N]⟩ 0) (k : Fin 8) (n : Fin N) :
    concatenate ⟨2, ![8, N]⟩ 0 [⟨⟨2, ![1, N]⟩, u 0⟩, ⟨⟨2, ![1, N]⟩, u 1⟩, ⟨⟨2, ![1, N]⟩, u 2⟩, ⟨⟨2, ![1, N]⟩, u 3⟩,
        ⟨⟨2, ![1, N]⟩, u 4⟩, ⟨⟨2, ![1, N]⟩, u 5⟩, ⟨⟨2, ![1, N]⟩, u 6⟩, ⟨⟨2, ![1, N]⟩, u 7⟩] h (ix2 k n)
      = u k (ix2 (0 : Fin 1) n) := by
  obtain ⟨c, hc⟩ := k

  have hoff : ∀ d : Fin 2, d ≠ (0 : Fin 2) →
      ((ix2 (0 : Fin 1) n) d).val = ((ix2 (⟨c, hc⟩ : Fin 8) n) d).val := by
    intro d hd
    match d, hd with
    | ⟨0, _⟩, hd => exact absurd rfl hd
    | ⟨1, _⟩, _ => rfl
  exact concatenate_apply_piece (t := ⟨2, ![8, N]⟩) (0 : Fin 2)
    [⟨⟨2, ![1, N]⟩, u 0⟩, ⟨⟨2, ![1, N]⟩, u 1⟩, ⟨⟨2, ![1, N]⟩, u 2⟩, ⟨⟨2, ![1, N]⟩, u 3⟩,
      ⟨⟨2, ![1, N]⟩, u 4⟩, ⟨⟨2, ![1, N]⟩, u 5⟩, ⟨⟨2, ![1, N]⟩, u 6⟩, ⟨⟨2, ![1, N]⟩, u 7⟩] h
    (ix2 (⟨c, hc⟩ : Fin 8) n) c (by show c < 8; exact hc) ⟨2, ![1, N]⟩ (u ⟨c, hc⟩)
    (by interval_cases c <;> rfl) rfl c (by interval_cases c <;> rfl) (ix2 (0 : Fin 1) n) hoff
    (by show c + 0 = c; omega)

theorem bcast_row_apply {N : Nat} (h : (⟨1, ![N]⟩ : Shape).BroadcastsInDim ⟨2, ![1, N]⟩ ![1])
    (v : (⟨1, ![N]⟩ : Shape).Idx → α) (n : Fin N) :
    broadcastInDim ⟨2, ![1, N]⟩ ![1] h v (ix2 (0 : Fin 1) n) = v (ix1 n) := by
  refine broadcastInDim_apply _ h v _ (ix1 n) ?_
  intro a
  match a with
  | ⟨0, _⟩ =>
    show n.val = if N = 1 then 0 else n.val
    split
    · next h1 => have := n.isLt; omega
    · rfl

theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

theorem flatten_rows_apply {K N M : Nat} (x : (⟨2, ![K, N]⟩ : Shape).Idx → α)
    (h : (⟨2, ![K, N]⟩ : Shape).ShapeCasts ⟨1, ![M]⟩) (k : Fin K) (n : Fin N) (m : Fin M)
    (hm : m.val = k.val * N + n.val) :
    shapeCast ⟨1, ![M]⟩ x h (ix1 m) = x (ix2 k n) := by
  refine shapeCast_apply x h _ _ ?_
  rw [Shape.rowMajor_val_two, Shape.rowMajor_val_one]
  show k.val * N + n.val = m.val
  exact hm.symm

theorem relayout_rows_apply {K N C M R : Nat} (x : (⟨2, ![M, C]⟩ : Shape).Idx → α)
    (h1 : (⟨2, ![M, C]⟩ : Shape).ShapeCasts ⟨3, ![K, N, C]⟩)
    (h2 : (⟨3, ![K, N, C]⟩ : Shape).Transposes [0, 2, 1] ⟨3, ![K, C, N]⟩)
    (h3 : (⟨3, ![K, C, N]⟩ : Shape).ShapeCasts ⟨2, ![R, N]⟩)
    (k : Fin K) (c : Fin C) (n : Fin N) (r : Fin R) (m : Fin M)
    (hr : r.val = C * k.val + c.val) (hm : m.val = k.val * N + n.val) :
    shapeCast ⟨2, ![R, N]⟩ (transpose ⟨3, ![K, C, N]⟩ [0, 2, 1] (shapeCast ⟨3, ![K, N, C]⟩ x h1) h2) h3 (ix2 r n)
      = x (ix2 m c) := by
  refine (shapeCast_apply _ h3 (ix2 r n) (ix3 k c n) ?_).trans ?_
  · rw [Shape.rowMajor_val_three, Shape.rowMajor_val_two]
    show (k.val * C + c.val) * N + n.val = r.val * N + n.val
    rw [hr, Nat.mul_comm C k.val]
  refine (transpose_apply [0, 2, 1] _ h2 (ix3 k c n) (ix3 k n c) ?_).trans ?_
  · intro b
    match b with
    | ⟨0, _⟩ => rfl
    | ⟨1, _⟩ => rfl
    | ⟨2, _⟩ => rfl
  refine shapeCast_apply x h1 (ix3 k n c) (ix2 m c) ?_
  rw [Shape.rowMajor_val_two, Shape.rowMajor_val_three]
  show m.val * C + c.val = (k.val * N + n.val) * C + c.val
  rw [hm]

theorem dropUnit_apply {C S : Nat} (vol : (⟨5, ![1, C, S, S, S]⟩ : Shape).Idx → α)
    (h : (⟨5, ![1, C, S, S, S]⟩ : Shape).ShapeCasts ⟨4, ![C, S, S, S]⟩) (c : Fin C) (z y x : Fin S) :
    shapeCast ⟨4, ![C, S, S, S]⟩ vol h (ix4 c z y x) = vol (ix5 (0 : Fin 1) c z y x) := by
  refine shapeCast_apply vol h _ _ ?_
  rw [Shape.rowMajor_val_five, Shape.rowMajor_val_four]
  show (((0 * C + c.val) * S + z.val) * S + y.val) * S + x.val = ((c.val * S + z.val) * S + y.val) * S + x.val
  rw [Nat.zero_mul, Nat.zero_add]

theorem channelsLast_apply {C S T : Nat} (vol : (⟨5, ![1, C, S, S, S]⟩ : Shape).Idx → α)
    (h1 : (⟨5, ![1, C, S, S, S]⟩ : Shape).ShapeCasts ⟨4, ![C, S, S, S]⟩)
    (h2 : (⟨4, ![C, S, S, S]⟩ : Shape).Transposes [1, 2, 3, 0] ⟨4, ![S, S, S, C]⟩)
    (h3 : (⟨4, ![S, S, S, C]⟩ : Shape).ShapeCasts ⟨2, ![T, C]⟩)
    (c : Fin C) (z y x : Fin S) (t : Fin T) (ht : t.val = (z.val * S + y.val) * S + x.val) :
    shapeCast ⟨2, ![T, C]⟩ (transpose ⟨4, ![S, S, S, C]⟩ [1, 2, 3, 0] (shapeCast ⟨4, ![C, S, S, S]⟩ vol h1) h2) h3 (ix2 t c)
      = vol (ix5 (0 : Fin 1) c z y x) := by
  refine (shapeCast_apply _ h3 (ix2 t c) (ix4 z y x c) ?_).trans ?_
  · rw [Shape.rowMajor_val_four, Shape.rowMajor_val_two]
    show ((z.val * S + y.val) * S + x.val) * C + c.val = t.val * C + c.val
    rw [ht]
  refine (transpose_apply [1, 2, 3, 0] _ h2 (ix4 z y x c) (ix4 c z y x) ?_).trans (dropUnit_apply vol h1 c z y x)
  intro b
  match b with
  | ⟨0, _⟩ => rfl
  | ⟨1, _⟩ => rfl
  | ⟨2, _⟩ => rfl
  | ⟨3, _⟩ => rfl

theorem flat_row_val {S T : Nat} (hS : 0 < S) (hT : T = S * S * S) {z y x f : BitVec 32}
    (hz : Inb S z) (hy : Inb S y) (hx : Inb S x) (hf : f.toInt = z.toInt * (S * S) + y.toInt * S + x.toInt) :
    min f.toInt.toNat (T - 1)
      = ((clampFin S hS z).val * S + (clampFin S hS y).val) * S + (clampFin S hS x).val := by
  obtain ⟨a, ha⟩ := Int.eq_ofNat_of_zero_le hz.1
  obtain ⟨b, hb⟩ := Int.eq_ofNat_of_zero_le hy.1
  obtain ⟨c, hc⟩ := Int.eq_ofNat_of_zero_le hx.1
  have ha' : a + 1 ≤ S := by have := hz.2; rw [ha] at this; exact_mod_cast this
  have hb' : b + 1 ≤ S := by have := hy.2; rw [hb] at this; exact_mod_cast this
  have hc' : c + 1 ≤ S := by have := hx.2; rw [hc] at this; exact_mod_cast this
  have hfn : f.toInt.toNat = (a * S + b) * S + c := by
    rw [hf, ha, hb, hc]
    have e : ((a : ℤ) * ((S : ℤ) * (S : ℤ)) + (b : ℤ) * (S : ℤ) + (c : ℤ)) = (((a * S + b) * S + c : ℕ) : ℤ) := by
      push_cast; ring
    rw [e]; rfl
  rw [clampFin_val hS hz, clampFin_val hS hy, clampFin_val hS hx, hfn, ha, hb, hc]
  show min ((a * S + b) * S + c) (T - 1) = (a * S + b) * S + c
  refine Nat.min_eq_left ?_
  have h1 : (a + 1) * S ≤ S * S := Nat.mul_le_mul_right S ha'
  have h1' : (a + 1) * S = a * S + S := by ring
  have h2 : a * S + b + 1 ≤ S * S := by omega
  have h3 : (a * S + b + 1) * S ≤ S * S * S := Nat.mul_le_mul_right S h2
  have h3' : (a * S + b + 1) * S = (a * S + b) * S + S := by ring
  rw [hT]
  omega

theorem channelsLast_row_eq_volRead {S T : Nat} (hS : 0 < S) (hT : T = S * S * S)
    (vol : (⟨5, ![1, 4, S, S, S]⟩ : Shape).Idx → EReal)
    (h1 : (⟨5, ![1, 4, S, S, S]⟩ : Shape).ShapeCasts ⟨4, ![4, S, S, S]⟩)
    (h2 : (⟨4, ![4, S, S, S]⟩ : Shape).Transposes [1, 2, 3, 0] ⟨4, ![S, S, S, 4]⟩)
    (h3 : (⟨4, ![S, S, S, 4]⟩ : Shape).ShapeCasts ⟨2, ![T, 4]⟩)
    (c : Fin 4) {z y x f : BitVec 32} (hz : Inb S z) (hy : Inb S y) (hx : Inb S x)
    (hf : f.toInt = z.toInt * (S * S) + y.toInt * S + x.toInt) (t : Fin T) (ht : t.val = min f.toInt.toNat (T - 1)) :
    shapeCast ⟨2, ![T, 4]⟩ (transpose ⟨4, ![S, S, S, 4]⟩ [1, 2, 3, 0] (shapeCast ⟨4, ![4, S, S, S]⟩ vol h1) h2) h3 (ix2 t c)
      = volRead hS vol c z y x := by
  unfold volRead
  exact channelsLast_apply vol h1 h2 h3 c (clampFin S hS z) (clampFin S hS y) (clampFin S hS x) t
    (ht.trans (flat_row_val hS hT hz hy hx hf))

theorem channelsLast_flat_eq_volRead {S T : Nat} (hS : 0 < S) (hS' : S ≤ 256) (hT : T = S * S * S)
    (vol : (⟨5, ![1, 4, S, S, S]⟩ : Shape).Idx → EReal)
    (h1 : (⟨5, ![1, 4, S, S, S]⟩ : Shape).ShapeCasts ⟨4, ![4, S, S, S]⟩)
    (h2 : (⟨4, ![4, S, S, S]⟩ : Shape).Transposes [1, 2, 3, 0] ⟨4, ![S, S, S, 4]⟩)
    (h3 : (⟨4, ![S, S, S, 4]⟩ : Shape).ShapeCasts ⟨2, ![T, 4]⟩)
    (c : Fin 4) {z y x : BitVec 32} (hz : Inb S z) (hy : Inb S y) (hx : Inb S x) (t : Fin T)
    (ht : t.val = min (IntOp.addi (IntOp.addi (IntOp.muli z (BitVec.ofNat 32 (S * S))) (IntOp.muli y (BitVec.ofNat 32 S))) x).toInt.toNat
      (T - 1)) :
    shapeCast ⟨2, ![T, 4]⟩ (transpose ⟨4, ![S, S, S, 4]⟩ [1, 2, 3, 0] (shapeCast ⟨4, ![4, S, S, S]⟩ vol h1) h2) h3 (ix2 t c)
      = volRead hS vol c z y x := by
  exact channelsLast_row_eq_volRead hS hT vol h1 h2 h3 c hz hy hx (flat_toInt hS hS' hz hy hx) t ht

end Cert.Sampling

end
-- ==== Proof.KChain.lean ====
/-
  The host operations that prepare one volume for the kernel region, as ONE family of arrays indexed by the volume.

  From the grid [1, 1, 1, N, 3] and a volume [1, 4, S, S, S]: along each axis the coordinate in cell units
  s = min(S − 1, max(0, (p + 1)·½·(S − 1))), the lower cell ⌊s⌋ as a signed word and the upper cell min(⌊s⌋ + 1, S − 1);
  for each of the eight corners the flattened index z·S² + y·S + x; the eight index arrays stacked and flattened; the take
  of those rows of the volume laid out channels-last [S³, 4]; the result re-laid as [8·4, N].
-/
import proofs.«104267_j36455682409092_2_alg».proof.KernelIdeal
import proofs.«104267_j36455682409092_2_alg».proof.Proof.Gen.KernelIdeal
import proofs.«104267_j36455682409092_2_alg».proof.Proof.LibTake

noncomputable section

namespace Cert.KernelIdeal.Chain

open Idealize.ShloMosaic Cert.KernelIdeal Cert.KernelIdeal.Gen Cert.Sampling

/-- A volume of the program: its extent S ≤ 256, T = S³, the float word of S − 1, and that its shapes fit the re-layouts. -/
structure Vol where
  S : Nat
  T : Nat
  sw : BitVec 32
  hT : T = S * S * S
  pos : 0 < S
  le : S ≤ 256
  inb : ∀ p, Inb S (cell sw p)
  c1 : (⟨5, ![1, 4, S, S, S]⟩ : Shape).ShapeCasts ⟨4, ![4, S, S, S]⟩
  tr : (⟨4, ![4, S, S, S]⟩ : Shape).Transposes [1, 2, 3, 0] ⟨4, ![S, S, S, 4]⟩
  c2 : (⟨4, ![S, S, S, 4]⟩ : Shape).ShapeCasts ⟨2, ![T, 4]⟩
  wf : GatherDims.WF ⟨2, ![T, 4]⟩ S8388608x1 S8388608x4 [1] [0] [] [0] [] 1 ![1, 4]

theorem colSlices : ∀ c : Fin 3, S1048576x3.Slices ![0, c.val] S1048576x1 := by decide

variable (V : Vol) (g : FVec Ideal S1x1x1x1048576x3 .f32) (v : FVec Ideal ⟨5, ![1, 4, V.S, V.S, V.S]⟩ .f32)

/-- The grid laid out as [N, 3]. -/
def grid3 : FVec Ideal S1048576x3 .f32 := shapeCast S1048576x3 g shapeCasts_S1x1x1x1048576x3_S1048576x3

/-- The points array [3, N]. -/
def pts : FVec Ideal S3x1048576 .f32 := transpose S3x1048576 [1, 0] (grid3 g) transposes_S1048576x3_S3x1048576_1_0

/-- A float word, an integer word, spread over [N]. -/
def fill (w : BitVec 32) : FVec Ideal S1048576 .f32 := broadcastInDim S1048576 ![] bcast_S_S1048576 (constant S_ .f32 w)
def filli (w : BitVec 32) : IVec S1048576 32 := broadcastInDim S1048576 ![] bcast_S_S1048576 (constantI S_ 32 w)

/-- Component c of every point. -/
def comp (c : Fin 3) : FVec Ideal S1048576 .f32 :=
  shapeCast S1048576 (extractStridedSlice S1048576x1 ![0, c.val] (grid3 g) (colSlices c)) shapeCasts_S1048576x1_S1048576

/-- The coordinate along axis c in cell units, clamped to the volume. -/
def coordA (c : Fin 3) : FVec Ideal S1048576 .f32 :=
  minimumf (fill V.sw) (maximumf (fill 0x00000000#32)
    (mulf (mulf (addf (comp g c) (fill 0x3F800000#32)) (fill 0x3F000000#32)) (fill V.sw)))

/-- The lower cell along axis c, and the lower or the upper one. -/
def cellA (c : Fin 3) : IVec S1048576 32 := fptosi 32 (Host.floor (coordA V g c))
def pickA (c : Fin 3) (b : Bool) : IVec S1048576 32 :=
  bif b then minsi (addi (cellA V g c) (filli 1#32)) (filli (BitVec.ofNat 32 (V.S - 1))) else cellA V g c

/-- The flattened index z·S² + y·S + x of corner (b_z, b_y, b_x), as a row [1, N]. -/
def rowA (bz bY bx : Bool) : IVec S1x1048576 32 :=
  broadcastInDim S1x1048576 ![1] bcast_S1048576_S1x1048576_1
    (addi (addi (muli (pickA V g 2 bz) (filli (BitVec.ofNat 32 (V.S * V.S)))) (muli (pickA V g 1 bY) (filli (BitVec.ofNat 32 V.S))))
      (pickA V g 0 bx))

/-- The eight rows stacked [8, N], corner 4·b_z + 2·b_y + b_x in row k, and flattened [8·N]. -/
def idx : IVec S8388608 32 :=
  shapeCast S8388608 (concatenate S8x1048576 0 [⟨S1x1048576, rowA V g false false false⟩, ⟨S1x1048576, rowA V g false false true⟩,
    ⟨S1x1048576, rowA V g false true false⟩, ⟨S1x1048576, rowA V g false true true⟩, ⟨S1x1048576, rowA V g true false false⟩,
    ⟨S1x1048576, rowA V g true false true⟩, ⟨S1x1048576, rowA V g true true false⟩, ⟨S1x1048576, rowA V g true true true⟩]
    concatenates_S1x1048576_S1x1048576_S1x1048576_S1x1048576_S1x1048576_S1x1048576_S1x1048576_S1x1048576_S8x1048576_d0)
    shapeCasts_S8x1048576_S8388608

/-- The take's start indices [8·N, 1]: a negative index is wrapped by S³. -/
def start : IVec S8388608x1 32 :=
  broadcastInDim S8388608x1 ![0] bcast_S8388608_S8388608x1_0
    (select (cmpi .slt (idx V g) (broadcastInDim S8388608 ![] bcast_S_S8388608 (constantI S_ 32 0#32)))
      (addi (idx V g) (broadcastInDim S8388608 ![] bcast_S_S8388608 (constantI S_ 32 (BitVec.ofNat 32 V.T)))) (idx V g))

/-- The take's mask [8·N, 4]: the start index is at least 0 and at most S³ − 1. -/
def geA : IVec S8388608x1 1 :=
  cmpi .sge (start V g) (broadcastInDim S8388608x1 ![] bcast_S_S8388608x1 (constantI S_ 32 0#32))
def leA : IVec S8388608x1 1 :=
  cmpi .sle (start V g) (broadcastInDim S8388608x1 ![0, 1] bcast_S1x1_S8388608x1_0_1
    (broadcastInDim S1x1 ![1] bcast_S1_S1x1_1 (constantI S1 32 (BitVec.ofNat 32 (V.T - 1)))))
def mask : IVec S8388608x4 1 :=
  broadcastInDim S8388608x4 ![0] bcast_S8388608_S8388608x4_0
    (Host.reduce IntOp.andi (andi (geA V g) (leA V g)) (constantI S_ 1 1#1) reducesTo_S8388608x1_S8388608_d1 h_S_)

/-- The volume laid out channels-last [S³, 4]. -/
def vol4 : FVec Ideal ⟨2, ![V.T, 4]⟩ .f32 :=
  shapeCast ⟨2, ![V.T, 4]⟩ (transpose ⟨4, ![V.S, V.S, V.S, 4]⟩ [1, 2, 3, 0] (shapeCast ⟨4, ![4, V.S, V.S, V.S]⟩ v V.c1) V.tr) V.c2

/-- The rows gathered [8·N, 4], and the rows taken: where the mask holds the gathered row, elsewhere a fixed word. -/
def gath : FVec Ideal S8388608x4 .f32 := Host.gather (takeRowsDims [] ![1, 4] V.wf) (vol4 V v) (start V g)
def taken : FVec Ideal S8388608x4 .f32 :=
  select (mask V g) (gath V g v) (broadcastInDim S8388608x4 ![] bcast_S_S8388608x4 (constant S_ .f32 0x7FC00000#32))

/-- The stacked-corner array [8·4, N]. -/
def out : FVec Ideal S32x1048576 .f32 :=
  shapeCast S32x1048576 (transpose S8x4x1048576 [0, 2, 1] (shapeCast S8x1048576x4 (taken V g v) shapeCasts_S8388608x4_S8x1048576x4)
    transposes_S8x1048576x4_S8x4x1048576_0_2_1) shapeCasts_S8x4x1048576_S32x1048576

end Cert.KernelIdeal.Chain

end
-- ==== Proof.KChainRead.lean ====
/-
  The family of arrays the host operations prepare for one volume, read at an index over the extended reals.

  The points array [3, N] is the grid transposed. Along an axis the stages are pointwise, so at point n they are the scalar
  operations on the point's component. A cell lies in [0, S − 1], so a corner's flattened index z·S² + y·S + x is formed
  without overflow and lies in [0, S³ − 1]: the take's wrap of negative indices and its mask do nothing, and the row it
  reads is the volume at the cells (z, y, x). Re-laid as [8·4, N], row 4·k + c is channel c of corner k.
-/
import proofs.«104267_j36455682409092_2_alg».proof.Proof.KChain
import Idealize.ShloMosaic.Lib.ValueIdx
import Idealize.ShloMosaic.Lib.Pipeline.Value
import Idealize.ShloMosaic.Lib.ValueLayout

noncomputable section

namespace Cert.KernelIdeal.Chain

open Idealize.ShloMosaic Idealize.ShloMosaic.ValueIdx Cert.KernelIdeal Cert.KernelIdeal.Gen Cert.Sampling

section Layout
variable {α : Type} {N : Nat}

/-- Points [1, 1, 1, N, 3] laid out as [N, 3], read at (n, k): the same row-major position. -/
theorem ptsCast_apply (x : (⟨5, ![1, 1, 1, N, 3]⟩ : Shape).Idx → α)
    (h : (⟨5, ![1, 1, 1, N, 3]⟩ : Shape).ShapeCasts ⟨2, ![N, 3]⟩) (n : Fin N) (k : Fin 3) :
    shapeCast ⟨2, ![N, 3]⟩ x h (ix2 n k) = x (ix5 (0 : Fin 1) (0 : Fin 1) (0 : Fin 1) n k) := by
  refine shapeCast_apply x h _ _ ?_
  rw [Shape.rowMajor_val_five, Shape.rowMajor_val_two]
  show (((0 * 1 + 0) * 1 + 0) * N + n.val) * 3 + k.val = n.val * 3 + k.val
  omega

/-- The transpose [N, 3] → [3, N] read at (k, n): the operand at (n, k). -/
theorem ptsT_apply (x : (⟨2, ![N, 3]⟩ : Shape).Idx → α)
    (h : (⟨2, ![N, 3]⟩ : Shape).Transposes [1, 0] ⟨2, ![3, N]⟩) (k : Fin 3) (n : Fin N) :
    transpose ⟨2, ![3, N]⟩ [1, 0] x h (ix2 k n) = x (ix2 n k) := by
  refine transpose_apply _ x h (ix2 k n) (ix2 n k) ?_
  intro b
  match b with
  | ⟨0, _⟩ => rfl
  | ⟨1, _⟩ => rfl

/-- Column c of [N, 3] cut out as [N, 1] and laid out as [N], read at n: the operand at (n, c). -/
theorem col_apply (x : (⟨2, ![N, 3]⟩ : Shape).Idx → α) (c : Fin 3)
    (hs : (⟨2, ![N, 3]⟩ : Shape).Slices ![0, c.val] ⟨2, ![N, 1]⟩)
    (hc : (⟨2, ![N, 1]⟩ : Shape).ShapeCasts ⟨1, ![N]⟩) (n : Fin N) :
    shapeCast ⟨1, ![N]⟩ (extractStridedSlice ⟨2, ![N, 1]⟩ ![0, c.val] x hs) hc (ix1 n) = x (ix2 n c) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply _ x hs (ix2 n (0 : Fin 1)) (ix2 n c) ?_
    intro a
    match a with
    | ⟨0, _⟩ => show n.val = 0 + n.val; omega
    | ⟨1, _⟩ => show c.val = c.val + 0; omega

end Layout

variable (V : Vol) (g : S1x1x1x1048576x3.Idx → EReal) (v : (⟨5, ![1, 4, V.S, V.S, V.S]⟩ : Shape).Idx → EReal) (n : Fin 1048576)

/-- Component c of point n of the grid. -/
def P (c : Fin 3) : EReal := g (ix5 (0 : Fin 1) (0 : Fin 1) (0 : Fin 1) n c)

/-- The lower or the upper cell of point n along axis c. -/
def at' (c : Fin 3) (b : Bool) : BitVec 32 := pick (BitVec.ofNat 32 (V.S - 1)) (cell V.sw (P g n c)) b

/-- The points array at (k, n). -/
theorem pts_read (k : Fin 3) : pts g (ix2 k n) = P g n k :=
  (ptsT_apply _ _ k n).trans (ptsCast_apply g _ n k)

theorem comp_read (c : Fin 3) : comp g c (ix1 n) = P g n c :=
  (col_apply _ c (colSlices c) _ n).trans (ptsCast_apply g _ n c)

/-- The stages along an axis are pointwise: at point n they are the scalar operations on the point's component. -/
theorem pick_read (c : Fin 3) (b : Bool) : pickA V g c b (ix1 n) = at' V g n c b := by
  unfold at' cell
  rw [← comp_read g n c]
  cases b <;> rfl

theorem at_inb (c : Fin 3) (b : Bool) : Inb V.S (at' V g n c b) := pick_inb V.pos V.le (V.inb _) b

/-- The flattened index of a corner of point n, in word arithmetic. -/
def flat (bz bY bx : Bool) : BitVec 32 :=
  IntOp.addi (IntOp.addi (IntOp.muli (at' V g n 2 bz) (BitVec.ofNat 32 (V.S * V.S))) (IntOp.muli (at' V g n 1 bY) (BitVec.ofNat 32 V.S)))
    (at' V g n 0 bx)

theorem flat_inb' (bz bY bx : Bool) : Inb V.T (flat V g n bz bY bx) :=
  V.hT ▸ flat_inb V.pos V.le (at_inb V g n 2 bz) (at_inb V g n 1 bY) (at_inb V g n 0 bx)

/-- Corner k = 4·b_z + 2·b_y + b_x of the eight, and its position k·N + n in the flattened index array. -/
def cornerIdx (bz bY bx : Bool) : Fin 8 :=
  ⟨4 * bz.toNat + 2 * bY.toNat + bx.toNat, by cases bz <;> cases bY <;> cases bx <;> simp⟩

def cornerPos (bz bY bx : Bool) : Fin 8388608 :=
  ⟨(cornerIdx bz bY bx).val * 1048576 + n.val, by
    have h1 := (cornerIdx bz bY bx).isLt
    have h2 := n.isLt
    omega⟩

variable (bz bY bx : Bool)

/-- The flattened index array at position k·N + n. -/
theorem idx_read : idx V g (ix1 (cornerPos n bz bY bx)) = flat V g n bz bY bx := by
  refine (flatten_rows_apply _ _ (cornerIdx bz bY bx) n (cornerPos n bz bY bx) rfl).trans ?_
  refine (concat8_rows_apply ![rowA V g false false false, rowA V g false false true, rowA V g false true false,
    rowA V g false true true, rowA V g true false false, rowA V g true false true, rowA V g true true false,
    rowA V g true true true] _ (cornerIdx bz bY bx) n).trans ?_
  have h : ∀ bz bY bx, rowA V g bz bY bx (ix2 (0 : Fin 1) n) = flat V g n bz bY bx := fun bz bY bx => by
    refine (bcast_row_apply _ _ n).trans ?_
    unfold flat
    rw [← pick_read, ← pick_read, ← pick_read]
    rfl
  cases bz <;> cases bY <;> cases bx <;> exact h _ _ _

/-- The take's start index there: a corner's index is not negative, so the wrap leaves it alone. -/
theorem start_read : start V g (ix2 (cornerPos n bz bY bx) (0 : Fin 1)) = flat V g n bz bY bx := by
  refine (bcast_col_apply _ _ (cornerPos n bz bY bx)).trans ?_
  show Scalar.select (IntOp.cmpi .slt (idx V g (ix1 (cornerPos n bz bY bx))) 0#32)
      (IntOp.addi (idx V g (ix1 (cornerPos n bz bY bx))) _) (idx V g (ix1 (cornerPos n bz bY bx))) = _
  rw [idx_read]
  exact wrap_eq (flat_inb' V g n bz bY bx) _

/-- The take's mask there is true: a corner's index lies in [0, S³ − 1]. -/
theorem mask_read (ch : Fin 4) : mask V g (ix2 (cornerPos n bz bY bx) ch) = 1#1 := by
  refine (bcast_cols_apply _ _ (cornerPos n bz bY bx) ch).trans ?_
  refine (reduce_andi_unit_apply _ _ _ _ (fun _ => rfl) (cornerPos n bz bY bx)).trans ?_
  show IntOp.andi (IntOp.cmpi .sge (start V g (ix2 (cornerPos n bz bY bx) (0 : Fin 1))) 0#32)
      (IntOp.cmpi .sle (start V g (ix2 (cornerPos n bz bY bx) (0 : Fin 1))) (BitVec.ofNat 32 (V.T - 1))) = 1#1
  rw [start_read]
  exact mask_true (V.hT ▸ Nat.mul_le_mul (Nat.mul_le_mul V.le V.le) V.le) (flat_inb' V g n bz bY bx)

/-- THE STACKED-CORNER ARRAY [8·4, N] at row 4·k + c and point n: channel c of the volume at the cells of corner k. -/
theorem out_read (ch : Fin 4) :
    out V g v (ix2 (cornerRow bz bY bx ch) n) = volRead V.pos v ch (at' V g n 2 bz) (at' V g n 1 bY) (at' V g n 0 bx) := by
  refine (relayout_rows_apply (K := 8) _ _ _ _ (cornerIdx bz bY bx) ch n (cornerRow bz bY bx ch)
    (cornerPos n bz bY bx) rfl rfl).trans ?_
  unfold taken
  rw [select_apply, mask_read, select_one]
  refine (take_rows_apply _ rfl rfl rfl rfl rfl (V.hT ▸ Nat.mul_pos (Nat.mul_pos V.pos V.pos) V.pos) _ _ (cornerPos n bz bY bx) ch).trans ?_
  refine channelsLast_flat_eq_volRead V.pos V.le V.hT v _ _ _ ch (at_inb V g n 2 bz) (at_inb V g n 1 bY) (at_inb V g n 0 bx) _ ?_
  show min (start V g (ix2 (cornerPos n bz bY bx) (0 : Fin 1))).toInt.toNat _ = _
  rw [start_read]
  rfl

end Cert.KernelIdeal.Chain

end
-- ==== Proof.LibHostRead.lean ====
/- In a line of host operations in which no operation writes a buffer an earlier one touches, a result buffer ends at its operation's function of the final contents of its operand buffers. -/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

def Fresh (L : List (HloOp τ sig Val)) : Prop := L.Pairwise fun o₁ o₂ => Disjoint o₂.writes o₁.bufs

instance (L : List (HloOp τ sig Val)) : Decidable (Fresh L) := inferInstanceAs (Decidable (L.Pairwise _))

theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.KHostPre.lean ====
/-
  The host operations before the region, cut in three: a buffer that nothing after a stretch writes holds, when the
  region starts, what the stretch left there. The first operation lays the grid out as [N, 3].
-/
import proofs.«104267_j36455682409092_2_alg».proof.Proof.KBlocks
import proofs.«104267_j36455682409092_2_alg».proof.Proof.KChainRead
import proofs.«104267_j36455682409092_2_alg».proof.Proof.LibHostRead
import Idealize.ShloMosaic.Lib.ValueIdx
import Idealize.ShloMosaic.Lib.StableHlo.Run

noncomputable section

namespace Cert.KernelIdeal.Blk

open Idealize.ShloMosaic Idealize.ShloMosaic.ValueIdx Idealize.ShloMosaic.TcCoe Cert.KernelIdeal.Gen Cert.Sampling
open Idealize.SL Idealize.SL.Sem
open Idealize.ShloMosaic.StableHlo Cert.HostRead Chain

variable (m : (ℓ : Loc nD τ sig) → Buf (Elt Ideal) ℓ) (c : Dev nD)

theorem V_of_split {pre line later : List (HloOp τ sig (Elt Ideal))}
    (h : List.flatten (hostBefore (F := Ideal)) = pre ++ (line ++ later)) (r : Ref sig .tc)
    (hr : ∀ op ∈ later, Proc.devRef (τ := τ) .tc r ∉ op.writes) :
    V m c r = after line (after pre fun b => m (c, b)) (Proc.devRef .tc r) := by
  show after (List.flatten (hostBefore (F := Ideal))) (fun b => m (c, b)) (Proc.devRef .tc r) = _
  rw [h, after_append, after_append, after_of_forall_not_mem _ _ hr]

attribute [local irreducible] StableHlo.after StableHlo.nullary StableHlo.unary StableHlo.binary StableHlo.ternary
  StableHlo.reshape StableHlo.nary Host.reduce Host.gather

theorem grid_first : after hostOps0 (fun b => m (c, b)) (Proc.devRef .tc main_v0) = grid3 (m ((c : Thread nD τ).loc main_arg0)) := by
  rw [read_reshape (L := hostOps0) (by decide +kernel) 0 (hop := rfl),
    after_of_forall_not_mem hostOps0 _ (b := Proc.devRef .tc main_arg0) (by decide +kernel)]
  rfl

end Cert.KernelIdeal.Blk

end
-- ==== Proof.KHostV0.lean ====
/-
  The first two arrays the kernel region reads: the points array and the first volume's stacked-corner array.

  Both are written by host operations before the region and by none after them. The operations up to the stacked-corner
  array form a line in which no buffer is rewritten, so each buffer holds its operation's function of its operands'
  contents; followed back from a buffer to the argument arrays these are the stage arrays of the first volume.
-/
import proofs.«104267_j36455682409092_2_alg».proof.Proof.KHostPre

noncomputable section

namespace Cert.KernelIdeal.Host0

open Idealize.ShloMosaic Idealize.ShloMosaic.ValueIdx Idealize.ShloMosaic.TcCoe Cert.KernelIdeal Cert.KernelIdeal.Gen Cert.Sampling
open Idealize.SL Idealize.SL.Sem
open Idealize.ShloMosaic.StableHlo Cert.HostRead Chain

/-- The first volume. -/
def vol : Vol := ⟨32, 32768, 0x41F80000#32, rfl, by omega, by omega, cell_inb_32, shapeCasts_S1x4x32x32x32_S4x32x32x32,
  transposes_S4x32x32x32_S32x32x32x4_1_2_3_0, shapeCasts_S32x32x32x4_S32768x4,
  gather_S32768x4_S8388608x1_S8388608x4_1_0_n_n_0_1_14_wf⟩

/-- The operations that make the points array and the first stacked-corner array, and the ones after them. -/
abbrev ops0 : List (HloOp τ sig (Elt Ideal)) :=
  List.flatten [hostOps0, hostOps0_1, hostOps0_2, hostOps0_3, hostOps0_4, hostOps0_5, hostOps0_6, hostOps0_7, hostOps0_8]

abbrev opsLater : List (HloOp τ sig (Elt Ideal)) :=
  List.flatten [hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

theorem fresh0 : Fresh ops0 := by decide +kernel

variable (m : (ℓ : Loc nD τ sig) → Buf (Elt Ideal) ℓ) (c : Dev nD)

theorem V_eq (r : Ref sig .tc) (hr : ∀ op ∈ opsLater, Proc.devRef (τ := τ) .tc r ∉ op.writes) :
    Blk.V m c r = after ops0 (fun b => m (c, b)) (Proc.devRef .tc r) :=
  Blk.V_of_split m c (pre := []) (by
    simp only [Blk.hostBefore, List.flatten_cons, List.flatten_nil, List.append_nil, List.append_assoc, List.nil_append]) r hr

attribute [local irreducible] StableHlo.after StableHlo.nullary StableHlo.unary StableHlo.binary StableHlo.ternary
  StableHlo.reshape StableHlo.nary Host.reduce Host.gather

set_option quotPrecheck false in
local notation "⟪" r "⟫" => StableHlo.after ops0 (fun b => m (c, b)) (Proc.devRef Proc.tc r)
set_option quotPrecheck false in
local notation "gₘ" => m ((c : Thread nD τ).loc main_arg0)
set_option quotPrecheck false in
local notation "vₘ" => m ((c : Thread nD τ).loc main_arg1)

theorem l_arg0 : ⟪main_arg0⟫ = gₘ := after_of_forall_not_mem _ _ (by decide +kernel)
theorem l_arg1 : ⟪main_arg1⟫ = vₘ := after_of_forall_not_mem _ _ (by decide +kernel)

theorem l_grid : ⟪main_v0⟫ = grid3 gₘ := by
  rw [read_reshape fresh0 0 (hop := rfl), l_arg0]; rfl
theorem l_pts : ⟪main_v1⟫ = pts gₘ := by
  rw [read_unary fresh0 1 (hop := rfl), l_grid]; rfl
theorem l_vol : ⟪main_v4⟫ = vol4 vol vₘ := by
  rw [read_reshape fresh0 4 (hop := rfl), read_unary fresh0 3 (hop := rfl), read_reshape fresh0 2 (hop := rfl), l_arg1]; rfl

/-- The lower cells along x, y, z: slice, (p + 1)·½·(S − 1), clamp, floor, conversion. -/
theorem l_cell_x : ⟪main_v33⟫ = cellA vol gₘ 0 := by
  rw [
    read_unary fresh0 63 (hop := rfl), read_unary fresh0 62 (hop := rfl), read_binary fresh0 23 (hop := rfl),
    read_unary fresh0 22 (hop := rfl), read_unary fresh0 21 (hop := rfl), read_binary fresh0 20 (hop := rfl),
    read_unary fresh0 19 (hop := rfl), read_unary fresh0 18 (hop := rfl), read_nullary fresh0 17 (hop := rfl),
    read_nullary fresh0 16 (hop := rfl), read_binary fresh0 15 (hop := rfl), read_unary fresh0 14 (hop := rfl),
    read_nullary fresh0 13 (hop := rfl), read_binary fresh0 12 (hop := rfl), read_unary fresh0 11 (hop := rfl),
    read_nullary fresh0 10 (hop := rfl), read_binary fresh0 9 (hop := rfl), read_unary fresh0 8 (hop := rfl),
    read_nullary fresh0 7 (hop := rfl), read_reshape fresh0 6 (hop := rfl), read_unary fresh0 5 (hop := rfl),
    l_grid]
  rfl
theorem l_cell_y : ⟪main_v39⟫ = cellA vol gₘ 1 := by
  rw [
    read_unary fresh0 71 (hop := rfl), read_unary fresh0 70 (hop := rfl), read_binary fresh0 42 (hop := rfl),
    read_unary fresh0 41 (hop := rfl), read_unary fresh0 40 (hop := rfl), read_binary fresh0 39 (hop := rfl),
    read_unary fresh0 38 (hop := rfl), read_unary fresh0 37 (hop := rfl), read_nullary fresh0 36 (hop := rfl),
    read_nullary fresh0 35 (hop := rfl), read_binary fresh0 34 (hop := rfl), read_unary fresh0 33 (hop := rfl),
    read_nullary fresh0 32 (hop := rfl), read_binary fresh0 31 (hop := rfl), read_unary fresh0 30 (hop := rfl),
    read_nullary fresh0 29 (hop := rfl), read_binary fresh0 28 (hop := rfl), read_unary fresh0 27 (hop := rfl),
    read_nullary fresh0 26 (hop := rfl), read_reshape fresh0 25 (hop := rfl), read_unary fresh0 24 (hop := rfl),
    l_grid]
  rfl
theorem l_cell_z : ⟪main_v45⟫ = cellA vol gₘ 2 := by
  rw [
    read_unary fresh0 79 (hop := rfl), read_unary fresh0 78 (hop := rfl), read_binary fresh0 61 (hop := rfl),
    read_unary fresh0 60 (hop := rfl), read_unary fresh0 59 (hop := rfl), read_binary fresh0 58 (hop := rfl),
    read_unary fresh0 57 (hop := rfl), read_unary fresh0 56 (hop := rfl), read_nullary fresh0 55 (hop := rfl),
    read_nullary fresh0 54 (hop := rfl), read_binary fresh0 53 (hop := rfl), read_unary fresh0 52 (hop := rfl),
    read_nullary fresh0 51 (hop := rfl), read_binary fresh0 50 (hop := rfl), read_unary fresh0 49 (hop := rfl),
    read_nullary fresh0 48 (hop := rfl), read_binary fresh0 47 (hop := rfl), read_unary fresh0 46 (hop := rfl),
    read_nullary fresh0 45 (hop := rfl), read_reshape fresh0 44 (hop := rfl), read_unary fresh0 43 (hop := rfl),
    l_grid]
  rfl

/-- The upper cells min(i + 1, S − 1). -/
theorem l_next_x : ⟪main_v37⟫ = pickA vol gₘ 0 true := by
  rw [read_binary fresh0 69 (hop := rfl), read_unary fresh0 68 (hop := rfl), read_nullary fresh0 67 (hop := rfl), read_binary fresh0 66 (hop := rfl), read_unary fresh0 65 (hop := rfl), read_nullary fresh0 64 (hop := rfl), l_cell_x]; rfl
theorem l_next_y : ⟪main_v43⟫ = pickA vol gₘ 1 true := by
  rw [read_binary fresh0 77 (hop := rfl), read_unary fresh0 76 (hop := rfl), read_nullary fresh0 75 (hop := rfl), read_binary fresh0 74 (hop := rfl), read_unary fresh0 73 (hop := rfl), read_nullary fresh0 72 (hop := rfl), l_cell_y]; rfl
theorem l_next_z : ⟪main_v49⟫ = pickA vol gₘ 2 true := by
  rw [read_binary fresh0 85 (hop := rfl), read_unary fresh0 84 (hop := rfl), read_nullary fresh0 83 (hop := rfl), read_binary fresh0 82 (hop := rfl), read_unary fresh0 81 (hop := rfl), read_nullary fresh0 80 (hop := rfl), l_cell_z]; rfl

/-- The eight flattened indices, stacked and flattened. -/
theorem l_idx : ⟪main_v83⟫ = idx vol gₘ := by
  rw [read_reshape fresh0 123 (hop := rfl), read_nary fresh0 122 (hop := rfl)]
  simp only [Matrix.cons_val]
  rw [
    read_unary fresh0 121 (hop := rfl), read_unary fresh0 120 (hop := rfl), read_unary fresh0 119 (hop := rfl),
    read_unary fresh0 118 (hop := rfl), read_unary fresh0 117 (hop := rfl), read_unary fresh0 116 (hop := rfl),
    read_unary fresh0 115 (hop := rfl), read_unary fresh0 114 (hop := rfl), read_binary fresh0 113 (hop := rfl),
    read_binary fresh0 112 (hop := rfl), read_binary fresh0 111 (hop := rfl), read_binary fresh0 110 (hop := rfl),
    read_binary fresh0 109 (hop := rfl), read_binary fresh0 108 (hop := rfl), read_binary fresh0 107 (hop := rfl),
    read_binary fresh0 106 (hop := rfl), read_binary fresh0 105 (hop := rfl), read_binary fresh0 104 (hop := rfl),
    read_binary fresh0 103 (hop := rfl), read_binary fresh0 102 (hop := rfl), read_binary fresh0 101 (hop := rfl),
    read_binary fresh0 100 (hop := rfl), read_binary fresh0 99 (hop := rfl), read_binary fresh0 98 (hop := rfl),
    read_binary fresh0 97 (hop := rfl), read_unary fresh0 96 (hop := rfl), read_nullary fresh0 95 (hop := rfl),
    read_binary fresh0 94 (hop := rfl), read_unary fresh0 93 (hop := rfl), read_nullary fresh0 92 (hop := rfl),
    read_binary fresh0 91 (hop := rfl), read_unary fresh0 90 (hop := rfl), read_nullary fresh0 89 (hop := rfl),
    read_binary fresh0 88 (hop := rfl), read_unary fresh0 87 (hop := rfl), read_nullary fresh0 86 (hop := rfl),
    l_cell_x, l_cell_y, l_cell_z, l_next_x, l_next_y, l_next_z]
  rfl

/-- The take: the wrapped start indices, the in-range mask, the gathered rows under the mask. -/
theorem l_start : ⟪main_call3_v5⟫ = start vol gₘ := by
  rw [read_unary fresh0 131 (hop := rfl),
    read_ternary fresh0 130 (hop := rfl),
    read_binary fresh0 129 (hop := rfl),
    read_unary fresh0 128 (hop := rfl),
    read_nullary fresh0 127 (hop := rfl),
    read_binary fresh0 126 (hop := rfl),
    read_unary fresh0 125 (hop := rfl),
    read_nullary fresh0 124 (hop := rfl), l_idx]
  rfl
theorem l_ge : ⟪main_call3_v7⟫ = geA vol gₘ := by
  unfold geA
  rw [← l_start, read_binary fresh0 135 (hop := rfl), read_unary fresh0 134 (hop := rfl), read_nullary fresh0 133 (hop := rfl)]
  rfl
theorem l_le : ⟪main_call3_v10⟫ = leA vol gₘ := by
  unfold leA
  rw [← l_start, read_binary fresh0 138 (hop := rfl),
    read_unary fresh0 137 (hop := rfl),
    read_unary fresh0 136 (hop := rfl),
    read_nullary fresh0 132 (hop := rfl)]
  rfl
theorem l_inr : ⟪main_call3_v11⟫ = andi (geA vol gₘ) (leA vol gₘ) := by
  rw [← l_ge, ← l_le, read_binary fresh0 139 (hop := rfl)]
  rfl
theorem l_red : ⟪main_call3_v12⟫
    = Host.reduce IntOp.andi (andi (geA vol gₘ) (leA vol gₘ)) (constantI S_ 1 1#1) reducesTo_S8388608x1_S8388608_d1 h_S_ := by
  rw [← l_inr, read_binary fresh0 141 (hop := rfl), read_nullary fresh0 140 (hop := rfl)]
  rfl
theorem l_mask : ⟪main_call3_v14⟫ = mask vol gₘ := by
  unfold mask
  rw [← l_red, read_unary fresh0 143 (hop := rfl)]
  rfl
theorem l_gath : ⟪main_call3_v13⟫ = gath vol gₘ vₘ := by
  rw [read_binary fresh0 142 (hop := rfl), l_vol, l_start]
  rfl
theorem l_taken : ⟪main_v84⟫ = taken vol gₘ vₘ := by
  unfold taken
  rw [← l_mask, ← l_gath, read_ternary fresh0 146 (hop := rfl), read_unary fresh0 145 (hop := rfl), read_nullary fresh0 144 (hop := rfl)]
  rfl
theorem l_out : ⟪main_v87⟫ = out vol gₘ vₘ := by
  unfold out
  rw [← l_taken, read_reshape fresh0 149 (hop := rfl), read_unary fresh0 148 (hop := rfl), read_reshape fresh0 147 (hop := rfl)]
  rfl

/-- The points array at (k, n): component k of point n. -/
theorem V_pts (k : Fin 3) (n : Fin 1048576) :
    (Blk.V m c main_v1 : S3x1048576.Idx → EReal) (ix2 k n)
      = (m ((c : Thread nD τ).loc main_arg0) : S1x1x1x1048576x3.Idx → EReal) (ix5 (0 : Fin 1) (0 : Fin 1) (0 : Fin 1) n k) := by
  rw [V_eq m c main_v1 (by decide +kernel), l_pts]
  exact pts_read _ n k

/-- The stacked-corner array at row 4·k + c (corner k = 4·z + 2·y + x, channel c) and column n: the volume's channel c at
    the corner's cells along z, y, x of point n. -/
theorem V_corner (bz bY bx : Bool) (ch : Fin 4) (n : Fin 1048576) :
    (Blk.V m c main_v87 : S32x1048576.Idx → EReal) (ix2 (cornerRow bz bY bx ch) n)
      = volRead (S := 32) (by omega) (m ((c : Thread nD τ).loc main_arg1) : S1x4x32x32x32.Idx → EReal) ch
          (pick 31#32 (cell 0x41F80000#32 ((m ((c : Thread nD τ).loc main_arg0) : S1x1x1x1048576x3.Idx → EReal) (ix5 (0 : Fin 1) (0 : Fin 1) (0 : Fin 1) n (2 : Fin 3)))) bz)
          (pick 31#32 (cell 0x41F80000#32 ((m ((c : Thread nD τ).loc main_arg0) : S1x1x1x1048576x3.Idx → EReal) (ix5 (0 : Fin 1) (0 : Fin 1) (0 : Fin 1) n (1 : Fin 3)))) bY)
          (pick 31#32 (cell 0x41F80000#32 ((m ((c : Thread nD τ).loc main_arg0) : S1x1x1x1048576x3.Idx → EReal) (ix5 (0 : Fin 1) (0 : Fin 1) (0 : Fin 1) n (0 : Fin 3)))) bx) := by
  rw [V_eq m c main_v87 (by decide +kernel), l_out]
  exact out_read vol _ _ n bz bY bx ch

end Cert.KernelIdeal.Host0

end
-- ==== Proof.KHostV1.lean ====
/-
  The array the kernel region reads for the second volume: its stacked-corner array.

  The volume's chain of host operations begins after the stretches of the volumes before it, reads what they left only at
  the grid laid out as [N, 3] and at the argument arrays, and is a line in which no buffer is rewritten; no operation
  after it writes the stacked-corner array. Followed back from that array to the argument arrays, the buffers hold the
  stage arrays of this volume.
-/
import proofs.«104267_j36455682409092_2_alg».proof.Proof.KHostPre

noncomputable section

namespace Cert.KernelIdeal.Host1

open Idealize.ShloMosaic Idealize.ShloMosaic.ValueIdx Idealize.ShloMosaic.TcCoe Cert.KernelIdeal.Gen Cert.Sampling
open Idealize.SL Idealize.SL.Sem
open Idealize.ShloMosaic.StableHlo Cert.HostRead Chain

def vol : Vol := ⟨64, 262144, 0x427C0000#32, rfl, by omega, by omega, cell_inb_64, shapeCasts_S1x4x64x64x64_S4x64x64x64,
  transposes_S4x64x64x64_S64x64x64x4_1_2_3_0, shapeCasts_S64x64x64x4_S262144x4,
  gather_S262144x4_S8388608x1_S8388608x4_1_0_n_n_0_1_14_wf⟩

/-- The stretches between the first and this volume's chain, the chain, and the operations after it. -/
abbrev opsMid : List (HloOp τ sig (Elt Ideal)) :=
  List.flatten [hostOps0_1, hostOps0_2, hostOps0_3, hostOps0_4, hostOps0_5, hostOps0_6, hostOps0_7]

abbrev opsLine : List (HloOp τ sig (Elt Ideal)) :=
  List.flatten [hostOps0_8, hostOps0_9, hostOps0_10, hostOps0_11, hostOps0_12, hostOps0_13, hostOps0_14, hostOps0_15, hostOps0_16]

abbrev opsLater : List (HloOp τ sig (Elt Ideal)) :=
  List.flatten [hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

theorem freshLine : Fresh opsLine := by decide +kernel

variable (m : (ℓ : Loc nD τ sig) → Buf (Elt Ideal) ℓ) (c : Dev nD)

theorem V_eq (r : Ref sig .tc) (hr : ∀ op ∈ opsLater, Proc.devRef (τ := τ) .tc r ∉ op.writes) :
    Blk.V m c r = after opsLine (after (hostOps0 ++ opsMid) fun b => m (c, b)) (Proc.devRef .tc r) :=
  Blk.V_of_split m c (by
    simp only [Blk.hostBefore, List.flatten_cons, List.flatten_nil, List.append_nil, List.append_assoc]) r hr

attribute [local irreducible] StableHlo.after StableHlo.nullary StableHlo.unary StableHlo.binary StableHlo.ternary
  StableHlo.reshape StableHlo.nary Host.reduce Host.gather

set_option quotPrecheck false in
local notation "⟪" r "⟫" => StableHlo.after opsLine (StableHlo.after (hostOps0 ++ opsMid) fun b => m (c, b)) (Proc.devRef Proc.tc r)
set_option quotPrecheck false in
local notation "gₘ" => m ((c : Thread nD τ).loc main_arg0)
set_option quotPrecheck false in
local notation "vₘ" => m ((c : Thread nD τ).loc main_arg2)

theorem l_arg0 : ⟪main_arg0⟫ = gₘ :=
  (after_of_forall_not_mem opsLine _ (by decide +kernel)).trans (after_of_forall_not_mem _ _ (by decide +kernel))
theorem l_arg1 : ⟪main_arg2⟫ = vₘ :=
  (after_of_forall_not_mem opsLine _ (by decide +kernel)).trans (after_of_forall_not_mem _ _ (by decide +kernel))
theorem l_grid : ⟪main_v0⟫ = grid3 gₘ := by
  rw [after_of_forall_not_mem opsLine _ (b := Proc.devRef .tc main_v0) (by decide +kernel), after_append,
    after_of_forall_not_mem opsMid _ (b := Proc.devRef .tc main_v0) (by decide +kernel)]
  exact Blk.grid_first m c

theorem l_vol : ⟪main_v90⟫ = vol4 vol vₘ := by
  rw [read_reshape freshLine 5 (hop := rfl), read_unary freshLine 4 (hop := rfl), read_reshape freshLine 3 (hop := rfl), l_arg1]; rfl

/-- The lower cells along x, y, z: slice, (p + 1)·½·(S − 1), clamp, floor, conversion. -/
theorem l_cell_x : ⟪main_v119⟫ = cellA vol gₘ 0 := by
  rw [
    read_unary freshLine 64 (hop := rfl), read_unary freshLine 63 (hop := rfl), read_binary freshLine 24 (hop := rfl),
    read_unary freshLine 23 (hop := rfl), read_unary freshLine 22 (hop := rfl), read_binary freshLine 21 (hop := rfl),
    read_unary freshLine 20 (hop := rfl), read_unary freshLine 19 (hop := rfl),
    read_nullary freshLine 18 (hop := rfl), read_nullary freshLine 17 (hop := rfl),
    read_binary freshLine 16 (hop := rfl), read_unary freshLine 15 (hop := rfl),
    read_nullary freshLine 14 (hop := rfl), read_binary freshLine 13 (hop := rfl),
    read_unary freshLine 12 (hop := rfl), read_nullary freshLine 11 (hop := rfl),
    read_binary freshLine 10 (hop := rfl), read_unary freshLine 9 (hop := rfl), read_nullary freshLine 8 (hop := rfl),
    read_reshape freshLine 7 (hop := rfl), read_unary freshLine 6 (hop := rfl),
    l_grid]
  rfl
theorem l_cell_y : ⟪main_v125⟫ = cellA vol gₘ 1 := by
  rw [
    read_unary freshLine 72 (hop := rfl), read_unary freshLine 71 (hop := rfl), read_binary freshLine 43 (hop := rfl),
    read_unary freshLine 42 (hop := rfl), read_unary freshLine 41 (hop := rfl), read_binary freshLine 40 (hop := rfl),
    read_unary freshLine 39 (hop := rfl), read_unary freshLine 38 (hop := rfl),
    read_nullary freshLine 37 (hop := rfl), read_nullary freshLine 36 (hop := rfl),
    read_binary freshLine 35 (hop := rfl), read_unary freshLine 34 (hop := rfl),
    read_nullary freshLine 33 (hop := rfl), read_binary freshLine 32 (hop := rfl),
    read_unary freshLine 31 (hop := rfl), read_nullary freshLine 30 (hop := rfl),
    read_binary freshLine 29 (hop := rfl), read_unary freshLine 28 (hop := rfl),
    read_nullary freshLine 27 (hop := rfl), read_reshape freshLine 26 (hop := rfl),
    read_unary freshLine 25 (hop := rfl),
    l_grid]
  rfl
theorem l_cell_z : ⟪main_v131⟫ = cellA vol gₘ 2 := by
  rw [
    read_unary freshLine 80 (hop := rfl), read_unary freshLine 79 (hop := rfl), read_binary freshLine 62 (hop := rfl),
    read_unary freshLine 61 (hop := rfl), read_unary freshLine 60 (hop := rfl), read_binary freshLine 59 (hop := rfl),
    read_unary freshLine 58 (hop := rfl), read_unary freshLine 57 (hop := rfl),
    read_nullary freshLine 56 (hop := rfl), read_nullary freshLine 55 (hop := rfl),
    read_binary freshLine 54 (hop := rfl), read_unary freshLine 53 (hop := rfl),
    read_nullary freshLine 52 (hop := rfl), read_binary freshLine 51 (hop := rfl),
    read_unary freshLine 50 (hop := rfl), read_nullary freshLine 49 (hop := rfl),
    read_binary freshLine 48 (hop := rfl), read_unary freshLine 47 (hop := rfl),
    read_nullary freshLine 46 (hop := rfl), read_reshape freshLine 45 (hop := rfl),
    read_unary freshLine 44 (hop := rfl),
    l_grid]
  rfl

/-- The upper cells min(i + 1, S − 1). -/
theorem l_next_x : ⟪main_v123⟫ = pickA vol gₘ 0 true := by
  rw [read_binary freshLine 70 (hop := rfl), read_unary freshLine 69 (hop := rfl), read_nullary freshLine 68 (hop := rfl), read_binary freshLine 67 (hop := rfl), read_unary freshLine 66 (hop := rfl), read_nullary freshLine 65 (hop := rfl), l_cell_x]; rfl
theorem l_next_y : ⟪main_v129⟫ = pickA vol gₘ 1 true := by
  rw [read_binary freshLine 78 (hop := rfl), read_unary freshLine 77 (hop := rfl), read_nullary freshLine 76 (hop := rfl), read_binary freshLine 75 (hop := rfl), read_unary freshLine 74 (hop := rfl), read_nullary freshLine 73 (hop := rfl), l_cell_y]; rfl
theorem l_next_z : ⟪main_v135⟫ = pickA vol gₘ 2 true := by
  rw [read_binary freshLine 86 (hop := rfl), read_unary freshLine 85 (hop := rfl), read_nullary freshLine 84 (hop := rfl), read_binary freshLine 83 (hop := rfl), read_unary freshLine 82 (hop := rfl), read_nullary freshLine 81 (hop := rfl), l_cell_z]; rfl

/-- The eight flattened indices, stacked and flattened. -/
theorem l_idx : ⟪main_v169⟫ = idx vol gₘ := by
  rw [read_reshape freshLine 124 (hop := rfl), read_nary freshLine 123 (hop := rfl)]
  simp only [Matrix.cons_val]
  rw [
    read_unary freshLine 122 (hop := rfl), read_unary freshLine 121 (hop := rfl),
    read_unary freshLine 120 (hop := rfl), read_unary freshLine 119 (hop := rfl),
    read_unary freshLine 118 (hop := rfl), read_unary freshLine 117 (hop := rfl),
    read_unary freshLine 116 (hop := rfl), read_unary freshLine 115 (hop := rfl),
    read_binary freshLine 114 (hop := rfl), read_binary freshLine 113 (hop := rfl),
    read_binary freshLine 112 (hop := rfl), read_binary freshLine 111 (hop := rfl),
    read_binary freshLine 110 (hop := rfl), read_binary freshLine 109 (hop := rfl),
    read_binary freshLine 108 (hop := rfl), read_binary freshLine 107 (hop := rfl),
    read_binary freshLine 106 (hop := rfl), read_binary freshLine 105 (hop := rfl),
    read_binary freshLine 104 (hop := rfl), read_binary freshLine 103 (hop := rfl),
    read_binary freshLine 102 (hop := rfl), read_binary freshLine 101 (hop := rfl),
    read_binary freshLine 100 (hop := rfl), read_binary freshLine 99 (hop := rfl),
    read_binary freshLine 98 (hop := rfl), read_unary freshLine 97 (hop := rfl),
    read_nullary freshLine 96 (hop := rfl), read_binary freshLine 95 (hop := rfl),
    read_unary freshLine 94 (hop := rfl), read_nullary freshLine 93 (hop := rfl),
    read_binary freshLine 92 (hop := rfl), read_unary freshLine 91 (hop := rfl),
    read_nullary freshLine 90 (hop := rfl), read_binary freshLine 89 (hop := rfl),
    read_unary freshLine 88 (hop := rfl), read_nullary freshLine 87 (hop := rfl),
    l_cell_x, l_cell_y, l_cell_z, l_next_x, l_next_y, l_next_z]
  rfl

/-- The take: the wrapped start indices, the in-range mask, the gathered rows under the mask. -/
theorem l_start : ⟪main_call7_v5⟫ = start vol gₘ := by
  rw [read_unary freshLine 132 (hop := rfl),
    read_ternary freshLine 131 (hop := rfl),
    read_binary freshLine 130 (hop := rfl),
    read_unary freshLine 129 (hop := rfl),
    read_nullary freshLine 128 (hop := rfl),
    read_binary freshLine 127 (hop := rfl),
    read_unary freshLine 126 (hop := rfl),
    read_nullary freshLine 125 (hop := rfl), l_idx]
  rfl
theorem l_ge : ⟪main_call7_v7⟫ = geA vol gₘ := by
  unfold geA
  rw [← l_start, read_binary freshLine 136 (hop := rfl), read_unary freshLine 135 (hop := rfl), read_nullary freshLine 134 (hop := rfl)]
  rfl
theorem l_le : ⟪main_call7_v10⟫ = leA vol gₘ := by
  unfold leA
  rw [← l_start, read_binary freshLine 139 (hop := rfl),
    read_unary freshLine 138 (hop := rfl),
    read_unary freshLine 137 (hop := rfl),
    read_nullary freshLine 133 (hop := rfl)]
  rfl
theorem l_inr : ⟪main_call7_v11⟫ = andi (geA vol gₘ) (leA vol gₘ) := by
  rw [← l_ge, ← l_le, read_binary freshLine 140 (hop := rfl)]
  rfl
theorem l_red : ⟪main_call7_v12⟫
    = Host.reduce IntOp.andi (andi (geA vol gₘ) (leA vol gₘ)) (constantI S_ 1 1#1) reducesTo_S8388608x1_S8388608_d1 h_S_ := by
  rw [← l_inr, read_binary freshLine 142 (hop := rfl), read_nullary freshLine 141 (hop := rfl)]
  rfl
theorem l_mask : ⟪main_call7_v14⟫ = mask vol gₘ := by
  unfold mask
  rw [← l_red, read_unary freshLine 144 (hop := rfl)]
  rfl
theorem l_gath : ⟪main_call7_v13⟫ = gath vol gₘ vₘ := by
  rw [read_binary freshLine 143 (hop := rfl), l_vol, l_start]
  rfl
theorem l_taken : ⟪main_v170⟫ = taken vol gₘ vₘ := by
  unfold taken
  rw [← l_mask, ← l_gath, read_ternary freshLine 147 (hop := rfl), read_unary freshLine 146 (hop := rfl), read_nullary freshLine 145 (hop := rfl)]
  rfl
theorem l_out : ⟪main_v173⟫ = out vol gₘ vₘ := by
  unfold out
  rw [← l_taken, read_reshape freshLine 150 (hop := rfl), read_unary freshLine 149 (hop := rfl), read_reshape freshLine 148 (hop := rfl)]
  rfl

/-- The stacked-corner array at row 4·k + c (corner k = 4·z + 2·y + x, channel c) and column n: the volume's channel c at
    the corner's cells along z, y, x of point n. -/
theorem V_corner (bz bY bx : Bool) (ch : Fin 4) (n : Fin 1048576) :
    (Blk.V m c main_v173 : S32x1048576.Idx → EReal) (ix2 (cornerRow bz bY bx ch) n)
      = volRead (S := 64) (by omega) (m ((c : Thread nD τ).loc main_arg2) : S1x4x64x64x64.Idx → EReal) ch
          (pick 63#32 (cell 0x427C0000#32 ((m ((c : Thread nD τ).loc main_arg0) : S1x1x1x1048576x3.Idx → EReal) (ix5 (0 : Fin 1) (0 : Fin 1) (0 : Fin 1) n (2 : Fin 3)))) bz)
          (pick 63#32 (cell 0x427C0000#32 ((m ((c : Thread nD τ).loc main_arg0) : S1x1x1x1048576x3.Idx → EReal) (ix5 (0 : Fin 1) (0 : Fin 1) (0 : Fin 1) n (1 : Fin 3)))) bY)
          (pick 63#32 (cell 0x427C0000#32 ((m ((c : Thread nD τ).loc main_arg0) : S1x1x1x1048576x3.Idx → EReal) (ix5 (0 : Fin 1) (0 : Fin 1) (0 : Fin 1) n (0 : Fin 3)))) bx) := by
  rw [V_eq m c main_v173 (by decide +kernel), l_out]
  exact out_read vol _ _ n bz bY bx ch

end Cert.KernelIdeal.Host1

end
-- ==== Proof.KHostV2.lean ====
/-
  The array the kernel region reads for the third volume: its stacked-corner array.

  The volume's chain of host operations begins after the stretches of the volumes before it, reads what they left only at
  the grid laid out as [N, 3] and at the argument arrays, and is a line in which no buffer is rewritten; no operation
  after it writes the stacked-corner array. Followed back from that array to the argument arrays, the buffers hold the
  stage arrays of this volume.
-/
import proofs.«104267_j36455682409092_2_alg».proof.Proof.KHostPre

noncomputable section

namespace Cert.KernelIdeal.Host2

open Idealize.ShloMosaic Idealize.ShloMosaic.ValueIdx Idealize.ShloMosaic.TcCoe Cert.KernelIdeal.Gen Cert.Sampling
open Idealize.SL Idealize.SL.Sem
open Idealize.ShloMosaic.StableHlo Cert.HostRead Chain

def vol : Vol := ⟨128, 2097152, 0x42FE0000#32, rfl, by omega, by omega, cell_inb_128, shapeCasts_S1x4x128x128x128_S4x128x128x128,
  transposes_S4x128x128x128_S128x128x128x4_1_2_3_0, shapeCasts_S128x128x128x4_S2097152x4,
  gather_S2097152x4_S8388608x1_S8388608x4_1_0_n_n_0_1_14_wf⟩

/-- The stretches between the first and this volume's chain, the chain, and the operations after it. -/
abbrev opsMid : List (HloOp τ sig (Elt Ideal)) :=
  List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15]

abbrev opsLine : List (HloOp τ sig (Elt Ideal)) :=
  List.flatten [hostOps0_16, hostOps0_17, hostOps0_18, hostOps0_19, hostOps0_20, hostOps0_21, hostOps0_22, hostOps0_23, hostOps0_24]

abbrev opsLater : List (HloOp τ sig (Elt Ideal)) :=
  List.flatten [hostOps0_25, hostOps0_26, hostOps0_27, hostOps0_28, hostOps0_29, hostOps0_30, hostOps0_31, hostOps0_32]

theorem freshLine : Fresh opsLine := by decide +kernel

variable (m : (ℓ : Loc nD τ sig) → Buf (Elt Ideal) ℓ) (c : Dev nD)

theorem V_eq (r : Ref sig .tc) (hr : ∀ op ∈ opsLater, Proc.devRef (τ := τ) .tc r ∉ op.writes) :
    Blk.V m c r = after opsLine (after (hostOps0 ++ opsMid) fun b => m (c, b)) (Proc.devRef .tc r) :=
  Blk.V_of_split m c (by
    simp only [Blk.hostBefore, List.flatten_cons, List.flatten_nil, List.append_nil, List.append_assoc]) r hr

attribute [local irreducible] StableHlo.after StableHlo.nullary StableHlo.unary StableHlo.binary StableHlo.ternary
  StableHlo.reshape StableHlo.nary Host.reduce Host.gather

set_option quotPrecheck false in
local notation "⟪" r "⟫" => StableHlo.after opsLine (StableHlo.after (hostOps0 ++ opsMid) fun b => m (c, b)) (Proc.devRef Proc.tc r)
set_option quotPrecheck false in
local notation "gₘ" => m ((c : Thread nD τ).loc main_arg0)
set_option quotPrecheck false in
local notation "vₘ" => m ((c : Thread nD τ).loc main_arg3)

theorem l_arg0 : ⟪main_arg0⟫ = gₘ :=
  (after_of_forall_not_mem opsLine _ (by decide +kernel)).trans (after_of_forall_not_mem _ _ (by decide +kernel))
theorem l_arg1 : ⟪main_arg3⟫ = vₘ :=
  (after_of_forall_not_mem opsLine _ (by decide +kernel)).trans (after_of_forall_not_mem _ _ (by decide +kernel))
theorem l_grid : ⟪main_v0⟫ = grid3 gₘ := by
  rw [after_of_forall_not_mem opsLine _ (b := Proc.devRef .tc main_v0) (by decide +kernel), after_append,
    after_of_forall_not_mem opsMid _ (b := Proc.devRef .tc main_v0) (by decide +kernel)]
  exact Blk.grid_first m c

theorem l_vol : ⟪main_v176⟫ = vol4 vol vₘ := by
  rw [read_reshape freshLine 5 (hop := rfl), read_unary freshLine 4 (hop := rfl), read_reshape freshLine 3 (hop := rfl), l_arg1]; rfl

/-- The lower cells along x, y, z: slice, (p + 1)·½·(S − 1), clamp, floor, conversion. -/
theorem l_cell_x : ⟪main_v205⟫ = cellA vol gₘ 0 := by
  rw [
    read_unary freshLine 64 (hop := rfl), read_unary freshLine 63 (hop := rfl), read_binary freshLine 24 (hop := rfl),
    read_unary freshLine 23 (hop := rfl), read_unary freshLine 22 (hop := rfl), read_binary freshLine 21 (hop := rfl),
    read_unary freshLine 20 (hop := rfl), read_unary freshLine 19 (hop := rfl),
    read_nullary freshLine 18 (hop := rfl), read_nullary freshLine 17 (hop := rfl),
    read_binary freshLine 16 (hop := rfl), read_unary freshLine 15 (hop := rfl),
    read_nullary freshLine 14 (hop := rfl), read_binary freshLine 13 (hop := rfl),
    read_unary freshLine 12 (hop := rfl), read_nullary freshLine 11 (hop := rfl),
    read_binary freshLine 10 (hop := rfl), read_unary freshLine 9 (hop := rfl), read_nullary freshLine 8 (hop := rfl),
    read_reshape freshLine 7 (hop := rfl), read_unary freshLine 6 (hop := rfl),
    l_grid]
  rfl
theorem l_cell_y : ⟪main_v211⟫ = cellA vol gₘ 1 := by
  rw [
    read_unary freshLine 72 (hop := rfl), read_unary freshLine 71 (hop := rfl), read_binary freshLine 43 (hop := rfl),
    read_unary freshLine 42 (hop := rfl), read_unary freshLine 41 (hop := rfl), read_binary freshLine 40 (hop := rfl),
    read_unary freshLine 39 (hop := rfl), read_unary freshLine 38 (hop := rfl),
    read_nullary freshLine 37 (hop := rfl), read_nullary freshLine 36 (hop := rfl),
    read_binary freshLine 35 (hop := rfl), read_unary freshLine 34 (hop := rfl),
    read_nullary freshLine 33 (hop := rfl), read_binary freshLine 32 (hop := rfl),
    read_unary freshLine 31 (hop := rfl), read_nullary freshLine 30 (hop := rfl),
    read_binary freshLine 29 (hop := rfl), read_unary freshLine 28 (hop := rfl),
    read_nullary freshLine 27 (hop := rfl), read_reshape freshLine 26 (hop := rfl),
    read_unary freshLine 25 (hop := rfl),
    l_grid]
  rfl
theorem l_cell_z : ⟪main_v217⟫ = cellA vol gₘ 2 := by
  rw [
    read_unary freshLine 80 (hop := rfl), read_unary freshLine 79 (hop := rfl), read_binary freshLine 62 (hop := rfl),
    read_unary freshLine 61 (hop := rfl), read_unary freshLine 60 (hop := rfl), read_binary freshLine 59 (hop := rfl),
    read_unary freshLine 58 (hop := rfl), read_unary freshLine 57 (hop := rfl),
    read_nullary freshLine 56 (hop := rfl), read_nullary freshLine 55 (hop := rfl),
    read_binary freshLine 54 (hop := rfl), read_unary freshLine 53 (hop := rfl),
    read_nullary freshLine 52 (hop := rfl), read_binary freshLine 51 (hop := rfl),
    read_unary freshLine 50 (hop := rfl), read_nullary freshLine 49 (hop := rfl),
    read_binary freshLine 48 (hop := rfl), read_unary freshLine 47 (hop := rfl),
    read_nullary freshLine 46 (hop := rfl), read_reshape freshLine 45 (hop := rfl),
    read_unary freshLine 44 (hop := rfl),
    l_grid]
  rfl

/-- The upper cells min(i + 1, S − 1). -/
theorem l_next_x : ⟪main_v209⟫ = pickA vol gₘ 0 true := by
  rw [read_binary freshLine 70 (hop := rfl), read_unary freshLine 69 (hop := rfl), read_nullary freshLine 68 (hop := rfl), read_binary freshLine 67 (hop := rfl), read_unary freshLine 66 (hop := rfl), read_nullary freshLine 65 (hop := rfl), l_cell_x]; rfl
theorem l_next_y : ⟪main_v215⟫ = pickA vol gₘ 1 true := by
  rw [read_binary freshLine 78 (hop := rfl), read_unary freshLine 77 (hop := rfl), read_nullary freshLine 76 (hop := rfl), read_binary freshLine 75 (hop := rfl), read_unary freshLine 74 (hop := rfl), read_nullary freshLine 73 (hop := rfl), l_cell_y]; rfl
theorem l_next_z : ⟪main_v221⟫ = pickA vol gₘ 2 true := by
  rw [read_binary freshLine 86 (hop := rfl), read_unary freshLine 85 (hop := rfl), read_nullary freshLine 84 (hop := rfl), read_binary freshLine 83 (hop := rfl), read_unary freshLine 82 (hop := rfl), read_nullary freshLine 81 (hop := rfl), l_cell_z]; rfl

/-- The eight flattened indices, stacked and flattened. -/
theorem l_idx : ⟪main_v255⟫ = idx vol gₘ := by
  rw [read_reshape freshLine 124 (hop := rfl), read_nary freshLine 123 (hop := rfl)]
  simp only [Matrix.cons_val]
  rw [
    read_unary freshLine 122 (hop := rfl), read_unary freshLine 121 (hop := rfl),
    read_unary freshLine 120 (hop := rfl), read_unary freshLine 119 (hop := rfl),
    read_unary freshLine 118 (hop := rfl), read_unary freshLine 117 (hop := rfl),
    read_unary freshLine 116 (hop := rfl), read_unary freshLine 115 (hop := rfl),
    read_binary freshLine 114 (hop := rfl), read_binary freshLine 113 (hop := rfl),
    read_binary freshLine 112 (hop := rfl), read_binary freshLine 111 (hop := rfl),
    read_binary freshLine 110 (hop := rfl), read_binary freshLine 109 (hop := rfl),
    read_binary freshLine 108 (hop := rfl), read_binary freshLine 107 (hop := rfl),
    read_binary freshLine 106 (hop := rfl), read_binary freshLine 105 (hop := rfl),
    read_binary freshLine 104 (hop := rfl), read_binary freshLine 103 (hop := rfl),
    read_binary freshLine 102 (hop := rfl), read_binary freshLine 101 (hop := rfl),
    read_binary freshLine 100 (hop := rfl), read_binary freshLine 99 (hop := rfl),
    read_binary freshLine 98 (hop := rfl), read_unary freshLine 97 (hop := rfl),
    read_nullary freshLine 96 (hop := rfl), read_binary freshLine 95 (hop := rfl),
    read_unary freshLine 94 (hop := rfl), read_nullary freshLine 93 (hop := rfl),
    read_binary freshLine 92 (hop := rfl), read_unary freshLine 91 (hop := rfl),
    read_nullary freshLine 90 (hop := rfl), read_binary freshLine 89 (hop := rfl),
    read_unary freshLine 88 (hop := rfl), read_nullary freshLine 87 (hop := rfl),
    l_cell_x, l_cell_y, l_cell_z, l_next_x, l_next_y, l_next_z]
  rfl

/-- The take: the wrapped start indices, the in-range mask, the gathered rows under the mask. -/
theorem l_start : ⟪main_call11_v5⟫ = start vol gₘ := by
  rw [read_unary freshLine 132 (hop := rfl),
    read_ternary freshLine 131 (hop := rfl),
    read_binary freshLine 130 (hop := rfl),
    read_unary freshLine 129 (hop := rfl),
    read_nullary freshLine 128 (hop := rfl),
    read_binary freshLine 127 (hop := rfl),
    read_unary freshLine 126 (hop := rfl),
    read_nullary freshLine 125 (hop := rfl), l_idx]
  rfl
theorem l_ge : ⟪main_call11_v7⟫ = geA vol gₘ := by
  unfold geA
  rw [← l_start, read_binary freshLine 136 (hop := rfl), read_unary freshLine 135 (hop := rfl), read_nullary freshLine 134 (hop := rfl)]
  rfl
theorem l_le : ⟪main_call11_v10⟫ = leA vol gₘ := by
  unfold leA
  rw [← l_start, read_binary freshLine 139 (hop := rfl),
    read_unary freshLine 138 (hop := rfl),
    read_unary freshLine 137 (hop := rfl),
    read_nullary freshLine 133 (hop := rfl)]
  rfl
theorem l_inr : ⟪main_call11_v11⟫ = andi (geA vol gₘ) (leA vol gₘ) := by
  rw [← l_ge, ← l_le, read_binary freshLine 140 (hop := rfl)]
  rfl
theorem l_red : ⟪main_call11_v12⟫
    = Host.reduce IntOp.andi (andi (geA vol gₘ) (leA vol gₘ)) (constantI S_ 1 1#1) reducesTo_S8388608x1_S8388608_d1 h_S_ := by
  rw [← l_inr, read_binary freshLine 142 (hop := rfl), read_nullary freshLine 141 (hop := rfl)]
  rfl
theorem l_mask : ⟪main_call11_v14⟫ = mask vol gₘ := by
  unfold mask
  rw [← l_red, read_unary freshLine 144 (hop := rfl)]
  rfl
theorem l_gath : ⟪main_call11_v13⟫ = gath vol gₘ vₘ := by
  rw [read_binary freshLine 143 (hop := rfl), l_vol, l_start]
  rfl
theorem l_taken : ⟪main_v256⟫ = taken vol gₘ vₘ := by
  unfold taken
  rw [← l_mask, ← l_gath, read_ternary freshLine 147 (hop := rfl), read_unary freshLine 146 (hop := rfl), read_nullary freshLine 145 (hop := rfl)]
  rfl
theorem l_out : ⟪main_v259⟫ = out vol gₘ vₘ := by
  unfold out
  rw [← l_taken, read_reshape freshLine 150 (hop := rfl), read_unary freshLine 149 (hop := rfl), read_reshape freshLine 148 (hop := rfl)]
  rfl

/-- The stacked-corner array at row 4·k + c (corner k = 4·z + 2·y + x, channel c) and column n: the volume's channel c at
    the corner's cells along z, y, x of point n. -/
theorem V_corner (bz bY bx : Bool) (ch : Fin 4) (n : Fin 1048576) :
    (Blk.V m c main_v259 : S32x1048576.Idx → EReal) (ix2 (cornerRow bz bY bx ch) n)
      = volRead (S := 128) (by omega) (m ((c : Thread nD τ).loc main_arg3) : S1x4x128x128x128.Idx → EReal) ch
          (pick 127#32 (cell 0x42FE0000#32 ((m ((c : Thread nD τ).loc main_arg0) : S1x1x1x1048576x3.Idx → EReal) (ix5 (0 : Fin 1) (0 : Fin 1) (0 : Fin 1) n (2 : Fin 3)))) bz)
          (pick 127#32 (cell 0x42FE0000#32 ((m ((c : Thread nD τ).loc main_arg0) : S1x1x1x1048576x3.Idx → EReal) (ix5 (0 : Fin 1) (0 : Fin 1) (0 : Fin 1) n (1 : Fin 3)))) bY)
          (pick 127#32 (cell 0x42FE0000#32 ((m ((c : Thread nD τ).loc main_arg0) : S1x1x1x1048576x3.Idx → EReal) (ix5 (0 : Fin 1) (0 : Fin 1) (0 : Fin 1) n (0 : Fin 3)))) bx) := by
  rw [V_eq m c main_v259 (by decide +kernel), l_out]
  exact out_read vol _ _ n bz bY bx ch

end Cert.KernelIdeal.Host2

end
-- ==== Proof.KHostV3.lean ====
/-
  The array the kernel region reads for the fourth volume: its stacked-corner array.

  The volume's chain of host operations begins after the stretches of the volumes before it, reads what they left only at
  the grid laid out as [N, 3] and at the argument arrays, and is a line in which no buffer is rewritten; no operation
  after it writes the stacked-corner array. Followed back from that array to the argument arrays, the buffers hold the
  stage arrays of this volume.
-/
import proofs.«104267_j36455682409092_2_alg».proof.Proof.KHostPre

noncomputable section

namespace Cert.KernelIdeal.Host3

open Idealize.ShloMosaic Idealize.ShloMosaic.ValueIdx Idealize.ShloMosaic.TcCoe Cert.KernelIdeal.Gen Cert.Sampling
open Idealize.SL Idealize.SL.Sem
open Idealize.ShloMosaic.StableHlo Cert.HostRead Chain

def vol : Vol := ⟨256, 16777216, 0x437F0000#32, rfl, by omega, by omega, cell_inb_256, shapeCasts_S1x4x256x256x256_S4x256x256x256,
  transposes_S4x256x256x256_S256x256x256x4_1_2_3_0, shapeCasts_S256x256x256x4_S16777216x4,
  gather_S16777216x4_S8388608x1_S8388608x4_1_0_n_n_0_1_14_wf⟩

/-- The stretches between the first and this volume's chain, the chain, and the operations after it. -/
abbrev opsMid : List (HloOp τ sig (Elt Ideal)) :=
  List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]

abbrev opsLine : List (HloOp τ sig (Elt Ideal)) :=
  List.flatten [hostOps0_24, hostOps0_25, hostOps0_26, hostOps0_27, hostOps0_28, hostOps0_29, hostOps0_30, hostOps0_31, hostOps0_32]

abbrev opsLater : List (HloOp τ sig (Elt Ideal)) :=
  List.flatten []

theorem freshLine : Fresh opsLine := by decide +kernel

variable (m : (ℓ : Loc nD τ sig) → Buf (Elt Ideal) ℓ) (c : Dev nD)

theorem V_eq (r : Ref sig .tc) (hr : ∀ op ∈ opsLater, Proc.devRef (τ := τ) .tc r ∉ op.writes) :
    Blk.V m c r = after opsLine (after (hostOps0 ++ opsMid) fun b => m (c, b)) (Proc.devRef .tc r) :=
  Blk.V_of_split m c (by
    simp only [Blk.hostBefore, List.flatten_cons, List.flatten_nil, List.append_nil, List.append_assoc]) r hr

attribute [local irreducible] StableHlo.after StableHlo.nullary StableHlo.unary StableHlo.binary StableHlo.ternary
  StableHlo.reshape StableHlo.nary Host.reduce Host.gather

set_option quotPrecheck false in
local notation "⟪" r "⟫" => StableHlo.after opsLine (StableHlo.after (hostOps0 ++ opsMid) fun b => m (c, b)) (Proc.devRef Proc.tc r)
set_option quotPrecheck false in
local notation "gₘ" => m ((c : Thread nD τ).loc main_arg0)
set_option quotPrecheck false in
local notation "vₘ" => m ((c : Thread nD τ).loc main_arg4)

theorem l_arg0 : ⟪main_arg0⟫ = gₘ :=
  (after_of_forall_not_mem opsLine _ (by decide +kernel)).trans (after_of_forall_not_mem _ _ (by decide +kernel))
theorem l_arg1 : ⟪main_arg4⟫ = vₘ :=
  (after_of_forall_not_mem opsLine _ (by decide +kernel)).trans (after_of_forall_not_mem _ _ (by decide +kernel))
theorem l_grid : ⟪main_v0⟫ = grid3 gₘ := by
  rw [after_of_forall_not_mem opsLine _ (b := Proc.devRef .tc main_v0) (by decide +kernel), after_append,
    after_of_forall_not_mem opsMid _ (b := Proc.devRef .tc main_v0) (by decide +kernel)]
  exact Blk.grid_first m c

theorem l_vol : ⟪main_v262⟫ = vol4 vol vₘ := by
  rw [read_reshape freshLine 5 (hop := rfl), read_unary freshLine 4 (hop := rfl), read_reshape freshLine 3 (hop := rfl), l_arg1]; rfl

/-- The lower cells along x, y, z: slice, (p + 1)·½·(S − 1), clamp, floor, conversion. -/
theorem l_cell_x : ⟪main_v291⟫ = cellA vol gₘ 0 := by
  rw [
    read_unary freshLine 64 (hop := rfl), read_unary freshLine 63 (hop := rfl), read_binary freshLine 24 (hop := rfl),
    read_unary freshLine 23 (hop := rfl), read_unary freshLine 22 (hop := rfl), read_binary freshLine 21 (hop := rfl),
    read_unary freshLine 20 (hop := rfl), read_unary freshLine 19 (hop := rfl),
    read_nullary freshLine 18 (hop := rfl), read_nullary freshLine 17 (hop := rfl),
    read_binary freshLine 16 (hop := rfl), read_unary freshLine 15 (hop := rfl),
    read_nullary freshLine 14 (hop := rfl), read_binary freshLine 13 (hop := rfl),
    read_unary freshLine 12 (hop := rfl), read_nullary freshLine 11 (hop := rfl),
    read_binary freshLine 10 (hop := rfl), read_unary freshLine 9 (hop := rfl), read_nullary freshLine 8 (hop := rfl),
    read_reshape freshLine 7 (hop := rfl), read_unary freshLine 6 (hop := rfl),
    l_grid]
  rfl
theorem l_cell_y : ⟪main_v297⟫ = cellA vol gₘ 1 := by
  rw [
    read_unary freshLine 72 (hop := rfl), read_unary freshLine 71 (hop := rfl), read_binary freshLine 43 (hop := rfl),
    read_unary freshLine 42 (hop := rfl), read_unary freshLine 41 (hop := rfl), read_binary freshLine 40 (hop := rfl),
    read_unary freshLine 39 (hop := rfl), read_unary freshLine 38 (hop := rfl),
    read_nullary freshLine 37 (hop := rfl), read_nullary freshLine 36 (hop := rfl),
    read_binary freshLine 35 (hop := rfl), read_unary freshLine 34 (hop := rfl),
    read_nullary freshLine 33 (hop := rfl), read_binary freshLine 32 (hop := rfl),
    read_unary freshLine 31 (hop := rfl), read_nullary freshLine 30 (hop := rfl),
    read_binary freshLine 29 (hop := rfl), read_unary freshLine 28 (hop := rfl),
    read_nullary freshLine 27 (hop := rfl), read_reshape freshLine 26 (hop := rfl),
    read_unary freshLine 25 (hop := rfl),
    l_grid]
  rfl
theorem l_cell_z : ⟪main_v303⟫ = cellA vol gₘ 2 := by
  rw [
    read_unary freshLine 80 (hop := rfl), read_unary freshLine 79 (hop := rfl), read_binary freshLine 62 (hop := rfl),
    read_unary freshLine 61 (hop := rfl), read_unary freshLine 60 (hop := rfl), read_binary freshLine 59 (hop := rfl),
    read_unary freshLine 58 (hop := rfl), read_unary freshLine 57 (hop := rfl),
    read_nullary freshLine 56 (hop := rfl), read_nullary freshLine 55 (hop := rfl),
    read_binary freshLine 54 (hop := rfl), read_unary freshLine 53 (hop := rfl),
    read_nullary freshLine 52 (hop := rfl), read_binary freshLine 51 (hop := rfl),
    read_unary freshLine 50 (hop := rfl), read_nullary freshLine 49 (hop := rfl),
    read_binary freshLine 48 (hop := rfl), read_unary freshLine 47 (hop := rfl),
    read_nullary freshLine 46 (hop := rfl), read_reshape freshLine 45 (hop := rfl),
    read_unary freshLine 44 (hop := rfl),
    l_grid]
  rfl

/-- The upper cells min(i + 1, S − 1). -/
theorem l_next_x : ⟪main_v295⟫ = pickA vol gₘ 0 true := by
  rw [read_binary freshLine 70 (hop := rfl), read_unary freshLine 69 (hop := rfl), read_nullary freshLine 68 (hop := rfl), read_binary freshLine 67 (hop := rfl), read_unary freshLine 66 (hop := rfl), read_nullary freshLine 65 (hop := rfl), l_cell_x]; rfl
theorem l_next_y : ⟪main_v301⟫ = pickA vol gₘ 1 true := by
  rw [read_binary freshLine 78 (hop := rfl), read_unary freshLine 77 (hop := rfl), read_nullary freshLine 76 (hop := rfl), read_binary freshLine 75 (hop := rfl), read_unary freshLine 74 (hop := rfl), read_nullary freshLine 73 (hop := rfl), l_cell_y]; rfl
theorem l_next_z : ⟪main_v307⟫ = pickA vol gₘ 2 true := by
  rw [read_binary freshLine 86 (hop := rfl), read_unary freshLine 85 (hop := rfl), read_nullary freshLine 84 (hop := rfl), read_binary freshLine 83 (hop := rfl), read_unary freshLine 82 (hop := rfl), read_nullary freshLine 81 (hop := rfl), l_cell_z]; rfl

/-- The eight flattened indices, stacked and flattened. -/
theorem l_idx : ⟪main_v341⟫ = idx vol gₘ := by
  rw [read_reshape freshLine 124 (hop := rfl), read_nary freshLine 123 (hop := rfl)]
  simp only [Matrix.cons_val]
  rw [
    read_unary freshLine 122 (hop := rfl), read_unary freshLine 121 (hop := rfl),
    read_unary freshLine 120 (hop := rfl), read_unary freshLine 119 (hop := rfl),
    read_unary freshLine 118 (hop := rfl), read_unary freshLine 117 (hop := rfl),
    read_unary freshLine 116 (hop := rfl), read_unary freshLine 115 (hop := rfl),
    read_binary freshLine 114 (hop := rfl), read_binary freshLine 113 (hop := rfl),
    read_binary freshLine 112 (hop := rfl), read_binary freshLine 111 (hop := rfl),
    read_binary freshLine 110 (hop := rfl), read_binary freshLine 109 (hop := rfl),
    read_binary freshLine 108 (hop := rfl), read_binary freshLine 107 (hop := rfl),
    read_binary freshLine 106 (hop := rfl), read_binary freshLine 105 (hop := rfl),
    read_binary freshLine 104 (hop := rfl), read_binary freshLine 103 (hop := rfl),
    read_binary freshLine 102 (hop := rfl), read_binary freshLine 101 (hop := rfl),
    read_binary freshLine 100 (hop := rfl), read_binary freshLine 99 (hop := rfl),
    read_binary freshLine 98 (hop := rfl), read_unary freshLine 97 (hop := rfl),
    read_nullary freshLine 96 (hop := rfl), read_binary freshLine 95 (hop := rfl),
    read_unary freshLine 94 (hop := rfl), read_nullary freshLine 93 (hop := rfl),
    read_binary freshLine 92 (hop := rfl), read_unary freshLine 91 (hop := rfl),
    read_nullary freshLine 90 (hop := rfl), read_binary freshLine 89 (hop := rfl),
    read_unary freshLine 88 (hop := rfl), read_nullary freshLine 87 (hop := rfl),
    l_cell_x, l_cell_y, l_cell_z, l_next_x, l_next_y, l_next_z]
  rfl

/-- The take: the wrapped start indices, the in-range mask, the gathered rows under the mask. -/
theorem l_start : ⟪main_call15_v5⟫ = start vol gₘ := by
  rw [read_unary freshLine 132 (hop := rfl),
    read_ternary freshLine 131 (hop := rfl),
    read_binary freshLine 130 (hop := rfl),
    read_unary freshLine 129 (hop := rfl),
    read_nullary freshLine 128 (hop := rfl),
    read_binary freshLine 127 (hop := rfl),
    read_unary freshLine 126 (hop := rfl),
    read_nullary freshLine 125 (hop := rfl), l_idx]
  rfl
theorem l_ge : ⟪main_call15_v7⟫ = geA vol gₘ := by
  unfold geA
  rw [← l_start, read_binary freshLine 136 (hop := rfl), read_unary freshLine 135 (hop := rfl), read_nullary freshLine 134 (hop := rfl)]
  rfl
theorem l_le : ⟪main_call15_v10⟫ = leA vol gₘ := by
  unfold leA
  rw [← l_start, read_binary freshLine 139 (hop := rfl),
    read_unary freshLine 138 (hop := rfl),
    read_unary freshLine 137 (hop := rfl),
    read_nullary freshLine 133 (hop := rfl)]
  rfl
theorem l_inr : ⟪main_call15_v11⟫ = andi (geA vol gₘ) (leA vol gₘ) := by
  rw [← l_ge, ← l_le, read_binary freshLine 140 (hop := rfl)]
  rfl
theorem l_red : ⟪main_call15_v12⟫
    = Host.reduce IntOp.andi (andi (geA vol gₘ) (leA vol gₘ)) (constantI S_ 1 1#1) reducesTo_S8388608x1_S8388608_d1 h_S_ := by
  rw [← l_inr, read_binary freshLine 142 (hop := rfl), read_nullary freshLine 141 (hop := rfl)]
  rfl
theorem l_mask : ⟪main_call15_v14⟫ = mask vol gₘ := by
  unfold mask
  rw [← l_red, read_unary freshLine 144 (hop := rfl)]
  rfl
theorem l_gath : ⟪main_call15_v13⟫ = gath vol gₘ vₘ := by
  rw [read_binary freshLine 143 (hop := rfl), l_vol, l_start]
  rfl
theorem l_taken : ⟪main_v342⟫ = taken vol gₘ vₘ := by
  unfold taken
  rw [← l_mask, ← l_gath, read_ternary freshLine 147 (hop := rfl), read_unary freshLine 146 (hop := rfl), read_nullary freshLine 145 (hop := rfl)]
  rfl
theorem l_out : ⟪main_v345⟫ = out vol gₘ vₘ := by
  unfold out
  rw [← l_taken, read_reshape freshLine 150 (hop := rfl), read_unary freshLine 149 (hop := rfl), read_reshape freshLine 148 (hop := rfl)]
  rfl

/-- The stacked-corner array at row 4·k + c (corner k = 4·z + 2·y + x, channel c) and column n: the volume's channel c at
    the corner's cells along z, y, x of point n. -/
theorem V_corner (bz bY bx : Bool) (ch : Fin 4) (n : Fin 1048576) :
    (Blk.V m c main_v345 : S32x1048576.Idx → EReal) (ix2 (cornerRow bz bY bx ch) n)
      = volRead (S := 256) (by omega) (m ((c : Thread nD τ).loc main_arg4) : S1x4x256x256x256.Idx → EReal) ch
          (pick 255#32 (cell 0x437F0000#32 ((m ((c : Thread nD τ).loc main_arg0) : S1x1x1x1048576x3.Idx → EReal) (ix5 (0 : Fin 1) (0 : Fin 1) (0 : Fin 1) n (2 : Fin 3)))) bz)
          (pick 255#32 (cell 0x437F0000#32 ((m ((c : Thread nD τ).loc main_arg0) : S1x1x1x1048576x3.Idx → EReal) (ix5 (0 : Fin 1) (0 : Fin 1) (0 : Fin 1) n (1 : Fin 3)))) bY)
          (pick 255#32 (cell 0x437F0000#32 ((m ((c : Thread nD τ).loc main_arg0) : S1x1x1x1048576x3.Idx → EReal) (ix5 (0 : Fin 1) (0 : Fin 1) (0 : Fin 1) n (0 : Fin 3)))) bx) := by
  rw [V_eq m c main_v345 (by decide +kernel), l_out]
  exact out_read vol _ _ n bz bY bx ch

end Cert.KernelIdeal.Host3

end
-- ==== Proof.KValue.lean ====
/- Grid point t writes columns 16384·t … 16384·t + 16383 of the output [16, N]; the blocks cover the array, so it ends at `Sampling.row16` of the arguments, and the closing reshape gives `Sampling.result`. -/
import proofs.«104267_j36455682409092_2_alg».proof.Proof.KFrame
import proofs.«104267_j36455682409092_2_alg».proof.Proof.KBodyV
import proofs.«104267_j36455682409092_2_alg».proof.Proof.KHostV0
import proofs.«104267_j36455682409092_2_alg».proof.Proof.KHostV1
import proofs.«104267_j36455682409092_2_alg».proof.Proof.KHostV2
import proofs.«104267_j36455682409092_2_alg».proof.Proof.KHostV3
import Idealize.ShloMosaic.Lib.Pipeline.Value
import Idealize.ShloMosaic.Lib.StableHlo.Run

noncomputable section

namespace Cert.KernelIdeal.KVal

open Idealize.ShloMosaic Idealize.ShloMosaic.ValueIdx Idealize.ShloMosaic.TcCoe Cert.KernelIdeal Cert.KernelIdeal.Gen Cert.Sampling
open Idealize.SL Idealize.SL.Sem

variable (m : (ℓ : Loc nD τ sig) → Buf (Elt Ideal) ℓ) (ρ : Dev nD → PrngReg)

abbrev gridA (c : Dev nD) : S1x1x1x1048576x3.Idx → EReal := m ((c : Thread nD τ).loc main_arg0)
abbrev volA0 (c : Dev nD) : S1x4x32x32x32.Idx → EReal := m ((c : Thread nD τ).loc main_arg1)
abbrev volA1 (c : Dev nD) : S1x4x64x64x64.Idx → EReal := m ((c : Thread nD τ).loc main_arg2)
abbrev volA2 (c : Dev nD) : S1x4x128x128x128.Idx → EReal := m ((c : Thread nD τ).loc main_arg3)
abbrev volA3 (c : Dev nD) : S1x4x256x256x256.Idx → EReal := m ((c : Thread nD τ).loc main_arg4)

def rows (c : Dev nD) : S16x1048576.Idx → EReal :=
  fun i => row16 (gridA m c) (volA0 m c) (volA1 m c) (volA2 m c) (volA3 m c) (i 0) (i 1)

theorem block_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val ∧ t.val < 64 :=
  (by decide +kernel : ∀ t : Fin grid0.N, _)

def col (t : Fin cfg0.N) (j : Fin 16384) : Fin 1048576 :=
  ⟨t.val * 16384 + j.val, by have := (block_index t).2.2.2.2.2.2.2.2.2.2.2.2; have := j.isLt; omega⟩

theorem read_pts (X : S3x1048576.Idx → EReal) (t : Fin cfg0.N) (k : Fin 3) (j : Fin 16384) :
    ((cfg0.win 0).blk t).view.read (Elt Ideal) X (ix2 k j) = X (ix2 k (col t j)) := by
  obtain ⟨e0, e1, -⟩ := block_index t
  show X (((cfg0.win 0).blk t).view.emb (ix2 k j)) = _
  refine congrArg X ?_
  funext a; apply Fin.ext
  match a with
  | ⟨0, _⟩ => show win0_0.index t (0 : Fin 2) * 3 + 1 * k.val = k.val; omega
  | ⟨1, _⟩ => show win0_0.index t (1 : Fin 2) * 16384 + 1 * j.val = t.val * 16384 + j.val; omega

theorem read_corner0 (X : S32x1048576.Idx → EReal) (t : Fin cfg0.N) (r : Fin 32) (j : Fin 16384) :
    ((cfg0.win 1).blk t).view.read (Elt Ideal) X (ix2 r j) = X (ix2 r (col t j)) := by
  obtain ⟨-, -, e0, e1, -⟩ := block_index t
  show X (((cfg0.win 1).blk t).view.emb (ix2 r j)) = _
  refine congrArg X ?_
  funext a; apply Fin.ext
  match a with
  | ⟨0, _⟩ => show win0_1.index t (0 : Fin 2) * 32 + 1 * r.val = r.val; omega
  | ⟨1, _⟩ => show win0_1.index t (1 : Fin 2) * 16384 + 1 * j.val = t.val * 16384 + j.val; omega

theorem read_corner1 (X : S32x1048576.Idx → EReal) (t : Fin cfg0.N) (r : Fin 32) (j : Fin 16384) :
    ((cfg0.win 2).blk t).view.read (Elt Ideal) X (ix2 r j) = X (ix2 r (col t j)) := by
  obtain ⟨-, -, -, -, e0, e1, -⟩ := block_index t
  show X (((cfg0.win 2).blk t).view.emb (ix2 r j)) = _
  refine congrArg X ?_
  funext a; apply Fin.ext
  match a with
  | ⟨0, _⟩ => show win0_2.index t (0 : Fin 2) * 32 + 1 * r.val = r.val; omega
  | ⟨1, _⟩ => show win0_2.index t (1 : Fin 2) * 16384 + 1 * j.val = t.val * 16384 + j.val; omega

theorem read_corner2 (X : S32x1048576.Idx → EReal) (t : Fin cfg0.N) (r : Fin 32) (j : Fin 16384) :
    ((cfg0.win 3).blk t).view.read (Elt Ideal) X (ix2 r j) = X (ix2 r (col t j)) := by
  obtain ⟨-, -, -, -, -, -, e0, e1, -⟩ := block_index t
  show X (((cfg0.win 3).blk t).view.emb (ix2 r j)) = _
  refine congrArg X ?_
  funext a; apply Fin.ext
  match a with
  | ⟨0, _⟩ => show win0_3.index t (0 : Fin 2) * 32 + 1 * r.val = r.val; omega
  | ⟨1, _⟩ => show win0_3.index t (1 : Fin 2) * 16384 + 1 * j.val = t.val * 16384 + j.val; omega

theorem read_corner3 (X : S32x1048576.Idx → EReal) (t : Fin cfg0.N) (r : Fin 32) (j : Fin 16384) :
    ((cfg0.win 4).blk t).view.read (Elt Ideal) X (ix2 r j) = X (ix2 r (col t j)) := by
  obtain ⟨-, -, -, -, -, -, -, -, e0, e1, -⟩ := block_index t
  show X (((cfg0.win 4).blk t).view.emb (ix2 r j)) = _
  refine congrArg X ?_
  funext a; apply Fin.ext
  match a with
  | ⟨0, _⟩ => show win0_4.index t (0 : Fin 2) * 32 + 1 * r.val = r.val; omega
  | ⟨1, _⟩ => show win0_4.index t (1 : Fin 2) * 16384 + 1 * j.val = t.val * 16384 + j.val; omega

theorem read_out (X : S16x1048576.Idx → EReal) (t : Fin cfg0.N) (r : Fin 16) (j : Fin 16384) :
    ((cfg0.win 5).blk t).view.read (Elt Ideal) X (ix2 r j) = X (ix2 r (col t j)) := by
  obtain ⟨-, -, -, -, -, -, -, -, -, -, e0, e1, -⟩ := block_index t
  show X (((cfg0.win 5).blk t).view.emb (ix2 r j)) = _
  refine congrArg X ?_
  funext a; apply Fin.ext
  match a with
  | ⟨0, _⟩ => show win0_5.index t (0 : Fin 2) * 16 + 1 * r.val = r.val; omega
  | ⟨1, _⟩ => show win0_5.index t (1 : Fin 2) * 16384 + 1 * j.val = t.val * 16384 + j.val; omega

theorem pts_entry (c : Dev nD) (t : Fin cfg0.N) (k : Fin 3) (j : Fin 16384) :
    Blk.iblk m c 0 t (ix2 k j) = (Blk.V m c main_v1 : S3x1048576.Idx → EReal) (ix2 k (col t j)) := by
  unfold Blk.iblk
  exact read_pts _ t k j

theorem corner0_entry (c : Dev nD) (t : Fin cfg0.N) (r : Fin 32) (j : Fin 16384) :
    Blk.iblk m c 1 t (ix2 r j) = (Blk.V m c main_v87 : S32x1048576.Idx → EReal) (ix2 r (col t j)) := by
  unfold Blk.iblk
  exact read_corner0 _ t r j

theorem corner1_entry (c : Dev nD) (t : Fin cfg0.N) (r : Fin 32) (j : Fin 16384) :
    Blk.iblk m c 2 t (ix2 r j) = (Blk.V m c main_v173 : S32x1048576.Idx → EReal) (ix2 r (col t j)) := by
  unfold Blk.iblk
  exact read_corner1 _ t r j

theorem corner2_entry (c : Dev nD) (t : Fin cfg0.N) (r : Fin 32) (j : Fin 16384) :
    Blk.iblk m c 3 t (ix2 r j) = (Blk.V m c main_v259 : S32x1048576.Idx → EReal) (ix2 r (col t j)) := by
  unfold Blk.iblk
  exact read_corner2 _ t r j

theorem corner3_entry (c : Dev nD) (t : Fin cfg0.N) (r : Fin 32) (j : Fin 16384) :
    Blk.iblk m c 4 t (ix2 r j) = (Blk.V m c main_v345 : S32x1048576.Idx → EReal) (ix2 r (col t j)) := by
  unfold Blk.iblk
  exact read_corner3 _ t r j

theorem feat_of_arrays {S : Nat} (hS : 0 < S) (sw mx : BitVec 32)
    (P : S3x1048576.Idx → EReal) (A : S32x1048576.Idx → EReal)
    (grid : (⟨5, ![1, 1, 1, 1048576, 3]⟩ : Shape).Idx → EReal) (vol : (⟨5, ![1, 4, S, S, S]⟩ : Shape).Idx → EReal)
    (ch : Fin 4) (n : Fin 1048576)
    (hP : ∀ k : Fin 3, P (ix2 k n) = grid (ix5 (0 : Fin 1) (0 : Fin 1) (0 : Fin 1) n k))
    (hA : ∀ bz bY bx : Bool, A (ix2 (cornerRow bz bY bx ch) n)
      = volRead hS vol ch
          (pick mx (cell sw (grid (ix5 (0 : Fin 1) (0 : Fin 1) (0 : Fin 1) n (2 : Fin 3)))) bz)
          (pick mx (cell sw (grid (ix5 (0 : Fin 1) (0 : Fin 1) (0 : Fin 1) n (1 : Fin 3)))) bY)
          (pick mx (cell sw (grid (ix5 (0 : Fin 1) (0 : Fin 1) (0 : Fin 1) n (0 : Fin 3)))) bx)) :
    trilerp (fun bz bY bx => A (ix2 (cornerRow bz bY bx ch) n))
        (smooth (coord sw (P (ix2 (0 : Fin 3) n)))) (smooth (coord sw (P (ix2 (1 : Fin 3) n))))
        (smooth (coord sw (P (ix2 (2 : Fin 3) n))))
      = feat hS sw mx grid vol ch n := by
  unfold feat sample
  rw [hP 0, hP 1, hP 2]
  refine congrArg (fun q => trilerp q _ _ _) ?_
  funext bz bY bx
  exact hA bz bY bx

theorem flushed_eq (c : Dev nD) (t : Fin cfg0.N) :
    (Frm.dats m 0 c).flushed 5 t = ((cfg0.win 5).blk t).view.read (Elt Ideal) (rows m c) := by
  show (cfg0.win 5).cut (grid0.coords t) ((Frm.dats m 0 c).after 5 t) = _
  rw [Frm.after_out]
  funext y
  obtain ⟨r, j, rfl⟩ : ∃ (r : Fin 16) (j : Fin 16384), y = ix2 r j := ⟨y 0, y 1, eq_ix2 y⟩
  rw [read_out]
  show Blk.outBlk (Blk.iblk m c 0 t) (Blk.iblk m c 1 t) (Blk.iblk m c 2 t) (Blk.iblk m c 3 t) (Blk.iblk m c 4 t) (ix2 r j)
    = row16 (gridA m c) (volA0 m c) (volA1 m c) (volA2 m c) (volA3 m c) r (col t j)
  refine (Body.outBlk_apply _ _ _ _ _ r j).trans ?_
  unfold row16
  split_ifs with h0 h1 h2
  · refine (Body.piece0_apply _ _ _ j).trans ?_
    simp only [pts_entry, corner0_entry]
    exact feat_of_arrays _ _ _ (Blk.V m c main_v1) (Blk.V m c main_v87) (gridA m c) (volA0 m c) _ (col t j)
      (fun k => Host0.V_pts m c k _) (fun bz bY bx => Host0.V_corner m c bz bY bx _ _)
  · refine (Body.piece1_apply _ _ _ j).trans ?_
    simp only [pts_entry, corner1_entry]
    exact feat_of_arrays _ _ _ (Blk.V m c main_v1) (Blk.V m c main_v173) (gridA m c) (volA1 m c) _ (col t j)
      (fun k => Host0.V_pts m c k _) (fun bz bY bx => Host1.V_corner m c bz bY bx _ _)
  · refine (Body.piece2_apply _ _ _ j).trans ?_
    simp only [pts_entry, corner2_entry]
    exact feat_of_arrays _ _ _ (Blk.V m c main_v1) (Blk.V m c main_v259) (gridA m c) (volA2 m c) _ (col t j)
      (fun k => Host0.V_pts m c k _) (fun bz bY bx => Host2.V_corner m c bz bY bx _ _)
  · refine (Body.piece3_apply _ _ _ j).trans ?_
    simp only [pts_entry, corner3_entry]
    exact feat_of_arrays _ _ _ (Blk.V m c main_v1) (Blk.V m c main_v345) (gridA m c) (volA3 m c) _ (col t j)
      (fun k => Host0.V_pts m c k _) (fun bz bY bx => Host3.V_corner m c bz bY bx _ _)

theorem mem_blk (t : Fin cfg0.N) (i : S16x1048576.Idx) :
    i ∈ ((cfg0.win 5).blk t).view.set ↔ ∀ a : Fin 2, win0_5.index t a * S16x16384.size a ≤ (i a).val ∧ (i a).val < win0_5.index t a * S16x16384.size a + S16x16384.size a := by
  show i ∈ ((View.whole main_v346).slice (win0_5.rect t)).set ↔ _
  rw [View.set_slice_whole, Rect.mem_set_unit]
  exact Iff.rfl

theorem covered (i : S16x1048576.Idx) : ∃ t : Fin cfg0.N, (cfg0.win 5).flush t = true ∧ i ∈ ((cfg0.win 5).blk t).view.set := by
  have hi0 : (i 0).val < 16 := (i 0).isLt
  have hi1 : (i 1).val < 1048576 := (i 1).isLt
  have hN : cfg0.N = 64 := N_0
  let t : Fin cfg0.N := ⟨(i 1).val / 16384, by rw [hN]; omega⟩
  obtain ⟨-, -, -, -, -, -, -, -, -, -, e0, e1, -⟩ := block_index t
  have ht : t.val = (i 1).val / 16384 := rfl
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 16384 ≤ (i 1).val ∧ (i 1).val < win0_5.index t (1 : Fin 2) * 16384 + 16384; omega

theorem final (c : Dev nD) : (Frm.dats m 0 c).arrAt 5 cfg0.N = rows m c :=
  (Frm.dats m 0 c).arrAt_eq_of_cover 5 (rows m c) (fun t _ => flushed_eq m c t) covered

theorem tail_result (c : Dev nD) : Pipeline.afterTail₀ cfgs (Frm.dats m) 0 (Blk.V0 m) [hostOps1] c main_v347
    = Cert.Sampling.result (gridA m c) (volA0 m c) (volA1 m c) (volA2 m c) (volA3 m c) := by
  have hA : Pipeline.withArrays spec0 c (Blk.V0 m c) (fun w => (Frm.dats m 0 c).arrAt w cfg0.N) (Proc.devRef .tc main_v346)
      = rows m c :=
    (Pipeline.withArrays_arr spec0 launch0.win.arr_inj c _ _ 5).trans (final m c)
  unfold Pipeline.afterTail₀
  show StableHlo.after hostOps1 (Pipeline.withArrays spec0 c (Blk.V0 m c) fun w => (Frm.dats m 0 c).arrAt w cfg0.N)
    (Proc.devRef .tc main_v347) = _
  after_results
  rw [hA]
  funext (i : S1x16x1x1x1048576.Idx)
  have h0 : (i 0).val < 1 := (i 0).isLt
  have h2 : (i 2).val < 1 := (i 2).isLt
  have h3 : (i 3).val < 1 := (i 3).isLt
  refine (shapeCast_apply (rows m c) _ i (ix2 (i 1 : Fin 16) (i 4 : Fin 1048576)) ?_).trans rfl
  show (S16x1048576.rowMajor (ix2 (i 1 : Fin 16) (i 4 : Fin 1048576))).val = (S1x16x1x1x1048576.rowMajor i).val
  rw [Shape.rowMajor_val_two, Shape.rowMajor_val_five]
  show (i 1).val * 1048576 + (i 4).val
    = ((((i 0).val * 16 + (i 1).val) * 1 + (i 2).val) * 1 + (i 3).val) * 1048576 + (i 4).val
  omega

theorem run : θ_run defs (onTc (τ := τ) (main (F := Ideal))) ⟨m, fun _ => 0, ρ⟩ (fun r => ∀ c : Dev nD,
      r.2.mem ((c.tc : Thread nD τ).loc main_v347)
        = Cert.Sampling.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v347 (Pipeline.mem_restRefs_of main_v347 (by decide) (by decide))).trans (tail_result m c),
     ((h c).2 main_arg0 (Pipeline.mem_restRefs_of main_arg0 (by decide) (by decide))).trans (Frm.W_main_arg0 m c),
     ((h c).2 main_arg1 (Pipeline.mem_restRefs_of main_arg1 (by decide) (by decide))).trans (Frm.W_main_arg1 m c),
     ((h c).2 main_arg2 (Pipeline.mem_restRefs_of main_arg2 (by decide) (by decide))).trans (Frm.W_main_arg2 m c),
     ((h c).2 main_arg3 (Pipeline.mem_restRefs_of main_arg3 (by decide) (by decide))).trans (Frm.W_main_arg3 m c),
     ((h c).2 main_arg4 (Pipeline.mem_restRefs_of main_arg4 (by decide) (by decide))).trans (Frm.W_main_arg4 m c)⟩)
    (Frm.run_main m ρ)

end Cert.KernelIdeal.KVal

end
-- ==== Proof.RRunLib.lean ====
/- Folding host operations over buffer contents: a concatenated line folds as its parts one after the other. -/
import Idealize.ShloMosaic.Lib.StableHlo.Run

noncomputable section

namespace Cert.ReferenceIdeal.RRun

open Idealize.ShloMosaic Idealize.ShloMosaic.TcCoe Idealize.SL.Sem Idealize.ShloMosaic.StableHlo

section Lines

variable {τ : Topo} {sig : RefSig} {Val : EltTy → Type}

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

theorem forall_app {p : HloOp τ sig Val → Prop} {l₁ l₂ : List (HloOp τ sig Val)}
    (h₁ : l₁.Forall p) (h₂ : l₂.Forall p) : (l₁ ++ l₂).Forall p := by
  rw [List.forall_iff_forall_mem] at h₁ h₂ ⊢
  intro op hop
  rcases List.mem_append.mp hop with h | h
  · exact h₁ op h
  · exact h₂ op h

theorem mem_app {p : HloOp τ sig Val → Prop} {l₁ l₂ : List (HloOp τ sig Val)}
    (h₁ : ∀ op ∈ l₁, p op) (h₂ : ∀ op ∈ l₂, p op) : ∀ op ∈ l₁ ++ l₂, p op := fun op hop =>
  (List.mem_append.mp hop).elim (h₁ op) (h₂ op)

theorem writes_sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, h, rfl⟩))

def nary3fn {x a b y : Ref sig .tc}
    (f : ((k : Fin 3) → ((![x, a, b] : Fin 3 → Ref sig .tc) k).ty.Contents Val) → y.ty.Contents Val)
    (u : x.ty.Contents Val) (v : a.ty.Contents Val) (w : b.ty.Contents Val) : y.ty.Contents Val :=
  f (Fin.cons u (Fin.cons v (Fin.cons w (fun i => i.elim0))))

def nary4fn {x a b c y : Ref sig .tc}
    (f : ((k : Fin 4) → ((![x, a, b, c] : Fin 4 → Ref sig .tc) k).ty.Contents Val) → y.ty.Contents Val)
    (u : x.ty.Contents Val) (v : a.ty.Contents Val) (w : b.ty.Contents Val) (z : c.ty.Contents Val) :
    y.ty.Contents Val :=
  f (Fin.cons u (Fin.cons v (Fin.cons w (Fin.cons z (fun i => i.elim0)))))

theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = nary3fn f (V (Proc.devRef .tc x)) (V (Proc.devRef .tc a)) (V (Proc.devRef .tc b)) := by
  unfold nary3fn; rw [nary_result]; congr 1; funext k; fin_cases k <;> rfl

theorem nary4_result {x a b c y : Ref sig .tc}
    (f : ((k : Fin 4) → ((![x, a, b, c] : Fin 4 → Ref sig .tc) k).ty.Contents Val) → y.ty.Contents Val) (hxs hy)
    (V : Valuation τ sig Val) :
    (nary (τ := τ) ![x, a, b, c] y f hxs hy).result V (no_index (Proc.devRef .tc y))
      = nary4fn f (V (Proc.devRef .tc x)) (V (Proc.devRef .tc a)) (V (Proc.devRef .tc b)) (V (Proc.devRef .tc c)) := by
  unfold nary4fn; rw [nary_result]; congr 1; funext k; fin_cases k <;> rfl

end Lines

macro "stage_results" : tactic =>
  `(tactic| (simp (disch := decide) only [after_cons, after_nil,
      nullary_result', unary_result', binary_result', ternary_result', reshape_result', nary3_result, nary4_result,
      nullary_result_ne', unary_result_ne', binary_result_ne', ternary_result_ne', reshape_result_ne', nary_result_ne']))

macro "stage_step" ops:ident wr:ident : tactic =>
  `(tactic| first
    | exact (after_of_writes_sub $ops _ $wr (by decide)).trans (by assumption)
    | (unfold $ops; stage_results <;> (try simp only [*]) <;> rfl))

macro "line_fresh" : tactic =>
  `(tactic| (intro _ h; (repeat (cases h with | head => rfl | tail _ h => ?_)); exact nomatch h))

end Cert.ReferenceIdeal.RRun

end
-- ==== Proof.RRunOps.lean ====
/- The reference's @main as 23 consecutive lines of host operations, and the invariant at each cut: every buffer still to be read holds its stage `ReadP.val_…` of the five arguments. -/
import proofs.«104267_j36455682409092_2_alg».proof.Proof.RefRead
import proofs.«104267_j36455682409092_2_alg».proof.Proof.RRunLib

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

abbrev ops0 : List (HloOp τ sig (Elt F)) :=
  [
    reshape main_arg0 main_v0 rfl shapeCasts_S1x1x1x1048576x3_S1048576x3,
    reshape main_arg1 main_v1 rfl shapeCasts_S1x4x32x32x32_S4x32x32x32,
    unary main_v0 main_v2 ((extractStridedSlice S1048576x1 ![0, 0] · slices_S1048576x3_S1048576x1_0_0) : Vec F S1048576x3 .f32 → Vec F S1048576x1 .f32),
    reshape main_v2 main_v3 rfl shapeCasts_S1048576x1_S1048576,
    nullary main_cst (constant S_ .f32 0x3F800000#32),
    unary main_cst main_v4 (broadcastInDim S1048576 ![] bcast_S_S1048576 : Vec F S_ .f32 → Vec F S1048576 .f32),
    binary main_v3 main_v4 main_v5 (addf : Vec F S1048576 .f32 → Vec F S1048576 .f32 → Vec F S1048576 .f32),
    nullary main_cst_0 (constant S_ .f32 0x3F000000#32),
    unary main_cst_0 main_v6 (broadcastInDim S1048576 ![] bcast_S_S1048576 : Vec F S_ .f32 → Vec F S1048576 .f32),
    binary main_v5 main_v6 main_v7 (mulf : Vec F S1048576 .f32 → Vec F S1048576 .f32 → Vec F S1048576 .f32),
    nullary main_cst_1 (constant S_ .f32 0x41F80000#32),
    unary main_cst_1 main_v8 (broadcastInDim S1048576 ![] bcast_S_S1048576 : Vec F S_ .f32 → Vec F S1048576 .f32),
    binary main_v7 main_v8 main_v9 (mulf : Vec F S1048576 .f32 → Vec F S1048576 .f32 → Vec F S1048576 .f32),
    nullary main_cst_2 (constant S_ .f32 0x00000000#32),
    nullary main_c (constantI S_ 32 31#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_v9) (TRef.of (T := ⟨S1048576, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S1048576, .f32⟩) main_call0_v4) (broadcastInDim S1048576 ![] bcast_S_S1048576),
    TRef.binary (TRef.of (T := ⟨S1048576, .f32⟩) main_call0_v4) (TRef.of (T := ⟨S1048576, .f32⟩) main_call0_v2) (TRef.of (T := ⟨S1048576, .f32⟩) main_v10) minimumf,
    unary main_v0 main_v11 ((extractStridedSlice S1048576x1 ![0, 1] · slices_S1048576x3_S1048576x1_0_1) : Vec F S1048576x3 .f32 → Vec F S1048576x1 .f32),
    reshape main_v11 main_v12 rfl shapeCasts_S1048576x1_S1048576,
    nullary main_cst_3 (constant S_ .f32 0x3F800000#32),
    unary main_cst_3 main_v13 (broadcastInDim S1048576 ![] bcast_S_S1048576 : Vec F S_ .f32 → Vec F S1048576 .f32),
    binary main_v12 main_v13 main_v14 (addf : Vec F S1048576 .f32 → Vec F S1048576 .f32 → Vec F S1048576 .f32),
    nullary main_cst_4 (constant S_ .f32 0x3F000000#32),
    unary main_cst_4 main_v15 (broadcastInDim S1048576 ![] bcast_S_S1048576 : Vec F S_ .f32 → Vec F S1048576 .f32),
    binary main_v14 main_v15 main_v16 (mulf : Vec F S1048576 .f32 → Vec F S1048576 .f32 → Vec F S1048576 .f32),
    nullary main_cst_5 (constant S_ .f32 0x41F80000#32),
    unary main_cst_5 main_v17 (broadcastInDim S1048576 ![] bcast_S_S1048576 : Vec F S_ .f32 → Vec F S1048576 .f32),
    binary main_v16 main_v17 main_v18 (mulf : Vec F S1048576 .f32 → Vec F S1048576 .f32 → Vec F S1048576 .f32),
    nullary main_cst_6 (constant S_ .f32 0x00000000#32),
    nullary main_c_7 (constantI S_ 32 31#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S1048576, .f32⟩) main_call1_v1) (broadcastInDim S1048576 ![] bcast_S_S1048576),
    TRef.binary (TRef.of (T := ⟨S1048576, .f32⟩) main_call1_v1) (TRef.of (T := ⟨S1048576, .f32⟩) main_v18) (TRef.of (T := ⟨S1048576, .f32⟩) main_call1_v2) maximumf,
    TRef.unary (TRef.of (T := ⟨S_, .i32⟩) main_c_7) (TRef.of (T := ⟨S_, .f32⟩) main_call1_v3) (sitofp .f32),
    TRef.unary (TRef.of (T := ⟨S_, .f32⟩) main_call1_v3) (TRef.of (T := ⟨S1048576, .f32⟩) main_call1_v4) (broadcastInDim S1048576 ![] bcast_S_S1048576),
    TRef.binary (TRef.of (T := ⟨S1048576, .f32⟩) main_call1_v4) (TRef.of (T := ⟨S1048576, .f32⟩) main_call1_v2) (TRef.of (T := ⟨S1048576, .f32⟩) main_v19) minimumf,
    unary main_v0 main_v20 ((extractStridedSlice S1048576x1 ![0, 2] · slices_S1048576x3_S1048576x1_0_2) : Vec F S1048576x3 .f32 → Vec F S1048576x1 .f32),
    reshape main_v20 main_v21 rfl shapeCasts_S1048576x1_S1048576,
    nullary main_cst_8 (constant S_ .f32 0x3F800000#32),
    unary main_cst_8 main_v22 (broadcastInDim S1048576 ![] bcast_S_S1048576 : Vec F S_ .f32 → Vec F S1048576 .f32),
    binary main_v21 main_v22 main_v23 (addf : Vec F S1048576 .f32 → Vec F S1048576 .f32 → Vec F S1048576 .f32),
    nullary main_cst_9 (constant S_ .f32 0x3F000000#32),
    unary main_cst_9 main_v24 (broadcastInDim S1048576 ![] bcast_S_S1048576 : Vec F S_ .f32 → Vec F S1048576 .f32),
    binary main_v23 main_v24 main_v25 (mulf : Vec F S1048576 .f32 → Vec F S1048576 .f32 → Vec F S1048576 .f32),
    nullary main_cst_10 (constant S_ .f32 0x41F80000#32),
    unary main_cst_10 main_v26 (broadcastInDim S1048576 ![] bcast_S_S1048576 : Vec F S_ .f32 → Vec F S1048576 .f32),
    binary main_v25 main_v26 main_v27 (mulf : Vec F S1048576 .f32 → Vec F S1048576 .f32 → Vec F S1048576 .f32),
    nullary main_cst_11 (constant S_ .f32 0x00000000#32),
    nullary main_c_12 (constantI S_ 32 31#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S1048576, .f32⟩) main_call2_v1) (broadcastInDim S1048576 ![] bcast_S_S1048576),
    TRef.binary (TRef.of (T := ⟨S1048576, .f32⟩) main_call2_v1) (TRef.of (T := ⟨S1048576, .f32⟩) main_v27) (TRef.of (T := ⟨S1048576, .f32⟩) main_call2_v2) maximumf,
    TRef.unary (TRef.of (T := ⟨S_, .i32⟩) main_c_12) (TRef.of (T := ⟨S_, .f32⟩) main_call2_v3) (sitofp .f32),
    TRef.unary (TRef.of (T := ⟨S_, .f32⟩) main_call2_v3) (TRef.of (T := ⟨S1048576, .f32⟩) main_call2_v4) (broadcastInDim S1048576 ![] bcast_S_S1048576),
    TRef.binary (TRef.of (T := ⟨S1048576, .f32⟩) main_call2_v4) (TRef.of (T := ⟨S1048576, .f32⟩) main_call2_v2) (TRef.of (T := ⟨S1048576, .f32⟩) main_v28) minimumf,
    unary main_v10 main_v29 (Host.floor : Vec F S1048576 .f32 → Vec F S1048576 .f32),
    unary main_v19 main_v30 (Host.floor : Vec F S1048576 .f32 → Vec F S1048576 .f32),
    unary main_v28 main_v31 (Host.floor : Vec F S1048576 .f32 → Vec F S1048576 .f32),
    binary main_v10 main_v29 main_v32 (subf : Vec F S1048576 .f32 → Vec F S1048576 .f32 → Vec F S1048576 .f32),
    binary main_v19 main_v30 main_v33 (subf : Vec F S1048576 .f32 → Vec F S1048576 .f32 → Vec F S1048576 .f32),
    binary main_v28 main_v31 main_v34 (subf : Vec F S1048576 .f32 → Vec F S1048576 .f32 → Vec F S1048576 .f32),
    binary main_v32 main_v32 main_v35 (mulf : Vec F S1048576 .f32 → Vec F S1048576 .f32 → Vec F S1048576 .f32),
    nullary main_cst_13 (constant S_ .f32 0x40000000#32),
    unary main_cst_13 main_v36 (broadcastInDim S1048576 ![] bcast_S_S1048576 : Vec F S_ .f32 → Vec F S1048576 .f32),
    binary main_v36 main_v32 main_v37 (mulf : Vec F S1048576 .f32 → Vec F S1048576 .f32 → Vec F S1048576 .f32),
    nullary main_cst_14 (constant S_ .f32 0x40400000#32),
    unary main_cst_14 main_v38 (broadcastInDim S1048576 ![] bcast_S_S1048576 : Vec F S_ .f32 → Vec F S1048576 .f32),
    binary main_v38 main_v37 main_v39 (subf : Vec F S1048576 .f32 → Vec F S1048576 .f32 → Vec F S1048576 .f32),
    binary main_v35 main_v39 main_v40 (mulf : Vec F S1048576 .f32 → Vec F S1048576 .f32 → Vec F S1048576 .f32),
    binary main_v33 main_v33 main_v41 (mulf : Vec F S1048576 .f32 → Vec F S1048576 .f32 → Vec F S1048576 .f32),
    nullary main_cst_15 (constant S_ .f32 0x40000000#32) ]

set_option maxRecDepth 8192 in
set_option maxHeartbeats 4000000 in
theorem part0_eq (c : Dev nD) : main_part0 (F := F) c = seq ops0 := rfl

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops0_fresh : ∀ op ∈ (ops0 : List (HloOp τ sig (Elt F))), op.fresh = ∅ := by line_fresh

abbrev ops0_outs : List (Ref sig .tc) :=
  [main_v0, main_v1, main_v2, main_v3, main_cst, main_v4, main_v5, main_cst_0, main_v6, main_v7, main_cst_1, main_v8, main_v9, main_cst_2, main_c, main_call0_v0, main_call0_v1, main_call0_v2, main_call0_v3, main_call0_v4, main_v10, main_v11, main_v12, main_cst_3, main_v13, main_v14, main_cst_4, main_v15, main_v16, main_cst_5, main_v17, main_v18, main_cst_6, main_c_7, main_call1_v0, main_call1_v1, main_call1_v2, main_call1_v3, main_call1_v4, main_v19, main_v20, main_v21, main_cst_8, main_v22, main_v23, main_cst_9, main_v24, main_v25, main_cst_10, main_v26, main_v27, main_cst_11, main_c_12, main_call2_v0, main_call2_v1, main_call2_v2, main_call2_v3, main_call2_v4, main_v28, main_v29, main_v30, main_v31, main_v32, main_v33, main_v34, main_v35, main_cst_13, main_v36, main_v37, main_cst_14, main_v38, main_v39, main_v40, main_v41, main_cst_15]

set_option maxRecDepth 8192 in
theorem ops0_writes : (ops0 : List (HloOp τ sig (Elt F))).Forall fun op => op.writes ⊆ (ops0_outs.map (Proc.devRef (τ := τ) .tc)).toFinset := by
  repeat' constructor
  all_goals exact writes_sub_of_mem (by decide)

set_option maxHeartbeats 4000000 in

abbrev ops1 : List (HloOp τ sig (Elt F)) :=
  [
    unary main_cst_15 main_v42 (broadcastInDim S1048576 ![] bcast_S_S1048576 : Vec F S_ .f32 → Vec F S1048576 .f32),
    binary main_v42 main_v33 main_v43 (mulf : Vec F S1048576 .f32 → Vec F S1048576 .f32 → Vec F S1048576 .f32),
    nullary main_cst_16 (constant S_ .f32 0x40400000#32),
    unary main_cst_16 main_v44 (broadcastInDim S1048576 ![] bcast_S_S1048576 : Vec F S_ .f32 → Vec F S1048576 .f32),
    binary main_v44 main_v43 main_v45 (subf : Vec F S1048576 .f32 → Vec F S1048576 .f32 → Vec F S1048576 .f32),
    binary main_v41 main_v45 main_v46 (mulf : Vec F S1048576 .f32 → Vec F S1048576 .f32 → Vec F S1048576 .f32),
    binary main_v34 main_v34 main_v47 (mulf : Vec F S1048576 .f32 → Vec F S1048576 .f32 → Vec F S1048576 .f32),
    nullary main_cst_17 (constant S_ .f32 0x40000000#32),
    unary main_cst_17 main_v48 (broadcastInDim S1048576 ![] bcast_S_S1048576 : Vec F S_ .f32 → Vec F S1048576 .f32),
    binary main_v48 main_v34 main_v49 (mulf : Vec F S1048576 .f32 → Vec F S1048576 .f32 → Vec F S1048576 .f32),
    nullary main_cst_18 (constant S_ .f32 0x40400000#32),
    unary main_cst_18 main_v50 (broadcastInDim S1048576 ![] bcast_S_S1048576 : Vec F S_ .f32 → Vec F S1048576 .f32),
    binary main_v50 main_v49 main_v51 (subf : Vec F S1048576 .f32 → Vec F S1048576 .f32 → Vec F S1048576 .f32),
    binary main_v47 main_v51 main_v52 (mulf : Vec F S1048576 .f32 → Vec F S1048576 .f32 → Vec F S1048576 .f32),
    unary main_v29 main_v53 (fptosi 32 : Vec F S1048576 .f32 → Vec F S1048576 .i32),
    nullary main_c_19 (constantI S_ 32 1#32),
    unary main_c_19 main_v54 (broadcastInDim S1048576 ![] bcast_S_S1048576 : Vec F S_ .i32 → Vec F S1048576 .i32),
    binary main_v53 main_v54 main_v55 (addi : Vec F S1048576 .i32 → Vec F S1048576 .i32 → Vec F S1048576 .i32),
    nullary main_c_20 (constantI S_ 32 31#32),
    unary main_c_20 main_v56 (broadcastInDim S1048576 ![] bcast_S_S1048576 : Vec F S_ .i32 → Vec F S1048576 .i32),
    binary main_v55 main_v56 main_v57 (minsi : Vec F S1048576 .i32 → Vec F S1048576 .i32 → Vec F S1048576 .i32),
    unary main_v30 main_v58 (fptosi 32 : Vec F S1048576 .f32 → Vec F S1048576 .i32),
    nullary main_c_21 (constantI S_ 32 1#32),
    unary main_c_21 main_v59 (broadcastInDim S1048576 ![] bcast_S_S1048576 : Vec F S_ .i32 → Vec F S1048576 .i32),
    binary main_v58 main_v59 main_v60 (addi : Vec F S1048576 .i32 → Vec F S1048576 .i32 → Vec F S1048576 .i32),
    nullary main_c_22 (constantI S_ 32 31#32),
    unary main_c_22 main_v61 (broadcastInDim S1048576 ![] bcast_S_S1048576 : Vec F S_ .i32 → Vec F S1048576 .i32),
    binary main_v60 main_v61 main_v62 (minsi : Vec F S1048576 .i32 → Vec F S1048576 .i32 → Vec F S1048576 .i32),
    unary main_v31 main_v63 (fptosi 32 : Vec F S1048576 .f32 → Vec F S1048576 .i32),
    nullary main_c_23 (constantI S_ 32 1#32),
    unary main_c_23 main_v64 (broadcastInDim S1048576 ![] bcast_S_S1048576 : Vec F S_ .i32 → Vec F S1048576 .i32),
    binary main_v63 main_v64 main_v65 (addi : Vec F S1048576 .i32 → Vec F S1048576 .i32 → Vec F S1048576 .i32),
    nullary main_c_24 (constantI S_ 32 31#32),
    unary main_c_24 main_v66 (broadcastInDim S1048576 ![] bcast_S_S1048576 : Vec F S_ .i32 → Vec F S1048576 .i32),
    binary main_v65 main_v66 main_v67 (minsi : Vec F S1048576 .i32 → Vec F S1048576 .i32 → Vec F S1048576 .i32),
    nullary main_c_25 (constantI S_ 32 0#32),
    unary main_c_25 main_v68 (broadcastInDim S1048576 ![] bcast_S_S1048576 : Vec F S_ .i32 → Vec F S1048576 .i32),
    binary main_v63 main_v68 main_v69 (cmpi .slt : Vec F S1048576 .i32 → Vec F S1048576 .i32 → Vec F S1048576 .i1),
    nullary main_c_26 (constantI S_ 32 32#32),
    unary main_c_26 main_v70 (broadcastInDim S1048576 ![] bcast_S_S1048576 : Vec F S_ .i32 → Vec F S1048576 .i32),
    binary main_v63 main_v70 main_v71 (addi : Vec F S1048576 .i32 → Vec F S1048576 .i32 → Vec F S1048576 .i32),
    ternary main_v69 main_v71 main_v63 main_v72 (select : Vec F S1048576 .i1 → Vec F S1048576 .i32 → Vec F S1048576 .i32 → Vec F S1048576 .i32),
    nullary main_c_27 (constantI S_ 32 0#32),
    unary main_c_27 main_v73 (broadcastInDim S1048576 ![] bcast_S_S1048576 : Vec F S_ .i32 → Vec F S1048576 .i32),
    binary main_v58 main_v73 main_v74 (cmpi .slt : Vec F S1048576 .i32 → Vec F S1048576 .i32 → Vec F S1048576 .i1),
    nullary main_c_28 (constantI S_ 32 32#32),
    unary main_c_28 main_v75 (broadcastInDim S1048576 ![] bcast_S_S1048576 : Vec F S_ .i32 → Vec F S1048576 .i32),
    binary main_v58 main_v75 main_v76 (addi : Vec F S1048576 .i32 → Vec F S1048576 .i32 → Vec F S1048576 .i32),
    ternary main_v74 main_v76 main_v58 main_v77 (select : Vec F S1048576 .i1 → Vec F S1048576 .i32 → Vec F S1048576 .i32 → Vec F S1048576 .i32),
    nullary main_c_29 (constantI S_ 32 0#32),
    unary main_c_29 main_v78 (broadcastInDim S1048576 ![] bcast_S_S1048576 : Vec F S_ .i32 → Vec F S1048576 .i32),
    binary main_v53 main_v78 main_v79 (cmpi .slt : Vec F S1048576 .i32 → Vec F S1048576 .i32 → Vec F S1048576 .i1),
    nullary main_c_30 (constantI S_ 32 32#32),
    unary main_c_30 main_v80 (broadcastInDim S1048576 ![] bcast_S_S1048576 : Vec F S_ .i32 → Vec F S1048576 .i32),
    binary main_v53 main_v80 main_v81 (addi : Vec F S1048576 .i32 → Vec F S1048576 .i32 → Vec F S1048576 .i32),
    ternary main_v79 main_v81 main_v53 main_v82 (select : Vec F S1048576 .i1 → Vec F S1048576 .i32 → Vec F S1048576 .i32 → Vec F S1048576 .i32),
    unary main_v72 main_v83 (broadcastInDim S1048576x1 ![0] bcast_S1048576_S1048576x1_0 : Vec F S1048576 .i32 → Vec F S1048576x1 .i32),
    unary main_v77 main_v84 (broadcastInDim S1048576x1 ![0] bcast_S1048576_S1048576x1_0 : Vec F S1048576 .i32 → Vec F S1048576x1 .i32),
    unary main_v82 main_v85 (broadcastInDim S1048576x1 ![0] bcast_S1048576_S1048576x1_0 : Vec F S1048576 .i32 → Vec F S1048576x1 .i32),
    nary ![main_v83, main_v84, main_v85] main_v86 (fun u => concatenate S1048576x3 1 [⟨S1048576x1, u 0⟩, ⟨S1048576x1, u 1⟩, ⟨S1048576x1, u 2⟩] concatenates_S1048576x1_S1048576x1_S1048576x1_S1048576x3_d1) ]

set_option maxRecDepth 8192 in
set_option maxHeartbeats 4000000 in
theorem part1_eq (c : Dev nD) : main_part1 (F := F) c = seq ops1 := rfl

set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops1_fresh : ∀ op ∈ (ops1 : List (HloOp τ sig (Elt F))), op.fresh = ∅ := by line_fresh

abbrev ops1_outs : List (Ref sig .tc) :=
  [main_v42, main_v43, main_cst_16, main_v44, main_v45, main_v46, main_v47, main_cst_17, main_v48, main_v49, main_cst_18, main_v50, main_v51, main_v52, main_v53, main_c_19, main_v54, main_v55, main_c_20, main_v56, main_v57, main_v58, main_c_21, main_v59, main_v60, main_c_22, main_v61, main_v62, main_v63, main_c_23, main_v64, main_v65, main_c_24, main_v66, main_v67, main_c_25, main_v68, main_v69, main_c_26, main_v70, main_v71, main_v72, main_c_27, main_v73, main_v74, main_c_28, main_v75, main_v76, main_v77, main_c_29, main_v78, main_v79, main_c_30, main_v80, main_v81, main_v82, main_v83, main_v84, main_v85, main_v86]

set_option maxRecDepth 8192 in
theorem ops1_writes : (ops1 : List (HloOp τ sig (Elt F))).Forall fun op => op.writes ⊆ (ops1_outs.map (Proc.devRef (τ := τ) .tc)).toFinset := by
  repeat' constructor
  all_goals exact writes_sub_of_mem (by decide)

set_option maxHeartbeats 4000000 in

abbrev ops2 : List (HloOp τ sig (Elt F)) :=
  [
    binary main_v1 main_v86 main_v87 ((fun x i => Host.gather gather_S4x32x32x32_S1048576x3_S4x1048576_0_123_n_n_123_1_4111 x i) : Vec F S4x32x32x32 .f32 → Vec F S1048576x3 .i32 → Vec F S4x1048576 .f32),
    nullary main_c_31 (constantI S_ 32 0#32),
    unary main_c_31 main_v88 (broadcastInDim S1048576 ![] bcast_S_S1048576 : Vec F S_ .i32 → Vec F S1048576 .i32),
    binary main_v63 main_v88 main_v89 (cmpi .slt : Vec F S1048576 .i32 → Vec F S1048576 .i32 → Vec F S1048576 .i1),
    nullary main_c_32 (constantI S_ 32 32#32),
    unary main_c_32 main_v90 (broadcastInDim S1048576 ![] bcast_S_S1048576 : Vec F S_ .i32 → Vec F S1048576 .i32),
    binary main_v63 main_v90 main_v91 (addi : Vec F S1048576 .i32 → Vec F S1048576 .i32 → Vec F S1048576 .i32),
    ternary main_v89 main_v91 main_v63 main_v92 (select : Vec F S1048576 .i1 → Vec F S1048576 .i32 → Vec F S1048576 .i32 → Vec F S1048576 .i32),
    nullary main_c_33 (constantI S_ 32 0#32),
    unary main_c_33 main_v93 (broadcastInDim S1048576 ![] bcast_S_S1048576 : Vec F S_ .i32 → Vec F S1048576 .i32),
    binary main_v58 main_v93 main_v94 (cmpi .slt : Vec F S1048576 .i32 → Vec F S1048576 .i32 → Vec F S1048576 .i1),
    nullary main_c_34 (constantI S_ 32 32#32),
    unary main_c_34 main_v95 (broadcastInDim S1048576 ![] bcast_S_S1048576 : Vec F S_ .i32 → Vec F S1048576 .i32),
    binary main_v58 main_v95 main_v96 (addi : Vec F S1048576 .i32 → Vec F S1048576 .i32 → Vec F S1048576 .i32),
    ternary main_v94 main_v96 main_v58 main_v97 (select : Vec F S1048576 .i1 → Vec F S1048576 .i32 → Vec F S1048576 .i32 → Vec F S1048576 .i32),
    nullary main_c_35 (constantI S_ 32 0#32),
    unary main_c_35 main_v98 (broadcastInDim S1048576 ![] bcast_S_S1048576 : Vec F S_ .i32 → Vec F S1048576 .i32),
    binary main_v57 main_v98 main_v99 (cmpi .slt : Vec F S1048576 .i32 → Vec F S1048576 .i32 → Vec F S1048576 .i1),
    nullary main_c_36 (constantI S_ 32 32#32),
    unary main_c_36 main_v100 (broadcastInDim S1048576 ![] bcast_S_S1048576 : Vec F S_ .i32 → Vec F S1048576 .i32),
    binary main_v57 main_v100 main_v101 (addi : Vec F S1048576 .i32 → Vec F S1048576 .i32 → Vec F S1048576 .i32),
    ternary main_v99 main_v101 main_v57 main_v102 (select : Vec F S1048576 .i1 → Vec F S1048576 .i32 → Vec F S1048576 .i32 → Vec F S1048576 .i32),
    unary main_v92 main_v103 (broadcastInDim S1048576x1 ![0] bcast_S1048576_S1048576x1_0 : Vec F S1048576 .i32 → Vec F S1048576x1 .i32),
    unary main_v97 main_v104 (broadcastInDim S1048576x1 ![0] bcast_S1048576_S1048576x1_0 : Vec F S1048576 .i32 → Vec F S1048576x1 .i32),
    unary main_v102 main_v105 (broadcastInDim S1048576x1 ![0] bcast_S1048576_S1048576x1_0 : Vec F S1048576 .i32 → Vec F S1048576x1 .i32),
    nary ![main_v103, main_v104, main_v105] main_v106 (fun u => concatenate S1048576x3 1 [⟨S1048576x1, u 0⟩, ⟨S1048576x1, u 1⟩, ⟨S1048576x1, u 2⟩] concatenates_S1048576x1_S1048576x1_S1048576x1_S1048576x3_d1),
    binary main_v1 main_v106 main_v107 ((fun x i => Host.gather gather_S4x32x32x32_S1048576x3_S4x1048576_0_123_n_n_123_1_4111 x i) : Vec F S4x32x32x32 .f32 → Vec F S1048576x3 .i32 → Vec F S4x1048576 .f32),
    nullary main_c_37 (constantI S_ 32 0#32),
    unary main_c_37 main_v108 (broadcastInDim S1048576 ![] bcast_S_S1048576 : Vec F S_ .i32 → Vec F S1048576 .i32),
    binary main_v63 main_v108 main_v109 (cmpi .slt : Vec F S1048576 .i32 → Vec F S1048576 .i32 → Vec F S1048576 .i1),
    nullary main_c_38 (constantI S_ 32 32#32),
    unary main_c_38 main_v110 (broadcastInDim S1048576 ![] bcast_S_S1048576 : Vec F S_ .i32 → Vec F S1048576 .i32),
    binary main_v63 main_v110 main_v111 (addi : Vec F S1048576 .i32 → Vec F S1048576 .i32 → Vec F S1048576 .i32),
    ternary main_v109 main_v111 main_v63 main_v112 (select : Vec F S1048576 .i1 → Vec F S1048576 .i32 → Vec F S1048576 .i32 → Vec F S1048576 .i32),
    nullary main_c_39 (constantI S_ 32 0#32),
    unary main_c_39 main_v113 (broadcastInDim S1048576 ![] bcast_S_S1048576 : Vec F S_ .i32 → Vec F S1048576 .i32),
    binary main_v62 main_v113 main_v114 (cmpi .slt : Vec F S1048576 .i32 → Vec F S1048576 .i32 → Vec F S1048576 .i1),
    nullary main_c_40 (constantI S_ 32 32#32),
    unary main_c_40 main_v115 (broadcastInDim S1048576 ![] bcast_S_S1048576 : Vec F S_ .i32 → Vec F S1048576 .i32),
    binary main_v62 main_v115 main_v116 (addi : Vec F S1048576 .i32 → Vec F S1048576 .i32 → Vec F S1048576 .i32),
    ternary main_v114 main_v116 main_v62 main_v117 (select : Vec F S1048576 .i1 → Vec F S1048576 .i32 → Vec F S1048576 .i32 → Vec F S1048576 .i32),
    nullary main_c_41 (constantI S_ 32 0#32),
    unary main_c_41 main_v118 (broadcastInDim S1048576 ![] bcast_S_S1048576 : Vec F S_ .i32 → Vec F S1048576 .i32),
    binary main_v53 main_v118 main_v119 (cmpi .slt : Vec F S1048576 .i32 → Vec F S1048576 .i32 → Vec F S1048576 .i1),
    nullary main_c_42 (constantI S_ 32 32#32),
    unary main_c_42 main_v120 (broadcastInDim S1048576 ![] bcast_S_S1048576 : Vec F S_ .i32 → Vec F S1048576 .i32),
    binary main_v53 main_v120 main_v121 (addi : Vec F S1048576 .i32 → Vec F S1048576 .i32 → Vec F S1048576 .i32),
    ternary main_v119 main_v121 main_v53 main_v122 (select : Vec F S1048576 .i1 → Vec F S1048576 .i32 → Vec F S1048576 .i32 → Vec F S1048576 .i32),
    unary main_v112 main_v123 (broadcastInDim S1048576x1 ![0] bcast_S1048576_S1048576x1_0 : Vec F S1048576 .i32 → Vec F S1048576x1 .i32),
    unary main_v117 main_v124 (broadcastInDim S1048576x1 ![0] bcast_S1048576_S1048576x1_0 : Vec F S1048576 .i32 → Vec F S1048576x1 .i32),
    unary main_v122 main_v125 (broadcastInDim S1048576x1 ![0] bcast_S1048576_S1048576x1_0 : Vec F S1048576 .i32 → Vec F S1048576x1 .i32),
    nary ![main_v123, main_v124, main_v125] main_v126 (fun u => concatenate S1048576x3 1 [⟨S1048576x1, u 0⟩, ⟨S1048576x1, u 1⟩, ⟨S1048576x1, u 2⟩] concatenates_S1048576x1_S1048576x1_S1048576x1_S1048576x3_d1),
    binary main_v1 main_v126 main_v127 ((fun x i => Host.gather gather_S4x32x32x32_S1048576x3_S4x1048576_0_123_n_n_123_1_4111 x i) : Vec F S4x32x32x32 .f32 → Vec F S1048576x3 .i32 → Vec F S4x1048576 .f32),
    nullary main_c_43 (constantI S_ 32 0#32),
    unary main_c_43 main_v128 (broadcastInDim S1048576 ![] bcast_S_S1048576 : Vec F S_ .i32 → Vec F S1048576 .i32),
    binary main_v63 main_v128 main_v129 (cmpi .slt : Vec F S1048576 .i32 → Vec F S1048576 .i32 → Vec F S1048576 .i1),
    nullary main_c_44 (constantI S_ 32 32#32),
    unary main_c_44 main_v130 (broadcastInDim S1048576 ![] bcast_S_S1048576 : Vec F S_ .i32 → Vec F S1048576 .i32),
    binary main_v63 main_v130 main_v131 (addi : Vec F S1048576 .i32 → Vec F S1048576 .i32 → Vec F S1048576 .i32),
    ternary main_v129 main_v131 main_v63 main_v132 (select : Vec F S1048576 .i1 → Vec F S1048576 .i32 → Vec F S1048576 .i32 → Vec F S1048576 .i32) ]

set_option maxRecDepth 8192 in
set_option maxHeartbeats 4000000 in
theorem part2_eq (c : Dev nD) : main_part2 (F := F) c = seq ops2 := rfl

set_option maxRecDepth 8192 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops2_fresh : ∀ op ∈ (ops2 : List (HloOp τ sig (Elt F))), op.fresh = ∅ := by line_fresh

abbrev ops2_outs : List (Ref sig .tc) :=
  [main_v87, main_c_31, main_v88, main_v89, main_c_32, main_v90, main_v91, main_v92, main_c_33, main_v93, main_v94, main_c_34, main_v95, main_v96, main_v97, main_c_35, main_v98, main_v99, main_c_36, main_v100, main_v101, main_v102, main_v103, main_v104, main_v105, main_v106, main_v107, main_c_37, main_v108, main_v109, main_c_38, main_v110, main_v111, main_v112, main_c_39, main_v113, main_v114, main_c_40, main_v115, main_v116, main_v117, main_c_41, main_v118, main_v119, main_c_42, main_v120, main_v121, main_v122, main_v123, main_v124, main_v125, main_v126, main_v127, main_c_43, main_v128, main_v129, main_c_44, main_v130, main_v131, main_v132]

set_option maxRecDepth 8192 in
theorem ops2_writes : (ops2 : List (HloOp τ sig (Elt F))).Forall fun op => op.writes ⊆ (ops2_outs.map (Proc.devRef (τ := τ) .tc)).toFinset := by
  repeat' constructor
  all_goals exact writes_sub_of_mem (by decide)

set_option maxHeartbeats 4000000 in

abbrev ops3 : List (HloOp τ sig (Elt F)) :=
  [
    nullary main_c_45 (constantI S_ 32 0#32),
    unary main_c_45 main_v133 (broadcastInDim S1048576 ![] bcast_S_S1048576 : Vec F S_ .i32 → Vec F S1048576 .i32),
    binary main_v62 main_v133 main_v134 (cmpi .slt : Vec F S1048576 .i32 → Vec F S1048576 .i32 → Vec F S1048576 .i1),
    nullary main_c_46 (constantI S_ 32 32#32),
    unary main_c_46 main_v135 (broadcastInDim S1048576 ![] bcast_S_S1048576 : Vec F S_ .i32 → Vec F S1048576 .i32),
    binary main_v62 main_v135 main_v136 (addi : Vec F S1048576 .i32 → Vec F S1048576 .i32 → Vec F S1048576 .i32),
    ternary main_v134 main_v136 main_v62 main_v137 (select : Vec F S1048576 .i1 → Vec F S1048576 .i32 → Vec F S1048576 .i32 → Vec F S1048576 .i32),
    nullary main_c_47 (constantI S_ 32 0#32),
    unary main_c_47 main_v138 (broadcastInDim S1048576 ![] bcast_S_S1048576 : Vec F S_ .i32 → Vec F S1048576 .i32),
    binary main_v57 main_v138 main_v139 (cmpi .slt : Vec F S1048576 .i32 → Vec F S1048576 .i32 → Vec F S1048576 .i1),
    nullary main_c_48 (constantI S_ 32 32#32),
    unary main_c_48 main_v140 (broadcastInDim S1048576 ![] bcast_S_S1048576 : Vec F S_ .i32 → Vec F S1048576 .i32),
    binary main_v57 main_v140 main_v141 (addi : Vec F S1048576 .i32 → Vec F S1048576 .i32 → Vec F S1048576 .i32),
    ternary main_v139 main_v141 main_v57 main_v142 (select : Vec F S1048576 .i1 → Vec F S1048576 .i32 → Vec F S1048576 .i32 → Vec F S1048576 .i32),
    unary main_v132 main_v143 (broadcastInDim S1048576x1 ![0] bcast_S1048576_S1048576x1_0 : Vec F S1048576 .i32 → Vec F S1048576x1 .i32),
    unary main_v137 main_v144 (broadcastInDim S1048576x1 ![0] bcast_S1048576_S1048576x1_0 : Vec F S1048576 .i32 → Vec F S1048576x1 .i32),
    unary main_v142 main_v145 (broadcastInDim S1048576x1 ![0] bcast_S1048576_S1048576x1_0 : Vec F S1048576 .i32 → Vec F S1048576x1 .i32),
    nary ![main_v143, main_v144, main_v145] main_v146 (fun u => concatenate S1048576x3 1 [⟨S1048576x1, u 0⟩, ⟨S1048576x1, u 1⟩, ⟨S1048576x1, u 2⟩] concatenates_S1048576x1_S1048576x1_S1048576x1_S1048576x3_d1),
    binary main_v1 main_v146 main_v147 ((fun x i => Host.gather gather_S4x32x32x32_S1048576x3_S4x1048576_0_123_n_n_123_1_4111 x i) : Vec F S4x32x32x32 .f32 → Vec F S1048576x3 .i32 → Vec F S4x1048576 .f32),
    nullary main_c_49 (constantI S_ 32 0#32),
    unary main_c_49 main_v148 (broadcastInDim S1048576 ![] bcast_S_S1048576 : Vec F S_ .i32 → Vec F S1048576 .i32),
    binary main_v67 main_v148 main_v149 (cmpi .slt : Vec F S1048576 .i32 → Vec F S1048576 .i32 → Vec F S1048576 .i1),
    nullary main_c_50 (constantI S_ 32 32#32),
    unary main_c_50 main_v150 (broadcastInDim S1048576 ![] bcast_S_S1048576 : Vec F S_ .i32 → Vec F S1048576 .i32),
    binary main_v67 main_v150 main_v151 (addi : Vec F S1048576 .i32 → Vec F S1048576 .i32 → Vec F S1048576 .i32),
    ternary main_v149 main_v151 main_v67 main_v152 (select : Vec F S1048576 .i1 → Vec F S1048576 .i32 → Vec F S1048576 .i32 → Vec F S1048576 .i32),
    nullary main_c_51 (constantI S_ 32 0#32),
    unary main_c_51 main_v153 (broadcastInDim S1048576 ![] bcast_S_S1048576 : Vec F S_ .i32 → Vec F S1048576 .i32),
    binary main_v58 main_v153 main_v154 (cmpi .slt : Vec F S1048576 .i32 → Vec F S1048576 .i32 → Vec F S1048576 .i1),
    nullary main_c_52 (constantI S_ 32 32#32),
    unary main_c_52 main_v155 (broadcastInDim S1048576 ![] bcast_S_S1048576 : Vec F S_ .i32 → Vec F S1048576 .i32),
    binary main_v58 main_v155 main_v156 (addi : Vec F S1048576 .i32 → Vec F S1048576 .i32 → Vec F S1048576 .i32),
    ternary main_v154 main_v156 main_v58 main_v157 (select : Vec F S1048576 .i1 → Vec F S1048576 .i32 → Vec F S1048576 .i32 → Vec F S1048576 .i32),
    nullary main_c_53 (constantI S_ 32 0#32),
    unary main_c_53 main_v158 (broadcastInDim S1048576 ![] bcast_S_S1048576 : Vec F S_ .i32 → Vec F S1048576 .i32),
    binary main_v53 main_v158 main_v159 (cmpi .slt : Vec F S1048576 .i32 → Vec F S1048576 .i32 → Vec F S1048576 .i1),
    nullary main_c_54 (constantI S_ 32 32#32),
    unary main_c_54 main_v160 (broadcastInDim S1048576 ![] bcast_S_S1048576 : Vec F S_ .i32 → Vec F S1048576 .i32),
    binary main_v53 main_v160 main_v161 (addi : Vec F S1048576 .i32 → Vec F S1048576 .i32 → Vec F S1048576 .i32),
    ternary main_v159 main_v161 main_v53 main_v162 (select : Vec F S1048576 .i1 → Vec F S1048576 .i32 → Vec F S1048576 .i32 → Vec F S1048576 .i32),
    unary main_v152 main_v163 (broadcastInDim S1048576x1 ![0] bcast_S1048576_S1048576x1_0 : Vec F S1048576 .i32 → Vec F S1048576x1 .i32),
    unary main_v157 main_v164 (broadcastInDim S1048576x1 ![0] bcast_S1048576_S1048576x1_0 : Vec F S1048576 .i32 → Vec F S1048576x1 .i32),
    unary main_v162 main_v165 (broadcastInDim S1048576x1 ![0] bcast_S1048576_S1048576x1_0 : Vec F S1048576 .i32 → Vec F S1048576x1 .i32),
    nary ![main_v163, main_v164, main_v165] main_v166 (fun u => concatenate S1048576x3 1 [⟨S1048576x1, u 0⟩, ⟨S1048576x1, u 1⟩, ⟨S1048576x1, u 2⟩] concatenates_S1048576x1_S1048576x1_S1048576x1_S1048576x3_d1),
    binary main_v1 main_v166 main_v167 ((fun x i => Host.gather gather_S4x32x32x32_S1048576x3_S4x1048576_0_123_n_n_123_1_4111 x i) : Vec F S4x32x32x32 .f32 → Vec F S1048576x3 .i32 → Vec F S4x1048576 .f32),
    nullary main_c_55 (constantI S_ 32 0#32),
    unary main_c_55 main_v168 (broadcastInDim S1048576 ![] bcast_S_S1048576 : Vec F S_ .i32 → Vec F S1048576 .i32),
    binary main_v67 main_v168 main_v169 (cmpi .slt : Vec F S1048576 .i32 → Vec F S1048576 .i32 → Vec F S1048576 .i1),
    nullary main_c_56 (constantI S_ 32 32#32),
    unary main_c_56 main_v170 (broadcastInDim S1048576 ![] bcast_S_S1048576 : Vec F S_ .i32 → Vec F S1048576 .i32),
    binary main_v67 main_v170 main_v171 (addi : Vec F S1048576 .i32 → Vec F S1048576 .i32 → Vec F S1048576 .i32),
    ternary main_v169 main_v171 main_v67 main_v172 (select : Vec F S1048576 .i1 → Vec F S1048576 .i32 → Vec F S1048576 .i32 → Vec F S1048576 .i32),
    nullary main_c_57 (constantI S_ 32 0#32),
    unary main_c_57 main_v173 (broadcastInDim S1048576 ![] bcast_S_S1048576 : Vec F S_ .i32 → Vec F S1048576 .i32),
    binary main_v58 main_v173 main_v174 (cmpi .slt : Vec F S1048576 .i32 → Vec F S1048576 .i32 → Vec F S1048576 .i1),
    nullary main_c_58 (constantI S_ 32 32#32),
    unary main_c_58 main_v175 (broadcastInDim S1048576 ![] bcast_S_S1048576 : Vec F S_ .i32 → Vec F S1048576 .i32),
    binary main_v58 main_v175 main_v176 (addi : Vec F S1048576 .i32 → Vec F S1048576 .i32 → Vec F S1048576 .i32),
    ternary main_v174 main_v176 main_v58 main_v177 (select : Vec F S1048576 .i1 → Vec F S1048576 .i32 → Vec F S1048576 .i32 → Vec F S1048576 .i32),
    nullary main_c_59 (constantI S_ 32 0#32) ]

set_option maxRecDepth 8192 in
set_option maxHeartbeats 4000000 in
theorem part3_eq (c : Dev nD) : main_part3 (F := F) c = seq ops3 := rfl

set_option maxRecDepth 8192 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops3_fresh : ∀ op ∈ (ops3 : List (HloOp τ sig (Elt F))), op.fresh = ∅ := by line_fresh

abbrev ops3_outs : List (Ref sig .tc) :=
  [main_c_45, main_v133, main_v134, main_c_46, main_v135, main_v136, main_v137, main_c_47, main_v138, main_v139, main_c_48, main_v140, main_v141, main_v142, main_v143, main_v144, main_v145, main_v146, main_v147, main_c_49, main_v148, main_v149, main_c_50, main_v150, main_v151, main_v152, main_c_51, main_v153, main_v154, main_c_52, main_v155, main_v156, main_v157, main_c_53, main_v158, main_v159, main_c_54, main_v160, main_v161, main_v162, main_v163, main_v164, main_v165, main_v166, main_v167, main_c_55, main_v168, main_v169, main_c_56, main_v170, main_v171, main_v172, main_c_57, main_v173, main_v174, main_c_58, main_v175, main_v176, main_v177, main_c_59]

set_option maxRecDepth 8192 in
theorem ops3_writes : (ops3 : List (HloOp τ sig (Elt F))).Forall fun op => op.writes ⊆ (ops3_outs.map (Proc.devRef (τ := τ) .tc)).toFinset := by
  repeat' constructor
  all_goals exact writes_sub_of_mem (by decide)

set_option maxHeartbeats 4000000 in

abbrev ops4 : List (HloOp τ sig (Elt F)) :=
  [
    unary main_c_59 main_v178 (broadcastInDim S1048576 ![] bcast_S_S1048576 : Vec F S_ .i32 → Vec F S1048576 .i32),
    binary main_v57 main_v178 main_v179 (cmpi .slt : Vec F S1048576 .i32 → Vec F S1048576 .i32 → Vec F S1048576 .i1),
    nullary main_c_60 (constantI S_ 32 32#32),
    unary main_c_60 main_v180 (broadcastInDim S1048576 ![] bcast_S_S1048576 : Vec F S_ .i32 → Vec F S1048576 .i32),
    binary main_v57 main_v180 main_v181 (addi : Vec F S1048576 .i32 → Vec F S1048576 .i32 → Vec F S1048576 .i32),
    ternary main_v179 main_v181 main_v57 main_v182 (select : Vec F S1048576 .i1 → Vec F S1048576 .i32 → Vec F S1048576 .i32 → Vec F S1048576 .i32),
    unary main_v172 main_v183 (broadcastInDim S1048576x1 ![0] bcast_S1048576_S1048576x1_0 : Vec F S1048576 .i32 → Vec F S1048576x1 .i32),
    unary main_v177 main_v184 (broadcastInDim S1048576x1 ![0] bcast_S1048576_S1048576x1_0 : Vec F S1048576 .i32 → Vec F S1048576x1 .i32),
    unary main_v182 main_v185 (broadcastInDim S1048576x1 ![0] bcast_S1048576_S1048576x1_0 : Vec F S1048576 .i32 → Vec F S1048576x1 .i32),
    nary ![main_v183, main_v184, main_v185] main_v186 (fun u => concatenate S1048576x3 1 [⟨S1048576x1, u 0⟩, ⟨S1048576x1, u 1⟩, ⟨S1048576x1, u 2⟩] concatenates_S1048576x1_S1048576x1_S1048576x1_S1048576x3_d1),
    binary main_v1 main_v186 main_v187 ((fun x i => Host.gather gather_S4x32x32x32_S1048576x3_S4x1048576_0_123_n_n_123_1_4111 x i) : Vec F S4x32x32x32 .f32 → Vec F S1048576x3 .i32 → Vec F S4x1048576 .f32),
    nullary main_c_61 (constantI S_ 32 0#32),
    unary main_c_61 main_v188 (broadcastInDim S1048576 ![] bcast_S_S1048576 : Vec F S_ .i32 → Vec F S1048576 .i32),
    binary main_v67 main_v188 main_v189 (cmpi .slt : Vec F S1048576 .i32 → Vec F S1048576 .i32 → Vec F S1048576 .i1),
    nullary main_c_62 (constantI S_ 32 32#32),
    unary main_c_62 main_v190 (broadcastInDim S1048576 ![] bcast_S_S1048576 : Vec F S_ .i32 → Vec F S1048576 .i32),
    binary main_v67 main_v190 main_v191 (addi : Vec F S1048576 .i32 → Vec F S1048576 .i32 → Vec F S1048576 .i32),
    ternary main_v189 main_v191 main_v67 main_v192 (select : Vec F S1048576 .i1 → Vec F S1048576 .i32 → Vec F S1048576 .i32 → Vec F S1048576 .i32),
    nullary main_c_63 (constantI S_ 32 0#32),
    unary main_c_63 main_v193 (broadcastInDim S1048576 ![] bcast_S_S1048576 : Vec F S_ .i32 → Vec F S1048576 .i32),
    binary main_v62 main_v193 main_v194 (cmpi .slt : Vec F S1048576 .i32 → Vec F S1048576 .i32 → Vec F S1048576 .i1),
    nullary main_c_64 (constantI S_ 32 32#32),
    unary main_c_64 main_v195 (broadcastInDim S1048576 ![] bcast_S_S1048576 : Vec F S_ .i32 → Vec F S1048576 .i32),
    binary main_v62 main_v195 main_v196 (addi : Vec F S1048576 .i32 → Vec F S1048576 .i32 → Vec F S1048576 .i32),
    ternary main_v194 main_v196 main_v62 main_v197 (select : Vec F S1048576 .i1 → Vec F S1048576 .i32 → Vec F S1048576 .i32 → Vec F S1048576 .i32),
    nullary main_c_65 (constantI S_ 32 0#32),
    unary main_c_65 main_v198 (broadcastInDim S1048576 ![] bcast_S_S1048576 : Vec F S_ .i32 → Vec F S1048576 .i32),
    binary main_v53 main_v198 main_v199 (cmpi .slt : Vec F S1048576 .i32 → Vec F S1048576 .i32 → Vec F S1048576 .i1),
    nullary main_c_66 (constantI S_ 32 32#32),
    unary main_c_66 main_v200 (broadcastInDim S1048576 ![] bcast_S_S1048576 : Vec F S_ .i32 → Vec F S1048576 .i32),
    binary main_v53 main_v200 main_v201 (addi : Vec F S1048576 .i32 → Vec F S1048576 .i32 → Vec F S1048576 .i32),
    ternary main_v199 main_v201 main_v53 main_v202 (select : Vec F S1048576 .i1 → Vec F S1048576 .i32 → Vec F S1048576 .i32 → Vec F S1048576 .i32),
    unary main_v192 main_v203 (broadcastInDim S1048576x1 ![0] bcast_S1048576_S1048576x1_0 : Vec F S1048576 .i32 → Vec F S1048576x1 .i32),
    unary main_v197 main_v204 (broadcastInDim S1048576x1 ![0] bcast_S1048576_S1048576x1_0 : Vec F S1048576 .i32 → Vec F S1048576x1 .i32),
    unary main_v202 main_v205 (broadcastInDim S1048576x1 ![0] bcast_S1048576_S1048576x1_0 : Vec F S1048576 .i32 → Vec F S1048576x1 .i32),
    nary ![main_v203, main_v204, main_v205] main_v206 (fun u => concatenate S1048576x3 1 [⟨S1048576x1, u 0⟩, ⟨S1048576x1, u 1⟩, ⟨S1048576x1, u 2⟩] concatenates_S1048576x1_S1048576x1_S1048576x1_S1048576x3_d1),
    binary main_v1 main_v206 main_v207 ((fun x i => Host.gather gather_S4x32x32x32_S1048576x3_S4x1048576_0_123_n_n_123_1_4111 x i) : Vec F S4x32x32x32 .f32 → Vec F S1048576x3 .i32 → Vec F S4x1048576 .f32),
    nullary main_c_67 (constantI S_ 32 0#32),
    unary main_c_67 main_v208 (broadcastInDim S1048576 ![] bcast_S_S1048576 : Vec F S_ .i32 → Vec F S1048576 .i32),
    binary main_v67 main_v208 main_v209 (cmpi .slt : Vec F S1048576 .i32 → Vec F S1048576 .i32 → Vec F S1048576 .i1),
    nullary main_c_68 (constantI S_ 32 32#32),
    unary main_c_68 main_v210 (broadcastInDim S1048576 ![] bcast_S_S1048576 : Vec F S_ .i32 → Vec F S1048576 .i32),
    binary main_v67 main_v210 main_v211 (addi : Vec F S1048576 .i32 → Vec F S1048576 .i32 → Vec F S1048576 .i32),
    ternary main_v209 main_v211 main_v67 main_v212 (select : Vec F S1048576 .i1 → Vec F S1048576 .i32 → Vec F S1048576 .i32 → Vec F S1048576 .i32),
    nullary main_c_69 (constantI S_ 32 0#32),
    unary main_c_69 main_v213 (broadcastInDim S1048576 ![] bcast_S_S1048576 : Vec F S_ .i32 → Vec F S1048576 .i32),
    binary main_v62 main_v213 main_v214 (cmpi .slt : Vec F S1048576 .i32 → Vec F S1048576 .i32 → Vec F S1048576 .i1),
    nullary main_c_70 (constantI S_ 32 32#32),
    unary main_c_70 main_v215 (broadcastInDim S1048576 ![] bcast_S_S1048576 : Vec F S_ .i32 → Vec F S1048576 .i32),
    binary main_v62 main_v215 main_v216 (addi : Vec F S1048576 .i32 → Vec F S1048576 .i32 → Vec F S1048576 .i32),
    ternary main_v214 main_v216 main_v62 main_v217 (select : Vec F S1048576 .i1 → Vec F S1048576 .i32 → Vec F S1048576 .i32 → Vec F S1048576 .i32),
    nullary main_c_71 (constantI S_ 32 0#32),
    unary main_c_71 main_v218 (broadcastInDim S1048576 ![] bcast_S_S1048576 : Vec F S_ .i32 → Vec F S1048576 .i32),
    binary main_v57 main_v218 main_v219 (cmpi .slt : Vec F S1048576 .i32 → Vec F S1048576 .i32 → Vec F S1048576 .i1),
    nullary main_c_72 (constantI S_ 32 32#32),
    unary main_c_72 main_v220 (broadcastInDim S1048576 ![] bcast_S_S1048576 : Vec F S_ .i32 → Vec F S1048576 .i32),
    binary main_v57 main_v220 main_v221 (addi : Vec F S1048576 .i32 → Vec F S1048576 .i32 → Vec F S1048576 .i32),
    ternary main_v219 main_v221 main_v57 main_v222 (select : Vec F S1048576 .i1 → Vec F S1048576 .i32 → Vec F S1048576 .i32 → Vec F S1048576 .i32),
    unary main_v212 main_v223 (broadcastInDim S1048576x1 ![0] bcast_S1048576_S1048576x1_0 : Vec F S1048576 .i32 → Vec F S1048576x1 .i32),
    unary main_v217 main_v224 (broadcastInDim S1048576x1 ![0] bcast_S1048576_S1048576x1_0 : Vec F S1048576 .i32 → Vec F S1048576x1 .i32) ]

set_option maxRecDepth 8192 in
set_option maxHeartbeats 4000000 in
theorem part4_eq (c : Dev nD) : main_part4 (F := F) c = seq ops4 := rfl

set_option maxRecDepth 8192 in
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops4_fresh : ∀ op ∈ (ops4 : List (HloOp τ sig (Elt F))), op.fresh = ∅ := by line_fresh

abbrev ops4_outs : List (Ref sig .tc) :=
  [main_v178, main_v179, main_c_60, main_v180, main_v181, main_v182, main_v183, main_v184, main_v185, main_v186, main_v187, main_c_61, main_v188, main_v189, main_c_62, main_v190, main_v191, main_v192, main_c_63, main_v193, main_v194, main_c_64, main_v195, main_v196, main_v197, main_c_65, main_v198, main_v199, main_c_66, main_v200, main_v201, main_v202, main_v203, main_v204, main_v205, main_v206, main_v207, main_c_67, main_v208, main_v209, main_c_68, main_v210, main_v211, main_v212, main_c_69, main_v213, main_v214, main_c_70, main_v215, main_v216, main_v217, main_c_71, main_v218, main_v219, main_c_72, main_v220, main_v221, main_v222, main_v223, main_v224]

set_option maxRecDepth 8192 in
theorem ops4_writes : (ops4 : List (HloOp τ sig (Elt F))).Forall fun op => op.writes ⊆ (ops4_outs.map (Proc.devRef (τ := τ) .tc)).toFinset := by
  repeat' constructor
  all_goals exact writes_sub_of_mem (by decide)

set_option maxHeartbeats 4000000 in

abbrev ops5 : List (HloOp τ sig (Elt F)) :=
  [
    unary main_v222 main_v225 (broadcastInDim S1048576x1 ![0] bcast_S1048576_S1048576x1_0 : Vec F S1048576 .i32 → Vec F S1048576x1 .i32),
    nary ![main_v223, main_v224, main_v225] main_v226 (fun u => concatenate S1048576x3 1 [⟨S1048576x1, u 0⟩, ⟨S1048576x1, u 1⟩, ⟨S1048576x1, u 2⟩] concatenates_S1048576x1_S1048576x1_S1048576x1_S1048576x3_d1),
    binary main_v1 main_v226 main_v227 ((fun x i => Host.gather gather_S4x32x32x32_S1048576x3_S4x1048576_0_123_n_n_123_1_4111 x i) : Vec F S4x32x32x32 .f32 → Vec F S1048576x3 .i32 → Vec F S4x1048576 .f32),
    binary main_v107 main_v87 main_v228 (subf : Vec F S4x1048576 .f32 → Vec F S4x1048576 .f32 → Vec F S4x1048576 .f32),
    unary main_v40 main_v229 (broadcastInDim S1x1048576 ![1] bcast_S1048576_S1x1048576_1 : Vec F S1048576 .f32 → Vec F S1x1048576 .f32),
    unary main_v229 main_v230 (broadcastInDim S4x1048576 ![0, 1] bcast_S1x1048576_S4x1048576_0_1 : Vec F S1x1048576 .f32 → Vec F S4x1048576 .f32),
    binary main_v228 main_v230 main_v231 (mulf : Vec F S4x1048576 .f32 → Vec F S4x1048576 .f32 → Vec F S4x1048576 .f32),
    binary main_v87 main_v231 main_v232 (addf : Vec F S4x1048576 .f32 → Vec F S4x1048576 .f32 → Vec F S4x1048576 .f32),
    binary main_v147 main_v127 main_v233 (subf : Vec F S4x1048576 .f32 → Vec F S4x1048576 .f32 → Vec F S4x1048576 .f32),
    unary main_v40 main_v234 (broadcastInDim S1x1048576 ![1] bcast_S1048576_S1x1048576_1 : Vec F S1048576 .f32 → Vec F S1x1048576 .f32),
    unary main_v234 main_v235 (broadcastInDim S4x1048576 ![0, 1] bcast_S1x1048576_S4x1048576_0_1 : Vec F S1x1048576 .f32 → Vec F S4x1048576 .f32),
    binary main_v233 main_v235 main_v236 (mulf : Vec F S4x1048576 .f32 → Vec F S4x1048576 .f32 → Vec F S4x1048576 .f32),
    binary main_v127 main_v236 main_v237 (addf : Vec F S4x1048576 .f32 → Vec F S4x1048576 .f32 → Vec F S4x1048576 .f32),
    binary main_v187 main_v167 main_v238 (subf : Vec F S4x1048576 .f32 → Vec F S4x1048576 .f32 → Vec F S4x1048576 .f32),
    unary main_v40 main_v239 (broadcastInDim S1x1048576 ![1] bcast_S1048576_S1x1048576_1 : Vec F S1048576 .f32 → Vec F S1x1048576 .f32),
    unary main_v239 main_v240 (broadcastInDim S4x1048576 ![0, 1] bcast_S1x1048576_S4x1048576_0_1 : Vec F S1x1048576 .f32 → Vec F S4x1048576 .f32),
    binary main_v238 main_v240 main_v241 (mulf : Vec F S4x1048576 .f32 → Vec F S4x1048576 .f32 → Vec F S4x1048576 .f32),
    binary main_v167 main_v241 main_v242 (addf : Vec F S4x1048576 .f32 → Vec F S4x1048576 .f32 → Vec F S4x1048576 .f32),
    binary main_v227 main_v207 main_v243 (subf : Vec F S4x1048576 .f32 → Vec F S4x1048576 .f32 → Vec F S4x1048576 .f32),
    unary main_v40 main_v244 (broadcastInDim S1x1048576 ![1] bcast_S1048576_S1x1048576_1 : Vec F S1048576 .f32 → Vec F S1x1048576 .f32),
    unary main_v244 main_v245 (broadcastInDim S4x1048576 ![0, 1] bcast_S1x1048576_S4x1048576_0_1 : Vec F S1x1048576 .f32 → Vec F S4x1048576 .f32),
    binary main_v243 main_v245 main_v246 (mulf : Vec F S4x1048576 .f32 → Vec F S4x1048576 .f32 → Vec F S4x1048576 .f32),
    binary main_v207 main_v246 main_v247 (addf : Vec F S4x1048576 .f32 → Vec F S4x1048576 .f32 → Vec F S4x1048576 .f32),
    binary main_v237 main_v232 main_v248 (subf : Vec F S4x1048576 .f32 → Vec F S4x1048576 .f32 → Vec F S4x1048576 .f32),
    unary main_v46 main_v249 (broadcastInDim S1x1048576 ![1] bcast_S1048576_S1x1048576_1 : Vec F S1048576 .f32 → Vec F S1x1048576 .f32),
    unary main_v249 main_v250 (broadcastInDim S4x1048576 ![0, 1] bcast_S1x1048576_S4x1048576_0_1 : Vec F S1x1048576 .f32 → Vec F S4x1048576 .f32),
    binary main_v248 main_v250 main_v251 (mulf : Vec F S4x1048576 .f32 → Vec F S4x1048576 .f32 → Vec F S4x1048576 .f32),
    binary main_v232 main_v251 main_v252 (addf : Vec F S4x1048576 .f32 → Vec F S4x1048576 .f32 → Vec F S4x1048576 .f32),
    binary main_v247 main_v242 main_v253 (subf : Vec F S4x1048576 .f32 → Vec F S4x1048576 .f32 → Vec F S4x1048576 .f32),
    unary main_v46 main_v254 (broadcastInDim S1x1048576 ![1] bcast_S1048576_S1x1048576_1 : Vec F S1048576 .f32 → Vec F S1x1048576 .f32),
    unary main_v254 main_v255 (broadcastInDim S4x1048576 ![0, 1] bcast_S1x1048576_S4x1048576_0_1 : Vec F S1x1048576 .f32 → Vec F S4x1048576 .f32),
    binary main_v253 main_v255 main_v256 (mulf : Vec F S4x1048576 .f32 → Vec F S4x1048576 .f32 → Vec F S4x1048576 .f32),
    binary main_v242 main_v256 main_v257 (addf : Vec F S4x1048576 .f32 → Vec F S4x1048576 .f32 → Vec F S4x1048576 .f32),
    binary main_v257 main_v252 main_v258 (subf : Vec F S4x1048576 .f32 → Vec F S4x1048576 .f32 → Vec F S4x1048576 .f32),
    unary main_v52 main_v259 (broadcastInDim S1x1048576 ![1] bcast_S1048576_S1x1048576_1 : Vec F S1048576 .f32 → Vec F S1x1048576 .f32),
    unary main_v259 main_v260 (broadcastInDim S4x1048576 ![0, 1] bcast_S1x1048576_S4x1048576_0_1 : Vec F S1x1048576 .f32 → Vec F S4x1048576 .f32),
    binary main_v258 main_v260 main_v261 (mulf : Vec F S4x1048576 .f32 → Vec F S4x1048576 .f32 → Vec F S4x1048576 .f32),
    binary main_v252 main_v261 main_v262 (addf : Vec F S4x1048576 .f32 → Vec F S4x1048576 .f32 → Vec F S4x1048576 .f32),
    reshape main_v262 main_v263 rfl shapeCasts_S4x1048576_S1x4x1x1x1048576,
    reshape main_arg2 main_v264 rfl shapeCasts_S1x4x64x64x64_S4x64x64x64,
    unary main_v0 main_v265 ((extractStridedSlice S1048576x1 ![0, 0] · slices_S1048576x3_S1048576x1_0_0) : Vec F S1048576x3 .f32 → Vec F S1048576x1 .f32),
    reshape main_v265 main_v266 rfl shapeCasts_S1048576x1_S1048576,
    nullary main_cst_73 (constant S_ .f32 0x3F800000#32),
    unary main_cst_73 main_v267 (broadcastInDim S1048576 ![] bcast_S_S1048576 : Vec F S_ .f32 → Vec F S1048576 .f32),
    binary main_v266 main_v267 main_v268 (addf : Vec F S1048576 .f32 → Vec F S1048576 .f32 → Vec F S1048576 .f32),
    nullary main_cst_74 (constant S_ .f32 0x3F000000#32),
    unary main_cst_74 main_v269 (broadcastInDim S1048576 ![] bcast_S_S1048576 : Vec F S_ .f32 → Vec F S1048576 .f32),
    binary main_v268 main_v269 main_v270 (mulf : Vec F S1048576 .f32 → Vec F S1048576 .f32 → Vec F S1048576 .f32),
    nullary main_cst_75 (constant S_ .f32 0x427C0000#32),
    unary main_cst_75 main_v271 (broadcastInDim S1048576 ![] bcast_S_S1048576 : Vec F S_ .f32 → Vec F S1048576 .f32),
    binary main_v270 main_v271 main_v272 (mulf : Vec F S1048576 .f32 → Vec F S1048576 .f32 → Vec F S1048576 .f32),
    nullary main_cst_76 (constant S_ .f32 0x00000000#32),
    nullary main_c_77 (constantI S_ 32 63#32),
    TRef.unary (TRef.of (T := ⟨S_, .f32⟩) main_cst_76) (TRef.of (T := ⟨S_, .f32⟩) main_call3_v0) id,
    TRef.unary (TRef.of (T := ⟨S_, .f32⟩) main_call3_v0) (TRef.of (T := ⟨S1048576, .f32⟩) main_call3_v1) (broadcastInDim S1048576 ![] bcast_S_S1048576),
    TRef.binary (TRef.of (T := ⟨S1048576, .f32⟩) main_call3_v1) (TRef.of (T := ⟨S1048576, .f32⟩) main_v272) (TRef.of (T := ⟨S1048576, .f32⟩) main_call3_v2) maximumf,
    TRef.unary (TRef.of (T := ⟨S_, .i32⟩) main_c_77) (TRef.of (T := ⟨S_, .f32⟩) main_call3_v3) (sitofp .f32),
    TRef.unary (TRef.of (T := ⟨S_, .f32⟩) main_call3_v3) (TRef.of (T := ⟨S1048576, .f32⟩) main_call3_v4) (broadcastInDim S1048576 ![] bcast_S_S1048576),
    TRef.binary (TRef.of (T := ⟨S1048576, .f32⟩) main_call3_v4) (TRef.of (T := ⟨S1048576, .f32⟩) main_call3_v2) (TRef.of (T := ⟨S1048576, .f32⟩) main_v273) minimumf,
    unary main_v0 main_v274 ((extractStridedSlice S1048576x1 ![0, 1] · slices_S1048576x3_S1048576x1_0_1) : Vec F S1048576x3 .f32 → Vec F S1048576x1 .f32),
    reshape main_v274 main_v275 rfl shapeCasts_S1048576x1_S1048576,
    nullary main_cst_78 (constant S_ .f32 0x3F800000#32),
    unary main_cst_78 main_v276 (broadcastInDim S1048576 ![] bcast_S_S1048576 : Vec F S_ .f32 → Vec F S1048576 .f32),
    binary main_v275 main_v276 main_v277 (addf : Vec F S1048576 .f32 → Vec F S1048576 .f32 → Vec F S1048576 .f32),
    nullary main_cst_79 (constant S_ .f32 0x3F000000#32) ]

set_option maxRecDepth 8192 in
set_option maxHeartbeats 4000000 in
theorem part5_eq (c : Dev nD) : main_part5 (F := F) c = seq ops5 := rfl

set_option maxRecDepth 8192 in
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops5_fresh : ∀ op ∈ (ops5 : List (HloOp τ sig (Elt F))), op.fresh = ∅ := by line_fresh

abbrev ops5_outs : List (Ref sig .tc) :=
  [main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_cst_73, main_v267, main_v268, main_cst_74, main_v269, main_v270, main_cst_75, main_v271, main_v272, main_cst_76, main_c_77, main_call3_v0, main_call3_v1, main_call3_v2, main_call3_v3, main_call3_v4, main_v273, main_v274, main_v275, main_cst_78, main_v276, main_v277, main_cst_79]

set_option maxRecDepth 8192 in
theorem ops5_writes : (ops5 : List (HloOp τ sig (Elt F))).Forall fun op => op.writes ⊆ (ops5_outs.map (Proc.devRef (τ := τ) .tc)).toFinset := by
  repeat' constructor
  all_goals exact writes_sub_of_mem (by decide)

set_option maxHeartbeats 4000000 in

abbrev ops6 : List (HloOp τ sig (Elt F)) :=
  [
    unary main_cst_79 main_v278 (broadcastInDim S1048576 ![] bcast_S_S1048576 : Vec F S_ .f32 → Vec F S1048576 .f32),
    binary main_v277 main_v278 main_v279 (mulf : Vec F S1048576 .f32 → Vec F S1048576 .f32 → Vec F S1048576 .f32),
    nullary main_cst_80 (constant S_ .f32 0x427C0000#32),
    unary main_cst_80 main_v280 (broadcastInDim S1048576 ![] bcast_S_S1048576 : Vec F S_ .f32 → Vec F S1048576 .f32),
    binary main_v279 main_v280 main_v281 (mulf : Vec F S1048576 .f32 → Vec F S1048576 .f32 → Vec F S1048576 .f32),
    nullary main_cst_81 (constant S_ .f32 0x00000000#32),
    nullary main_c_82 (constantI S_ 32 63#32),
    TRef.unary (TRef.of (T := ⟨S_, .f32⟩) main_cst_81) (TRef.of (T := ⟨S_, .f32⟩) main_call4_v0) id,
    TRef.unary (TRef.of (T := ⟨S_, .f32⟩) main_call4_v0) (TRef.of (T := ⟨S1048576, .f32⟩) main_call4_v1) (broadcastInDim S1048576 ![] bcast_S_S1048576),
    TRef.binary (TRef.of (T := ⟨S1048576, .f32⟩) main_call4_v1) (TRef.of (T := ⟨S1048576, .f32⟩) main_v281) (TRef.of (T := ⟨S1048576, .f32⟩) main_call4_v2) maximumf,
    TRef.unary (TRef.of (T := ⟨S_, .i32⟩) main_c_82) (TRef.of (T := ⟨S_, .f32⟩) main_call4_v3) (sitofp .f32),
    TRef.unary (TRef.of (T := ⟨S_, .f32⟩) main_call4_v3) (TRef.of (T := ⟨S1048576, .f32⟩) main_call4_v4) (broadcastInDim S1048576 ![] bcast_S_S1048576),
    TRef.binary (TRef.of (T := ⟨S1048576, .f32⟩) main_call4_v4) (TRef.of (T := ⟨S1048576, .f32⟩) main_call4_v2) (TRef.of (T := ⟨S1048576, .f32⟩) main_v282) minimumf,
    unary main_v0 main_v283 ((extractStridedSlice S1048576x1 ![0, 2] · slices_S1048576x3_S1048576x1_0_2) : Vec F S1048576x3 .f32 → Vec F S1048576x1 .f32),
    reshape main_v283 main_v284 rfl shapeCasts_S1048576x1_S1048576,
    nullary main_cst_83 (constant S_ .f32 0x3F800000#32),
    unary main_cst_83 main_v285 (broadcastInDim S1048576 ![] bcast_S_S1048576 : Vec F S_ .f32 → Vec F S1048576 .f32),
    binary main_v284 main_v285 main_v286 (addf : Vec F S1048576 .f32 → Vec F S1048576 .f32 → Vec F S1048576 .f32),
    nullary main_cst_84 (constant S_ .f32 0x3F000000#32),
    unary main_cst_84 main_v287 (broadcastInDim S1048576 ![] bcast_S_S1048576 : Vec F S_ .f32 → Vec F S1048576 .f32),
    binary main_v286 main_v287 main_v288 (mulf : Vec F S1048576 .f32 → Vec F S1048576 .f32 → Vec F S1048576 .f32),
    nullary main_cst_85 (constant S_ .f32 0x427C0000#32),
    unary main_cst_85 main_v289 (broadcastInDim S1048576 ![] bcast_S_S1048576 : Vec F S_ .f32 → Vec F S1048576 .f32),
    binary main_v288 main_v289 main_v290 (mulf : Vec F S1048576 .f32 → Vec F S1048576 .f32 → Vec F S1048576 .f32),
    nullary main_cst_86 (constant S_ .f32 0x00000000#32),
    nullary main_c_87 (constantI S_ 32 63#32),
    TRef.unary (TRef.of (T := ⟨S_, .f32⟩) main_cst_86) (TRef.of (T := ⟨S_, .f32⟩) main_call5_v0) id,
    TRef.unary (TRef.of (T := ⟨S_, .f32⟩) main_call5_v0) (TRef.of (T := ⟨S1048576, .f32⟩) main_call5_v1) (broadcastInDim S1048576 ![] bcast_S_S1048576),
    TRef.binary (TRef.of (T := ⟨S1048576, .f32⟩) main_call5_v1) (TRef.of (T := ⟨S1048576, .f32⟩) main_v290) (TRef.of (T := ⟨S1048576, .f32⟩) main_call5_v2) maximumf,
    TRef.unary (TRef.of (T := ⟨S_, .i32⟩) main_c_87) (TRef.of (T := ⟨S_, .f32⟩) main_call5_v3) (sitofp .f32),
    TRef.unary (TRef.of (T := ⟨S_, .f32⟩) main_call5_v3) (TRef.of (T := ⟨S1048576, .f32⟩) main_call5_v4) (broadcastInDim S1048576 ![] bcast_S_S1048576),
    TRef.binary (TRef.of (T := ⟨S1048576, .f32⟩) main_call5_v4) (TRef.of (T := ⟨S1048576, .f32⟩) main_call5_v2) (TRef.of (T := ⟨S1048576, .f32⟩) main_v291) minimumf,
    unary main_v273 main_v292 (Host.floor : Vec F S1048576 .f32 → Vec F S1048576 .f32),
    unary main_v282 main_v293 (Host.floor : Vec F S1048576 .f32 → Vec F S1048576 .f32),
    unary main_v291 main_v294 (Host.floor : Vec F S1048576 .f32 → Vec F S1048576 .f32),
    binary main_v273 main_v292 main_v295 (subf : Vec F S1048576 .f32 → Vec F S1048576 .f32 → Vec F S1048576 .f32),
    binary main_v282 main_v293 main_v296 (subf : Vec F S1048576 .f32 → Vec F S1048576 .f32 → Vec F S1048576 .f32),
    binary main_v291 main_v294 main_v297 (subf : Vec F S1048576 .f32 → Vec F S1048576 .f32 → Vec F S1048576 .f32),
    binary main_v295 main_v295 main_v298 (mulf : Vec F S1048576 .f32 → Vec F S1048576 .f32 → Vec F S1048576 .f32),
    nullary main_cst_88 (constant S_ .f32 0x40000000#32),
    unary main_cst_88 main_v299 (broadcastInDim S1048576 ![] bcast_S_S1048576 : Vec F S_ .f32 → Vec F S1048576 .f32),
    binary main_v299 main_v295 main_v300 (mulf : Vec F S1048576 .f32 → Vec F S1048576 .f32 → Vec F S1048576 .f32),
    nullary main_cst_89 (constant S_ .f32 0x40400000#32),
    unary main_cst_89 main_v301 (broadcastInDim S1048576 ![] bcast_S_S1048576 : Vec F S_ .f32 → Vec F S1048576 .f32),
    binary main_v301 main_v300 main_v302 (subf : Vec F S1048576 .f32 → Vec F S1048576 .f32 → Vec F S1048576 .f32),
    binary main_v298 main_v302 main_v303 (mulf : Vec F S1048576 .f32 → Vec F S1048576 .f32 → Vec F S1048576 .f32),
    binary main_v296 main_v296 main_v304 (mulf : Vec F S1048576 .f32 → Vec F S1048576 .f32 → Vec F S1048576 .f32),
    nullary main_cst_90 (constant S_ .f32 0x40000000#32),
    unary main_cst_90 main_v305 (broadcastInDim S1048576 ![] bcast_S_S1048576 : Vec F S_ .f32 → Vec F S1048576 .f32),
    binary main_v305 main_v296 main_v306 (mulf : Vec F S1048576 .f32 → Vec F S1048576 .f32 → Vec F S1048576 .f32),
    nullary main_cst_91 (constant S_ .f32 0x40400000#32),
    unary main_cst_91 main_v307 (broadcastInDim S1048576 ![] bcast_S_S1048576 : Vec F S_ .f32 → Vec F S1048576 .f32),
    binary main_v307 main_v306 main_v308 (subf : Vec F S1048576 .f32 → Vec F S1048576 .f32 → Vec F S1048576 .f32),
    binary main_v304 main_v308 main_v309 (mulf : Vec F S1048576 .f32 → Vec F S1048576 .f32 → Vec F S1048576 .f32),
    binary main_v297 main_v297 main_v310 (mulf : Vec F S1048576 .f32 → Vec F S1048576 .f32 → Vec F S1048576 .f32),
    nullary main_cst_92 (constant S_ .f32 0x40000000#32),
    unary main_cst_92 main_v311 (broadcastInDim S1048576 ![] bcast_S_S1048576 : Vec F S_ .f32 → Vec F S1048576 .f32),
    binary main_v311 main_v297 main_v312 (mulf : Vec F S1048576 .f32 → Vec F S1048576 .f32 → Vec F S1048576 .f32),
    nullary main_cst_93 (constant S_ .f32 0x40400000#32),
    unary main_cst_93 main_v313 (broadcastInDim S1048576 ![] bcast_S_S1048576 : Vec F S_ .f32 → Vec F S1048576 .f32),
    binary main_v313 main_v312 main_v314 (subf : Vec F S1048576 .f32 → Vec F S1048576 .f32 → Vec F S1048576 .f32),
    binary main_v310 main_v314 main_v315 (mulf : Vec F S1048576 .f32 → Vec F S1048576 .f32 → Vec F S1048576 .f32),
    unary main_v292 main_v316 (fptosi 32 : Vec F S1048576 .f32 → Vec F S1048576 .i32),
    nullary main_c_94 (constantI S_ 32 1#32),
    unary main_c_94 main_v317 (broadcastInDim S1048576 ![] bcast_S_S1048576 : Vec F S_ .i32 → Vec F S1048576 .i32),
    binary main_v316 main_v317 main_v318 (addi : Vec F S1048576 .i32 → Vec F S1048576 .i32 → Vec F S1048576 .i32),
    nullary main_c_95 (constantI S_ 32 63#32),
    unary main_c_95 main_v319 (broadcastInDim S1048576 ![] bcast_S_S1048576 : Vec F S_ .i32 → Vec F S1048576 .i32),
    binary main_v318 main_v319 main_v320 (minsi : Vec F S1048576 .i32 → Vec F S1048576 .i32 → Vec F S1048576 .i32),
    unary main_v293 main_v321 (fptosi 32 : Vec F S1048576 .f32 → Vec F S1048576 .i32) ]

set_option maxRecDepth 8192 in
set_option maxHeartbeats 4000000 in
theorem part6_eq (c : Dev nD) : main_part6 (F := F) c = seq ops6 := rfl

set_option maxRecDepth 8192 in
theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops6_fresh : ∀ op ∈ (ops6 : List (HloOp τ sig (Elt F))), op.fresh = ∅ := by line_fresh

abbrev ops6_outs : List (Ref sig .tc) :=
  [main_v278, main_v279, main_cst_80, main_v280, main_v281, main_cst_81, main_c_82, main_call4_v0, main_call4_v1, main_call4_v2, main_call4_v3, main_call4_v4, main_v282, main_v283, main_v284, main_cst_83, main_v285, main_v286, main_cst_84, main_v287, main_v288, main_cst_85, main_v289, main_v290, main_cst_86, main_c_87, main_call5_v0, main_call5_v1, main_call5_v2, main_call5_v3, main_call5_v4, main_v291, main_v292, main_v293, main_v294, main_v295, main_v296, main_v297, main_v298, main_cst_88, main_v299, main_v300, main_cst_89, main_v301, main_v302, main_v303, main_v304, main_cst_90, main_v305, main_v306, main_cst_91, main_v307, main_v308, main_v309, main_v310, main_cst_92, main_v311, main_v312, main_cst_93, main_v313, main_v314, main_v315, main_v316, main_c_94, main_v317, main_v318, main_c_95, main_v319, main_v320, main_v321]

set_option maxRecDepth 8192 in
theorem ops6_writes : (ops6 : List (HloOp τ sig (Elt F))).Forall fun op => op.writes ⊆ (ops6_outs.map (Proc.devRef (τ := τ) .tc)).toFinset := by
  repeat' constructor
  all_goals exact writes_sub_of_mem (by decide)

set_option maxHeartbeats 4000000 in

abbrev ops7 : List (HloOp τ sig (Elt F)) :=
  [
    nullary main_c_96 (constantI S_ 32 1#32),
    unary main_c_96 main_v322 (broadcastInDim S1048576 ![] bcast_S_S1048576 : Vec F S_ .i32 → Vec F S1048576 .i32),
    binary main_v321 main_v322 main_v323 (addi : Vec F S1048576 .i32 → Vec F S1048576 .i32 → Vec F S1048576 .i32),
    nullary main_c_97 (constantI S_ 32 63#32),
    unary main_c_97 main_v324 (broadcastInDim S1048576 ![] bcast_S_S1048576 : Vec F S_ .i32 → Vec F S1048576 .i32),
    binary main_v323 main_v324 main_v325 (minsi : Vec F S1048576 .i32 → Vec F S1048576 .i32 → Vec F S1048576 .i32),
    unary main_v294 main_v326 (fptosi 32 : Vec F S1048576 .f32 → Vec F S1048576 .i32),
    nullary main_c_98 (constantI S_ 32 1#32),
    unary main_c_98 main_v327 (broadcastInDim S1048576 ![] bcast_S_S1048576 : Vec F S_ .i32 → Vec F S1048576 .i32),
    binary main_v326 main_v327 main_v328 (addi : Vec F S1048576 .i32 → Vec F S1048576 .i32 → Vec F S1048576 .i32),
    nullary main_c_99 (constantI S_ 32 63#32),
    unary main_c_99 main_v329 (broadcastInDim S1048576 ![] bcast_S_S1048576 : Vec F S_ .i32 → Vec F S1048576 .i32),
    binary main_v328 main_v329 main_v330 (minsi : Vec F S1048576 .i32 → Vec F S1048576 .i32 → Vec F S1048576 .i32),
    nullary main_c_100 (constantI S_ 32 0#32),
    unary main_c_100 main_v331 (broadcastInDim S1048576 ![] bcast_S_S1048576 : Vec F S_ .i32 → Vec F S1048576 .i32),
    binary main_v326 main_v331 main_v332 (cmpi .slt : Vec F S1048576 .i32 → Vec F S1048576 .i32 → Vec F S1048576 .i1),
    nullary main_c_101 (constantI S_ 32 64#32),
    unary main_c_101 main_v333 (broadcastInDim S1048576 ![] bcast_S_S1048576 : Vec F S_ .i32 → Vec F S1048576 .i32),
    binary main_v326 main_v333 main_v334 (addi : Vec F S1048576 .i32 → Vec F S1048576 .i32 → Vec F S1048576 .i32),
    ternary main_v332 main_v334 main_v326 main_v335 (select : Vec F S1048576 .i1 → Vec F S1048576 .i32 → Vec F S1048576 .i32 → Vec F S1048576 .i32),
    nullary main_c_102 (constantI S_ 32 0#32),
    unary main_c_102 main_v336 (broadcastInDim S1048576 ![] bcast_S_S1048576 : Vec F S_ .i32 → Vec F S1048576 .i32),
    binary main_v321 main_v336 main_v337 (cmpi .slt : Vec F S1048576 .i32 → Vec F S1048576 .i32 → Vec F S1048576 .i1),
    nullary main_c_103 (constantI S_ 32 64#32),
    unary main_c_103 main_v338 (broadcastInDim S1048576 ![] bcast_S_S1048576 : Vec F S_ .i32 → Vec F S1048576 .i32),
    binary main_v321 main_v338 main_v339 (addi : Vec F S1048576 .i32 → Vec F S1048576 .i32 → Vec F S1048576 .i32),
    ternary main_v337 main_v339 main_v321 main_v340 (select : Vec F S1048576 .i1 → Vec F S1048576 .i32 → Vec F S1048576 .i32 → Vec F S1048576 .i32),
    nullary main_c_104 (constantI S_ 32 0#32),
    unary main_c_104 main_v341 (broadcastInDim S1048576 ![] bcast_S_S1048576 : Vec F S_ .i32 → Vec F S1048576 .i32),
    binary main_v316 main_v341 main_v342 (cmpi .slt : Vec F S1048576 .i32 → Vec F S1048576 .i32 → Vec F S1048576 .i1),
    nullary main_c_105 (constantI S_ 32 64#32),
    unary main_c_105 main_v343 (broadcastInDim S1048576 ![] bcast_S_S1048576 : Vec F S_ .i32 → Vec F S1048576 .i32),
    binary main_v316 main_v343 main_v344 (addi : Vec F S1048576 .i32 → Vec F S1048576 .i32 → Vec F S1048576 .i32),
    ternary main_v342 main_v344 main_v316 main_v345 (select : Vec F S1048576 .i1 → Vec F S1048576 .i32 → Vec F S1048576 .i32 → Vec F S1048576 .i32),
    unary main_v335 main_v346 (broadcastInDim S1048576x1 ![0] bcast_S1048576_S1048576x1_0 : Vec F S1048576 .i32 → Vec F S1048576x1 .i32),
    unary main_v340 main_v347 (broadcastInDim S1048576x1 ![0] bcast_S1048576_S1048576x1_0 : Vec F S1048576 .i32 → Vec F S1048576x1 .i32),
    unary main_v345 main_v348 (broadcastInDim S1048576x1 ![0] bcast_S1048576_S1048576x1_0 : Vec F S1048576 .i32 → Vec F S1048576x1 .i32),
    nary ![main_v346, main_v347, main_v348] main_v349 (fun u => concatenate S1048576x3 1 [⟨S1048576x1, u 0⟩, ⟨S1048576x1, u 1⟩, ⟨S1048576x1, u 2⟩] concatenates_S1048576x1_S1048576x1_S1048576x1_S1048576x3_d1),
    binary main_v264 main_v349 main_v350 ((fun x i => Host.gather gather_S4x64x64x64_S1048576x3_S4x1048576_0_123_n_n_123_1_4111 x i) : Vec F S4x64x64x64 .f32 → Vec F S1048576x3 .i32 → Vec F S4x1048576 .f32),
    nullary main_c_106 (constantI S_ 32 0#32),
    unary main_c_106 main_v351 (broadcastInDim S1048576 ![] bcast_S_S1048576 : Vec F S_ .i32 → Vec F S1048576 .i32),
    binary main_v326 main_v351 main_v352 (cmpi .slt : Vec F S1048576 .i32 → Vec F S1048576 .i32 → Vec F S1048576 .i1),
    nullary main_c_107 (constantI S_ 32 64#32),
    unary main_c_107 main_v353 (broadcastInDim S1048576 ![] bcast_S_S1048576 : Vec F S_ .i32 → Vec F S1048576 .i32),
    binary main_v326 main_v353 main_v354 (addi : Vec F S1048576 .i32 → Vec F S1048576 .i32 → Vec F S1048576 .i32),
    ternary main_v352 main_v354 main_v326 main_v355 (select : Vec F S1048576 .i1 → Vec F S1048576 .i32 → Vec F S1048576 .i32 → Vec F S1048576 .i32),
    nullary main_c_108 (constantI S_ 32 0#32),
    unary main_c_108 main_v356 (broadcastInDim S1048576 ![] bcast_S_S1048576 : Vec F S_ .i32 → Vec F S1048576 .i32),
    binary main_v321 main_v356 main_v357 (cmpi .slt : Vec F S1048576 .i32 → Vec F S1048576 .i32 → Vec F S1048576 .i1),
    nullary main_c_109 (constantI S_ 32 64#32),
    unary main_c_109 main_v358 (broadcastInDim S1048576 ![] bcast_S_S1048576 : Vec F S_ .i32 → Vec F S1048576 .i32),
    binary main_v321 main_v358 main_v359 (addi : Vec F S1048576 .i32 → Vec F S1048576 .i32 → Vec F S1048576 .i32),
    ternary main_v357 main_v359 main_v321 main_v360 (select : Vec F S1048576 .i1 → Vec F S1048576 .i32 → Vec F S1048576 .i32 → Vec F S1048576 .i32),
    nullary main_c_110 (constantI S_ 32 0#32),
    unary main_c_110 main_v361 (broadcastInDim S1048576 ![] bcast_S_S1048576 : Vec F S_ .i32 → Vec F S1048576 .i32),
    binary main_v320 main_v361 main_v362 (cmpi .slt : Vec F S1048576 .i32 → Vec F S1048576 .i32 → Vec F S1048576 .i1),
    nullary main_c_111 (constantI S_ 32 64#32),
    unary main_c_111 main_v363 (broadcastInDim S1048576 ![] bcast_S_S1048576 : Vec F S_ .i32 → Vec F S1048576 .i32),
    binary main_v320 main_v363 main_v364 (addi : Vec F S1048576 .i32 → Vec F S1048576 .i32 → Vec F S1048576 .i32),
    ternary main_v362 main_v364 main_v320 main_v365 (select : Vec F S1048576 .i1 → Vec F S1048576 .i32 → Vec F S1048576 .i32 → Vec F S1048576 .i32) ]

set_option maxRecDepth 8192 in
set_option maxHeartbeats 4000000 in
theorem part7_eq (c : Dev nD) : main_part7 (F := F) c = seq ops7 := rfl

set_option maxRecDepth 8192 in
theorem ops7_sub : (ops7 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops7_fresh : ∀ op ∈ (ops7 : List (HloOp τ sig (Elt F))), op.fresh = ∅ := by line_fresh

abbrev ops7_outs : List (Ref sig .tc) :=
  [main_c_96, main_v322, main_v323, main_c_97, main_v324, main_v325, main_v326, main_c_98, main_v327, main_v328, main_c_99, main_v329, main_v330, main_c_100, main_v331, main_v332, main_c_101, main_v333, main_v334, main_v335, main_c_102, main_v336, main_v337, main_c_103, main_v338, main_v339, main_v340, main_c_104, main_v341, main_v342, main_c_105, main_v343, main_v344, main_v345, main_v346, main_v347, main_v348, main_v349, main_v350, main_c_106, main_v351, main_v352, main_c_107, main_v353, main_v354, main_v355, main_c_108, main_v356, main_v357, main_c_109, main_v358, main_v359, main_v360, main_c_110, main_v361, main_v362, main_c_111, main_v363, main_v364, main_v365]

set_option maxRecDepth 8192 in
theorem ops7_writes : (ops7 : List (HloOp τ sig (Elt F))).Forall fun op => op.writes ⊆ (ops7_outs.map (Proc.devRef (τ := τ) .tc)).toFinset := by
  repeat' constructor
  all_goals exact writes_sub_of_mem (by decide)

set_option maxHeartbeats 4000000 in

abbrev ops8 : List (HloOp τ sig (Elt F)) :=
  [
    unary main_v355 main_v366 (broadcastInDim S1048576x1 ![0] bcast_S1048576_S1048576x1_0 : Vec F S1048576 .i32 → Vec F S1048576x1 .i32),
    unary main_v360 main_v367 (broadcastInDim S1048576x1 ![0] bcast_S1048576_S1048576x1_0 : Vec F S1048576 .i32 → Vec F S1048576x1 .i32),
    unary main_v365 main_v368 (broadcastInDim S1048576x1 ![0] bcast_S1048576_S1048576x1_0 : Vec F S1048576 .i32 → Vec F S1048576x1 .i32),
    nary ![main_v366, main_v367, main_v368] main_v369 (fun u => concatenate S1048576x3 1 [⟨S1048576x1, u 0⟩, ⟨S1048576x1, u 1⟩, ⟨S1048576x1, u 2⟩] concatenates_S1048576x1_S1048576x1_S1048576x1_S1048576x3_d1),
    binary main_v264 main_v369 main_v370 ((fun x i => Host.gather gather_S4x64x64x64_S1048576x3_S4x1048576_0_123_n_n_123_1_4111 x i) : Vec F S4x64x64x64 .f32 → Vec F S1048576x3 .i32 → Vec F S4x1048576 .f32),
    nullary main_c_112 (constantI S_ 32 0#32),
    unary main_c_112 main_v371 (broadcastInDim S1048576 ![] bcast_S_S1048576 : Vec F S_ .i32 → Vec F S1048576 .i32),
    binary main_v326 main_v371 main_v372 (cmpi .slt : Vec F S1048576 .i32 → Vec F S1048576 .i32 → Vec F S1048576 .i1),
    nullary main_c_113 (constantI S_ 32 64#32),
    unary main_c_113 main_v373 (broadcastInDim S1048576 ![] bcast_S_S1048576 : Vec F S_ .i32 → Vec F S1048576 .i32),
    binary main_v326 main_v373 main_v374 (addi : Vec F S1048576 .i32 → Vec F S1048576 .i32 → Vec F S1048576 .i32),
    ternary main_v372 main_v374 main_v326 main_v375 (select : Vec F S1048576 .i1 → Vec F S1048576 .i32 → Vec F S1048576 .i32 → Vec F S1048576 .i32),
    nullary main_c_114 (constantI S_ 32 0#32),
    unary main_c_114 main_v376 (broadcastInDim S1048576 ![] bcast_S_S1048576 : Vec F S_ .i32 → Vec F S1048576 .i32),
    binary main_v325 main_v376 main_v377 (cmpi .slt : Vec F S1048576 .i32 → Vec F S1048576 .i32 → Vec F S1048576 .i1),
    nullary main_c_115 (constantI S_ 32 64#32),
    unary main_c_115 main_v378 (broadcastInDim S1048576 ![] bcast_S_S1048576 : Vec F S_ .i32 → Vec F S1048576 .i32),
    binary main_v325 main_v378 main_v379 (addi : Vec F S1048576 .i32 → Vec F S1048576 .i32 → Vec F S1048576 .i32),
    ternary main_v377 main_v379 main_v325 main_v380 (select : Vec F S1048576 .i1 → Vec F S1048576 .i32 → Vec F S1048576 .i32 → Vec F S1048576 .i32),
    nullary main_c_116 (constantI S_ 32 0#32),
    unary main_c_116 main_v381 (broadcastInDim S1048576 ![] bcast_S_S1048576 : Vec F S_ .i32 → Vec F S1048576 .i32),
    binary main_v316 main_v381 main_v382 (cmpi .slt : Vec F S1048576 .i32 → Vec F S1048576 .i32 → Vec F S1048576 .i1),
    nullary main_c_117 (constantI S_ 32 64#32),
    unary main_c_117 main_v383 (broadcastInDim S1048576 ![] bcast_S_S1048576 : Vec F S_ .i32 → Vec F S1048576 .i32),
    binary main_v316 main_v383 main_v384 (addi : Vec F S1048576 .i32 → Vec F S1048576 .i32 → Vec F S1048576 .i32),
    ternary main_v382 main_v384 main_v316 main_v385 (select : Vec F S1048576 .i1 → Vec F S1048576 .i32 → Vec F S1048576 .i32 → Vec F S1048576 .i32),
    unary main_v375 main_v386 (broadcastInDim S1048576x1 ![0] bcast_S1048576_S1048576x1_0 : Vec F S1048576 .i32 → Vec F S1048576x1 .i32),
    unary main_v380 main_v387 (broadcastInDim S1048576x1 ![0] bcast_S1048576_S1048576x1_0 : Vec F S1048576 .i32 → Vec F S1048576x1 .i32),
    unary main_v385 main_v388 (broadcastInDim S1048576x1 ![0] bcast_S1048576_S1048576x1_0 : Vec F S1048576 .i32 → Vec F S1048576x1 .i32),
    nary ![main_v386, main_v387, main_v388] main_v389 (fun u => concatenate S1048576x3 1 [⟨S1048576x1, u 0⟩, ⟨S1048576x1, u 1⟩, ⟨S1048576x1, u 2⟩] concatenates_S1048576x1_S1048576x1_S1048576x1_S1048576x3_d1),
    binary main_v264 main_v389 main_v390 ((fun x i => Host.gather gather_S4x64x64x64_S1048576x3_S4x1048576_0_123_n_n_123_1_4111 x i) : Vec F S4x64x64x64 .f32 → Vec F S1048576x3 .i32 → Vec F S4x1048576 .f32),
    nullary main_c_118 (constantI S_ 32 0#32),
    unary main_c_118 main_v391 (broadcastInDim S1048576 ![] bcast_S_S1048576 : Vec F S_ .i32 → Vec F S1048576 .i32),
    binary main_v326 main_v391 main_v392 (cmpi .slt : Vec F S1048576 .i32 → Vec F S1048576 .i32 → Vec F S1048576 .i1),
    nullary main_c_119 (constantI S_ 32 64#32),
    unary main_c_119 main_v393 (broadcastInDim S1048576 ![] bcast_S_S1048576 : Vec F S_ .i32 → Vec F S1048576 .i32),
    binary main_v326 main_v393 main_v394 (addi : Vec F S1048576 .i32 → Vec F S1048576 .i32 → Vec F S1048576 .i32),
    ternary main_v392 main_v394 main_v326 main_v395 (select : Vec F S1048576 .i1 → Vec F S1048576 .i32 → Vec F S1048576 .i32 → Vec F S1048576 .i32),
    nullary main_c_120 (constantI S_ 32 0#32),
    unary main_c_120 main_v396 (broadcastInDim S1048576 ![] bcast_S_S1048576 : Vec F S_ .i32 → Vec F S1048576 .i32),
    binary main_v325 main_v396 main_v397 (cmpi .slt : Vec F S1048576 .i32 → Vec F S1048576 .i32 → Vec F S1048576 .i1),
    nullary main_c_121 (constantI S_ 32 64#32),
    unary main_c_121 main_v398 (broadcastInDim S1048576 ![] bcast_S_S1048576 : Vec F S_ .i32 → Vec F S1048576 .i32),
    binary main_v325 main_v398 main_v399 (addi : Vec F S1048576 .i32 → Vec F S1048576 .i32 → Vec F S1048576 .i32),
    ternary main_v397 main_v399 main_v325 main_v400 (select : Vec F S1048576 .i1 → Vec F S1048576 .i32 → Vec F S1048576 .i32 → Vec F S1048576 .i32),
    nullary main_c_122 (constantI S_ 32 0#32),
    unary main_c_122 main_v401 (broadcastInDim S1048576 ![] bcast_S_S1048576 : Vec F S_ .i32 → Vec F S1048576 .i32),
    binary main_v320 main_v401 main_v402 (cmpi .slt : Vec F S1048576 .i32 → Vec F S1048576 .i32 → Vec F S1048576 .i1),
    nullary main_c_123 (constantI S_ 32 64#32),
    unary main_c_123 main_v403 (broadcastInDim S1048576 ![] bcast_S_S1048576 : Vec F S_ .i32 → Vec F S1048576 .i32),
    binary main_v320 main_v403 main_v404 (addi : Vec F S1048576 .i32 → Vec F S1048576 .i32 → Vec F S1048576 .i32),
    ternary main_v402 main_v404 main_v320 main_v405 (select : Vec F S1048576 .i1 → Vec F S1048576 .i32 → Vec F S1048576 .i32 → Vec F S1048576 .i32),
    unary main_v395 main_v406 (broadcastInDim S1048576x1 ![0] bcast_S1048576_S1048576x1_0 : Vec F S1048576 .i32 → Vec F S1048576x1 .i32),
    unary main_v400 main_v407 (broadcastInDim S1048576x1 ![0] bcast_S1048576_S1048576x1_0 : Vec F S1048576 .i32 → Vec F S1048576x1 .i32),
    unary main_v405 main_v408 (broadcastInDim S1048576x1 ![0] bcast_S1048576_S1048576x1_0 : Vec F S1048576 .i32 → Vec F S1048576x1 .i32),
    nary ![main_v406, main_v407, main_v408] main_v409 (fun u => concatenate S1048576x3 1 [⟨S1048576x1, u 0⟩, ⟨S1048576x1, u 1⟩, ⟨S1048576x1, u 2⟩] concatenates_S1048576x1_S1048576x1_S1048576x1_S1048576x3_d1),
    binary main_v264 main_v409 main_v410 ((fun x i => Host.gather gather_S4x64x64x64_S1048576x3_S4x1048576_0_123_n_n_123_1_4111 x i) : Vec F S4x64x64x64 .f32 → Vec F S1048576x3 .i32 → Vec F S4x1048576 .f32),
    nullary main_c_124 (constantI S_ 32 0#32),
    unary main_c_124 main_v411 (broadcastInDim S1048576 ![] bcast_S_S1048576 : Vec F S_ .i32 → Vec F S1048576 .i32),
    binary main_v330 main_v411 main_v412 (cmpi .slt : Vec F S1048576 .i32 → Vec F S1048576 .i32 → Vec F S1048576 .i1) ]

set_option maxRecDepth 8192 in
set_option maxHeartbeats 4000000 in
theorem part8_eq (c : Dev nD) : main_part8 (F := F) c = seq ops8 := rfl

set_option maxRecDepth 8192 in
theorem ops8_sub : (ops8 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops8_fresh : ∀ op ∈ (ops8 : List (HloOp τ sig (Elt F))), op.fresh = ∅ := by line_fresh

abbrev ops8_outs : List (Ref sig .tc) :=
  [main_v366, main_v367, main_v368, main_v369, main_v370, main_c_112, main_v371, main_v372, main_c_113, main_v373, main_v374, main_v375, main_c_114, main_v376, main_v377, main_c_115, main_v378, main_v379, main_v380, main_c_116, main_v381, main_v382, main_c_117, main_v383, main_v384, main_v385, main_v386, main_v387, main_v388, main_v389, main_v390, main_c_118, main_v391, main_v392, main_c_119, main_v393, main_v394, main_v395, main_c_120, main_v396, main_v397, main_c_121, main_v398, main_v399, main_v400, main_c_122, main_v401, main_v402, main_c_123, main_v403, main_v404, main_v405, main_v406, main_v407, main_v408, main_v409, main_v410, main_c_124, main_v411, main_v412]

set_option maxRecDepth 8192 in
theorem ops8_writes : (ops8 : List (HloOp τ sig (Elt F))).Forall fun op => op.writes ⊆ (ops8_outs.map (Proc.devRef (τ := τ) .tc)).toFinset := by
  repeat' constructor
  all_goals exact writes_sub_of_mem (by decide)

set_option maxHeartbeats 4000000 in

abbrev ops9 : List (HloOp τ sig (Elt F)) :=
  [
    nullary main_c_125 (constantI S_ 32 64#32),
    unary main_c_125 main_v413 (broadcastInDim S1048576 ![] bcast_S_S1048576 : Vec F S_ .i32 → Vec F S1048576 .i32),
    binary main_v330 main_v413 main_v414 (addi : Vec F S1048576 .i32 → Vec F S1048576 .i32 → Vec F S1048576 .i32),
    ternary main_v412 main_v414 main_v330 main_v415 (select : Vec F S1048576 .i1 → Vec F S1048576 .i32 → Vec F S1048576 .i32 → Vec F S1048576 .i32),
    nullary main_c_126 (constantI S_ 32 0#32),
    unary main_c_126 main_v416 (broadcastInDim S1048576 ![] bcast_S_S1048576 : Vec F S_ .i32 → Vec F S1048576 .i32),
    binary main_v321 main_v416 main_v417 (cmpi .slt : Vec F S1048576 .i32 → Vec F S1048576 .i32 → Vec F S1048576 .i1),
    nullary main_c_127 (constantI S_ 32 64#32),
    unary main_c_127 main_v418 (broadcastInDim S1048576 ![] bcast_S_S1048576 : Vec F S_ .i32 → Vec F S1048576 .i32),
    binary main_v321 main_v418 main_v419 (addi : Vec F S1048576 .i32 → Vec F S1048576 .i32 → Vec F S1048576 .i32),
    ternary main_v417 main_v419 main_v321 main_v420 (select : Vec F S1048576 .i1 → Vec F S1048576 .i32 → Vec F S1048576 .i32 → Vec F S1048576 .i32),
    nullary main_c_128 (constantI S_ 32 0#32),
    unary main_c_128 main_v421 (broadcastInDim S1048576 ![] bcast_S_S1048576 : Vec F S_ .i32 → Vec F S1048576 .i32),
    binary main_v316 main_v421 main_v422 (cmpi .slt : Vec F S1048576 .i32 → Vec F S1048576 .i32 → Vec F S1048576 .i1),
    nullary main_c_129 (constantI S_ 32 64#32),
    unary main_c_129 main_v423 (broadcastInDim S1048576 ![] bcast_S_S1048576 : Vec F S_ .i32 → Vec F S1048576 .i32),
    binary main_v316 main_v423 main_v424 (addi : Vec F S1048576 .i32 → Vec F S1048576 .i32 → Vec F S1048576 .i32),
    ternary main_v422 main_v424 main_v316 main_v425 (select : Vec F S1048576 .i1 → Vec F S1048576 .i32 → Vec F S1048576 .i32 → Vec F S1048576 .i32),
    unary main_v415 main_v426 (broadcastInDim S1048576x1 ![0] bcast_S1048576_S1048576x1_0 : Vec F S1048576 .i32 → Vec F S1048576x1 .i32),
    unary main_v420 main_v427 (broadcastInDim S1048576x1 ![0] bcast_S1048576_S1048576x1_0 : Vec F S1048576 .i32 → Vec F S1048576x1 .i32),
    unary main_v425 main_v428 (broadcastInDim S1048576x1 ![0] bcast_S1048576_S1048576x1_0 : Vec F S1048576 .i32 → Vec F S1048576x1 .i32),
    nary ![main_v426, main_v427, main_v428] main_v429 (fun u => concatenate S1048576x3 1 [⟨S1048576x1, u 0⟩, ⟨S1048576x1, u 1⟩, ⟨S1048576x1, u 2⟩] concatenates_S1048576x1_S1048576x1_S1048576x1_S1048576x3_d1),
    binary main_v264 main_v429 main_v430 ((fun x i => Host.gather gather_S4x64x64x64_S1048576x3_S4x1048576_0_123_n_n_123_1_4111 x i) : Vec F S4x64x64x64 .f32 → Vec F S1048576x3 .i32 → Vec F S4x1048576 .f32),
    nullary main_c_130 (constantI S_ 32 0#32),
    unary main_c_130 main_v431 (broadcastInDim S1048576 ![] bcast_S_S1048576 : Vec F S_ .i32 → Vec F S1048576 .i32),
    binary main_v330 main_v431 main_v432 (cmpi .slt : Vec F S1048576 .i32 → Vec F S1048576 .i32 → Vec F S1048576 .i1),
    nullary main_c_131 (constantI S_ 32 64#32),
    unary main_c_131 main_v433 (broadcastInDim S1048576 ![] bcast_S_S1048576 : Vec F S_ .i32 → Vec F S1048576 .i32),
    binary main_v330 main_v433 main_v434 (addi : Vec F S1048576 .i32 → Vec F S1048576 .i32 → Vec F S1048576 .i32),
    ternary main_v432 main_v434 main_v330 main_v435 (select : Vec F S1048576 .i1 → Vec F S1048576 .i32 → Vec F S1048576 .i32 → Vec F S1048576 .i32),
    nullary main_c_132 (constantI S_ 32 0#32),
    unary main_c_132 main_v436 (broadcastInDim S1048576 ![] bcast_S_S1048576 : Vec F S_ .i32 → Vec F S1048576 .i32),
    binary main_v321 main_v436 main_v437 (cmpi .slt : Vec F S1048576 .i32 → Vec F S1048576 .i32 → Vec F S1048576 .i1),
    nullary main_c_133 (constantI S_ 32 64#32),
    unary main_c_133 main_v438 (broadcastInDim S1048576 ![] bcast_S_S1048576 : Vec F S_ .i32 → Vec F S1048576 .i32),
    binary main_v321 main_v438 main_v439 (addi : Vec F S1048576 .i32 → Vec F S1048576 .i32 → Vec F S1048576 .i32),
    ternary main_v437 main_v439 main_v321 main_v440 (select : Vec F S1048576 .i1 → Vec F S1048576 .i32 → Vec F S1048576 .i32 → Vec F S1048576 .i32),
    nullary main_c_134 (constantI S_ 32 0#32),
    unary main_c_134 main_v441 (broadcastInDim S1048576 ![] bcast_S_S1048576 : Vec F S_ .i32 → Vec F S1048576 .i32),
    binary main_v320 main_v441 main_v442 (cmpi .slt : Vec F S1048576 .i32 → Vec F S1048576 .i32 → Vec F S1048576 .i1),
    nullary main_c_135 (constantI S_ 32 64#32),
    unary main_c_135 main_v443 (broadcastInDim S1048576 ![] bcast_S_S1048576 : Vec F S_ .i32 → Vec F S1048576 .i32),
    binary main_v320 main_v443 main_v444 (addi : Vec F S1048576 .i32 → Vec F S1048576 .i32 → Vec F S1048576 .i32),
    ternary main_v442 main_v444 main_v320 main_v445 (select : Vec F S1048576 .i1 → Vec F S1048576 .i32 → Vec F S1048576 .i32 → Vec F S1048576 .i32),
    unary main_v435 main_v446 (broadcastInDim S1048576x1 ![0] bcast_S1048576_S1048576x1_0 : Vec F S1048576 .i32 → Vec F S1048576x1 .i32),
    unary main_v440 main_v447 (broadcastInDim S1048576x1 ![0] bcast_S1048576_S1048576x1_0 : Vec F S1048576 .i32 → Vec F S1048576x1 .i32),
    unary main_v445 main_v448 (broadcastInDim S1048576x1 ![0] bcast_S1048576_S1048576x1_0 : Vec F S1048576 .i32 → Vec F S1048576x1 .i32),
    nary ![main_v446, main_v447, main_v448] main_v449 (fun u => concatenate S1048576x3 1 [⟨S1048576x1, u 0⟩, ⟨S1048576x1, u 1⟩, ⟨S1048576x1, u 2⟩] concatenates_S1048576x1_S1048576x1_S1048576x1_S1048576x3_d1),
    binary main_v264 main_v449 main_v450 ((fun x i => Host.gather gather_S4x64x64x64_S1048576x3_S4x1048576_0_123_n_n_123_1_4111 x i) : Vec F S4x64x64x64 .f32 → Vec F S1048576x3 .i32 → Vec F S4x1048576 .f32),
    nullary main_c_136 (constantI S_ 32 0#32),
    unary main_c_136 main_v451 (broadcastInDim S1048576 ![] bcast_S_S1048576 : Vec F S_ .i32 → Vec F S1048576 .i32),
    binary main_v330 main_v451 main_v452 (cmpi .slt : Vec F S1048576 .i32 → Vec F S1048576 .i32 → Vec F S1048576 .i1),
    nullary main_c_137 (constantI S_ 32 64#32),
    unary main_c_137 main_v453 (broadcastInDim S1048576 ![] bcast_S_S1048576 : Vec F S_ .i32 → Vec F S1048576 .i32),
    binary main_v330 main_v453 main_v454 (addi : Vec F S1048576 .i32 → Vec F S1048576 .i32 → Vec F S1048576 .i32),
    ternary main_v452 main_v454 main_v330 main_v455 (select : Vec F S1048576 .i1 → Vec F S1048576 .i32 → Vec F S1048576 .i32 → Vec F S1048576 .i32),
    nullary main_c_138 (constantI S_ 32 0#32),
    unary main_c_138 main_v456 (broadcastInDim S1048576 ![] bcast_S_S1048576 : Vec F S_ .i32 → Vec F S1048576 .i32),
    binary main_v325 main_v456 main_v457 (cmpi .slt : Vec F S1048576 .i32 → Vec F S1048576 .i32 → Vec F S1048576 .i1),
    nullary main_c_139 (constantI S_ 32 64#32) ]

set_option maxRecDepth 8192 in
set_option maxHeartbeats 4000000 in
theorem part9_eq (c : Dev nD) : main_part9 (F := F) c = seq ops9 := rfl

set_option maxRecDepth 8192 in
theorem ops9_sub : (ops9 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops9_fresh : ∀ op ∈ (ops9 : List (HloOp τ sig (Elt F))), op.fresh = ∅ := by line_fresh

abbrev ops9_outs : List (Ref sig .tc) :=
  [main_c_125, main_v413, main_v414, main_v415, main_c_126, main_v416, main_v417, main_c_127, main_v418, main_v419, main_v420, main_c_128, main_v421, main_v422, main_c_129, main_v423, main_v424, main_v425, main_v426, main_v427, main_v428, main_v429, main_v430, main_c_130, main_v431, main_v432, main_c_131, main_v433, main_v434, main_v435, main_c_132, main_v436, main_v437, main_c_133, main_v438, main_v439, main_v440, main_c_134, main_v441, main_v442, main_c_135, main_v443, main_v444, main_v445, main_v446, main_v447, main_v448, main_v449, main_v450, main_c_136, main_v451, main_v452, main_c_137, main_v453, main_v454, main_v455, main_c_138, main_v456, main_v457, main_c_139]

set_option maxRecDepth 8192 in
theorem ops9_writes : (ops9 : List (HloOp τ sig (Elt F))).Forall fun op => op.writes ⊆ (ops9_outs.map (Proc.devRef (τ := τ) .tc)).toFinset := by
  repeat' constructor
  all_goals exact writes_sub_of_mem (by decide)

set_option maxHeartbeats 4000000 in

abbrev ops10 : List (HloOp τ sig (Elt F)) :=
  [
    unary main_c_139 main_v458 (broadcastInDim S1048576 ![] bcast_S_S1048576 : Vec F S_ .i32 → Vec F S1048576 .i32),
    binary main_v325 main_v458 main_v459 (addi : Vec F S1048576 .i32 → Vec F S1048576 .i32 → Vec F S1048576 .i32),
    ternary main_v457 main_v459 main_v325 main_v460 (select : Vec F S1048576 .i1 → Vec F S1048576 .i32 → Vec F S1048576 .i32 → Vec F S1048576 .i32),
    nullary main_c_140 (constantI S_ 32 0#32),
    unary main_c_140 main_v461 (broadcastInDim S1048576 ![] bcast_S_S1048576 : Vec F S_ .i32 → Vec F S1048576 .i32),
    binary main_v316 main_v461 main_v462 (cmpi .slt : Vec F S1048576 .i32 → Vec F S1048576 .i32 → Vec F S1048576 .i1),
    nullary main_c_141 (constantI S_ 32 64#32),
    unary main_c_141 main_v463 (broadcastInDim S1048576 ![] bcast_S_S1048576 : Vec F S_ .i32 → Vec F S1048576 .i32),
    binary main_v316 main_v463 main_v464 (addi : Vec F S1048576 .i32 → Vec F S1048576 .i32 → Vec F S1048576 .i32),
    ternary main_v462 main_v464 main_v316 main_v465 (select : Vec F S1048576 .i1 → Vec F S1048576 .i32 → Vec F S1048576 .i32 → Vec F S1048576 .i32),
    unary main_v455 main_v466 (broadcastInDim S1048576x1 ![0] bcast_S1048576_S1048576x1_0 : Vec F S1048576 .i32 → Vec F S1048576x1 .i32),
    unary main_v460 main_v467 (broadcastInDim S1048576x1 ![0] bcast_S1048576_S1048576x1_0 : Vec F S1048576 .i32 → Vec F S1048576x1 .i32),
    unary main_v465 main_v468 (broadcastInDim S1048576x1 ![0] bcast_S1048576_S1048576x1_0 : Vec F S1048576 .i32 → Vec F S1048576x1 .i32),
    nary ![main_v466, main_v467, main_v468] main_v469 (fun u => concatenate S1048576x3 1 [⟨S1048576x1, u 0⟩, ⟨S1048576x1, u 1⟩, ⟨S1048576x1, u 2⟩] concatenates_S1048576x1_S1048576x1_S1048576x1_S1048576x3_d1),
    binary main_v264 main_v469 main_v470 ((fun x i => Host.gather gather_S4x64x64x64_S1048576x3_S4x1048576_0_123_n_n_123_1_4111 x i) : Vec F S4x64x64x64 .f32 → Vec F S1048576x3 .i32 → Vec F S4x1048576 .f32),
    nullary main_c_142 (constantI S_ 32 0#32),
    unary main_c_142 main_v471 (broadcastInDim S1048576 ![] bcast_S_S1048576 : Vec F S_ .i32 → Vec F S1048576 .i32),
    binary main_v330 main_v471 main_v472 (cmpi .slt : Vec F S1048576 .i32 → Vec F S1048576 .i32 → Vec F S1048576 .i1),
    nullary main_c_143 (constantI S_ 32 64#32),
    unary main_c_143 main_v473 (broadcastInDim S1048576 ![] bcast_S_S1048576 : Vec F S_ .i32 → Vec F S1048576 .i32),
    binary main_v330 main_v473 main_v474 (addi : Vec F S1048576 .i32 → Vec F S1048576 .i32 → Vec F S1048576 .i32),
    ternary main_v472 main_v474 main_v330 main_v475 (select : Vec F S1048576 .i1 → Vec F S1048576 .i32 → Vec F S1048576 .i32 → Vec F S1048576 .i32),
    nullary main_c_144 (constantI S_ 32 0#32),
    unary main_c_144 main_v476 (broadcastInDim S1048576 ![] bcast_S_S1048576 : Vec F S_ .i32 → Vec F S1048576 .i32),
    binary main_v325 main_v476 main_v477 (cmpi .slt : Vec F S1048576 .i32 → Vec F S1048576 .i32 → Vec F S1048576 .i1),
    nullary main_c_145 (constantI S_ 32 64#32),
    unary main_c_145 main_v478 (broadcastInDim S1048576 ![] bcast_S_S1048576 : Vec F S_ .i32 → Vec F S1048576 .i32),
    binary main_v325 main_v478 main_v479 (addi : Vec F S1048576 .i32 → Vec F S1048576 .i32 → Vec F S1048576 .i32),
    ternary main_v477 main_v479 main_v325 main_v480 (select : Vec F S1048576 .i1 → Vec F S1048576 .i32 → Vec F S1048576 .i32 → Vec F S1048576 .i32),
    nullary main_c_146 (constantI S_ 32 0#32),
    unary main_c_146 main_v481 (broadcastInDim S1048576 ![] bcast_S_S1048576 : Vec F S_ .i32 → Vec F S1048576 .i32),
    binary main_v320 main_v481 main_v482 (cmpi .slt : Vec F S1048576 .i32 → Vec F S1048576 .i32 → Vec F S1048576 .i1),
    nullary main_c_147 (constantI S_ 32 64#32),
    unary main_c_147 main_v483 (broadcastInDim S1048576 ![] bcast_S_S1048576 : Vec F S_ .i32 → Vec F S1048576 .i32),
    binary main_v320 main_v483 main_v484 (addi : Vec F S1048576 .i32 → Vec F S1048576 .i32 → Vec F S1048576 .i32),
    ternary main_v482 main_v484 main_v320 main_v485 (select : Vec F S1048576 .i1 → Vec F S1048576 .i32 → Vec F S1048576 .i32 → Vec F S1048576 .i32),
    unary main_v475 main_v486 (broadcastInDim S1048576x1 ![0] bcast_S1048576_S1048576x1_0 : Vec F S1048576 .i32 → Vec F S1048576x1 .i32),
    unary main_v480 main_v487 (broadcastInDim S1048576x1 ![0] bcast_S1048576_S1048576x1_0 : Vec F S1048576 .i32 → Vec F S1048576x1 .i32),
    unary main_v485 main_v488 (broadcastInDim S1048576x1 ![0] bcast_S1048576_S1048576x1_0 : Vec F S1048576 .i32 → Vec F S1048576x1 .i32),
    nary ![main_v486, main_v487, main_v488] main_v489 (fun u => concatenate S1048576x3 1 [⟨S1048576x1, u 0⟩, ⟨S1048576x1, u 1⟩, ⟨S1048576x1, u 2⟩] concatenates_S1048576x1_S1048576x1_S1048576x1_S1048576x3_d1),
    binary main_v264 main_v489 main_v490 ((fun x i => Host.gather gather_S4x64x64x64_S1048576x3_S4x1048576_0_123_n_n_123_1_4111 x i) : Vec F S4x64x64x64 .f32 → Vec F S1048576x3 .i32 → Vec F S4x1048576 .f32),
    binary main_v370 main_v350 main_v491 (subf : Vec F S4x1048576 .f32 → Vec F S4x1048576 .f32 → Vec F S4x1048576 .f32),
    unary main_v303 main_v492 (broadcastInDim S1x1048576 ![1] bcast_S1048576_S1x1048576_1 : Vec F S1048576 .f32 → Vec F S1x1048576 .f32),
    unary main_v492 main_v493 (broadcastInDim S4x1048576 ![0, 1] bcast_S1x1048576_S4x1048576_0_1 : Vec F S1x1048576 .f32 → Vec F S4x1048576 .f32),
    binary main_v491 main_v493 main_v494 (mulf : Vec F S4x1048576 .f32 → Vec F S4x1048576 .f32 → Vec F S4x1048576 .f32),
    binary main_v350 main_v494 main_v495 (addf : Vec F S4x1048576 .f32 → Vec F S4x1048576 .f32 → Vec F S4x1048576 .f32),
    binary main_v410 main_v390 main_v496 (subf : Vec F S4x1048576 .f32 → Vec F S4x1048576 .f32 → Vec F S4x1048576 .f32),
    unary main_v303 main_v497 (broadcastInDim S1x1048576 ![1] bcast_S1048576_S1x1048576_1 : Vec F S1048576 .f32 → Vec F S1x1048576 .f32),
    unary main_v497 main_v498 (broadcastInDim S4x1048576 ![0, 1] bcast_S1x1048576_S4x1048576_0_1 : Vec F S1x1048576 .f32 → Vec F S4x1048576 .f32),
    binary main_v496 main_v498 main_v499 (mulf : Vec F S4x1048576 .f32 → Vec F S4x1048576 .f32 → Vec F S4x1048576 .f32),
    binary main_v390 main_v499 main_v500 (addf : Vec F S4x1048576 .f32 → Vec F S4x1048576 .f32 → Vec F S4x1048576 .f32),
    binary main_v450 main_v430 main_v501 (subf : Vec F S4x1048576 .f32 → Vec F S4x1048576 .f32 → Vec F S4x1048576 .f32),
    unary main_v303 main_v502 (broadcastInDim S1x1048576 ![1] bcast_S1048576_S1x1048576_1 : Vec F S1048576 .f32 → Vec F S1x1048576 .f32),
    unary main_v502 main_v503 (broadcastInDim S4x1048576 ![0, 1] bcast_S1x1048576_S4x1048576_0_1 : Vec F S1x1048576 .f32 → Vec F S4x1048576 .f32),
    binary main_v501 main_v503 main_v504 (mulf : Vec F S4x1048576 .f32 → Vec F S4x1048576 .f32 → Vec F S4x1048576 .f32),
    binary main_v430 main_v504 main_v505 (addf : Vec F S4x1048576 .f32 → Vec F S4x1048576 .f32 → Vec F S4x1048576 .f32),
    binary main_v490 main_v470 main_v506 (subf : Vec F S4x1048576 .f32 → Vec F S4x1048576 .f32 → Vec F S4x1048576 .f32),
    unary main_v303 main_v507 (broadcastInDim S1x1048576 ![1] bcast_S1048576_S1x1048576_1 : Vec F S1048576 .f32 → Vec F S1x1048576 .f32),
    unary main_v507 main_v508 (broadcastInDim S4x1048576 ![0, 1] bcast_S1x1048576_S4x1048576_0_1 : Vec F S1x1048576 .f32 → Vec F S4x1048576 .f32),
    binary main_v506 main_v508 main_v509 (mulf : Vec F S4x1048576 .f32 → Vec F S4x1048576 .f32 → Vec F S4x1048576 .f32) ]

set_option maxRecDepth 8192 in
set_option maxHeartbeats 4000000 in
theorem part10_eq (c : Dev nD) : main_part10 (F := F) c = seq ops10 := rfl

set_option maxRecDepth 8192 in
theorem ops10_sub : (ops10 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops10_fresh : ∀ op ∈ (ops10 : List (HloOp τ sig (Elt F))), op.fresh = ∅ := by line_fresh

abbrev ops10_outs : List (Ref sig .tc) :=
  [main_v458, main_v459, main_v460, main_c_140, main_v461, main_v462, main_c_141, main_v463, main_v464, main_v465, main_v466, main_v467, main_v468, main_v469, main_v470, main_c_142, main_v471, main_v472, main_c_143, main_v473, main_v474, main_v475, main_c_144, main_v476, main_v477, main_c_145, main_v478, main_v479, main_v480, main_c_146, main_v481, main_v482, main_c_147, main_v483, main_v484, main_v485, main_v486, main_v487, main_v488, main_v489, main_v490, main_v491, main_v492, main_v493, main_v494, main_v495, main_v496, main_v497, main_v498, main_v499, main_v500, main_v501, main_v502, main_v503, main_v504, main_v505, main_v506, main_v507, main_v508, main_v509]

set_option maxRecDepth 8192 in
theorem ops10_writes : (ops10 : List (HloOp τ sig (Elt F))).Forall fun op => op.writes ⊆ (ops10_outs.map (Proc.devRef (τ := τ) .tc)).toFinset := by
  repeat' constructor
  all_goals exact writes_sub_of_mem (by decide)

set_option maxHeartbeats 4000000 in

abbrev ops11 : List (HloOp τ sig (Elt F)) :=
  [
    binary main_v470 main_v509 main_v510 (addf : Vec F S4x1048576 .f32 → Vec F S4x1048576 .f32 → Vec F S4x1048576 .f32),
    binary main_v500 main_v495 main_v511 (subf : Vec F S4x1048576 .f32 → Vec F S4x1048576 .f32 → Vec F S4x1048576 .f32),
    unary main_v309 main_v512 (broadcastInDim S1x1048576 ![1] bcast_S1048576_S1x1048576_1 : Vec F S1048576 .f32 → Vec F S1x1048576 .f32),
    unary main_v512 main_v513 (broadcastInDim S4x1048576 ![0, 1] bcast_S1x1048576_S4x1048576_0_1 : Vec F S1x1048576 .f32 → Vec F S4x1048576 .f32),
    binary main_v511 main_v513 main_v514 (mulf : Vec F S4x1048576 .f32 → Vec F S4x1048576 .f32 → Vec F S4x1048576 .f32),
    binary main_v495 main_v514 main_v515 (addf : Vec F S4x1048576 .f32 → Vec F S4x1048576 .f32 → Vec F S4x1048576 .f32),
    binary main_v510 main_v505 main_v516 (subf : Vec F S4x1048576 .f32 → Vec F S4x1048576 .f32 → Vec F S4x1048576 .f32),
    unary main_v309 main_v517 (broadcastInDim S1x1048576 ![1] bcast_S1048576_S1x1048576_1 : Vec F S1048576 .f32 → Vec F S1x1048576 .f32),
    unary main_v517 main_v518 (broadcastInDim S4x1048576 ![0, 1] bcast_S1x1048576_S4x1048576_0_1 : Vec F S1x1048576 .f32 → Vec F S4x1048576 .f32),
    binary main_v516 main_v518 main_v519 (mulf : Vec F S4x1048576 .f32 → Vec F S4x1048576 .f32 → Vec F S4x1048576 .f32),
    binary main_v505 main_v519 main_v520 (addf : Vec F S4x1048576 .f32 → Vec F S4x1048576 .f32 → Vec F S4x1048576 .f32),
    binary main_v520 main_v515 main_v521 (subf : Vec F S4x1048576 .f32 → Vec F S4x1048576 .f32 → Vec F S4x1048576 .f32),
    unary main_v315 main_v522 (broadcastInDim S1x1048576 ![1] bcast_S1048576_S1x1048576_1 : Vec F S1048576 .f32 → Vec F S1x1048576 .f32),
    unary main_v522 main_v523 (broadcastInDim S4x1048576 ![0, 1] bcast_S1x1048576_S4x1048576_0_1 : Vec F S1x1048576 .f32 → Vec F S4x1048576 .f32),
    binary main_v521 main_v523 main_v524 (mulf : Vec F S4x1048576 .f32 → Vec F S4x1048576 .f32 → Vec F S4x1048576 .f32),
    binary main_v515 main_v524 main_v525 (addf : Vec F S4x1048576 .f32 → Vec F S4x1048576 .f32 → Vec F S4x1048576 .f32),
    reshape main_v525 main_v526 rfl shapeCasts_S4x1048576_S1x4x1x1x1048576,
    reshape main_arg3 main_v527 rfl shapeCasts_S1x4x128x128x128_S4x128x128x128,
    unary main_v0 main_v528 ((extractStridedSlice S1048576x1 ![0, 0] · slices_S1048576x3_S1048576x1_0_0) : Vec F S1048576x3 .f32 → Vec F S1048576x1 .f32),
    reshape main_v528 main_v529 rfl shapeCasts_S1048576x1_S1048576,
    nullary main_cst_148 (constant S_ .f32 0x3F800000#32),
    unary main_cst_148 main_v530 (broadcastInDim S1048576 ![] bcast_S_S1048576 : Vec F S_ .f32 → Vec F S1048576 .f32),
    binary main_v529 main_v530 main_v531 (addf : Vec F S1048576 .f32 → Vec F S1048576 .f32 → Vec F S1048576 .f32),
    nullary main_cst_149 (constant S_ .f32 0x3F000000#32),
    unary main_cst_149 main_v532 (broadcastInDim S1048576 ![] bcast_S_S1048576 : Vec F S_ .f32 → Vec F S1048576 .f32),
    binary main_v531 main_v532 main_v533 (mulf : Vec F S1048576 .f32 → Vec F S1048576 .f32 → Vec F S1048576 .f32),
    nullary main_cst_150 (constant S_ .f32 0x42FE0000#32),
    unary main_cst_150 main_v534 (broadcastInDim S1048576 ![] bcast_S_S1048576 : Vec F S_ .f32 → Vec F S1048576 .f32),
    binary main_v533 main_v534 main_v535 (mulf : Vec F S1048576 .f32 → Vec F S1048576 .f32 → Vec F S1048576 .f32),
    nullary main_cst_151 (constant S_ .f32 0x00000000#32),
    nullary main_c_152 (constantI S_ 32 127#32),
    TRef.unary (TRef.of (T := ⟨S_, .f32⟩) main_cst_151) (TRef.of (T := ⟨S_, .f32⟩) main_call6_v0) id,
    TRef.unary (TRef.of (T := ⟨S_, .f32⟩) main_call6_v0) (TRef.of (T := ⟨S1048576, .f32⟩) main_call6_v1) (broadcastInDim S1048576 ![] bcast_S_S1048576),
    TRef.binary (TRef.of (T := ⟨S1048576, .f32⟩) main_call6_v1) (TRef.of (T := ⟨S1048576, .f32⟩) main_v535) (TRef.of (T := ⟨S1048576, .f32⟩) main_call6_v2) maximumf,
    TRef.unary (TRef.of (T := ⟨S_, .i32⟩) main_c_152) (TRef.of (T := ⟨S_, .f32⟩) main_call6_v3) (sitofp .f32),
    TRef.unary (TRef.of (T := ⟨S_, .f32⟩) main_call6_v3) (TRef.of (T := ⟨S1048576, .f32⟩) main_call6_v4) (broadcastInDim S1048576 ![] bcast_S_S1048576),
    TRef.binary (TRef.of (T := ⟨S1048576, .f32⟩) main_call6_v4) (TRef.of (T := ⟨S1048576, .f32⟩) main_call6_v2) (TRef.of (T := ⟨S1048576, .f32⟩) main_v536) minimumf,
    unary main_v0 main_v537 ((extractStridedSlice S1048576x1 ![0, 1] · slices_S1048576x3_S1048576x1_0_1) : Vec F S1048576x3 .f32 → Vec F S1048576x1 .f32),
    reshape main_v537 main_v538 rfl shapeCasts_S1048576x1_S1048576,
    nullary main_cst_153 (constant S_ .f32 0x3F800000#32),
    unary main_cst_153 main_v539 (broadcastInDim S1048576 ![] bcast_S_S1048576 : Vec F S_ .f32 → Vec F S1048576 .f32),
    binary main_v538 main_v539 main_v540 (addf : Vec F S1048576 .f32 → Vec F S1048576 .f32 → Vec F S1048576 .f32),
    nullary main_cst_154 (constant S_ .f32 0x3F000000#32),
    unary main_cst_154 main_v541 (broadcastInDim S1048576 ![] bcast_S_S1048576 : Vec F S_ .f32 → Vec F S1048576 .f32),
    binary main_v540 main_v541 main_v542 (mulf : Vec F S1048576 .f32 → Vec F S1048576 .f32 → Vec F S1048576 .f32),
    nullary main_cst_155 (constant S_ .f32 0x42FE0000#32),
    unary main_cst_155 main_v543 (broadcastInDim S1048576 ![] bcast_S_S1048576 : Vec F S_ .f32 → Vec F S1048576 .f32),
    binary main_v542 main_v543 main_v544 (mulf : Vec F S1048576 .f32 → Vec F S1048576 .f32 → Vec F S1048576 .f32),
    nullary main_cst_156 (constant S_ .f32 0x00000000#32),
    nullary main_c_157 (constantI S_ 32 127#32),
    TRef.unary (TRef.of (T := ⟨S_, .f32⟩) main_cst_156) (TRef.of (T := ⟨S_, .f32⟩) main_call7_v0) id,
    TRef.unary (TRef.of (T := ⟨S_, .f32⟩) main_call7_v0) (TRef.of (T := ⟨S1048576, .f32⟩) main_call7_v1) (broadcastInDim S1048576 ![] bcast_S_S1048576),
    TRef.binary (TRef.of (T := ⟨S1048576, .f32⟩) main_call7_v1) (TRef.of (T := ⟨S1048576, .f32⟩) main_v544) (TRef.of (T := ⟨S1048576, .f32⟩) main_call7_v2) maximumf,
    TRef.unary (TRef.of (T := ⟨S_, .i32⟩) main_c_157) (TRef.of (T := ⟨S_, .f32⟩) main_call7_v3) (sitofp .f32),
    TRef.unary (TRef.of (T := ⟨S_, .f32⟩) main_call7_v3) (TRef.of (T := ⟨S1048576, .f32⟩) main_call7_v4) (broadcastInDim S1048576 ![] bcast_S_S1048576),
    TRef.binary (TRef.of (T := ⟨S1048576, .f32⟩) main_call7_v4) (TRef.of (T := ⟨S1048576, .f32⟩) main_call7_v2) (TRef.of (T := ⟨S1048576, .f32⟩) main_v545) minimumf,
    unary main_v0 main_v546 ((extractStridedSlice S1048576x1 ![0, 2] · slices_S1048576x3_S1048576x1_0_2) : Vec F S1048576x3 .f32 → Vec F S1048576x1 .f32),
    reshape main_v546 main_v547 rfl shapeCasts_S1048576x1_S1048576,
    nullary main_cst_158 (constant S_ .f32 0x3F800000#32),
    unary main_cst_158 main_v548 (broadcastInDim S1048576 ![] bcast_S_S1048576 : Vec F S_ .f32 → Vec F S1048576 .f32),
    binary main_v547 main_v548 main_v549 (addf : Vec F S1048576 .f32 → Vec F S1048576 .f32 → Vec F S1048576 .f32),
    nullary main_cst_159 (constant S_ .f32 0x3F000000#32),
    unary main_cst_159 main_v550 (broadcastInDim S1048576 ![] bcast_S_S1048576 : Vec F S_ .f32 → Vec F S1048576 .f32),
    binary main_v549 main_v550 main_v551 (mulf : Vec F S1048576 .f32 → Vec F S1048576 .f32 → Vec F S1048576 .f32),
    nullary main_cst_160 (constant S_ .f32 0x42FE0000#32),
    unary main_cst_160 main_v552 (broadcastInDim S1048576 ![] bcast_S_S1048576 : Vec F S_ .f32 → Vec F S1048576 .f32),
    binary main_v551 main_v552 main_v553 (mulf : Vec F S1048576 .f32 → Vec F S1048576 .f32 → Vec F S1048576 .f32),
    nullary main_cst_161 (constant S_ .f32 0x00000000#32),
    nullary main_c_162 (constantI S_ 32 127#32),
    TRef.unary (TRef.of (T := ⟨S_, .f32⟩) main_cst_161) (TRef.of (T := ⟨S_, .f32⟩) main_call8_v0) id,
    TRef.unary (TRef.of (T := ⟨S_, .f32⟩) main_call8_v0) (TRef.of (T := ⟨S1048576, .f32⟩) main_call8_v1) (broadcastInDim S1048576 ![] bcast_S_S1048576),
    TRef.binary (TRef.of (T := ⟨S1048576, .f32⟩) main_call8_v1) (TRef.of (T := ⟨S1048576, .f32⟩) main_v553) (TRef.of (T := ⟨S1048576, .f32⟩) main_call8_v2) maximumf,
    TRef.unary (TRef.of (T := ⟨S_, .i32⟩) main_c_162) (TRef.of (T := ⟨S_, .f32⟩) main_call8_v3) (sitofp .f32),
    TRef.unary (TRef.of (T := ⟨S_, .f32⟩) main_call8_v3) (TRef.of (T := ⟨S1048576, .f32⟩) main_call8_v4) (broadcastInDim S1048576 ![] bcast_S_S1048576),
    TRef.binary (TRef.of (T := ⟨S1048576, .f32⟩) main_call8_v4) (TRef.of (T := ⟨S1048576, .f32⟩) main_call8_v2) (TRef.of (T := ⟨S1048576, .f32⟩) main_v554) minimumf ]

set_option maxRecDepth 8192 in
set_option maxHeartbeats 4000000 in
theorem part11_eq (c : Dev nD) : main_part11 (F := F) c = seq ops11 := rfl

set_option maxRecDepth 8192 in
theorem ops11_sub : (ops11 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops11_fresh : ∀ op ∈ (ops11 : List (HloOp τ sig (Elt F))), op.fresh = ∅ := by line_fresh

abbrev ops11_outs : List (Ref sig .tc) :=
  [main_v510, main_v511, main_v512, main_v513, main_v514, main_v515, main_v516, main_v517, main_v518, main_v519, main_v520, main_v521, main_v522, main_v523, main_v524, main_v525, main_v526, main_v527, main_v528, main_v529, main_cst_148, main_v530, main_v531, main_cst_149, main_v532, main_v533, main_cst_150, main_v534, main_v535, main_cst_151, main_c_152, main_call6_v0, main_call6_v1, main_call6_v2, main_call6_v3, main_call6_v4, main_v536, main_v537, main_v538, main_cst_153, main_v539, main_v540, main_cst_154, main_v541, main_v542, main_cst_155, main_v543, main_v544, main_cst_156, main_c_157, main_call7_v0, main_call7_v1, main_call7_v2, main_call7_v3, main_call7_v4, main_v545, main_v546, main_v547, main_cst_158, main_v548, main_v549, main_cst_159, main_v550, main_v551, main_cst_160, main_v552, main_v553, main_cst_161, main_c_162, main_call8_v0, main_call8_v1, main_call8_v2, main_call8_v3, main_call8_v4, main_v554]

set_option maxRecDepth 8192 in
theorem ops11_writes : (ops11 : List (HloOp τ sig (Elt F))).Forall fun op => op.writes ⊆ (ops11_outs.map (Proc.devRef (τ := τ) .tc)).toFinset := by
  repeat' constructor
  all_goals exact writes_sub_of_mem (by decide)

set_option maxHeartbeats 4000000 in

abbrev ops12 : List (HloOp τ sig (Elt F)) :=
  [
    unary main_v536 main_v555 (Host.floor : Vec F S1048576 .f32 → Vec F S1048576 .f32),
    unary main_v545 main_v556 (Host.floor : Vec F S1048576 .f32 → Vec F S1048576 .f32),
    unary main_v554 main_v557 (Host.floor : Vec F S1048576 .f32 → Vec F S1048576 .f32),
    binary main_v536 main_v555 main_v558 (subf : Vec F S1048576 .f32 → Vec F S1048576 .f32 → Vec F S1048576 .f32),
    binary main_v545 main_v556 main_v559 (subf : Vec F S1048576 .f32 → Vec F S1048576 .f32 → Vec F S1048576 .f32),
    binary main_v554 main_v557 main_v560 (subf : Vec F S1048576 .f32 → Vec F S1048576 .f32 → Vec F S1048576 .f32),
    binary main_v558 main_v558 main_v561 (mulf : Vec F S1048576 .f32 → Vec F S1048576 .f32 → Vec F S1048576 .f32),
    nullary main_cst_163 (constant S_ .f32 0x40000000#32),
    unary main_cst_163 main_v562 (broadcastInDim S1048576 ![] bcast_S_S1048576 : Vec F S_ .f32 → Vec F S1048576 .f32),
    binary main_v562 main_v558 main_v563 (mulf : Vec F S1048576 .f32 → Vec F S1048576 .f32 → Vec F S1048576 .f32),
    nullary main_cst_164 (constant S_ .f32 0x40400000#32),
    unary main_cst_164 main_v564 (broadcastInDim S1048576 ![] bcast_S_S1048576 : Vec F S_ .f32 → Vec F S1048576 .f32),
    binary main_v564 main_v563 main_v565 (subf : Vec F S1048576 .f32 → Vec F S1048576 .f32 → Vec F S1048576 .f32),
    binary main_v561 main_v565 main_v566 (mulf : Vec F S1048576 .f32 → Vec F S1048576 .f32 → Vec F S1048576 .f32),
    binary main_v559 main_v559 main_v567 (mulf : Vec F S1048576 .f32 → Vec F S1048576 .f32 → Vec F S1048576 .f32),
    nullary main_cst_165 (constant S_ .f32 0x40000000#32),
    unary main_cst_165 main_v568 (broadcastInDim S1048576 ![] bcast_S_S1048576 : Vec F S_ .f32 → Vec F S1048576 .f32),
    binary main_v568 main_v559 main_v569 (mulf : Vec F S1048576 .f32 → Vec F S1048576 .f32 → Vec F S1048576 .f32),
    nullary main_cst_166 (constant S_ .f32 0x40400000#32),
    unary main_cst_166 main_v570 (broadcastInDim S1048576 ![] bcast_S_S1048576 : Vec F S_ .f32 → Vec F S1048576 .f32),
    binary main_v570 main_v569 main_v571 (subf : Vec F S1048576 .f32 → Vec F S1048576 .f32 → Vec F S1048576 .f32),
    binary main_v567 main_v571 main_v572 (mulf : Vec F S1048576 .f32 → Vec F S1048576 .f32 → Vec F S1048576 .f32),
    binary main_v560 main_v560 main_v573 (mulf : Vec F S1048576 .f32 → Vec F S1048576 .f32 → Vec F S1048576 .f32),
    nullary main_cst_167 (constant S_ .f32 0x40000000#32),
    unary main_cst_167 main_v574 (broadcastInDim S1048576 ![] bcast_S_S1048576 : Vec F S_ .f32 → Vec F S1048576 .f32),
    binary main_v574 main_v560 main_v575 (mulf : Vec F S1048576 .f32 → Vec F S1048576 .f32 → Vec F S1048576 .f32),
    nullary main_cst_168 (constant S_ .f32 0x40400000#32),
    unary main_cst_168 main_v576 (broadcastInDim S1048576 ![] bcast_S_S1048576 : Vec F S_ .f32 → Vec F S1048576 .f32),
    binary main_v576 main_v575 main_v577 (subf : Vec F S1048576 .f32 → Vec F S1048576 .f32 → Vec F S1048576 .f32),
    binary main_v573 main_v577 main_v578 (mulf : Vec F S1048576 .f32 → Vec F S1048576 .f32 → Vec F S1048576 .f32),
    unary main_v555 main_v579 (fptosi 32 : Vec F S1048576 .f32 → Vec F S1048576 .i32),
    nullary main_c_169 (constantI S_ 32 1#32),
    unary main_c_169 main_v580 (broadcastInDim S1048576 ![] bcast_S_S1048576 : Vec F S_ .i32 → Vec F S1048576 .i32),
    binary main_v579 main_v580 main_v581 (addi : Vec F S1048576 .i32 → Vec F S1048576 .i32 → Vec F S1048576 .i32),
    nullary main_c_170 (constantI S_ 32 127#32),
    unary main_c_170 main_v582 (broadcastInDim S1048576 ![] bcast_S_S1048576 : Vec F S_ .i32 → Vec F S1048576 .i32),
    binary main_v581 main_v582 main_v583 (minsi : Vec F S1048576 .i32 → Vec F S1048576 .i32 → Vec F S1048576 .i32),
    unary main_v556 main_v584 (fptosi 32 : Vec F S1048576 .f32 → Vec F S1048576 .i32),
    nullary main_c_171 (constantI S_ 32 1#32),
    unary main_c_171 main_v585 (broadcastInDim S1048576 ![] bcast_S_S1048576 : Vec F S_ .i32 → Vec F S1048576 .i32),
    binary main_v584 main_v585 main_v586 (addi : Vec F S1048576 .i32 → Vec F S1048576 .i32 → Vec F S1048576 .i32),
    nullary main_c_172 (constantI S_ 32 127#32),
    unary main_c_172 main_v587 (broadcastInDim S1048576 ![] bcast_S_S1048576 : Vec F S_ .i32 → Vec F S1048576 .i32),
    binary main_v586 main_v587 main_v588 (minsi : Vec F S1048576 .i32 → Vec F S1048576 .i32 → Vec F S1048576 .i32),
    unary main_v557 main_v589 (fptosi 32 : Vec F S1048576 .f32 → Vec F S1048576 .i32),
    nullary main_c_173 (constantI S_ 32 1#32),
    unary main_c_173 main_v590 (broadcastInDim S1048576 ![] bcast_S_S1048576 : Vec F S_ .i32 → Vec F S1048576 .i32),
    binary main_v589 main_v590 main_v591 (addi : Vec F S1048576 .i32 → Vec F S1048576 .i32 → Vec F S1048576 .i32),
    nullary main_c_174 (constantI S_ 32 127#32),
    unary main_c_174 main_v592 (broadcastInDim S1048576 ![] bcast_S_S1048576 : Vec F S_ .i32 → Vec F S1048576 .i32),
    binary main_v591 main_v592 main_v593 (minsi : Vec F S1048576 .i32 → Vec F S1048576 .i32 → Vec F S1048576 .i32),
    nullary main_c_175 (constantI S_ 32 0#32),
    unary main_c_175 main_v594 (broadcastInDim S1048576 ![] bcast_S_S1048576 : Vec F S_ .i32 → Vec F S1048576 .i32),
    binary main_v589 main_v594 main_v595 (cmpi .slt : Vec F S1048576 .i32 → Vec F S1048576 .i32 → Vec F S1048576 .i1),
    nullary main_c_176 (constantI S_ 32 128#32),
    unary main_c_176 main_v596 (broadcastInDim S1048576 ![] bcast_S_S1048576 : Vec F S_ .i32 → Vec F S1048576 .i32),
    binary main_v589 main_v596 main_v597 (addi : Vec F S1048576 .i32 → Vec F S1048576 .i32 → Vec F S1048576 .i32),
    ternary main_v595 main_v597 main_v589 main_v598 (select : Vec F S1048576 .i1 → Vec F S1048576 .i32 → Vec F S1048576 .i32 → Vec F S1048576 .i32),
    nullary main_c_177 (constantI S_ 32 0#32),
    unary main_c_177 main_v599 (broadcastInDim S1048576 ![] bcast_S_S1048576 : Vec F S_ .i32 → Vec F S1048576 .i32) ]

set_option maxRecDepth 8192 in
set_option maxHeartbeats 4000000 in
theorem part12_eq (c : Dev nD) : main_part12 (F := F) c = seq ops12 := rfl

set_option maxRecDepth 8192 in
theorem ops12_sub : (ops12 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops12_fresh : ∀ op ∈ (ops12 : List (HloOp τ sig (Elt F))), op.fresh = ∅ := by line_fresh

abbrev ops12_outs : List (Ref sig .tc) :=
  [main_v555, main_v556, main_v557, main_v558, main_v559, main_v560, main_v561, main_cst_163, main_v562, main_v563, main_cst_164, main_v564, main_v565, main_v566, main_v567, main_cst_165, main_v568, main_v569, main_cst_166, main_v570, main_v571, main_v572, main_v573, main_cst_167, main_v574, main_v575, main_cst_168, main_v576, main_v577, main_v578, main_v579, main_c_169, main_v580, main_v581, main_c_170, main_v582, main_v583, main_v584, main_c_171, main_v585, main_v586, main_c_172, main_v587, main_v588, main_v589, main_c_173, main_v590, main_v591, main_c_174, main_v592, main_v593, main_c_175, main_v594, main_v595, main_c_176, main_v596, main_v597, main_v598, main_c_177, main_v599]

set_option maxRecDepth 8192 in
theorem ops12_writes : (ops12 : List (HloOp τ sig (Elt F))).Forall fun op => op.writes ⊆ (ops12_outs.map (Proc.devRef (τ := τ) .tc)).toFinset := by
  repeat' constructor
  all_goals exact writes_sub_of_mem (by decide)

set_option maxHeartbeats 4000000 in

abbrev ops13 : List (HloOp τ sig (Elt F)) :=
  [
    binary main_v584 main_v599 main_v600 (cmpi .slt : Vec F S1048576 .i32 → Vec F S1048576 .i32 → Vec F S1048576 .i1),
    nullary main_c_178 (constantI S_ 32 128#32),
    unary main_c_178 main_v601 (broadcastInDim S1048576 ![] bcast_S_S1048576 : Vec F S_ .i32 → Vec F S1048576 .i32),
    binary main_v584 main_v601 main_v602 (addi : Vec F S1048576 .i32 → Vec F S1048576 .i32 → Vec F S1048576 .i32),
    ternary main_v600 main_v602 main_v584 main_v603 (select : Vec F S1048576 .i1 → Vec F S1048576 .i32 → Vec F S1048576 .i32 → Vec F S1048576 .i32),
    nullary main_c_179 (constantI S_ 32 0#32),
    unary main_c_179 main_v604 (broadcastInDim S1048576 ![] bcast_S_S1048576 : Vec F S_ .i32 → Vec F S1048576 .i32),
    binary main_v579 main_v604 main_v605 (cmpi .slt : Vec F S1048576 .i32 → Vec F S1048576 .i32 → Vec F S1048576 .i1),
    nullary main_c_180 (constantI S_ 32 128#32),
    unary main_c_180 main_v606 (broadcastInDim S1048576 ![] bcast_S_S1048576 : Vec F S_ .i32 → Vec F S1048576 .i32),
    binary main_v579 main_v606 main_v607 (addi : Vec F S1048576 .i32 → Vec F S1048576 .i32 → Vec F S1048576 .i32),
    ternary main_v605 main_v607 main_v579 main_v608 (select : Vec F S1048576 .i1 → Vec F S1048576 .i32 → Vec F S1048576 .i32 → Vec F S1048576 .i32),
    unary main_v598 main_v609 (broadcastInDim S1048576x1 ![0] bcast_S1048576_S1048576x1_0 : Vec F S1048576 .i32 → Vec F S1048576x1 .i32),
    unary main_v603 main_v610 (broadcastInDim S1048576x1 ![0] bcast_S1048576_S1048576x1_0 : Vec F S1048576 .i32 → Vec F S1048576x1 .i32),
    unary main_v608 main_v611 (broadcastInDim S1048576x1 ![0] bcast_S1048576_S1048576x1_0 : Vec F S1048576 .i32 → Vec F S1048576x1 .i32),
    nary ![main_v609, main_v610, main_v611] main_v612 (fun u => concatenate S1048576x3 1 [⟨S1048576x1, u 0⟩, ⟨S1048576x1, u 1⟩, ⟨S1048576x1, u 2⟩] concatenates_S1048576x1_S1048576x1_S1048576x1_S1048576x3_d1),
    binary main_v527 main_v612 main_v613 ((fun x i => Host.gather gather_S4x128x128x128_S1048576x3_S4x1048576_0_123_n_n_123_1_4111 x i) : Vec F S4x128x128x128 .f32 → Vec F S1048576x3 .i32 → Vec F S4x1048576 .f32),
    nullary main_c_181 (constantI S_ 32 0#32),
    unary main_c_181 main_v614 (broadcastInDim S1048576 ![] bcast_S_S1048576 : Vec F S_ .i32 → Vec F S1048576 .i32),
    binary main_v589 main_v614 main_v615 (cmpi .slt : Vec F S1048576 .i32 → Vec F S1048576 .i32 → Vec F S1048576 .i1),
    nullary main_c_182 (constantI S_ 32 128#32),
    unary main_c_182 main_v616 (broadcastInDim S1048576 ![] bcast_S_S1048576 : Vec F S_ .i32 → Vec F S1048576 .i32),
    binary main_v589 main_v616 main_v617 (addi : Vec F S1048576 .i32 → Vec F S1048576 .i32 → Vec F S1048576 .i32),
    ternary main_v615 main_v617 main_v589 main_v618 (select : Vec F S1048576 .i1 → Vec F S1048576 .i32 → Vec F S1048576 .i32 → Vec F S1048576 .i32),
    nullary main_c_183 (constantI S_ 32 0#32),
    unary main_c_183 main_v619 (broadcastInDim S1048576 ![] bcast_S_S1048576 : Vec F S_ .i32 → Vec F S1048576 .i32),
    binary main_v584 main_v619 main_v620 (cmpi .slt : Vec F S1048576 .i32 → Vec F S1048576 .i32 → Vec F S1048576 .i1),
    nullary main_c_184 (constantI S_ 32 128#32),
    unary main_c_184 main_v621 (broadcastInDim S1048576 ![] bcast_S_S1048576 : Vec F S_ .i32 → Vec F S1048576 .i32),
    binary main_v584 main_v621 main_v622 (addi : Vec F S1048576 .i32 → Vec F S1048576 .i32 → Vec F S1048576 .i32),
    ternary main_v620 main_v622 main_v584 main_v623 (select : Vec F S1048576 .i1 → Vec F S1048576 .i32 → Vec F S1048576 .i32 → Vec F S1048576 .i32),
    nullary main_c_185 (constantI S_ 32 0#32),
    unary main_c_185 main_v624 (broadcastInDim S1048576 ![] bcast_S_S1048576 : Vec F S_ .i32 → Vec F S1048576 .i32),
    binary main_v583 main_v624 main_v625 (cmpi .slt : Vec F S1048576 .i32 → Vec F S1048576 .i32 → Vec F S1048576 .i1),
    nullary main_c_186 (constantI S_ 32 128#32),
    unary main_c_186 main_v626 (broadcastInDim S1048576 ![] bcast_S_S1048576 : Vec F S_ .i32 → Vec F S1048576 .i32),
    binary main_v583 main_v626 main_v627 (addi : Vec F S1048576 .i32 → Vec F S1048576 .i32 → Vec F S1048576 .i32),
    ternary main_v625 main_v627 main_v583 main_v628 (select : Vec F S1048576 .i1 → Vec F S1048576 .i32 → Vec F S1048576 .i32 → Vec F S1048576 .i32),
    unary main_v618 main_v629 (broadcastInDim S1048576x1 ![0] bcast_S1048576_S1048576x1_0 : Vec F S1048576 .i32 → Vec F S1048576x1 .i32),
    unary main_v623 main_v630 (broadcastInDim S1048576x1 ![0] bcast_S1048576_S1048576x1_0 : Vec F S1048576 .i32 → Vec F S1048576x1 .i32),
    unary main_v628 main_v631 (broadcastInDim S1048576x1 ![0] bcast_S1048576_S1048576x1_0 : Vec F S1048576 .i32 → Vec F S1048576x1 .i32),
    nary ![main_v629, main_v630, main_v631] main_v632 (fun u => concatenate S1048576x3 1 [⟨S1048576x1, u 0⟩, ⟨S1048576x1, u 1⟩, ⟨S1048576x1, u 2⟩] concatenates_S1048576x1_S1048576x1_S1048576x1_S1048576x3_d1),
    binary main_v527 main_v632 main_v633 ((fun x i => Host.gather gather_S4x128x128x128_S1048576x3_S4x1048576_0_123_n_n_123_1_4111 x i) : Vec F S4x128x128x128 .f32 → Vec F S1048576x3 .i32 → Vec F S4x1048576 .f32),
    nullary main_c_187 (constantI S_ 32 0#32),
    unary main_c_187 main_v634 (broadcastInDim S1048576 ![] bcast_S_S1048576 : Vec F S_ .i32 → Vec F S1048576 .i32),
    binary main_v589 main_v634 main_v635 (cmpi .slt : Vec F S1048576 .i32 → Vec F S1048576 .i32 → Vec F S1048576 .i1),
    nullary main_c_188 (constantI S_ 32 128#32),
    unary main_c_188 main_v636 (broadcastInDim S1048576 ![] bcast_S_S1048576 : Vec F S_ .i32 → Vec F S1048576 .i32),
    binary main_v589 main_v636 main_v637 (addi : Vec F S1048576 .i32 → Vec F S1048576 .i32 → Vec F S1048576 .i32),
    ternary main_v635 main_v637 main_v589 main_v638 (select : Vec F S1048576 .i1 → Vec F S1048576 .i32 → Vec F S1048576 .i32 → Vec F S1048576 .i32),
    nullary main_c_189 (constantI S_ 32 0#32),
    unary main_c_189 main_v639 (broadcastInDim S1048576 ![] bcast_S_S1048576 : Vec F S_ .i32 → Vec F S1048576 .i32),
    binary main_v588 main_v639 main_v640 (cmpi .slt : Vec F S1048576 .i32 → Vec F S1048576 .i32 → Vec F S1048576 .i1),
    nullary main_c_190 (constantI S_ 32 128#32),
    unary main_c_190 main_v641 (broadcastInDim S1048576 ![] bcast_S_S1048576 : Vec F S_ .i32 → Vec F S1048576 .i32),
    binary main_v588 main_v641 main_v642 (addi : Vec F S1048576 .i32 → Vec F S1048576 .i32 → Vec F S1048576 .i32),
    ternary main_v640 main_v642 main_v588 main_v643 (select : Vec F S1048576 .i1 → Vec F S1048576 .i32 → Vec F S1048576 .i32 → Vec F S1048576 .i32),
    nullary main_c_191 (constantI S_ 32 0#32),
    unary main_c_191 main_v644 (broadcastInDim S1048576 ![] bcast_S_S1048576 : Vec F S_ .i32 → Vec F S1048576 .i32),
    binary main_v579 main_v644 main_v645 (cmpi .slt : Vec F S1048576 .i32 → Vec F S1048576 .i32 → Vec F S1048576 .i1) ]

set_option maxRecDepth 8192 in
set_option maxHeartbeats 4000000 in
theorem part13_eq (c : Dev nD) : main_part13 (F := F) c = seq ops13 := rfl

set_option maxRecDepth 8192 in
theorem ops13_sub : (ops13 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops13_fresh : ∀ op ∈ (ops13 : List (HloOp τ sig (Elt F))), op.fresh = ∅ := by line_fresh

abbrev ops13_outs : List (Ref sig .tc) :=
  [main_v600, main_c_178, main_v601, main_v602, main_v603, main_c_179, main_v604, main_v605, main_c_180, main_v606, main_v607, main_v608, main_v609, main_v610, main_v611, main_v612, main_v613, main_c_181, main_v614, main_v615, main_c_182, main_v616, main_v617, main_v618, main_c_183, main_v619, main_v620, main_c_184, main_v621, main_v622, main_v623, main_c_185, main_v624, main_v625, main_c_186, main_v626, main_v627, main_v628, main_v629, main_v630, main_v631, main_v632, main_v633, main_c_187, main_v634, main_v635, main_c_188, main_v636, main_v637, main_v638, main_c_189, main_v639, main_v640, main_c_190, main_v641, main_v642, main_v643, main_c_191, main_v644, main_v645]

set_option maxRecDepth 8192 in
theorem ops13_writes : (ops13 : List (HloOp τ sig (Elt F))).Forall fun op => op.writes ⊆ (ops13_outs.map (Proc.devRef (τ := τ) .tc)).toFinset := by
  repeat' constructor
  all_goals exact writes_sub_of_mem (by decide)

set_option maxHeartbeats 4000000 in

abbrev ops14 : List (HloOp τ sig (Elt F)) :=
  [
    nullary main_c_192 (constantI S_ 32 128#32),
    unary main_c_192 main_v646 (broadcastInDim S1048576 ![] bcast_S_S1048576 : Vec F S_ .i32 → Vec F S1048576 .i32),
    binary main_v579 main_v646 main_v647 (addi : Vec F S1048576 .i32 → Vec F S1048576 .i32 → Vec F S1048576 .i32),
    ternary main_v645 main_v647 main_v579 main_v648 (select : Vec F S1048576 .i1 → Vec F S1048576 .i32 → Vec F S1048576 .i32 → Vec F S1048576 .i32),
    unary main_v638 main_v649 (broadcastInDim S1048576x1 ![0] bcast_S1048576_S1048576x1_0 : Vec F S1048576 .i32 → Vec F S1048576x1 .i32),
    unary main_v643 main_v650 (broadcastInDim S1048576x1 ![0] bcast_S1048576_S1048576x1_0 : Vec F S1048576 .i32 → Vec F S1048576x1 .i32),
    unary main_v648 main_v651 (broadcastInDim S1048576x1 ![0] bcast_S1048576_S1048576x1_0 : Vec F S1048576 .i32 → Vec F S1048576x1 .i32),
    nary ![main_v649, main_v650, main_v651] main_v652 (fun u => concatenate S1048576x3 1 [⟨S1048576x1, u 0⟩, ⟨S1048576x1, u 1⟩, ⟨S1048576x1, u 2⟩] concatenates_S1048576x1_S1048576x1_S1048576x1_S1048576x3_d1),
    binary main_v527 main_v652 main_v653 ((fun x i => Host.gather gather_S4x128x128x128_S1048576x3_S4x1048576_0_123_n_n_123_1_4111 x i) : Vec F S4x128x128x128 .f32 → Vec F S1048576x3 .i32 → Vec F S4x1048576 .f32),
    nullary main_c_193 (constantI S_ 32 0#32),
    unary main_c_193 main_v654 (broadcastInDim S1048576 ![] bcast_S_S1048576 : Vec F S_ .i32 → Vec F S1048576 .i32),
    binary main_v589 main_v654 main_v655 (cmpi .slt : Vec F S1048576 .i32 → Vec F S1048576 .i32 → Vec F S1048576 .i1),
    nullary main_c_194 (constantI S_ 32 128#32),
    unary main_c_194 main_v656 (broadcastInDim S1048576 ![] bcast_S_S1048576 : Vec F S_ .i32 → Vec F S1048576 .i32),
    binary main_v589 main_v656 main_v657 (addi : Vec F S1048576 .i32 → Vec F S1048576 .i32 → Vec F S1048576 .i32),
    ternary main_v655 main_v657 main_v589 main_v658 (select : Vec F S1048576 .i1 → Vec F S1048576 .i32 → Vec F S1048576 .i32 → Vec F S1048576 .i32),
    nullary main_c_195 (constantI S_ 32 0#32),
    unary main_c_195 main_v659 (broadcastInDim S1048576 ![] bcast_S_S1048576 : Vec F S_ .i32 → Vec F S1048576 .i32),
    binary main_v588 main_v659 main_v660 (cmpi .slt : Vec F S1048576 .i32 → Vec F S1048576 .i32 → Vec F S1048576 .i1),
    nullary main_c_196 (constantI S_ 32 128#32),
    unary main_c_196 main_v661 (broadcastInDim S1048576 ![] bcast_S_S1048576 : Vec F S_ .i32 → Vec F S1048576 .i32),
    binary main_v588 main_v661 main_v662 (addi : Vec F S1048576 .i32 → Vec F S1048576 .i32 → Vec F S1048576 .i32),
    ternary main_v660 main_v662 main_v588 main_v663 (select : Vec F S1048576 .i1 → Vec F S1048576 .i32 → Vec F S1048576 .i32 → Vec F S1048576 .i32),
    nullary main_c_197 (constantI S_ 32 0#32),
    unary main_c_197 main_v664 (broadcastInDim S1048576 ![] bcast_S_S1048576 : Vec F S_ .i32 → Vec F S1048576 .i32),
    binary main_v583 main_v664 main_v665 (cmpi .slt : Vec F S1048576 .i32 → Vec F S1048576 .i32 → Vec F S1048576 .i1),
    nullary main_c_198 (constantI S_ 32 128#32),
    unary main_c_198 main_v666 (broadcastInDim S1048576 ![] bcast_S_S1048576 : Vec F S_ .i32 → Vec F S1048576 .i32),
    binary main_v583 main_v666 main_v667 (addi : Vec F S1048576 .i32 → Vec F S1048576 .i32 → Vec F S1048576 .i32),
    ternary main_v665 main_v667 main_v583 main_v668 (select : Vec F S1048576 .i1 → Vec F S1048576 .i32 → Vec F S1048576 .i32 → Vec F S1048576 .i32),
    unary main_v658 main_v669 (broadcastInDim S1048576x1 ![0] bcast_S1048576_S1048576x1_0 : Vec F S1048576 .i32 → Vec F S1048576x1 .i32),
    unary main_v663 main_v670 (broadcastInDim S1048576x1 ![0] bcast_S1048576_S1048576x1_0 : Vec F S1048576 .i32 → Vec F S1048576x1 .i32),
    unary main_v668 main_v671 (broadcastInDim S1048576x1 ![0] bcast_S1048576_S1048576x1_0 : Vec F S1048576 .i32 → Vec F S1048576x1 .i32),
    nary ![main_v669, main_v670, main_v671] main_v672 (fun u => concatenate S1048576x3 1 [⟨S1048576x1, u 0⟩, ⟨S1048576x1, u 1⟩, ⟨S1048576x1, u 2⟩] concatenates_S1048576x1_S1048576x1_S1048576x1_S1048576x3_d1),
    binary main_v527 main_v672 main_v673 ((fun x i => Host.gather gather_S4x128x128x128_S1048576x3_S4x1048576_0_123_n_n_123_1_4111 x i) : Vec F S4x128x128x128 .f32 → Vec F S1048576x3 .i32 → Vec F S4x1048576 .f32),
    nullary main_c_199 (constantI S_ 32 0#32),
    unary main_c_199 main_v674 (broadcastInDim S1048576 ![] bcast_S_S1048576 : Vec F S_ .i32 → Vec F S1048576 .i32),
    binary main_v593 main_v674 main_v675 (cmpi .slt : Vec F S1048576 .i32 → Vec F S1048576 .i32 → Vec F S1048576 .i1),
    nullary main_c_200 (constantI S_ 32 128#32),
    unary main_c_200 main_v676 (broadcastInDim S1048576 ![] bcast_S_S1048576 : Vec F S_ .i32 → Vec F S1048576 .i32),
    binary main_v593 main_v676 main_v677 (addi : Vec F S1048576 .i32 → Vec F S1048576 .i32 → Vec F S1048576 .i32),
    ternary main_v675 main_v677 main_v593 main_v678 (select : Vec F S1048576 .i1 → Vec F S1048576 .i32 → Vec F S1048576 .i32 → Vec F S1048576 .i32),
    nullary main_c_201 (constantI S_ 32 0#32),
    unary main_c_201 main_v679 (broadcastInDim S1048576 ![] bcast_S_S1048576 : Vec F S_ .i32 → Vec F S1048576 .i32),
    binary main_v584 main_v679 main_v680 (cmpi .slt : Vec F S1048576 .i32 → Vec F S1048576 .i32 → Vec F S1048576 .i1),
    nullary main_c_202 (constantI S_ 32 128#32),
    unary main_c_202 main_v681 (broadcastInDim S1048576 ![] bcast_S_S1048576 : Vec F S_ .i32 → Vec F S1048576 .i32),
    binary main_v584 main_v681 main_v682 (addi : Vec F S1048576 .i32 → Vec F S1048576 .i32 → Vec F S1048576 .i32),
    ternary main_v680 main_v682 main_v584 main_v683 (select : Vec F S1048576 .i1 → Vec F S1048576 .i32 → Vec F S1048576 .i32 → Vec F S1048576 .i32),
    nullary main_c_203 (constantI S_ 32 0#32),
    unary main_c_203 main_v684 (broadcastInDim S1048576 ![] bcast_S_S1048576 : Vec F S_ .i32 → Vec F S1048576 .i32),
    binary main_v579 main_v684 main_v685 (cmpi .slt : Vec F S1048576 .i32 → Vec F S1048576 .i32 → Vec F S1048576 .i1),
    nullary main_c_204 (constantI S_ 32 128#32),
    unary main_c_204 main_v686 (broadcastInDim S1048576 ![] bcast_S_S1048576 : Vec F S_ .i32 → Vec F S1048576 .i32),
    binary main_v579 main_v686 main_v687 (addi : Vec F S1048576 .i32 → Vec F S1048576 .i32 → Vec F S1048576 .i32),
    ternary main_v685 main_v687 main_v579 main_v688 (select : Vec F S1048576 .i1 → Vec F S1048576 .i32 → Vec F S1048576 .i32 → Vec F S1048576 .i32),
    unary main_v678 main_v689 (broadcastInDim S1048576x1 ![0] bcast_S1048576_S1048576x1_0 : Vec F S1048576 .i32 → Vec F S1048576x1 .i32),
    unary main_v683 main_v690 (broadcastInDim S1048576x1 ![0] bcast_S1048576_S1048576x1_0 : Vec F S1048576 .i32 → Vec F S1048576x1 .i32),
    unary main_v688 main_v691 (broadcastInDim S1048576x1 ![0] bcast_S1048576_S1048576x1_0 : Vec F S1048576 .i32 → Vec F S1048576x1 .i32),
    nary ![main_v689, main_v690, main_v691] main_v692 (fun u => concatenate S1048576x3 1 [⟨S1048576x1, u 0⟩, ⟨S1048576x1, u 1⟩, ⟨S1048576x1, u 2⟩] concatenates_S1048576x1_S1048576x1_S1048576x1_S1048576x3_d1) ]

set_option maxRecDepth 8192 in
set_option maxHeartbeats 4000000 in
theorem part14_eq (c : Dev nD) : main_part14 (F := F) c = seq ops14 := rfl

set_option maxRecDepth 8192 in
theorem ops14_sub : (ops14 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops14_fresh : ∀ op ∈ (ops14 : List (HloOp τ sig (Elt F))), op.fresh = ∅ := by line_fresh

abbrev ops14_outs : List (Ref sig .tc) :=
  [main_c_192, main_v646, main_v647, main_v648, main_v649, main_v650, main_v651, main_v652, main_v653, main_c_193, main_v654, main_v655, main_c_194, main_v656, main_v657, main_v658, main_c_195, main_v659, main_v660, main_c_196, main_v661, main_v662, main_v663, main_c_197, main_v664, main_v665, main_c_198, main_v666, main_v667, main_v668, main_v669, main_v670, main_v671, main_v672, main_v673, main_c_199, main_v674, main_v675, main_c_200, main_v676, main_v677, main_v678, main_c_201, main_v679, main_v680, main_c_202, main_v681, main_v682, main_v683, main_c_203, main_v684, main_v685, main_c_204, main_v686, main_v687, main_v688, main_v689, main_v690, main_v691, main_v692]

set_option maxRecDepth 8192 in
theorem ops14_writes : (ops14 : List (HloOp τ sig (Elt F))).Forall fun op => op.writes ⊆ (ops14_outs.map (Proc.devRef (τ := τ) .tc)).toFinset := by
  repeat' constructor
  all_goals exact writes_sub_of_mem (by decide)

set_option maxHeartbeats 4000000 in

abbrev ops15 : List (HloOp τ sig (Elt F)) :=
  [
    binary main_v527 main_v692 main_v693 ((fun x i => Host.gather gather_S4x128x128x128_S1048576x3_S4x1048576_0_123_n_n_123_1_4111 x i) : Vec F S4x128x128x128 .f32 → Vec F S1048576x3 .i32 → Vec F S4x1048576 .f32),
    nullary main_c_205 (constantI S_ 32 0#32),
    unary main_c_205 main_v694 (broadcastInDim S1048576 ![] bcast_S_S1048576 : Vec F S_ .i32 → Vec F S1048576 .i32),
    binary main_v593 main_v694 main_v695 (cmpi .slt : Vec F S1048576 .i32 → Vec F S1048576 .i32 → Vec F S1048576 .i1),
    nullary main_c_206 (constantI S_ 32 128#32),
    unary main_c_206 main_v696 (broadcastInDim S1048576 ![] bcast_S_S1048576 : Vec F S_ .i32 → Vec F S1048576 .i32),
    binary main_v593 main_v696 main_v697 (addi : Vec F S1048576 .i32 → Vec F S1048576 .i32 → Vec F S1048576 .i32),
    ternary main_v695 main_v697 main_v593 main_v698 (select : Vec F S1048576 .i1 → Vec F S1048576 .i32 → Vec F S1048576 .i32 → Vec F S1048576 .i32),
    nullary main_c_207 (constantI S_ 32 0#32),
    unary main_c_207 main_v699 (broadcastInDim S1048576 ![] bcast_S_S1048576 : Vec F S_ .i32 → Vec F S1048576 .i32),
    binary main_v584 main_v699 main_v700 (cmpi .slt : Vec F S1048576 .i32 → Vec F S1048576 .i32 → Vec F S1048576 .i1),
    nullary main_c_208 (constantI S_ 32 128#32),
    unary main_c_208 main_v701 (broadcastInDim S1048576 ![] bcast_S_S1048576 : Vec F S_ .i32 → Vec F S1048576 .i32),
    binary main_v584 main_v701 main_v702 (addi : Vec F S1048576 .i32 → Vec F S1048576 .i32 → Vec F S1048576 .i32),
    ternary main_v700 main_v702 main_v584 main_v703 (select : Vec F S1048576 .i1 → Vec F S1048576 .i32 → Vec F S1048576 .i32 → Vec F S1048576 .i32),
    nullary main_c_209 (constantI S_ 32 0#32),
    unary main_c_209 main_v704 (broadcastInDim S1048576 ![] bcast_S_S1048576 : Vec F S_ .i32 → Vec F S1048576 .i32),
    binary main_v583 main_v704 main_v705 (cmpi .slt : Vec F S1048576 .i32 → Vec F S1048576 .i32 → Vec F S1048576 .i1),
    nullary main_c_210 (constantI S_ 32 128#32),
    unary main_c_210 main_v706 (broadcastInDim S1048576 ![] bcast_S_S1048576 : Vec F S_ .i32 → Vec F S1048576 .i32),
    binary main_v583 main_v706 main_v707 (addi : Vec F S1048576 .i32 → Vec F S1048576 .i32 → Vec F S1048576 .i32),
    ternary main_v705 main_v707 main_v583 main_v708 (select : Vec F S1048576 .i1 → Vec F S1048576 .i32 → Vec F S1048576 .i32 → Vec F S1048576 .i32),
    unary main_v698 main_v709 (broadcastInDim S1048576x1 ![0] bcast_S1048576_S1048576x1_0 : Vec F S1048576 .i32 → Vec F S1048576x1 .i32),
    unary main_v703 main_v710 (broadcastInDim S1048576x1 ![0] bcast_S1048576_S1048576x1_0 : Vec F S1048576 .i32 → Vec F S1048576x1 .i32),
    unary main_v708 main_v711 (broadcastInDim S1048576x1 ![0] bcast_S1048576_S1048576x1_0 : Vec F S1048576 .i32 → Vec F S1048576x1 .i32),
    nary ![main_v709, main_v710, main_v711] main_v712 (fun u => concatenate S1048576x3 1 [⟨S1048576x1, u 0⟩, ⟨S1048576x1, u 1⟩, ⟨S1048576x1, u 2⟩] concatenates_S1048576x1_S1048576x1_S1048576x1_S1048576x3_d1),
    binary main_v527 main_v712 main_v713 ((fun x i => Host.gather gather_S4x128x128x128_S1048576x3_S4x1048576_0_123_n_n_123_1_4111 x i) : Vec F S4x128x128x128 .f32 → Vec F S1048576x3 .i32 → Vec F S4x1048576 .f32),
    nullary main_c_211 (constantI S_ 32 0#32),
    unary main_c_211 main_v714 (broadcastInDim S1048576 ![] bcast_S_S1048576 : Vec F S_ .i32 → Vec F S1048576 .i32),
    binary main_v593 main_v714 main_v715 (cmpi .slt : Vec F S1048576 .i32 → Vec F S1048576 .i32 → Vec F S1048576 .i1),
    nullary main_c_212 (constantI S_ 32 128#32),
    unary main_c_212 main_v716 (broadcastInDim S1048576 ![] bcast_S_S1048576 : Vec F S_ .i32 → Vec F S1048576 .i32),
    binary main_v593 main_v716 main_v717 (addi : Vec F S1048576 .i32 → Vec F S1048576 .i32 → Vec F S1048576 .i32),
    ternary main_v715 main_v717 main_v593 main_v718 (select : Vec F S1048576 .i1 → Vec F S1048576 .i32 → Vec F S1048576 .i32 → Vec F S1048576 .i32),
    nullary main_c_213 (constantI S_ 32 0#32),
    unary main_c_213 main_v719 (broadcastInDim S1048576 ![] bcast_S_S1048576 : Vec F S_ .i32 → Vec F S1048576 .i32),
    binary main_v588 main_v719 main_v720 (cmpi .slt : Vec F S1048576 .i32 → Vec F S1048576 .i32 → Vec F S1048576 .i1),
    nullary main_c_214 (constantI S_ 32 128#32),
    unary main_c_214 main_v721 (broadcastInDim S1048576 ![] bcast_S_S1048576 : Vec F S_ .i32 → Vec F S1048576 .i32),
    binary main_v588 main_v721 main_v722 (addi : Vec F S1048576 .i32 → Vec F S1048576 .i32 → Vec F S1048576 .i32),
    ternary main_v720 main_v722 main_v588 main_v723 (select : Vec F S1048576 .i1 → Vec F S1048576 .i32 → Vec F S1048576 .i32 → Vec F S1048576 .i32),
    nullary main_c_215 (constantI S_ 32 0#32),
    unary main_c_215 main_v724 (broadcastInDim S1048576 ![] bcast_S_S1048576 : Vec F S_ .i32 → Vec F S1048576 .i32),
    binary main_v579 main_v724 main_v725 (cmpi .slt : Vec F S1048576 .i32 → Vec F S1048576 .i32 → Vec F S1048576 .i1),
    nullary main_c_216 (constantI S_ 32 128#32),
    unary main_c_216 main_v726 (broadcastInDim S1048576 ![] bcast_S_S1048576 : Vec F S_ .i32 → Vec F S1048576 .i32),
    binary main_v579 main_v726 main_v727 (addi : Vec F S1048576 .i32 → Vec F S1048576 .i32 → Vec F S1048576 .i32),
    ternary main_v725 main_v727 main_v579 main_v728 (select : Vec F S1048576 .i1 → Vec F S1048576 .i32 → Vec F S1048576 .i32 → Vec F S1048576 .i32),
    unary main_v718 main_v729 (broadcastInDim S1048576x1 ![0] bcast_S1048576_S1048576x1_0 : Vec F S1048576 .i32 → Vec F S1048576x1 .i32),
    unary main_v723 main_v730 (broadcastInDim S1048576x1 ![0] bcast_S1048576_S1048576x1_0 : Vec F S1048576 .i32 → Vec F S1048576x1 .i32),
    unary main_v728 main_v731 (broadcastInDim S1048576x1 ![0] bcast_S1048576_S1048576x1_0 : Vec F S1048576 .i32 → Vec F S1048576x1 .i32),
    nary ![main_v729, main_v730, main_v731] main_v732 (fun u => concatenate S1048576x3 1 [⟨S1048576x1, u 0⟩, ⟨S1048576x1, u 1⟩, ⟨S1048576x1, u 2⟩] concatenates_S1048576x1_S1048576x1_S1048576x1_S1048576x3_d1),
    binary main_v527 main_v732 main_v733 ((fun x i => Host.gather gather_S4x128x128x128_S1048576x3_S4x1048576_0_123_n_n_123_1_4111 x i) : Vec F S4x128x128x128 .f32 → Vec F S1048576x3 .i32 → Vec F S4x1048576 .f32),
    nullary main_c_217 (constantI S_ 32 0#32),
    unary main_c_217 main_v734 (broadcastInDim S1048576 ![] bcast_S_S1048576 : Vec F S_ .i32 → Vec F S1048576 .i32),
    binary main_v593 main_v734 main_v735 (cmpi .slt : Vec F S1048576 .i32 → Vec F S1048576 .i32 → Vec F S1048576 .i1),
    nullary main_c_218 (constantI S_ 32 128#32),
    unary main_c_218 main_v736 (broadcastInDim S1048576 ![] bcast_S_S1048576 : Vec F S_ .i32 → Vec F S1048576 .i32),
    binary main_v593 main_v736 main_v737 (addi : Vec F S1048576 .i32 → Vec F S1048576 .i32 → Vec F S1048576 .i32),
    ternary main_v735 main_v737 main_v593 main_v738 (select : Vec F S1048576 .i1 → Vec F S1048576 .i32 → Vec F S1048576 .i32 → Vec F S1048576 .i32) ]

set_option maxRecDepth 8192 in
set_option maxHeartbeats 4000000 in
theorem part15_eq (c : Dev nD) : main_part15 (F := F) c = seq ops15 := rfl

set_option maxRecDepth 8192 in
theorem ops15_sub : (ops15 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops15_fresh : ∀ op ∈ (ops15 : List (HloOp τ sig (Elt F))), op.fresh = ∅ := by line_fresh

abbrev ops15_outs : List (Ref sig .tc) :=
  [main_v693, main_c_205, main_v694, main_v695, main_c_206, main_v696, main_v697, main_v698, main_c_207, main_v699, main_v700, main_c_208, main_v701, main_v702, main_v703, main_c_209, main_v704, main_v705, main_c_210, main_v706, main_v707, main_v708, main_v709, main_v710, main_v711, main_v712, main_v713, main_c_211, main_v714, main_v715, main_c_212, main_v716, main_v717, main_v718, main_c_213, main_v719, main_v720, main_c_214, main_v721, main_v722, main_v723, main_c_215, main_v724, main_v725, main_c_216, main_v726, main_v727, main_v728, main_v729, main_v730, main_v731, main_v732, main_v733, main_c_217, main_v734, main_v735, main_c_218, main_v736, main_v737, main_v738]

set_option maxRecDepth 8192 in
theorem ops15_writes : (ops15 : List (HloOp τ sig (Elt F))).Forall fun op => op.writes ⊆ (ops15_outs.map (Proc.devRef (τ := τ) .tc)).toFinset := by
  repeat' constructor
  all_goals exact writes_sub_of_mem (by decide)

set_option maxHeartbeats 4000000 in

abbrev ops16 : List (HloOp τ sig (Elt F)) :=
  [
    nullary main_c_219 (constantI S_ 32 0#32),
    unary main_c_219 main_v739 (broadcastInDim S1048576 ![] bcast_S_S1048576 : Vec F S_ .i32 → Vec F S1048576 .i32),
    binary main_v588 main_v739 main_v740 (cmpi .slt : Vec F S1048576 .i32 → Vec F S1048576 .i32 → Vec F S1048576 .i1),
    nullary main_c_220 (constantI S_ 32 128#32),
    unary main_c_220 main_v741 (broadcastInDim S1048576 ![] bcast_S_S1048576 : Vec F S_ .i32 → Vec F S1048576 .i32),
    binary main_v588 main_v741 main_v742 (addi : Vec F S1048576 .i32 → Vec F S1048576 .i32 → Vec F S1048576 .i32),
    ternary main_v740 main_v742 main_v588 main_v743 (select : Vec F S1048576 .i1 → Vec F S1048576 .i32 → Vec F S1048576 .i32 → Vec F S1048576 .i32),
    nullary main_c_221 (constantI S_ 32 0#32),
    unary main_c_221 main_v744 (broadcastInDim S1048576 ![] bcast_S_S1048576 : Vec F S_ .i32 → Vec F S1048576 .i32),
    binary main_v583 main_v744 main_v745 (cmpi .slt : Vec F S1048576 .i32 → Vec F S1048576 .i32 → Vec F S1048576 .i1),
    nullary main_c_222 (constantI S_ 32 128#32),
    unary main_c_222 main_v746 (broadcastInDim S1048576 ![] bcast_S_S1048576 : Vec F S_ .i32 → Vec F S1048576 .i32),
    binary main_v583 main_v746 main_v747 (addi : Vec F S1048576 .i32 → Vec F S1048576 .i32 → Vec F S1048576 .i32),
    ternary main_v745 main_v747 main_v583 main_v748 (select : Vec F S1048576 .i1 → Vec F S1048576 .i32 → Vec F S1048576 .i32 → Vec F S1048576 .i32),
    unary main_v738 main_v749 (broadcastInDim S1048576x1 ![0] bcast_S1048576_S1048576x1_0 : Vec F S1048576 .i32 → Vec F S1048576x1 .i32),
    unary main_v743 main_v750 (broadcastInDim S1048576x1 ![0] bcast_S1048576_S1048576x1_0 : Vec F S1048576 .i32 → Vec F S1048576x1 .i32),
    unary main_v748 main_v751 (broadcastInDim S1048576x1 ![0] bcast_S1048576_S1048576x1_0 : Vec F S1048576 .i32 → Vec F S1048576x1 .i32),
    nary ![main_v749, main_v750, main_v751] main_v752 (fun u => concatenate S1048576x3 1 [⟨S1048576x1, u 0⟩, ⟨S1048576x1, u 1⟩, ⟨S1048576x1, u 2⟩] concatenates_S1048576x1_S1048576x1_S1048576x1_S1048576x3_d1),
    binary main_v527 main_v752 main_v753 ((fun x i => Host.gather gather_S4x128x128x128_S1048576x3_S4x1048576_0_123_n_n_123_1_4111 x i) : Vec F S4x128x128x128 .f32 → Vec F S1048576x3 .i32 → Vec F S4x1048576 .f32),
    binary main_v633 main_v613 main_v754 (subf : Vec F S4x1048576 .f32 → Vec F S4x1048576 .f32 → Vec F S4x1048576 .f32),
    unary main_v566 main_v755 (broadcastInDim S1x1048576 ![1] bcast_S1048576_S1x1048576_1 : Vec F S1048576 .f32 → Vec F S1x1048576 .f32),
    unary main_v755 main_v756 (broadcastInDim S4x1048576 ![0, 1] bcast_S1x1048576_S4x1048576_0_1 : Vec F S1x1048576 .f32 → Vec F S4x1048576 .f32),
    binary main_v754 main_v756 main_v757 (mulf : Vec F S4x1048576 .f32 → Vec F S4x1048576 .f32 → Vec F S4x1048576 .f32),
    binary main_v613 main_v757 main_v758 (addf : Vec F S4x1048576 .f32 → Vec F S4x1048576 .f32 → Vec F S4x1048576 .f32),
    binary main_v673 main_v653 main_v759 (subf : Vec F S4x1048576 .f32 → Vec F S4x1048576 .f32 → Vec F S4x1048576 .f32),
    unary main_v566 main_v760 (broadcastInDim S1x1048576 ![1] bcast_S1048576_S1x1048576_1 : Vec F S1048576 .f32 → Vec F S1x1048576 .f32),
    unary main_v760 main_v761 (broadcastInDim S4x1048576 ![0, 1] bcast_S1x1048576_S4x1048576_0_1 : Vec F S1x1048576 .f32 → Vec F S4x1048576 .f32),
    binary main_v759 main_v761 main_v762 (mulf : Vec F S4x1048576 .f32 → Vec F S4x1048576 .f32 → Vec F S4x1048576 .f32),
    binary main_v653 main_v762 main_v763 (addf : Vec F S4x1048576 .f32 → Vec F S4x1048576 .f32 → Vec F S4x1048576 .f32),
    binary main_v713 main_v693 main_v764 (subf : Vec F S4x1048576 .f32 → Vec F S4x1048576 .f32 → Vec F S4x1048576 .f32),
    unary main_v566 main_v765 (broadcastInDim S1x1048576 ![1] bcast_S1048576_S1x1048576_1 : Vec F S1048576 .f32 → Vec F S1x1048576 .f32),
    unary main_v765 main_v766 (broadcastInDim S4x1048576 ![0, 1] bcast_S1x1048576_S4x1048576_0_1 : Vec F S1x1048576 .f32 → Vec F S4x1048576 .f32),
    binary main_v764 main_v766 main_v767 (mulf : Vec F S4x1048576 .f32 → Vec F S4x1048576 .f32 → Vec F S4x1048576 .f32),
    binary main_v693 main_v767 main_v768 (addf : Vec F S4x1048576 .f32 → Vec F S4x1048576 .f32 → Vec F S4x1048576 .f32),
    binary main_v753 main_v733 main_v769 (subf : Vec F S4x1048576 .f32 → Vec F S4x1048576 .f32 → Vec F S4x1048576 .f32),
    unary main_v566 main_v770 (broadcastInDim S1x1048576 ![1] bcast_S1048576_S1x1048576_1 : Vec F S1048576 .f32 → Vec F S1x1048576 .f32),
    unary main_v770 main_v771 (broadcastInDim S4x1048576 ![0, 1] bcast_S1x1048576_S4x1048576_0_1 : Vec F S1x1048576 .f32 → Vec F S4x1048576 .f32),
    binary main_v769 main_v771 main_v772 (mulf : Vec F S4x1048576 .f32 → Vec F S4x1048576 .f32 → Vec F S4x1048576 .f32),
    binary main_v733 main_v772 main_v773 (addf : Vec F S4x1048576 .f32 → Vec F S4x1048576 .f32 → Vec F S4x1048576 .f32),
    binary main_v763 main_v758 main_v774 (subf : Vec F S4x1048576 .f32 → Vec F S4x1048576 .f32 → Vec F S4x1048576 .f32),
    unary main_v572 main_v775 (broadcastInDim S1x1048576 ![1] bcast_S1048576_S1x1048576_1 : Vec F S1048576 .f32 → Vec F S1x1048576 .f32),
    unary main_v775 main_v776 (broadcastInDim S4x1048576 ![0, 1] bcast_S1x1048576_S4x1048576_0_1 : Vec F S1x1048576 .f32 → Vec F S4x1048576 .f32),
    binary main_v774 main_v776 main_v777 (mulf : Vec F S4x1048576 .f32 → Vec F S4x1048576 .f32 → Vec F S4x1048576 .f32),
    binary main_v758 main_v777 main_v778 (addf : Vec F S4x1048576 .f32 → Vec F S4x1048576 .f32 → Vec F S4x1048576 .f32),
    binary main_v773 main_v768 main_v779 (subf : Vec F S4x1048576 .f32 → Vec F S4x1048576 .f32 → Vec F S4x1048576 .f32),
    unary main_v572 main_v780 (broadcastInDim S1x1048576 ![1] bcast_S1048576_S1x1048576_1 : Vec F S1048576 .f32 → Vec F S1x1048576 .f32),
    unary main_v780 main_v781 (broadcastInDim S4x1048576 ![0, 1] bcast_S1x1048576_S4x1048576_0_1 : Vec F S1x1048576 .f32 → Vec F S4x1048576 .f32),
    binary main_v779 main_v781 main_v782 (mulf : Vec F S4x1048576 .f32 → Vec F S4x1048576 .f32 → Vec F S4x1048576 .f32),
    binary main_v768 main_v782 main_v783 (addf : Vec F S4x1048576 .f32 → Vec F S4x1048576 .f32 → Vec F S4x1048576 .f32),
    binary main_v783 main_v778 main_v784 (subf : Vec F S4x1048576 .f32 → Vec F S4x1048576 .f32 → Vec F S4x1048576 .f32),
    unary main_v578 main_v785 (broadcastInDim S1x1048576 ![1] bcast_S1048576_S1x1048576_1 : Vec F S1048576 .f32 → Vec F S1x1048576 .f32),
    unary main_v785 main_v786 (broadcastInDim S4x1048576 ![0, 1] bcast_S1x1048576_S4x1048576_0_1 : Vec F S1x1048576 .f32 → Vec F S4x1048576 .f32),
    binary main_v784 main_v786 main_v787 (mulf : Vec F S4x1048576 .f32 → Vec F S4x1048576 .f32 → Vec F S4x1048576 .f32),
    binary main_v778 main_v787 main_v788 (addf : Vec F S4x1048576 .f32 → Vec F S4x1048576 .f32 → Vec F S4x1048576 .f32),
    reshape main_v788 main_v789 rfl shapeCasts_S4x1048576_S1x4x1x1x1048576,
    reshape main_arg4 main_v790 rfl shapeCasts_S1x4x256x256x256_S4x256x256x256,
    unary main_v0 main_v791 ((extractStridedSlice S1048576x1 ![0, 0] · slices_S1048576x3_S1048576x1_0_0) : Vec F S1048576x3 .f32 → Vec F S1048576x1 .f32),
    reshape main_v791 main_v792 rfl shapeCasts_S1048576x1_S1048576,
    nullary main_cst_223 (constant S_ .f32 0x3F800000#32),
    unary main_cst_223 main_v793 (broadcastInDim S1048576 ![] bcast_S_S1048576 : Vec F S_ .f32 → Vec F S1048576 .f32) ]

set_option maxRecDepth 8192 in
set_option maxHeartbeats 4000000 in
theorem part16_eq (c : Dev nD) : main_part16 (F := F) c = seq ops16 := rfl

set_option maxRecDepth 8192 in
theorem ops16_sub : (ops16 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops16_fresh : ∀ op ∈ (ops16 : List (HloOp τ sig (Elt F))), op.fresh = ∅ := by line_fresh

abbrev ops16_outs : List (Ref sig .tc) :=
  [main_c_219, main_v739, main_v740, main_c_220, main_v741, main_v742, main_v743, main_c_221, main_v744, main_v745, main_c_222, main_v746, main_v747, main_v748, main_v749, main_v750, main_v751, main_v752, main_v753, main_v754, main_v755, main_v756, main_v757, main_v758, main_v759, main_v760, main_v761, main_v762, main_v763, main_v764, main_v765, main_v766, main_v767, main_v768, main_v769, main_v770, main_v771, main_v772, main_v773, main_v774, main_v775, main_v776, main_v777, main_v778, main_v779, main_v780, main_v781, main_v782, main_v783, main_v784, main_v785, main_v786, main_v787, main_v788, main_v789, main_v790, main_v791, main_v792, main_cst_223, main_v793]

set_option maxRecDepth 8192 in
theorem ops16_writes : (ops16 : List (HloOp τ sig (Elt F))).Forall fun op => op.writes ⊆ (ops16_outs.map (Proc.devRef (τ := τ) .tc)).toFinset := by
  repeat' constructor
  all_goals exact writes_sub_of_mem (by decide)

set_option maxHeartbeats 4000000 in

abbrev ops17 : List (HloOp τ sig (Elt F)) :=
  [
    binary main_v792 main_v793 main_v794 (addf : Vec F S1048576 .f32 → Vec F S1048576 .f32 → Vec F S1048576 .f32),
    nullary main_cst_224 (constant S_ .f32 0x3F000000#32),
    unary main_cst_224 main_v795 (broadcastInDim S1048576 ![] bcast_S_S1048576 : Vec F S_ .f32 → Vec F S1048576 .f32),
    binary main_v794 main_v795 main_v796 (mulf : Vec F S1048576 .f32 → Vec F S1048576 .f32 → Vec F S1048576 .f32),
    nullary main_cst_225 (constant S_ .f32 0x437F0000#32),
    unary main_cst_225 main_v797 (broadcastInDim S1048576 ![] bcast_S_S1048576 : Vec F S_ .f32 → Vec F S1048576 .f32),
    binary main_v796 main_v797 main_v798 (mulf : Vec F S1048576 .f32 → Vec F S1048576 .f32 → Vec F S1048576 .f32),
    nullary main_cst_226 (constant S_ .f32 0x00000000#32),
    nullary main_c_227 (constantI S_ 32 255#32),
    TRef.unary (TRef.of (T := ⟨S_, .f32⟩) main_cst_226) (TRef.of (T := ⟨S_, .f32⟩) main_call9_v0) id,
    TRef.unary (TRef.of (T := ⟨S_, .f32⟩) main_call9_v0) (TRef.of (T := ⟨S1048576, .f32⟩) main_call9_v1) (broadcastInDim S1048576 ![] bcast_S_S1048576),
    TRef.binary (TRef.of (T := ⟨S1048576, .f32⟩) main_call9_v1) (TRef.of (T := ⟨S1048576, .f32⟩) main_v798) (TRef.of (T := ⟨S1048576, .f32⟩) main_call9_v2) maximumf,
    TRef.unary (TRef.of (T := ⟨S_, .i32⟩) main_c_227) (TRef.of (T := ⟨S_, .f32⟩) main_call9_v3) (sitofp .f32),
    TRef.unary (TRef.of (T := ⟨S_, .f32⟩) main_call9_v3) (TRef.of (T := ⟨S1048576, .f32⟩) main_call9_v4) (broadcastInDim S1048576 ![] bcast_S_S1048576),
    TRef.binary (TRef.of (T := ⟨S1048576, .f32⟩) main_call9_v4) (TRef.of (T := ⟨S1048576, .f32⟩) main_call9_v2) (TRef.of (T := ⟨S1048576, .f32⟩) main_v799) minimumf,
    unary main_v0 main_v800 ((extractStridedSlice S1048576x1 ![0, 1] · slices_S1048576x3_S1048576x1_0_1) : Vec F S1048576x3 .f32 → Vec F S1048576x1 .f32),
    reshape main_v800 main_v801 rfl shapeCasts_S1048576x1_S1048576,
    nullary main_cst_228 (constant S_ .f32 0x3F800000#32),
    unary main_cst_228 main_v802 (broadcastInDim S1048576 ![] bcast_S_S1048576 : Vec F S_ .f32 → Vec F S1048576 .f32),
    binary main_v801 main_v802 main_v803 (addf : Vec F S1048576 .f32 → Vec F S1048576 .f32 → Vec F S1048576 .f32),
    nullary main_cst_229 (constant S_ .f32 0x3F000000#32),
    unary main_cst_229 main_v804 (broadcastInDim S1048576 ![] bcast_S_S1048576 : Vec F S_ .f32 → Vec F S1048576 .f32),
    binary main_v803 main_v804 main_v805 (mulf : Vec F S1048576 .f32 → Vec F S1048576 .f32 → Vec F S1048576 .f32),
    nullary main_cst_230 (constant S_ .f32 0x437F0000#32),
    unary main_cst_230 main_v806 (broadcastInDim S1048576 ![] bcast_S_S1048576 : Vec F S_ .f32 → Vec F S1048576 .f32),
    binary main_v805 main_v806 main_v807 (mulf : Vec F S1048576 .f32 → Vec F S1048576 .f32 → Vec F S1048576 .f32),
    nullary main_cst_231 (constant S_ .f32 0x00000000#32),
    nullary main_c_232 (constantI S_ 32 255#32),
    TRef.unary (TRef.of (T := ⟨S_, .f32⟩) main_cst_231) (TRef.of (T := ⟨S_, .f32⟩) main_call10_v0) id,
    TRef.unary (TRef.of (T := ⟨S_, .f32⟩) main_call10_v0) (TRef.of (T := ⟨S1048576, .f32⟩) main_call10_v1) (broadcastInDim S1048576 ![] bcast_S_S1048576),
    TRef.binary (TRef.of (T := ⟨S1048576, .f32⟩) main_call10_v1) (TRef.of (T := ⟨S1048576, .f32⟩) main_v807) (TRef.of (T := ⟨S1048576, .f32⟩) main_call10_v2) maximumf,
    TRef.unary (TRef.of (T := ⟨S_, .i32⟩) main_c_232) (TRef.of (T := ⟨S_, .f32⟩) main_call10_v3) (sitofp .f32),
    TRef.unary (TRef.of (T := ⟨S_, .f32⟩) main_call10_v3) (TRef.of (T := ⟨S1048576, .f32⟩) main_call10_v4) (broadcastInDim S1048576 ![] bcast_S_S1048576),
    TRef.binary (TRef.of (T := ⟨S1048576, .f32⟩) main_call10_v4) (TRef.of (T := ⟨S1048576, .f32⟩) main_call10_v2) (TRef.of (T := ⟨S1048576, .f32⟩) main_v808) minimumf,
    unary main_v0 main_v809 ((extractStridedSlice S1048576x1 ![0, 2] · slices_S1048576x3_S1048576x1_0_2) : Vec F S1048576x3 .f32 → Vec F S1048576x1 .f32),
    reshape main_v809 main_v810 rfl shapeCasts_S1048576x1_S1048576,
    nullary main_cst_233 (constant S_ .f32 0x3F800000#32),
    unary main_cst_233 main_v811 (broadcastInDim S1048576 ![] bcast_S_S1048576 : Vec F S_ .f32 → Vec F S1048576 .f32),
    binary main_v810 main_v811 main_v812 (addf : Vec F S1048576 .f32 → Vec F S1048576 .f32 → Vec F S1048576 .f32),
    nullary main_cst_234 (constant S_ .f32 0x3F000000#32),
    unary main_cst_234 main_v813 (broadcastInDim S1048576 ![] bcast_S_S1048576 : Vec F S_ .f32 → Vec F S1048576 .f32),
    binary main_v812 main_v813 main_v814 (mulf : Vec F S1048576 .f32 → Vec F S1048576 .f32 → Vec F S1048576 .f32),
    nullary main_cst_235 (constant S_ .f32 0x437F0000#32),
    unary main_cst_235 main_v815 (broadcastInDim S1048576 ![] bcast_S_S1048576 : Vec F S_ .f32 → Vec F S1048576 .f32),
    binary main_v814 main_v815 main_v816 (mulf : Vec F S1048576 .f32 → Vec F S1048576 .f32 → Vec F S1048576 .f32),
    nullary main_cst_236 (constant S_ .f32 0x00000000#32),
    nullary main_c_237 (constantI S_ 32 255#32),
    TRef.unary (TRef.of (T := ⟨S_, .f32⟩) main_cst_236) (TRef.of (T := ⟨S_, .f32⟩) main_call11_v0) id,
    TRef.unary (TRef.of (T := ⟨S_, .f32⟩) main_call11_v0) (TRef.of (T := ⟨S1048576, .f32⟩) main_call11_v1) (broadcastInDim S1048576 ![] bcast_S_S1048576),
    TRef.binary (TRef.of (T := ⟨S1048576, .f32⟩) main_call11_v1) (TRef.of (T := ⟨S1048576, .f32⟩) main_v816) (TRef.of (T := ⟨S1048576, .f32⟩) main_call11_v2) maximumf,
    TRef.unary (TRef.of (T := ⟨S_, .i32⟩) main_c_237) (TRef.of (T := ⟨S_, .f32⟩) main_call11_v3) (sitofp .f32),
    TRef.unary (TRef.of (T := ⟨S_, .f32⟩) main_call11_v3) (TRef.of (T := ⟨S1048576, .f32⟩) main_call11_v4) (broadcastInDim S1048576 ![] bcast_S_S1048576),
    TRef.binary (TRef.of (T := ⟨S1048576, .f32⟩) main_call11_v4) (TRef.of (T := ⟨S1048576, .f32⟩) main_call11_v2) (TRef.of (T := ⟨S1048576, .f32⟩) main_v817) minimumf,
    unary main_v799 main_v818 (Host.floor : Vec F S1048576 .f32 → Vec F S1048576 .f32),
    unary main_v808 main_v819 (Host.floor : Vec F S1048576 .f32 → Vec F S1048576 .f32),
    unary main_v817 main_v820 (Host.floor : Vec F S1048576 .f32 → Vec F S1048576 .f32),
    binary main_v799 main_v818 main_v821 (subf : Vec F S1048576 .f32 → Vec F S1048576 .f32 → Vec F S1048576 .f32),
    binary main_v808 main_v819 main_v822 (subf : Vec F S1048576 .f32 → Vec F S1048576 .f32 → Vec F S1048576 .f32),
    binary main_v817 main_v820 main_v823 (subf : Vec F S1048576 .f32 → Vec F S1048576 .f32 → Vec F S1048576 .f32),
    binary main_v821 main_v821 main_v824 (mulf : Vec F S1048576 .f32 → Vec F S1048576 .f32 → Vec F S1048576 .f32),
    nullary main_cst_238 (constant S_ .f32 0x40000000#32),
    unary main_cst_238 main_v825 (broadcastInDim S1048576 ![] bcast_S_S1048576 : Vec F S_ .f32 → Vec F S1048576 .f32),
    binary main_v825 main_v821 main_v826 (mulf : Vec F S1048576 .f32 → Vec F S1048576 .f32 → Vec F S1048576 .f32),
    nullary main_cst_239 (constant S_ .f32 0x40400000#32),
    unary main_cst_239 main_v827 (broadcastInDim S1048576 ![] bcast_S_S1048576 : Vec F S_ .f32 → Vec F S1048576 .f32),
    binary main_v827 main_v826 main_v828 (subf : Vec F S1048576 .f32 → Vec F S1048576 .f32 → Vec F S1048576 .f32),
    binary main_v824 main_v828 main_v829 (mulf : Vec F S1048576 .f32 → Vec F S1048576 .f32 → Vec F S1048576 .f32),
    binary main_v822 main_v822 main_v830 (mulf : Vec F S1048576 .f32 → Vec F S1048576 .f32 → Vec F S1048576 .f32),
    nullary main_cst_240 (constant S_ .f32 0x40000000#32),
    unary main_cst_240 main_v831 (broadcastInDim S1048576 ![] bcast_S_S1048576 : Vec F S_ .f32 → Vec F S1048576 .f32),
    binary main_v831 main_v822 main_v832 (mulf : Vec F S1048576 .f32 → Vec F S1048576 .f32 → Vec F S1048576 .f32),
    nullary main_cst_241 (constant S_ .f32 0x40400000#32),
    unary main_cst_241 main_v833 (broadcastInDim S1048576 ![] bcast_S_S1048576 : Vec F S_ .f32 → Vec F S1048576 .f32),
    binary main_v833 main_v832 main_v834 (subf : Vec F S1048576 .f32 → Vec F S1048576 .f32 → Vec F S1048576 .f32),
    binary main_v830 main_v834 main_v835 (mulf : Vec F S1048576 .f32 → Vec F S1048576 .f32 → Vec F S1048576 .f32) ]

set_option maxRecDepth 8192 in
set_option maxHeartbeats 4000000 in
theorem part17_eq (c : Dev nD) : main_part17 (F := F) c = seq ops17 := rfl

set_option maxRecDepth 8192 in
theorem ops17_sub : (ops17 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops17_fresh : ∀ op ∈ (ops17 : List (HloOp τ sig (Elt F))), op.fresh = ∅ := by line_fresh

abbrev ops17_outs : List (Ref sig .tc) :=
  [main_v794, main_cst_224, main_v795, main_v796, main_cst_225, main_v797, main_v798, main_cst_226, main_c_227, main_call9_v0, main_call9_v1, main_call9_v2, main_call9_v3, main_call9_v4, main_v799, main_v800, main_v801, main_cst_228, main_v802, main_v803, main_cst_229, main_v804, main_v805, main_cst_230, main_v806, main_v807, main_cst_231, main_c_232, main_call10_v0, main_call10_v1, main_call10_v2, main_call10_v3, main_call10_v4, main_v808, main_v809, main_v810, main_cst_233, main_v811, main_v812, main_cst_234, main_v813, main_v814, main_cst_235, main_v815, main_v816, main_cst_236, main_c_237, main_call11_v0, main_call11_v1, main_call11_v2, main_call11_v3, main_call11_v4, main_v817, main_v818, main_v819, main_v820, main_v821, main_v822, main_v823, main_v824, main_cst_238, main_v825, main_v826, main_cst_239, main_v827, main_v828, main_v829, main_v830, main_cst_240, main_v831, main_v832, main_cst_241, main_v833, main_v834, main_v835]

set_option maxRecDepth 8192 in
theorem ops17_writes : (ops17 : List (HloOp τ sig (Elt F))).Forall fun op => op.writes ⊆ (ops17_outs.map (Proc.devRef (τ := τ) .tc)).toFinset := by
  repeat' constructor
  all_goals exact writes_sub_of_mem (by decide)

set_option maxHeartbeats 4000000 in

abbrev ops18 : List (HloOp τ sig (Elt F)) :=
  [
    binary main_v823 main_v823 main_v836 (mulf : Vec F S1048576 .f32 → Vec F S1048576 .f32 → Vec F S1048576 .f32),
    nullary main_cst_242 (constant S_ .f32 0x40000000#32),
    unary main_cst_242 main_v837 (broadcastInDim S1048576 ![] bcast_S_S1048576 : Vec F S_ .f32 → Vec F S1048576 .f32),
    binary main_v837 main_v823 main_v838 (mulf : Vec F S1048576 .f32 → Vec F S1048576 .f32 → Vec F S1048576 .f32),
    nullary main_cst_243 (constant S_ .f32 0x40400000#32),
    unary main_cst_243 main_v839 (broadcastInDim S1048576 ![] bcast_S_S1048576 : Vec F S_ .f32 → Vec F S1048576 .f32),
    binary main_v839 main_v838 main_v840 (subf : Vec F S1048576 .f32 → Vec F S1048576 .f32 → Vec F S1048576 .f32),
    binary main_v836 main_v840 main_v841 (mulf : Vec F S1048576 .f32 → Vec F S1048576 .f32 → Vec F S1048576 .f32),
    unary main_v818 main_v842 (fptosi 32 : Vec F S1048576 .f32 → Vec F S1048576 .i32),
    nullary main_c_244 (constantI S_ 32 1#32),
    unary main_c_244 main_v843 (broadcastInDim S1048576 ![] bcast_S_S1048576 : Vec F S_ .i32 → Vec F S1048576 .i32),
    binary main_v842 main_v843 main_v844 (addi : Vec F S1048576 .i32 → Vec F S1048576 .i32 → Vec F S1048576 .i32),
    nullary main_c_245 (constantI S_ 32 255#32),
    unary main_c_245 main_v845 (broadcastInDim S1048576 ![] bcast_S_S1048576 : Vec F S_ .i32 → Vec F S1048576 .i32),
    binary main_v844 main_v845 main_v846 (minsi : Vec F S1048576 .i32 → Vec F S1048576 .i32 → Vec F S1048576 .i32),
    unary main_v819 main_v847 (fptosi 32 : Vec F S1048576 .f32 → Vec F S1048576 .i32),
    nullary main_c_246 (constantI S_ 32 1#32),
    unary main_c_246 main_v848 (broadcastInDim S1048576 ![] bcast_S_S1048576 : Vec F S_ .i32 → Vec F S1048576 .i32),
    binary main_v847 main_v848 main_v849 (addi : Vec F S1048576 .i32 → Vec F S1048576 .i32 → Vec F S1048576 .i32),
    nullary main_c_247 (constantI S_ 32 255#32),
    unary main_c_247 main_v850 (broadcastInDim S1048576 ![] bcast_S_S1048576 : Vec F S_ .i32 → Vec F S1048576 .i32),
    binary main_v849 main_v850 main_v851 (minsi : Vec F S1048576 .i32 → Vec F S1048576 .i32 → Vec F S1048576 .i32),
    unary main_v820 main_v852 (fptosi 32 : Vec F S1048576 .f32 → Vec F S1048576 .i32),
    nullary main_c_248 (constantI S_ 32 1#32),
    unary main_c_248 main_v853 (broadcastInDim S1048576 ![] bcast_S_S1048576 : Vec F S_ .i32 → Vec F S1048576 .i32),
    binary main_v852 main_v853 main_v854 (addi : Vec F S1048576 .i32 → Vec F S1048576 .i32 → Vec F S1048576 .i32),
    nullary main_c_249 (constantI S_ 32 255#32),
    unary main_c_249 main_v855 (broadcastInDim S1048576 ![] bcast_S_S1048576 : Vec F S_ .i32 → Vec F S1048576 .i32),
    binary main_v854 main_v855 main_v856 (minsi : Vec F S1048576 .i32 → Vec F S1048576 .i32 → Vec F S1048576 .i32),
    nullary main_c_250 (constantI S_ 32 0#32),
    unary main_c_250 main_v857 (broadcastInDim S1048576 ![] bcast_S_S1048576 : Vec F S_ .i32 → Vec F S1048576 .i32),
    binary main_v852 main_v857 main_v858 (cmpi .slt : Vec F S1048576 .i32 → Vec F S1048576 .i32 → Vec F S1048576 .i1),
    nullary main_c_251 (constantI S_ 32 256#32),
    unary main_c_251 main_v859 (broadcastInDim S1048576 ![] bcast_S_S1048576 : Vec F S_ .i32 → Vec F S1048576 .i32),
    binary main_v852 main_v859 main_v860 (addi : Vec F S1048576 .i32 → Vec F S1048576 .i32 → Vec F S1048576 .i32),
    ternary main_v858 main_v860 main_v852 main_v861 (select : Vec F S1048576 .i1 → Vec F S1048576 .i32 → Vec F S1048576 .i32 → Vec F S1048576 .i32),
    nullary main_c_252 (constantI S_ 32 0#32),
    unary main_c_252 main_v862 (broadcastInDim S1048576 ![] bcast_S_S1048576 : Vec F S_ .i32 → Vec F S1048576 .i32),
    binary main_v847 main_v862 main_v863 (cmpi .slt : Vec F S1048576 .i32 → Vec F S1048576 .i32 → Vec F S1048576 .i1),
    nullary main_c_253 (constantI S_ 32 256#32),
    unary main_c_253 main_v864 (broadcastInDim S1048576 ![] bcast_S_S1048576 : Vec F S_ .i32 → Vec F S1048576 .i32),
    binary main_v847 main_v864 main_v865 (addi : Vec F S1048576 .i32 → Vec F S1048576 .i32 → Vec F S1048576 .i32),
    ternary main_v863 main_v865 main_v847 main_v866 (select : Vec F S1048576 .i1 → Vec F S1048576 .i32 → Vec F S1048576 .i32 → Vec F S1048576 .i32),
    nullary main_c_254 (constantI S_ 32 0#32),
    unary main_c_254 main_v867 (broadcastInDim S1048576 ![] bcast_S_S1048576 : Vec F S_ .i32 → Vec F S1048576 .i32),
    binary main_v842 main_v867 main_v868 (cmpi .slt : Vec F S1048576 .i32 → Vec F S1048576 .i32 → Vec F S1048576 .i1),
    nullary main_c_255 (constantI S_ 32 256#32),
    unary main_c_255 main_v869 (broadcastInDim S1048576 ![] bcast_S_S1048576 : Vec F S_ .i32 → Vec F S1048576 .i32),
    binary main_v842 main_v869 main_v870 (addi : Vec F S1048576 .i32 → Vec F S1048576 .i32 → Vec F S1048576 .i32),
    ternary main_v868 main_v870 main_v842 main_v871 (select : Vec F S1048576 .i1 → Vec F S1048576 .i32 → Vec F S1048576 .i32 → Vec F S1048576 .i32),
    unary main_v861 main_v872 (broadcastInDim S1048576x1 ![0] bcast_S1048576_S1048576x1_0 : Vec F S1048576 .i32 → Vec F S1048576x1 .i32),
    unary main_v866 main_v873 (broadcastInDim S1048576x1 ![0] bcast_S1048576_S1048576x1_0 : Vec F S1048576 .i32 → Vec F S1048576x1 .i32),
    unary main_v871 main_v874 (broadcastInDim S1048576x1 ![0] bcast_S1048576_S1048576x1_0 : Vec F S1048576 .i32 → Vec F S1048576x1 .i32),
    nary ![main_v872, main_v873, main_v874] main_v875 (fun u => concatenate S1048576x3 1 [⟨S1048576x1, u 0⟩, ⟨S1048576x1, u 1⟩, ⟨S1048576x1, u 2⟩] concatenates_S1048576x1_S1048576x1_S1048576x1_S1048576x3_d1),
    binary main_v790 main_v875 main_v876 ((fun x i => Host.gather gather_S4x256x256x256_S1048576x3_S4x1048576_0_123_n_n_123_1_4111 x i) : Vec F S4x256x256x256 .f32 → Vec F S1048576x3 .i32 → Vec F S4x1048576 .f32),
    nullary main_c_256 (constantI S_ 32 0#32),
    unary main_c_256 main_v877 (broadcastInDim S1048576 ![] bcast_S_S1048576 : Vec F S_ .i32 → Vec F S1048576 .i32),
    binary main_v852 main_v877 main_v878 (cmpi .slt : Vec F S1048576 .i32 → Vec F S1048576 .i32 → Vec F S1048576 .i1),
    nullary main_c_257 (constantI S_ 32 256#32),
    unary main_c_257 main_v879 (broadcastInDim S1048576 ![] bcast_S_S1048576 : Vec F S_ .i32 → Vec F S1048576 .i32) ]

set_option maxRecDepth 8192 in
set_option maxHeartbeats 4000000 in
theorem part18_eq (c : Dev nD) : main_part18 (F := F) c = seq ops18 := rfl

set_option maxRecDepth 8192 in
theorem ops18_sub : (ops18 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops18_fresh : ∀ op ∈ (ops18 : List (HloOp τ sig (Elt F))), op.fresh = ∅ := by line_fresh

abbrev ops18_outs : List (Ref sig .tc) :=
  [main_v836, main_cst_242, main_v837, main_v838, main_cst_243, main_v839, main_v840, main_v841, main_v842, main_c_244, main_v843, main_v844, main_c_245, main_v845, main_v846, main_v847, main_c_246, main_v848, main_v849, main_c_247, main_v850, main_v851, main_v852, main_c_248, main_v853, main_v854, main_c_249, main_v855, main_v856, main_c_250, main_v857, main_v858, main_c_251, main_v859, main_v860, main_v861, main_c_252, main_v862, main_v863, main_c_253, main_v864, main_v865, main_v866, main_c_254, main_v867, main_v868, main_c_255, main_v869, main_v870, main_v871, main_v872, main_v873, main_v874, main_v875, main_v876, main_c_256, main_v877, main_v878, main_c_257, main_v879]

set_option maxRecDepth 8192 in
theorem ops18_writes : (ops18 : List (HloOp τ sig (Elt F))).Forall fun op => op.writes ⊆ (ops18_outs.map (Proc.devRef (τ := τ) .tc)).toFinset := by
  repeat' constructor
  all_goals exact writes_sub_of_mem (by decide)

set_option maxHeartbeats 4000000 in

abbrev ops19 : List (HloOp τ sig (Elt F)) :=
  [
    binary main_v852 main_v879 main_v880 (addi : Vec F S1048576 .i32 → Vec F S1048576 .i32 → Vec F S1048576 .i32),
    ternary main_v878 main_v880 main_v852 main_v881 (select : Vec F S1048576 .i1 → Vec F S1048576 .i32 → Vec F S1048576 .i32 → Vec F S1048576 .i32),
    nullary main_c_258 (constantI S_ 32 0#32),
    unary main_c_258 main_v882 (broadcastInDim S1048576 ![] bcast_S_S1048576 : Vec F S_ .i32 → Vec F S1048576 .i32),
    binary main_v847 main_v882 main_v883 (cmpi .slt : Vec F S1048576 .i32 → Vec F S1048576 .i32 → Vec F S1048576 .i1),
    nullary main_c_259 (constantI S_ 32 256#32),
    unary main_c_259 main_v884 (broadcastInDim S1048576 ![] bcast_S_S1048576 : Vec F S_ .i32 → Vec F S1048576 .i32),
    binary main_v847 main_v884 main_v885 (addi : Vec F S1048576 .i32 → Vec F S1048576 .i32 → Vec F S1048576 .i32),
    ternary main_v883 main_v885 main_v847 main_v886 (select : Vec F S1048576 .i1 → Vec F S1048576 .i32 → Vec F S1048576 .i32 → Vec F S1048576 .i32),
    nullary main_c_260 (constantI S_ 32 0#32),
    unary main_c_260 main_v887 (broadcastInDim S1048576 ![] bcast_S_S1048576 : Vec F S_ .i32 → Vec F S1048576 .i32),
    binary main_v846 main_v887 main_v888 (cmpi .slt : Vec F S1048576 .i32 → Vec F S1048576 .i32 → Vec F S1048576 .i1),
    nullary main_c_261 (constantI S_ 32 256#32),
    unary main_c_261 main_v889 (broadcastInDim S1048576 ![] bcast_S_S1048576 : Vec F S_ .i32 → Vec F S1048576 .i32),
    binary main_v846 main_v889 main_v890 (addi : Vec F S1048576 .i32 → Vec F S1048576 .i32 → Vec F S1048576 .i32),
    ternary main_v888 main_v890 main_v846 main_v891 (select : Vec F S1048576 .i1 → Vec F S1048576 .i32 → Vec F S1048576 .i32 → Vec F S1048576 .i32),
    unary main_v881 main_v892 (broadcastInDim S1048576x1 ![0] bcast_S1048576_S1048576x1_0 : Vec F S1048576 .i32 → Vec F S1048576x1 .i32),
    unary main_v886 main_v893 (broadcastInDim S1048576x1 ![0] bcast_S1048576_S1048576x1_0 : Vec F S1048576 .i32 → Vec F S1048576x1 .i32),
    unary main_v891 main_v894 (broadcastInDim S1048576x1 ![0] bcast_S1048576_S1048576x1_0 : Vec F S1048576 .i32 → Vec F S1048576x1 .i32),
    nary ![main_v892, main_v893, main_v894] main_v895 (fun u => concatenate S1048576x3 1 [⟨S1048576x1, u 0⟩, ⟨S1048576x1, u 1⟩, ⟨S1048576x1, u 2⟩] concatenates_S1048576x1_S1048576x1_S1048576x1_S1048576x3_d1),
    binary main_v790 main_v895 main_v896 ((fun x i => Host.gather gather_S4x256x256x256_S1048576x3_S4x1048576_0_123_n_n_123_1_4111 x i) : Vec F S4x256x256x256 .f32 → Vec F S1048576x3 .i32 → Vec F S4x1048576 .f32),
    nullary main_c_262 (constantI S_ 32 0#32),
    unary main_c_262 main_v897 (broadcastInDim S1048576 ![] bcast_S_S1048576 : Vec F S_ .i32 → Vec F S1048576 .i32),
    binary main_v852 main_v897 main_v898 (cmpi .slt : Vec F S1048576 .i32 → Vec F S1048576 .i32 → Vec F S1048576 .i1),
    nullary main_c_263 (constantI S_ 32 256#32),
    unary main_c_263 main_v899 (broadcastInDim S1048576 ![] bcast_S_S1048576 : Vec F S_ .i32 → Vec F S1048576 .i32),
    binary main_v852 main_v899 main_v900 (addi : Vec F S1048576 .i32 → Vec F S1048576 .i32 → Vec F S1048576 .i32),
    ternary main_v898 main_v900 main_v852 main_v901 (select : Vec F S1048576 .i1 → Vec F S1048576 .i32 → Vec F S1048576 .i32 → Vec F S1048576 .i32),
    nullary main_c_264 (constantI S_ 32 0#32),
    unary main_c_264 main_v902 (broadcastInDim S1048576 ![] bcast_S_S1048576 : Vec F S_ .i32 → Vec F S1048576 .i32),
    binary main_v851 main_v902 main_v903 (cmpi .slt : Vec F S1048576 .i32 → Vec F S1048576 .i32 → Vec F S1048576 .i1),
    nullary main_c_265 (constantI S_ 32 256#32),
    unary main_c_265 main_v904 (broadcastInDim S1048576 ![] bcast_S_S1048576 : Vec F S_ .i32 → Vec F S1048576 .i32),
    binary main_v851 main_v904 main_v905 (addi : Vec F S1048576 .i32 → Vec F S1048576 .i32 → Vec F S1048576 .i32),
    ternary main_v903 main_v905 main_v851 main_v906 (select : Vec F S1048576 .i1 → Vec F S1048576 .i32 → Vec F S1048576 .i32 → Vec F S1048576 .i32),
    nullary main_c_266 (constantI S_ 32 0#32),
    unary main_c_266 main_v907 (broadcastInDim S1048576 ![] bcast_S_S1048576 : Vec F S_ .i32 → Vec F S1048576 .i32),
    binary main_v842 main_v907 main_v908 (cmpi .slt : Vec F S1048576 .i32 → Vec F S1048576 .i32 → Vec F S1048576 .i1),
    nullary main_c_267 (constantI S_ 32 256#32),
    unary main_c_267 main_v909 (broadcastInDim S1048576 ![] bcast_S_S1048576 : Vec F S_ .i32 → Vec F S1048576 .i32),
    binary main_v842 main_v909 main_v910 (addi : Vec F S1048576 .i32 → Vec F S1048576 .i32 → Vec F S1048576 .i32),
    ternary main_v908 main_v910 main_v842 main_v911 (select : Vec F S1048576 .i1 → Vec F S1048576 .i32 → Vec F S1048576 .i32 → Vec F S1048576 .i32),
    unary main_v901 main_v912 (broadcastInDim S1048576x1 ![0] bcast_S1048576_S1048576x1_0 : Vec F S1048576 .i32 → Vec F S1048576x1 .i32),
    unary main_v906 main_v913 (broadcastInDim S1048576x1 ![0] bcast_S1048576_S1048576x1_0 : Vec F S1048576 .i32 → Vec F S1048576x1 .i32),
    unary main_v911 main_v914 (broadcastInDim S1048576x1 ![0] bcast_S1048576_S1048576x1_0 : Vec F S1048576 .i32 → Vec F S1048576x1 .i32),
    nary ![main_v912, main_v913, main_v914] main_v915 (fun u => concatenate S1048576x3 1 [⟨S1048576x1, u 0⟩, ⟨S1048576x1, u 1⟩, ⟨S1048576x1, u 2⟩] concatenates_S1048576x1_S1048576x1_S1048576x1_S1048576x3_d1),
    binary main_v790 main_v915 main_v916 ((fun x i => Host.gather gather_S4x256x256x256_S1048576x3_S4x1048576_0_123_n_n_123_1_4111 x i) : Vec F S4x256x256x256 .f32 → Vec F S1048576x3 .i32 → Vec F S4x1048576 .f32),
    nullary main_c_268 (constantI S_ 32 0#32),
    unary main_c_268 main_v917 (broadcastInDim S1048576 ![] bcast_S_S1048576 : Vec F S_ .i32 → Vec F S1048576 .i32),
    binary main_v852 main_v917 main_v918 (cmpi .slt : Vec F S1048576 .i32 → Vec F S1048576 .i32 → Vec F S1048576 .i1),
    nullary main_c_269 (constantI S_ 32 256#32),
    unary main_c_269 main_v919 (broadcastInDim S1048576 ![] bcast_S_S1048576 : Vec F S_ .i32 → Vec F S1048576 .i32),
    binary main_v852 main_v919 main_v920 (addi : Vec F S1048576 .i32 → Vec F S1048576 .i32 → Vec F S1048576 .i32),
    ternary main_v918 main_v920 main_v852 main_v921 (select : Vec F S1048576 .i1 → Vec F S1048576 .i32 → Vec F S1048576 .i32 → Vec F S1048576 .i32),
    nullary main_c_270 (constantI S_ 32 0#32),
    unary main_c_270 main_v922 (broadcastInDim S1048576 ![] bcast_S_S1048576 : Vec F S_ .i32 → Vec F S1048576 .i32),
    binary main_v851 main_v922 main_v923 (cmpi .slt : Vec F S1048576 .i32 → Vec F S1048576 .i32 → Vec F S1048576 .i1),
    nullary main_c_271 (constantI S_ 32 256#32),
    unary main_c_271 main_v924 (broadcastInDim S1048576 ![] bcast_S_S1048576 : Vec F S_ .i32 → Vec F S1048576 .i32),
    binary main_v851 main_v924 main_v925 (addi : Vec F S1048576 .i32 → Vec F S1048576 .i32 → Vec F S1048576 .i32) ]

set_option maxRecDepth 8192 in
set_option maxHeartbeats 4000000 in
theorem part19_eq (c : Dev nD) : main_part19 (F := F) c = seq ops19 := rfl

set_option maxRecDepth 8192 in
theorem ops19_sub : (ops19 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops19_fresh : ∀ op ∈ (ops19 : List (HloOp τ sig (Elt F))), op.fresh = ∅ := by line_fresh

abbrev ops19_outs : List (Ref sig .tc) :=
  [main_v880, main_v881, main_c_258, main_v882, main_v883, main_c_259, main_v884, main_v885, main_v886, main_c_260, main_v887, main_v888, main_c_261, main_v889, main_v890, main_v891, main_v892, main_v893, main_v894, main_v895, main_v896, main_c_262, main_v897, main_v898, main_c_263, main_v899, main_v900, main_v901, main_c_264, main_v902, main_v903, main_c_265, main_v904, main_v905, main_v906, main_c_266, main_v907, main_v908, main_c_267, main_v909, main_v910, main_v911, main_v912, main_v913, main_v914, main_v915, main_v916, main_c_268, main_v917, main_v918, main_c_269, main_v919, main_v920, main_v921, main_c_270, main_v922, main_v923, main_c_271, main_v924, main_v925]

set_option maxRecDepth 8192 in
theorem ops19_writes : (ops19 : List (HloOp τ sig (Elt F))).Forall fun op => op.writes ⊆ (ops19_outs.map (Proc.devRef (τ := τ) .tc)).toFinset := by
  repeat' constructor
  all_goals exact writes_sub_of_mem (by decide)

set_option maxHeartbeats 4000000 in

abbrev ops20 : List (HloOp τ sig (Elt F)) :=
  [
    ternary main_v923 main_v925 main_v851 main_v926 (select : Vec F S1048576 .i1 → Vec F S1048576 .i32 → Vec F S1048576 .i32 → Vec F S1048576 .i32),
    nullary main_c_272 (constantI S_ 32 0#32),
    unary main_c_272 main_v927 (broadcastInDim S1048576 ![] bcast_S_S1048576 : Vec F S_ .i32 → Vec F S1048576 .i32),
    binary main_v846 main_v927 main_v928 (cmpi .slt : Vec F S1048576 .i32 → Vec F S1048576 .i32 → Vec F S1048576 .i1),
    nullary main_c_273 (constantI S_ 32 256#32),
    unary main_c_273 main_v929 (broadcastInDim S1048576 ![] bcast_S_S1048576 : Vec F S_ .i32 → Vec F S1048576 .i32),
    binary main_v846 main_v929 main_v930 (addi : Vec F S1048576 .i32 → Vec F S1048576 .i32 → Vec F S1048576 .i32),
    ternary main_v928 main_v930 main_v846 main_v931 (select : Vec F S1048576 .i1 → Vec F S1048576 .i32 → Vec F S1048576 .i32 → Vec F S1048576 .i32),
    unary main_v921 main_v932 (broadcastInDim S1048576x1 ![0] bcast_S1048576_S1048576x1_0 : Vec F S1048576 .i32 → Vec F S1048576x1 .i32),
    unary main_v926 main_v933 (broadcastInDim S1048576x1 ![0] bcast_S1048576_S1048576x1_0 : Vec F S1048576 .i32 → Vec F S1048576x1 .i32),
    unary main_v931 main_v934 (broadcastInDim S1048576x1 ![0] bcast_S1048576_S1048576x1_0 : Vec F S1048576 .i32 → Vec F S1048576x1 .i32),
    nary ![main_v932, main_v933, main_v934] main_v935 (fun u => concatenate S1048576x3 1 [⟨S1048576x1, u 0⟩, ⟨S1048576x1, u 1⟩, ⟨S1048576x1, u 2⟩] concatenates_S1048576x1_S1048576x1_S1048576x1_S1048576x3_d1),
    binary main_v790 main_v935 main_v936 ((fun x i => Host.gather gather_S4x256x256x256_S1048576x3_S4x1048576_0_123_n_n_123_1_4111 x i) : Vec F S4x256x256x256 .f32 → Vec F S1048576x3 .i32 → Vec F S4x1048576 .f32),
    nullary main_c_274 (constantI S_ 32 0#32),
    unary main_c_274 main_v937 (broadcastInDim S1048576 ![] bcast_S_S1048576 : Vec F S_ .i32 → Vec F S1048576 .i32),
    binary main_v856 main_v937 main_v938 (cmpi .slt : Vec F S1048576 .i32 → Vec F S1048576 .i32 → Vec F S1048576 .i1),
    nullary main_c_275 (constantI S_ 32 256#32),
    unary main_c_275 main_v939 (broadcastInDim S1048576 ![] bcast_S_S1048576 : Vec F S_ .i32 → Vec F S1048576 .i32),
    binary main_v856 main_v939 main_v940 (addi : Vec F S1048576 .i32 → Vec F S1048576 .i32 → Vec F S1048576 .i32),
    ternary main_v938 main_v940 main_v856 main_v941 (select : Vec F S1048576 .i1 → Vec F S1048576 .i32 → Vec F S1048576 .i32 → Vec F S1048576 .i32),
    nullary main_c_276 (constantI S_ 32 0#32),
    unary main_c_276 main_v942 (broadcastInDim S1048576 ![] bcast_S_S1048576 : Vec F S_ .i32 → Vec F S1048576 .i32),
    binary main_v847 main_v942 main_v943 (cmpi .slt : Vec F S1048576 .i32 → Vec F S1048576 .i32 → Vec F S1048576 .i1),
    nullary main_c_277 (constantI S_ 32 256#32),
    unary main_c_277 main_v944 (broadcastInDim S1048576 ![] bcast_S_S1048576 : Vec F S_ .i32 → Vec F S1048576 .i32),
    binary main_v847 main_v944 main_v945 (addi : Vec F S1048576 .i32 → Vec F S1048576 .i32 → Vec F S1048576 .i32),
    ternary main_v943 main_v945 main_v847 main_v946 (select : Vec F S1048576 .i1 → Vec F S1048576 .i32 → Vec F S1048576 .i32 → Vec F S1048576 .i32),
    nullary main_c_278 (constantI S_ 32 0#32),
    unary main_c_278 main_v947 (broadcastInDim S1048576 ![] bcast_S_S1048576 : Vec F S_ .i32 → Vec F S1048576 .i32),
    binary main_v842 main_v947 main_v948 (cmpi .slt : Vec F S1048576 .i32 → Vec F S1048576 .i32 → Vec F S1048576 .i1),
    nullary main_c_279 (constantI S_ 32 256#32),
    unary main_c_279 main_v949 (broadcastInDim S1048576 ![] bcast_S_S1048576 : Vec F S_ .i32 → Vec F S1048576 .i32),
    binary main_v842 main_v949 main_v950 (addi : Vec F S1048576 .i32 → Vec F S1048576 .i32 → Vec F S1048576 .i32),
    ternary main_v948 main_v950 main_v842 main_v951 (select : Vec F S1048576 .i1 → Vec F S1048576 .i32 → Vec F S1048576 .i32 → Vec F S1048576 .i32),
    unary main_v941 main_v952 (broadcastInDim S1048576x1 ![0] bcast_S1048576_S1048576x1_0 : Vec F S1048576 .i32 → Vec F S1048576x1 .i32),
    unary main_v946 main_v953 (broadcastInDim S1048576x1 ![0] bcast_S1048576_S1048576x1_0 : Vec F S1048576 .i32 → Vec F S1048576x1 .i32),
    unary main_v951 main_v954 (broadcastInDim S1048576x1 ![0] bcast_S1048576_S1048576x1_0 : Vec F S1048576 .i32 → Vec F S1048576x1 .i32),
    nary ![main_v952, main_v953, main_v954] main_v955 (fun u => concatenate S1048576x3 1 [⟨S1048576x1, u 0⟩, ⟨S1048576x1, u 1⟩, ⟨S1048576x1, u 2⟩] concatenates_S1048576x1_S1048576x1_S1048576x1_S1048576x3_d1),
    binary main_v790 main_v955 main_v956 ((fun x i => Host.gather gather_S4x256x256x256_S1048576x3_S4x1048576_0_123_n_n_123_1_4111 x i) : Vec F S4x256x256x256 .f32 → Vec F S1048576x3 .i32 → Vec F S4x1048576 .f32),
    nullary main_c_280 (constantI S_ 32 0#32),
    unary main_c_280 main_v957 (broadcastInDim S1048576 ![] bcast_S_S1048576 : Vec F S_ .i32 → Vec F S1048576 .i32),
    binary main_v856 main_v957 main_v958 (cmpi .slt : Vec F S1048576 .i32 → Vec F S1048576 .i32 → Vec F S1048576 .i1),
    nullary main_c_281 (constantI S_ 32 256#32),
    unary main_c_281 main_v959 (broadcastInDim S1048576 ![] bcast_S_S1048576 : Vec F S_ .i32 → Vec F S1048576 .i32),
    binary main_v856 main_v959 main_v960 (addi : Vec F S1048576 .i32 → Vec F S1048576 .i32 → Vec F S1048576 .i32),
    ternary main_v958 main_v960 main_v856 main_v961 (select : Vec F S1048576 .i1 → Vec F S1048576 .i32 → Vec F S1048576 .i32 → Vec F S1048576 .i32),
    nullary main_c_282 (constantI S_ 32 0#32),
    unary main_c_282 main_v962 (broadcastInDim S1048576 ![] bcast_S_S1048576 : Vec F S_ .i32 → Vec F S1048576 .i32),
    binary main_v847 main_v962 main_v963 (cmpi .slt : Vec F S1048576 .i32 → Vec F S1048576 .i32 → Vec F S1048576 .i1),
    nullary main_c_283 (constantI S_ 32 256#32),
    unary main_c_283 main_v964 (broadcastInDim S1048576 ![] bcast_S_S1048576 : Vec F S_ .i32 → Vec F S1048576 .i32),
    binary main_v847 main_v964 main_v965 (addi : Vec F S1048576 .i32 → Vec F S1048576 .i32 → Vec F S1048576 .i32),
    ternary main_v963 main_v965 main_v847 main_v966 (select : Vec F S1048576 .i1 → Vec F S1048576 .i32 → Vec F S1048576 .i32 → Vec F S1048576 .i32),
    nullary main_c_284 (constantI S_ 32 0#32),
    unary main_c_284 main_v967 (broadcastInDim S1048576 ![] bcast_S_S1048576 : Vec F S_ .i32 → Vec F S1048576 .i32),
    binary main_v846 main_v967 main_v968 (cmpi .slt : Vec F S1048576 .i32 → Vec F S1048576 .i32 → Vec F S1048576 .i1),
    nullary main_c_285 (constantI S_ 32 256#32),
    unary main_c_285 main_v969 (broadcastInDim S1048576 ![] bcast_S_S1048576 : Vec F S_ .i32 → Vec F S1048576 .i32),
    binary main_v846 main_v969 main_v970 (addi : Vec F S1048576 .i32 → Vec F S1048576 .i32 → Vec F S1048576 .i32),
    ternary main_v968 main_v970 main_v846 main_v971 (select : Vec F S1048576 .i1 → Vec F S1048576 .i32 → Vec F S1048576 .i32 → Vec F S1048576 .i32) ]

set_option maxRecDepth 8192 in
set_option maxHeartbeats 4000000 in
theorem part20_eq (c : Dev nD) : main_part20 (F := F) c = seq ops20 := rfl

set_option maxRecDepth 8192 in
theorem ops20_sub : (ops20 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops20_fresh : ∀ op ∈ (ops20 : List (HloOp τ sig (Elt F))), op.fresh = ∅ := by line_fresh

abbrev ops20_outs : List (Ref sig .tc) :=
  [main_v926, main_c_272, main_v927, main_v928, main_c_273, main_v929, main_v930, main_v931, main_v932, main_v933, main_v934, main_v935, main_v936, main_c_274, main_v937, main_v938, main_c_275, main_v939, main_v940, main_v941, main_c_276, main_v942, main_v943, main_c_277, main_v944, main_v945, main_v946, main_c_278, main_v947, main_v948, main_c_279, main_v949, main_v950, main_v951, main_v952, main_v953, main_v954, main_v955, main_v956, main_c_280, main_v957, main_v958, main_c_281, main_v959, main_v960, main_v961, main_c_282, main_v962, main_v963, main_c_283, main_v964, main_v965, main_v966, main_c_284, main_v967, main_v968, main_c_285, main_v969, main_v970, main_v971]

set_option maxRecDepth 8192 in
theorem ops20_writes : (ops20 : List (HloOp τ sig (Elt F))).Forall fun op => op.writes ⊆ (ops20_outs.map (Proc.devRef (τ := τ) .tc)).toFinset := by
  repeat' constructor
  all_goals exact writes_sub_of_mem (by decide)

set_option maxHeartbeats 4000000 in

abbrev ops21 : List (HloOp τ sig (Elt F)) :=
  [
    unary main_v961 main_v972 (broadcastInDim S1048576x1 ![0] bcast_S1048576_S1048576x1_0 : Vec F S1048576 .i32 → Vec F S1048576x1 .i32),
    unary main_v966 main_v973 (broadcastInDim S1048576x1 ![0] bcast_S1048576_S1048576x1_0 : Vec F S1048576 .i32 → Vec F S1048576x1 .i32),
    unary main_v971 main_v974 (broadcastInDim S1048576x1 ![0] bcast_S1048576_S1048576x1_0 : Vec F S1048576 .i32 → Vec F S1048576x1 .i32),
    nary ![main_v972, main_v973, main_v974] main_v975 (fun u => concatenate S1048576x3 1 [⟨S1048576x1, u 0⟩, ⟨S1048576x1, u 1⟩, ⟨S1048576x1, u 2⟩] concatenates_S1048576x1_S1048576x1_S1048576x1_S1048576x3_d1),
    binary main_v790 main_v975 main_v976 ((fun x i => Host.gather gather_S4x256x256x256_S1048576x3_S4x1048576_0_123_n_n_123_1_4111 x i) : Vec F S4x256x256x256 .f32 → Vec F S1048576x3 .i32 → Vec F S4x1048576 .f32),
    nullary main_c_286 (constantI S_ 32 0#32),
    unary main_c_286 main_v977 (broadcastInDim S1048576 ![] bcast_S_S1048576 : Vec F S_ .i32 → Vec F S1048576 .i32),
    binary main_v856 main_v977 main_v978 (cmpi .slt : Vec F S1048576 .i32 → Vec F S1048576 .i32 → Vec F S1048576 .i1),
    nullary main_c_287 (constantI S_ 32 256#32),
    unary main_c_287 main_v979 (broadcastInDim S1048576 ![] bcast_S_S1048576 : Vec F S_ .i32 → Vec F S1048576 .i32),
    binary main_v856 main_v979 main_v980 (addi : Vec F S1048576 .i32 → Vec F S1048576 .i32 → Vec F S1048576 .i32),
    ternary main_v978 main_v980 main_v856 main_v981 (select : Vec F S1048576 .i1 → Vec F S1048576 .i32 → Vec F S1048576 .i32 → Vec F S1048576 .i32),
    nullary main_c_288 (constantI S_ 32 0#32),
    unary main_c_288 main_v982 (broadcastInDim S1048576 ![] bcast_S_S1048576 : Vec F S_ .i32 → Vec F S1048576 .i32),
    binary main_v851 main_v982 main_v983 (cmpi .slt : Vec F S1048576 .i32 → Vec F S1048576 .i32 → Vec F S1048576 .i1),
    nullary main_c_289 (constantI S_ 32 256#32),
    unary main_c_289 main_v984 (broadcastInDim S1048576 ![] bcast_S_S1048576 : Vec F S_ .i32 → Vec F S1048576 .i32),
    binary main_v851 main_v984 main_v985 (addi : Vec F S1048576 .i32 → Vec F S1048576 .i32 → Vec F S1048576 .i32),
    ternary main_v983 main_v985 main_v851 main_v986 (select : Vec F S1048576 .i1 → Vec F S1048576 .i32 → Vec F S1048576 .i32 → Vec F S1048576 .i32),
    nullary main_c_290 (constantI S_ 32 0#32),
    unary main_c_290 main_v987 (broadcastInDim S1048576 ![] bcast_S_S1048576 : Vec F S_ .i32 → Vec F S1048576 .i32),
    binary main_v842 main_v987 main_v988 (cmpi .slt : Vec F S1048576 .i32 → Vec F S1048576 .i32 → Vec F S1048576 .i1),
    nullary main_c_291 (constantI S_ 32 256#32),
    unary main_c_291 main_v989 (broadcastInDim S1048576 ![] bcast_S_S1048576 : Vec F S_ .i32 → Vec F S1048576 .i32),
    binary main_v842 main_v989 main_v990 (addi : Vec F S1048576 .i32 → Vec F S1048576 .i32 → Vec F S1048576 .i32),
    ternary main_v988 main_v990 main_v842 main_v991 (select : Vec F S1048576 .i1 → Vec F S1048576 .i32 → Vec F S1048576 .i32 → Vec F S1048576 .i32),
    unary main_v981 main_v992 (broadcastInDim S1048576x1 ![0] bcast_S1048576_S1048576x1_0 : Vec F S1048576 .i32 → Vec F S1048576x1 .i32),
    unary main_v986 main_v993 (broadcastInDim S1048576x1 ![0] bcast_S1048576_S1048576x1_0 : Vec F S1048576 .i32 → Vec F S1048576x1 .i32),
    unary main_v991 main_v994 (broadcastInDim S1048576x1 ![0] bcast_S1048576_S1048576x1_0 : Vec F S1048576 .i32 → Vec F S1048576x1 .i32),
    nary ![main_v992, main_v993, main_v994] main_v995 (fun u => concatenate S1048576x3 1 [⟨S1048576x1, u 0⟩, ⟨S1048576x1, u 1⟩, ⟨S1048576x1, u 2⟩] concatenates_S1048576x1_S1048576x1_S1048576x1_S1048576x3_d1),
    binary main_v790 main_v995 main_v996 ((fun x i => Host.gather gather_S4x256x256x256_S1048576x3_S4x1048576_0_123_n_n_123_1_4111 x i) : Vec F S4x256x256x256 .f32 → Vec F S1048576x3 .i32 → Vec F S4x1048576 .f32),
    nullary main_c_292 (constantI S_ 32 0#32),
    unary main_c_292 main_v997 (broadcastInDim S1048576 ![] bcast_S_S1048576 : Vec F S_ .i32 → Vec F S1048576 .i32),
    binary main_v856 main_v997 main_v998 (cmpi .slt : Vec F S1048576 .i32 → Vec F S1048576 .i32 → Vec F S1048576 .i1),
    nullary main_c_293 (constantI S_ 32 256#32),
    unary main_c_293 main_v999 (broadcastInDim S1048576 ![] bcast_S_S1048576 : Vec F S_ .i32 → Vec F S1048576 .i32),
    binary main_v856 main_v999 main_v1000 (addi : Vec F S1048576 .i32 → Vec F S1048576 .i32 → Vec F S1048576 .i32),
    ternary main_v998 main_v1000 main_v856 main_v1001 (select : Vec F S1048576 .i1 → Vec F S1048576 .i32 → Vec F S1048576 .i32 → Vec F S1048576 .i32),
    nullary main_c_294 (constantI S_ 32 0#32),
    unary main_c_294 main_v1002 (broadcastInDim S1048576 ![] bcast_S_S1048576 : Vec F S_ .i32 → Vec F S1048576 .i32),
    binary main_v851 main_v1002 main_v1003 (cmpi .slt : Vec F S1048576 .i32 → Vec F S1048576 .i32 → Vec F S1048576 .i1),
    nullary main_c_295 (constantI S_ 32 256#32),
    unary main_c_295 main_v1004 (broadcastInDim S1048576 ![] bcast_S_S1048576 : Vec F S_ .i32 → Vec F S1048576 .i32),
    binary main_v851 main_v1004 main_v1005 (addi : Vec F S1048576 .i32 → Vec F S1048576 .i32 → Vec F S1048576 .i32),
    ternary main_v1003 main_v1005 main_v851 main_v1006 (select : Vec F S1048576 .i1 → Vec F S1048576 .i32 → Vec F S1048576 .i32 → Vec F S1048576 .i32),
    nullary main_c_296 (constantI S_ 32 0#32),
    unary main_c_296 main_v1007 (broadcastInDim S1048576 ![] bcast_S_S1048576 : Vec F S_ .i32 → Vec F S1048576 .i32),
    binary main_v846 main_v1007 main_v1008 (cmpi .slt : Vec F S1048576 .i32 → Vec F S1048576 .i32 → Vec F S1048576 .i1),
    nullary main_c_297 (constantI S_ 32 256#32),
    unary main_c_297 main_v1009 (broadcastInDim S1048576 ![] bcast_S_S1048576 : Vec F S_ .i32 → Vec F S1048576 .i32),
    binary main_v846 main_v1009 main_v1010 (addi : Vec F S1048576 .i32 → Vec F S1048576 .i32 → Vec F S1048576 .i32),
    ternary main_v1008 main_v1010 main_v846 main_v1011 (select : Vec F S1048576 .i1 → Vec F S1048576 .i32 → Vec F S1048576 .i32 → Vec F S1048576 .i32),
    unary main_v1001 main_v1012 (broadcastInDim S1048576x1 ![0] bcast_S1048576_S1048576x1_0 : Vec F S1048576 .i32 → Vec F S1048576x1 .i32),
    unary main_v1006 main_v1013 (broadcastInDim S1048576x1 ![0] bcast_S1048576_S1048576x1_0 : Vec F S1048576 .i32 → Vec F S1048576x1 .i32),
    unary main_v1011 main_v1014 (broadcastInDim S1048576x1 ![0] bcast_S1048576_S1048576x1_0 : Vec F S1048576 .i32 → Vec F S1048576x1 .i32),
    nary ![main_v1012, main_v1013, main_v1014] main_v1015 (fun u => concatenate S1048576x3 1 [⟨S1048576x1, u 0⟩, ⟨S1048576x1, u 1⟩, ⟨S1048576x1, u 2⟩] concatenates_S1048576x1_S1048576x1_S1048576x1_S1048576x3_d1),
    binary main_v790 main_v1015 main_v1016 ((fun x i => Host.gather gather_S4x256x256x256_S1048576x3_S4x1048576_0_123_n_n_123_1_4111 x i) : Vec F S4x256x256x256 .f32 → Vec F S1048576x3 .i32 → Vec F S4x1048576 .f32),
    binary main_v896 main_v876 main_v1017 (subf : Vec F S4x1048576 .f32 → Vec F S4x1048576 .f32 → Vec F S4x1048576 .f32),
    unary main_v829 main_v1018 (broadcastInDim S1x1048576 ![1] bcast_S1048576_S1x1048576_1 : Vec F S1048576 .f32 → Vec F S1x1048576 .f32),
    unary main_v1018 main_v1019 (broadcastInDim S4x1048576 ![0, 1] bcast_S1x1048576_S4x1048576_0_1 : Vec F S1x1048576 .f32 → Vec F S4x1048576 .f32) ]

set_option maxRecDepth 8192 in
set_option maxHeartbeats 4000000 in
theorem part21_eq (c : Dev nD) : main_part21 (F := F) c = seq ops21 := rfl

set_option maxRecDepth 8192 in
theorem ops21_sub : (ops21 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops21_fresh : ∀ op ∈ (ops21 : List (HloOp τ sig (Elt F))), op.fresh = ∅ := by line_fresh

abbrev ops21_outs : List (Ref sig .tc) :=
  [main_v972, main_v973, main_v974, main_v975, main_v976, main_c_286, main_v977, main_v978, main_c_287, main_v979, main_v980, main_v981, main_c_288, main_v982, main_v983, main_c_289, main_v984, main_v985, main_v986, main_c_290, main_v987, main_v988, main_c_291, main_v989, main_v990, main_v991, main_v992, main_v993, main_v994, main_v995, main_v996, main_c_292, main_v997, main_v998, main_c_293, main_v999, main_v1000, main_v1001, main_c_294, main_v1002, main_v1003, main_c_295, main_v1004, main_v1005, main_v1006, main_c_296, main_v1007, main_v1008, main_c_297, main_v1009, main_v1010, main_v1011, main_v1012, main_v1013, main_v1014, main_v1015, main_v1016, main_v1017, main_v1018, main_v1019]

set_option maxRecDepth 8192 in
theorem ops21_writes : (ops21 : List (HloOp τ sig (Elt F))).Forall fun op => op.writes ⊆ (ops21_outs.map (Proc.devRef (τ := τ) .tc)).toFinset := by
  repeat' constructor
  all_goals exact writes_sub_of_mem (by decide)

set_option maxHeartbeats 4000000 in

abbrev ops22 : List (HloOp τ sig (Elt F)) :=
  [
    binary main_v1017 main_v1019 main_v1020 (mulf : Vec F S4x1048576 .f32 → Vec F S4x1048576 .f32 → Vec F S4x1048576 .f32),
    binary main_v876 main_v1020 main_v1021 (addf : Vec F S4x1048576 .f32 → Vec F S4x1048576 .f32 → Vec F S4x1048576 .f32),
    binary main_v936 main_v916 main_v1022 (subf : Vec F S4x1048576 .f32 → Vec F S4x1048576 .f32 → Vec F S4x1048576 .f32),
    unary main_v829 main_v1023 (broadcastInDim S1x1048576 ![1] bcast_S1048576_S1x1048576_1 : Vec F S1048576 .f32 → Vec F S1x1048576 .f32),
    unary main_v1023 main_v1024 (broadcastInDim S4x1048576 ![0, 1] bcast_S1x1048576_S4x1048576_0_1 : Vec F S1x1048576 .f32 → Vec F S4x1048576 .f32),
    binary main_v1022 main_v1024 main_v1025 (mulf : Vec F S4x1048576 .f32 → Vec F S4x1048576 .f32 → Vec F S4x1048576 .f32),
    binary main_v916 main_v1025 main_v1026 (addf : Vec F S4x1048576 .f32 → Vec F S4x1048576 .f32 → Vec F S4x1048576 .f32),
    binary main_v976 main_v956 main_v1027 (subf : Vec F S4x1048576 .f32 → Vec F S4x1048576 .f32 → Vec F S4x1048576 .f32),
    unary main_v829 main_v1028 (broadcastInDim S1x1048576 ![1] bcast_S1048576_S1x1048576_1 : Vec F S1048576 .f32 → Vec F S1x1048576 .f32),
    unary main_v1028 main_v1029 (broadcastInDim S4x1048576 ![0, 1] bcast_S1x1048576_S4x1048576_0_1 : Vec F S1x1048576 .f32 → Vec F S4x1048576 .f32),
    binary main_v1027 main_v1029 main_v1030 (mulf : Vec F S4x1048576 .f32 → Vec F S4x1048576 .f32 → Vec F S4x1048576 .f32),
    binary main_v956 main_v1030 main_v1031 (addf : Vec F S4x1048576 .f32 → Vec F S4x1048576 .f32 → Vec F S4x1048576 .f32),
    binary main_v1016 main_v996 main_v1032 (subf : Vec F S4x1048576 .f32 → Vec F S4x1048576 .f32 → Vec F S4x1048576 .f32),
    unary main_v829 main_v1033 (broadcastInDim S1x1048576 ![1] bcast_S1048576_S1x1048576_1 : Vec F S1048576 .f32 → Vec F S1x1048576 .f32),
    unary main_v1033 main_v1034 (broadcastInDim S4x1048576 ![0, 1] bcast_S1x1048576_S4x1048576_0_1 : Vec F S1x1048576 .f32 → Vec F S4x1048576 .f32),
    binary main_v1032 main_v1034 main_v1035 (mulf : Vec F S4x1048576 .f32 → Vec F S4x1048576 .f32 → Vec F S4x1048576 .f32),
    binary main_v996 main_v1035 main_v1036 (addf : Vec F S4x1048576 .f32 → Vec F S4x1048576 .f32 → Vec F S4x1048576 .f32),
    binary main_v1026 main_v1021 main_v1037 (subf : Vec F S4x1048576 .f32 → Vec F S4x1048576 .f32 → Vec F S4x1048576 .f32),
    unary main_v835 main_v1038 (broadcastInDim S1x1048576 ![1] bcast_S1048576_S1x1048576_1 : Vec F S1048576 .f32 → Vec F S1x1048576 .f32),
    unary main_v1038 main_v1039 (broadcastInDim S4x1048576 ![0, 1] bcast_S1x1048576_S4x1048576_0_1 : Vec F S1x1048576 .f32 → Vec F S4x1048576 .f32),
    binary main_v1037 main_v1039 main_v1040 (mulf : Vec F S4x1048576 .f32 → Vec F S4x1048576 .f32 → Vec F S4x1048576 .f32),
    binary main_v1021 main_v1040 main_v1041 (addf : Vec F S4x1048576 .f32 → Vec F S4x1048576 .f32 → Vec F S4x1048576 .f32),
    binary main_v1036 main_v1031 main_v1042 (subf : Vec F S4x1048576 .f32 → Vec F S4x1048576 .f32 → Vec F S4x1048576 .f32),
    unary main_v835 main_v1043 (broadcastInDim S1x1048576 ![1] bcast_S1048576_S1x1048576_1 : Vec F S1048576 .f32 → Vec F S1x1048576 .f32),
    unary main_v1043 main_v1044 (broadcastInDim S4x1048576 ![0, 1] bcast_S1x1048576_S4x1048576_0_1 : Vec F S1x1048576 .f32 → Vec F S4x1048576 .f32),
    binary main_v1042 main_v1044 main_v1045 (mulf : Vec F S4x1048576 .f32 → Vec F S4x1048576 .f32 → Vec F S4x1048576 .f32),
    binary main_v1031 main_v1045 main_v1046 (addf : Vec F S4x1048576 .f32 → Vec F S4x1048576 .f32 → Vec F S4x1048576 .f32),
    binary main_v1046 main_v1041 main_v1047 (subf : Vec F S4x1048576 .f32 → Vec F S4x1048576 .f32 → Vec F S4x1048576 .f32),
    unary main_v841 main_v1048 (broadcastInDim S1x1048576 ![1] bcast_S1048576_S1x1048576_1 : Vec F S1048576 .f32 → Vec F S1x1048576 .f32),
    unary main_v1048 main_v1049 (broadcastInDim S4x1048576 ![0, 1] bcast_S1x1048576_S4x1048576_0_1 : Vec F S1x1048576 .f32 → Vec F S4x1048576 .f32),
    binary main_v1047 main_v1049 main_v1050 (mulf : Vec F S4x1048576 .f32 → Vec F S4x1048576 .f32 → Vec F S4x1048576 .f32),
    binary main_v1041 main_v1050 main_v1051 (addf : Vec F S4x1048576 .f32 → Vec F S4x1048576 .f32 → Vec F S4x1048576 .f32),
    reshape main_v1051 main_v1052 rfl shapeCasts_S4x1048576_S1x4x1x1x1048576,
    nary ![main_v263, main_v526, main_v789, main_v1052] main_v1053 (fun u => concatenate S1x16x1x1x1048576 1 [⟨S1x4x1x1x1048576, u 0⟩, ⟨S1x4x1x1x1048576, u 1⟩, ⟨S1x4x1x1x1048576, u 2⟩, ⟨S1x4x1x1x1048576, u 3⟩] concatenates_S1x4x1x1x1048576_S1x4x1x1x1048576_S1x4x1x1x1048576_S1x4x1x1x1048576_S1x16x1x1x1048576_d1) ]

set_option maxRecDepth 8192 in
set_option maxHeartbeats 4000000 in
theorem part22_eq (c : Dev nD) : main_part22 (F := F) c = seq ops22 := rfl

set_option maxRecDepth 8192 in
theorem ops22_sub : (ops22 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops22_fresh : ∀ op ∈ (ops22 : List (HloOp τ sig (Elt F))), op.fresh = ∅ := by line_fresh

abbrev ops22_outs : List (Ref sig .tc) :=
  [main_v1020, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047, main_v1048, main_v1049, main_v1050, main_v1051, main_v1052, main_v1053]

set_option maxRecDepth 8192 in
theorem ops22_writes : (ops22 : List (HloOp τ sig (Elt F))).Forall fun op => op.writes ⊆ (ops22_outs.map (Proc.devRef (τ := τ) .tc)).toFinset := by
  repeat' constructor
  all_goals exact writes_sub_of_mem (by decide)

variable (W : Valuation τ sig (Elt F)) (x0 : (⟨S1x1x1x1048576x3, .f32⟩ : BufTy).Contents (Elt F)) (x1 : (⟨S1x4x32x32x32, .f32⟩ : BufTy).Contents (Elt F)) (x2 : (⟨S1x4x64x64x64, .f32⟩ : BufTy).Contents (Elt F)) (x3 : (⟨S1x4x128x128x128, .f32⟩ : BufTy).Contents (Elt F)) (x4 : (⟨S1x4x256x256x256, .f32⟩ : BufTy).Contents (Elt F))

def Live0 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4

def Live1 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v1) = ReadP.val_main_v1 (F := F) x1 ∧
  W (Proc.devRef .tc main_v29) = ReadP.val_main_v29 (F := F) x0 ∧
  W (Proc.devRef .tc main_v30) = ReadP.val_main_v30 (F := F) x0 ∧
  W (Proc.devRef .tc main_v31) = ReadP.val_main_v31 (F := F) x0 ∧
  W (Proc.devRef .tc main_v33) = ReadP.val_main_v33 (F := F) x0 ∧
  W (Proc.devRef .tc main_v34) = ReadP.val_main_v34 (F := F) x0 ∧
  W (Proc.devRef .tc main_v40) = ReadP.val_main_v40 (F := F) x0 ∧
  W (Proc.devRef .tc main_v41) = ReadP.val_main_v41 (F := F) x0 ∧
  W (Proc.devRef .tc main_cst_15) = ReadP.val_main_cst_15 (F := F)

def Live2 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v1) = ReadP.val_main_v1 (F := F) x1 ∧
  W (Proc.devRef .tc main_v40) = ReadP.val_main_v40 (F := F) x0 ∧
  W (Proc.devRef .tc main_v46) = ReadP.val_main_v46 (F := F) x0 ∧
  W (Proc.devRef .tc main_v52) = ReadP.val_main_v52 (F := F) x0 ∧
  W (Proc.devRef .tc main_v53) = ReadP.val_main_v53 (F := F) x0 ∧
  W (Proc.devRef .tc main_v57) = ReadP.val_main_v57 (F := F) x0 ∧
  W (Proc.devRef .tc main_v58) = ReadP.val_main_v58 (F := F) x0 ∧
  W (Proc.devRef .tc main_v62) = ReadP.val_main_v62 (F := F) x0 ∧
  W (Proc.devRef .tc main_v63) = ReadP.val_main_v63 (F := F) x0 ∧
  W (Proc.devRef .tc main_v67) = ReadP.val_main_v67 (F := F) x0 ∧
  W (Proc.devRef .tc main_v86) = ReadP.val_main_v86 (F := F) x0

def Live3 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v1) = ReadP.val_main_v1 (F := F) x1 ∧
  W (Proc.devRef .tc main_v40) = ReadP.val_main_v40 (F := F) x0 ∧
  W (Proc.devRef .tc main_v46) = ReadP.val_main_v46 (F := F) x0 ∧
  W (Proc.devRef .tc main_v52) = ReadP.val_main_v52 (F := F) x0 ∧
  W (Proc.devRef .tc main_v53) = ReadP.val_main_v53 (F := F) x0 ∧
  W (Proc.devRef .tc main_v57) = ReadP.val_main_v57 (F := F) x0 ∧
  W (Proc.devRef .tc main_v58) = ReadP.val_main_v58 (F := F) x0 ∧
  W (Proc.devRef .tc main_v62) = ReadP.val_main_v62 (F := F) x0 ∧
  W (Proc.devRef .tc main_v67) = ReadP.val_main_v67 (F := F) x0 ∧
  W (Proc.devRef .tc main_v87) = ReadP.val_main_v87 (F := F) x0 x1 ∧
  W (Proc.devRef .tc main_v107) = ReadP.val_main_v107 (F := F) x0 x1 ∧
  W (Proc.devRef .tc main_v127) = ReadP.val_main_v127 (F := F) x0 x1 ∧
  W (Proc.devRef .tc main_v132) = ReadP.val_main_v132 (F := F) x0

def Live4 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v1) = ReadP.val_main_v1 (F := F) x1 ∧
  W (Proc.devRef .tc main_v40) = ReadP.val_main_v40 (F := F) x0 ∧
  W (Proc.devRef .tc main_v46) = ReadP.val_main_v46 (F := F) x0 ∧
  W (Proc.devRef .tc main_v52) = ReadP.val_main_v52 (F := F) x0 ∧
  W (Proc.devRef .tc main_v53) = ReadP.val_main_v53 (F := F) x0 ∧
  W (Proc.devRef .tc main_v57) = ReadP.val_main_v57 (F := F) x0 ∧
  W (Proc.devRef .tc main_v62) = ReadP.val_main_v62 (F := F) x0 ∧
  W (Proc.devRef .tc main_v67) = ReadP.val_main_v67 (F := F) x0 ∧
  W (Proc.devRef .tc main_v87) = ReadP.val_main_v87 (F := F) x0 x1 ∧
  W (Proc.devRef .tc main_v107) = ReadP.val_main_v107 (F := F) x0 x1 ∧
  W (Proc.devRef .tc main_v127) = ReadP.val_main_v127 (F := F) x0 x1 ∧
  W (Proc.devRef .tc main_v147) = ReadP.val_main_v147 (F := F) x0 x1 ∧
  W (Proc.devRef .tc main_v167) = ReadP.val_main_v167 (F := F) x0 x1 ∧
  W (Proc.devRef .tc main_v172) = ReadP.val_main_v172 (F := F) x0 ∧
  W (Proc.devRef .tc main_v177) = ReadP.val_main_v177 (F := F) x0 ∧
  W (Proc.devRef .tc main_c_59) = ReadP.val_main_c_59 (F := F)

def Live5 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v1) = ReadP.val_main_v1 (F := F) x1 ∧
  W (Proc.devRef .tc main_v40) = ReadP.val_main_v40 (F := F) x0 ∧
  W (Proc.devRef .tc main_v46) = ReadP.val_main_v46 (F := F) x0 ∧
  W (Proc.devRef .tc main_v52) = ReadP.val_main_v52 (F := F) x0 ∧
  W (Proc.devRef .tc main_v87) = ReadP.val_main_v87 (F := F) x0 x1 ∧
  W (Proc.devRef .tc main_v107) = ReadP.val_main_v107 (F := F) x0 x1 ∧
  W (Proc.devRef .tc main_v127) = ReadP.val_main_v127 (F := F) x0 x1 ∧
  W (Proc.devRef .tc main_v147) = ReadP.val_main_v147 (F := F) x0 x1 ∧
  W (Proc.devRef .tc main_v167) = ReadP.val_main_v167 (F := F) x0 x1 ∧
  W (Proc.devRef .tc main_v187) = ReadP.val_main_v187 (F := F) x0 x1 ∧
  W (Proc.devRef .tc main_v207) = ReadP.val_main_v207 (F := F) x0 x1 ∧
  W (Proc.devRef .tc main_v222) = ReadP.val_main_v222 (F := F) x0 ∧
  W (Proc.devRef .tc main_v223) = ReadP.val_main_v223 (F := F) x0 ∧
  W (Proc.devRef .tc main_v224) = ReadP.val_main_v224 (F := F) x0

def Live6 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v264) = ReadP.val_main_v264 (F := F) x2 ∧
  W (Proc.devRef .tc main_v273) = ReadP.val_main_v273 (F := F) x0 ∧
  W (Proc.devRef .tc main_v277) = ReadP.val_main_v277 (F := F) x0 ∧
  W (Proc.devRef .tc main_cst_79) = ReadP.val_main_cst_79 (F := F)

def Live7 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v264) = ReadP.val_main_v264 (F := F) x2 ∧
  W (Proc.devRef .tc main_v294) = ReadP.val_main_v294 (F := F) x0 ∧
  W (Proc.devRef .tc main_v303) = ReadP.val_main_v303 (F := F) x0 ∧
  W (Proc.devRef .tc main_v309) = ReadP.val_main_v309 (F := F) x0 ∧
  W (Proc.devRef .tc main_v315) = ReadP.val_main_v315 (F := F) x0 ∧
  W (Proc.devRef .tc main_v316) = ReadP.val_main_v316 (F := F) x0 ∧
  W (Proc.devRef .tc main_v320) = ReadP.val_main_v320 (F := F) x0 ∧
  W (Proc.devRef .tc main_v321) = ReadP.val_main_v321 (F := F) x0

def Live8 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v264) = ReadP.val_main_v264 (F := F) x2 ∧
  W (Proc.devRef .tc main_v303) = ReadP.val_main_v303 (F := F) x0 ∧
  W (Proc.devRef .tc main_v309) = ReadP.val_main_v309 (F := F) x0 ∧
  W (Proc.devRef .tc main_v315) = ReadP.val_main_v315 (F := F) x0 ∧
  W (Proc.devRef .tc main_v316) = ReadP.val_main_v316 (F := F) x0 ∧
  W (Proc.devRef .tc main_v320) = ReadP.val_main_v320 (F := F) x0 ∧
  W (Proc.devRef .tc main_v321) = ReadP.val_main_v321 (F := F) x0 ∧
  W (Proc.devRef .tc main_v325) = ReadP.val_main_v325 (F := F) x0 ∧
  W (Proc.devRef .tc main_v326) = ReadP.val_main_v326 (F := F) x0 ∧
  W (Proc.devRef .tc main_v330) = ReadP.val_main_v330 (F := F) x0 ∧
  W (Proc.devRef .tc main_v350) = ReadP.val_main_v350 (F := F) x0 x2 ∧
  W (Proc.devRef .tc main_v355) = ReadP.val_main_v355 (F := F) x0 ∧
  W (Proc.devRef .tc main_v360) = ReadP.val_main_v360 (F := F) x0 ∧
  W (Proc.devRef .tc main_v365) = ReadP.val_main_v365 (F := F) x0

def Live9 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v264) = ReadP.val_main_v264 (F := F) x2 ∧
  W (Proc.devRef .tc main_v303) = ReadP.val_main_v303 (F := F) x0 ∧
  W (Proc.devRef .tc main_v309) = ReadP.val_main_v309 (F := F) x0 ∧
  W (Proc.devRef .tc main_v315) = ReadP.val_main_v315 (F := F) x0 ∧
  W (Proc.devRef .tc main_v316) = ReadP.val_main_v316 (F := F) x0 ∧
  W (Proc.devRef .tc main_v320) = ReadP.val_main_v320 (F := F) x0 ∧
  W (Proc.devRef .tc main_v321) = ReadP.val_main_v321 (F := F) x0 ∧
  W (Proc.devRef .tc main_v325) = ReadP.val_main_v325 (F := F) x0 ∧
  W (Proc.devRef .tc main_v330) = ReadP.val_main_v330 (F := F) x0 ∧
  W (Proc.devRef .tc main_v350) = ReadP.val_main_v350 (F := F) x0 x2 ∧
  W (Proc.devRef .tc main_v370) = ReadP.val_main_v370 (F := F) x0 x2 ∧
  W (Proc.devRef .tc main_v390) = ReadP.val_main_v390 (F := F) x0 x2 ∧
  W (Proc.devRef .tc main_v410) = ReadP.val_main_v410 (F := F) x0 x2 ∧
  W (Proc.devRef .tc main_v412) = ReadP.val_main_v412 (F := F) x0

def Live10 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v264) = ReadP.val_main_v264 (F := F) x2 ∧
  W (Proc.devRef .tc main_v303) = ReadP.val_main_v303 (F := F) x0 ∧
  W (Proc.devRef .tc main_v309) = ReadP.val_main_v309 (F := F) x0 ∧
  W (Proc.devRef .tc main_v315) = ReadP.val_main_v315 (F := F) x0 ∧
  W (Proc.devRef .tc main_v316) = ReadP.val_main_v316 (F := F) x0 ∧
  W (Proc.devRef .tc main_v320) = ReadP.val_main_v320 (F := F) x0 ∧
  W (Proc.devRef .tc main_v325) = ReadP.val_main_v325 (F := F) x0 ∧
  W (Proc.devRef .tc main_v330) = ReadP.val_main_v330 (F := F) x0 ∧
  W (Proc.devRef .tc main_v350) = ReadP.val_main_v350 (F := F) x0 x2 ∧
  W (Proc.devRef .tc main_v370) = ReadP.val_main_v370 (F := F) x0 x2 ∧
  W (Proc.devRef .tc main_v390) = ReadP.val_main_v390 (F := F) x0 x2 ∧
  W (Proc.devRef .tc main_v410) = ReadP.val_main_v410 (F := F) x0 x2 ∧
  W (Proc.devRef .tc main_v430) = ReadP.val_main_v430 (F := F) x0 x2 ∧
  W (Proc.devRef .tc main_v450) = ReadP.val_main_v450 (F := F) x0 x2 ∧
  W (Proc.devRef .tc main_v455) = ReadP.val_main_v455 (F := F) x0 ∧
  W (Proc.devRef .tc main_v457) = ReadP.val_main_v457 (F := F) x0 ∧
  W (Proc.devRef .tc main_c_139) = ReadP.val_main_c_139 (F := F)

def Live11 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v309) = ReadP.val_main_v309 (F := F) x0 ∧
  W (Proc.devRef .tc main_v315) = ReadP.val_main_v315 (F := F) x0 ∧
  W (Proc.devRef .tc main_v470) = ReadP.val_main_v470 (F := F) x0 x2 ∧
  W (Proc.devRef .tc main_v495) = ReadP.val_main_v495 (F := F) x0 x2 ∧
  W (Proc.devRef .tc main_v500) = ReadP.val_main_v500 (F := F) x0 x2 ∧
  W (Proc.devRef .tc main_v505) = ReadP.val_main_v505 (F := F) x0 x2 ∧
  W (Proc.devRef .tc main_v509) = ReadP.val_main_v509 (F := F) x0 x2

def Live12 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v526) = ReadP.val_main_v526 (F := F) x0 x2 ∧
  W (Proc.devRef .tc main_v527) = ReadP.val_main_v527 (F := F) x3 ∧
  W (Proc.devRef .tc main_v536) = ReadP.val_main_v536 (F := F) x0 ∧
  W (Proc.devRef .tc main_v545) = ReadP.val_main_v545 (F := F) x0 ∧
  W (Proc.devRef .tc main_v554) = ReadP.val_main_v554 (F := F) x0

def Live13 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v526) = ReadP.val_main_v526 (F := F) x0 x2 ∧
  W (Proc.devRef .tc main_v527) = ReadP.val_main_v527 (F := F) x3 ∧
  W (Proc.devRef .tc main_v566) = ReadP.val_main_v566 (F := F) x0 ∧
  W (Proc.devRef .tc main_v572) = ReadP.val_main_v572 (F := F) x0 ∧
  W (Proc.devRef .tc main_v578) = ReadP.val_main_v578 (F := F) x0 ∧
  W (Proc.devRef .tc main_v579) = ReadP.val_main_v579 (F := F) x0 ∧
  W (Proc.devRef .tc main_v583) = ReadP.val_main_v583 (F := F) x0 ∧
  W (Proc.devRef .tc main_v584) = ReadP.val_main_v584 (F := F) x0 ∧
  W (Proc.devRef .tc main_v588) = ReadP.val_main_v588 (F := F) x0 ∧
  W (Proc.devRef .tc main_v589) = ReadP.val_main_v589 (F := F) x0 ∧
  W (Proc.devRef .tc main_v593) = ReadP.val_main_v593 (F := F) x0 ∧
  W (Proc.devRef .tc main_v598) = ReadP.val_main_v598 (F := F) x0 ∧
  W (Proc.devRef .tc main_v599) = ReadP.val_main_v599 (F := F)

def Live14 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v526) = ReadP.val_main_v526 (F := F) x0 x2 ∧
  W (Proc.devRef .tc main_v527) = ReadP.val_main_v527 (F := F) x3 ∧
  W (Proc.devRef .tc main_v566) = ReadP.val_main_v566 (F := F) x0 ∧
  W (Proc.devRef .tc main_v572) = ReadP.val_main_v572 (F := F) x0 ∧
  W (Proc.devRef .tc main_v578) = ReadP.val_main_v578 (F := F) x0 ∧
  W (Proc.devRef .tc main_v579) = ReadP.val_main_v579 (F := F) x0 ∧
  W (Proc.devRef .tc main_v583) = ReadP.val_main_v583 (F := F) x0 ∧
  W (Proc.devRef .tc main_v584) = ReadP.val_main_v584 (F := F) x0 ∧
  W (Proc.devRef .tc main_v588) = ReadP.val_main_v588 (F := F) x0 ∧
  W (Proc.devRef .tc main_v589) = ReadP.val_main_v589 (F := F) x0 ∧
  W (Proc.devRef .tc main_v593) = ReadP.val_main_v593 (F := F) x0 ∧
  W (Proc.devRef .tc main_v613) = ReadP.val_main_v613 (F := F) x0 x3 ∧
  W (Proc.devRef .tc main_v633) = ReadP.val_main_v633 (F := F) x0 x3 ∧
  W (Proc.devRef .tc main_v638) = ReadP.val_main_v638 (F := F) x0 ∧
  W (Proc.devRef .tc main_v643) = ReadP.val_main_v643 (F := F) x0 ∧
  W (Proc.devRef .tc main_v645) = ReadP.val_main_v645 (F := F) x0

def Live15 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v526) = ReadP.val_main_v526 (F := F) x0 x2 ∧
  W (Proc.devRef .tc main_v527) = ReadP.val_main_v527 (F := F) x3 ∧
  W (Proc.devRef .tc main_v566) = ReadP.val_main_v566 (F := F) x0 ∧
  W (Proc.devRef .tc main_v572) = ReadP.val_main_v572 (F := F) x0 ∧
  W (Proc.devRef .tc main_v578) = ReadP.val_main_v578 (F := F) x0 ∧
  W (Proc.devRef .tc main_v579) = ReadP.val_main_v579 (F := F) x0 ∧
  W (Proc.devRef .tc main_v583) = ReadP.val_main_v583 (F := F) x0 ∧
  W (Proc.devRef .tc main_v584) = ReadP.val_main_v584 (F := F) x0 ∧
  W (Proc.devRef .tc main_v588) = ReadP.val_main_v588 (F := F) x0 ∧
  W (Proc.devRef .tc main_v593) = ReadP.val_main_v593 (F := F) x0 ∧
  W (Proc.devRef .tc main_v613) = ReadP.val_main_v613 (F := F) x0 x3 ∧
  W (Proc.devRef .tc main_v633) = ReadP.val_main_v633 (F := F) x0 x3 ∧
  W (Proc.devRef .tc main_v653) = ReadP.val_main_v653 (F := F) x0 x3 ∧
  W (Proc.devRef .tc main_v673) = ReadP.val_main_v673 (F := F) x0 x3 ∧
  W (Proc.devRef .tc main_v692) = ReadP.val_main_v692 (F := F) x0

def Live16 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v526) = ReadP.val_main_v526 (F := F) x0 x2 ∧
  W (Proc.devRef .tc main_v527) = ReadP.val_main_v527 (F := F) x3 ∧
  W (Proc.devRef .tc main_v566) = ReadP.val_main_v566 (F := F) x0 ∧
  W (Proc.devRef .tc main_v572) = ReadP.val_main_v572 (F := F) x0 ∧
  W (Proc.devRef .tc main_v578) = ReadP.val_main_v578 (F := F) x0 ∧
  W (Proc.devRef .tc main_v583) = ReadP.val_main_v583 (F := F) x0 ∧
  W (Proc.devRef .tc main_v588) = ReadP.val_main_v588 (F := F) x0 ∧
  W (Proc.devRef .tc main_v613) = ReadP.val_main_v613 (F := F) x0 x3 ∧
  W (Proc.devRef .tc main_v633) = ReadP.val_main_v633 (F := F) x0 x3 ∧
  W (Proc.devRef .tc main_v653) = ReadP.val_main_v653 (F := F) x0 x3 ∧
  W (Proc.devRef .tc main_v673) = ReadP.val_main_v673 (F := F) x0 x3 ∧
  W (Proc.devRef .tc main_v693) = ReadP.val_main_v693 (F := F) x0 x3 ∧
  W (Proc.devRef .tc main_v713) = ReadP.val_main_v713 (F := F) x0 x3 ∧
  W (Proc.devRef .tc main_v733) = ReadP.val_main_v733 (F := F) x0 x3 ∧
  W (Proc.devRef .tc main_v738) = ReadP.val_main_v738 (F := F) x0

def Live17 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v0) = ReadP.val_main_v0 (F := F) x0 ∧
  W (Proc.devRef .tc main_v263) = ReadP.val_main_v263 (F := F) x0 x1 ∧
  W (Proc.devRef .tc main_v526) = ReadP.val_main_v526 (F := F) x0 x2 ∧
  W (Proc.devRef .tc main_v789) = ReadP.val_main_v789 (F := F) x0 x3 ∧
  W (Proc.devRef .tc main_v790) = ReadP.val_main_v790 (F := F) x4 ∧
  W (Proc.devRef .tc main_v792) = ReadP.val_main_v792 (F := F) x0 ∧
  W (Proc.devRef .tc main_v793) = ReadP.val_main_v793 (F := F)

def Live18 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v263) = ReadP.val_main_v263 (F := F) x0 x1 ∧
  W (Proc.devRef .tc main_v526) = ReadP.val_main_v526 (F := F) x0 x2 ∧
  W (Proc.devRef .tc main_v789) = ReadP.val_main_v789 (F := F) x0 x3 ∧
  W (Proc.devRef .tc main_v790) = ReadP.val_main_v790 (F := F) x4 ∧
  W (Proc.devRef .tc main_v818) = ReadP.val_main_v818 (F := F) x0 ∧
  W (Proc.devRef .tc main_v819) = ReadP.val_main_v819 (F := F) x0 ∧
  W (Proc.devRef .tc main_v820) = ReadP.val_main_v820 (F := F) x0 ∧
  W (Proc.devRef .tc main_v823) = ReadP.val_main_v823 (F := F) x0 ∧
  W (Proc.devRef .tc main_v829) = ReadP.val_main_v829 (F := F) x0 ∧
  W (Proc.devRef .tc main_v835) = ReadP.val_main_v835 (F := F) x0

def Live19 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v263) = ReadP.val_main_v263 (F := F) x0 x1 ∧
  W (Proc.devRef .tc main_v526) = ReadP.val_main_v526 (F := F) x0 x2 ∧
  W (Proc.devRef .tc main_v789) = ReadP.val_main_v789 (F := F) x0 x3 ∧
  W (Proc.devRef .tc main_v790) = ReadP.val_main_v790 (F := F) x4 ∧
  W (Proc.devRef .tc main_v829) = ReadP.val_main_v829 (F := F) x0 ∧
  W (Proc.devRef .tc main_v835) = ReadP.val_main_v835 (F := F) x0 ∧
  W (Proc.devRef .tc main_v841) = ReadP.val_main_v841 (F := F) x0 ∧
  W (Proc.devRef .tc main_v842) = ReadP.val_main_v842 (F := F) x0 ∧
  W (Proc.devRef .tc main_v846) = ReadP.val_main_v846 (F := F) x0 ∧
  W (Proc.devRef .tc main_v847) = ReadP.val_main_v847 (F := F) x0 ∧
  W (Proc.devRef .tc main_v851) = ReadP.val_main_v851 (F := F) x0 ∧
  W (Proc.devRef .tc main_v852) = ReadP.val_main_v852 (F := F) x0 ∧
  W (Proc.devRef .tc main_v856) = ReadP.val_main_v856 (F := F) x0 ∧
  W (Proc.devRef .tc main_v876) = ReadP.val_main_v876 (F := F) x0 x4 ∧
  W (Proc.devRef .tc main_v878) = ReadP.val_main_v878 (F := F) x0 ∧
  W (Proc.devRef .tc main_v879) = ReadP.val_main_v879 (F := F)

def Live20 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v263) = ReadP.val_main_v263 (F := F) x0 x1 ∧
  W (Proc.devRef .tc main_v526) = ReadP.val_main_v526 (F := F) x0 x2 ∧
  W (Proc.devRef .tc main_v789) = ReadP.val_main_v789 (F := F) x0 x3 ∧
  W (Proc.devRef .tc main_v790) = ReadP.val_main_v790 (F := F) x4 ∧
  W (Proc.devRef .tc main_v829) = ReadP.val_main_v829 (F := F) x0 ∧
  W (Proc.devRef .tc main_v835) = ReadP.val_main_v835 (F := F) x0 ∧
  W (Proc.devRef .tc main_v841) = ReadP.val_main_v841 (F := F) x0 ∧
  W (Proc.devRef .tc main_v842) = ReadP.val_main_v842 (F := F) x0 ∧
  W (Proc.devRef .tc main_v846) = ReadP.val_main_v846 (F := F) x0 ∧
  W (Proc.devRef .tc main_v847) = ReadP.val_main_v847 (F := F) x0 ∧
  W (Proc.devRef .tc main_v851) = ReadP.val_main_v851 (F := F) x0 ∧
  W (Proc.devRef .tc main_v856) = ReadP.val_main_v856 (F := F) x0 ∧
  W (Proc.devRef .tc main_v876) = ReadP.val_main_v876 (F := F) x0 x4 ∧
  W (Proc.devRef .tc main_v896) = ReadP.val_main_v896 (F := F) x0 x4 ∧
  W (Proc.devRef .tc main_v916) = ReadP.val_main_v916 (F := F) x0 x4 ∧
  W (Proc.devRef .tc main_v921) = ReadP.val_main_v921 (F := F) x0 ∧
  W (Proc.devRef .tc main_v923) = ReadP.val_main_v923 (F := F) x0 ∧
  W (Proc.devRef .tc main_v925) = ReadP.val_main_v925 (F := F) x0

def Live21 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v263) = ReadP.val_main_v263 (F := F) x0 x1 ∧
  W (Proc.devRef .tc main_v526) = ReadP.val_main_v526 (F := F) x0 x2 ∧
  W (Proc.devRef .tc main_v789) = ReadP.val_main_v789 (F := F) x0 x3 ∧
  W (Proc.devRef .tc main_v790) = ReadP.val_main_v790 (F := F) x4 ∧
  W (Proc.devRef .tc main_v829) = ReadP.val_main_v829 (F := F) x0 ∧
  W (Proc.devRef .tc main_v835) = ReadP.val_main_v835 (F := F) x0 ∧
  W (Proc.devRef .tc main_v841) = ReadP.val_main_v841 (F := F) x0 ∧
  W (Proc.devRef .tc main_v842) = ReadP.val_main_v842 (F := F) x0 ∧
  W (Proc.devRef .tc main_v846) = ReadP.val_main_v846 (F := F) x0 ∧
  W (Proc.devRef .tc main_v851) = ReadP.val_main_v851 (F := F) x0 ∧
  W (Proc.devRef .tc main_v856) = ReadP.val_main_v856 (F := F) x0 ∧
  W (Proc.devRef .tc main_v876) = ReadP.val_main_v876 (F := F) x0 x4 ∧
  W (Proc.devRef .tc main_v896) = ReadP.val_main_v896 (F := F) x0 x4 ∧
  W (Proc.devRef .tc main_v916) = ReadP.val_main_v916 (F := F) x0 x4 ∧
  W (Proc.devRef .tc main_v936) = ReadP.val_main_v936 (F := F) x0 x4 ∧
  W (Proc.devRef .tc main_v956) = ReadP.val_main_v956 (F := F) x0 x4 ∧
  W (Proc.devRef .tc main_v961) = ReadP.val_main_v961 (F := F) x0 ∧
  W (Proc.devRef .tc main_v966) = ReadP.val_main_v966 (F := F) x0 ∧
  W (Proc.devRef .tc main_v971) = ReadP.val_main_v971 (F := F) x0

def Live22 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v263) = ReadP.val_main_v263 (F := F) x0 x1 ∧
  W (Proc.devRef .tc main_v526) = ReadP.val_main_v526 (F := F) x0 x2 ∧
  W (Proc.devRef .tc main_v789) = ReadP.val_main_v789 (F := F) x0 x3 ∧
  W (Proc.devRef .tc main_v829) = ReadP.val_main_v829 (F := F) x0 ∧
  W (Proc.devRef .tc main_v835) = ReadP.val_main_v835 (F := F) x0 ∧
  W (Proc.devRef .tc main_v841) = ReadP.val_main_v841 (F := F) x0 ∧
  W (Proc.devRef .tc main_v876) = ReadP.val_main_v876 (F := F) x0 x4 ∧
  W (Proc.devRef .tc main_v916) = ReadP.val_main_v916 (F := F) x0 x4 ∧
  W (Proc.devRef .tc main_v936) = ReadP.val_main_v936 (F := F) x0 x4 ∧
  W (Proc.devRef .tc main_v956) = ReadP.val_main_v956 (F := F) x0 x4 ∧
  W (Proc.devRef .tc main_v976) = ReadP.val_main_v976 (F := F) x0 x4 ∧
  W (Proc.devRef .tc main_v996) = ReadP.val_main_v996 (F := F) x0 x4 ∧
  W (Proc.devRef .tc main_v1016) = ReadP.val_main_v1016 (F := F) x0 x4 ∧
  W (Proc.devRef .tc main_v1017) = ReadP.val_main_v1017 (F := F) x0 x4 ∧
  W (Proc.devRef .tc main_v1019) = ReadP.val_main_v1019 (F := F) x0

def Live23 : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4 ∧
  W (Proc.devRef .tc main_v1053) = ReadP.val_main_v1053 (F := F) x0 x1 x2 x3 x4

end Cert.ReferenceIdeal.RRun

end
-- ==== Proof.RRunRaw.lean ====
/- The reference terminates and every buffer ends at the fold of the 1414 operations over the launch contents; the arguments, written by none, are unchanged. -/
import proofs.«104267_j36455682409092_2_alg».proof.Proof.RRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22))))))))))))))))))))))

theorem main_eq (c : Dev nD) : main (F := F) c = seq ops := by
  unfold ops main
  simp only [seq_append, part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq]

theorem ops_sub : (ops : List (HloOp τ sig (Elt F))).Forall fun op => op.bufs ⊆ tcRefs τ sig :=
  forall_app ops0_sub (forall_app ops1_sub (forall_app ops2_sub (forall_app ops3_sub (forall_app ops4_sub (forall_app ops5_sub (forall_app ops6_sub (forall_app ops7_sub (forall_app ops8_sub (forall_app ops9_sub (forall_app ops10_sub (forall_app ops11_sub (forall_app ops12_sub (forall_app ops13_sub (forall_app ops14_sub (forall_app ops15_sub (forall_app ops16_sub (forall_app ops17_sub (forall_app ops18_sub (forall_app ops19_sub (forall_app ops20_sub (forall_app ops21_sub (ops22_sub))))))))))))))))))))))

theorem ops_fresh : ∀ op ∈ (ops : List (HloOp τ sig (Elt F))), op.fresh = ∅ :=
  mem_app ops0_fresh (mem_app ops1_fresh (mem_app ops2_fresh (mem_app ops3_fresh (mem_app ops4_fresh (mem_app ops5_fresh (mem_app ops6_fresh (mem_app ops7_fresh (mem_app ops8_fresh (mem_app ops9_fresh (mem_app ops10_fresh (mem_app ops11_fresh (mem_app ops12_fresh (mem_app ops13_fresh (mem_app ops14_fresh (mem_app ops15_fresh (mem_app ops16_fresh (mem_app ops17_fresh (mem_app ops18_fresh (mem_app ops19_fresh (mem_app ops20_fresh (mem_app ops21_fresh (ops22_fresh))))))))))))))))))))))

set_option maxRecDepth 8192 in

theorem scopedRefs_eq : (Finset.univ.filter fun b : Ref sig .tc => b.isScoped) = ∅ := by decide

theorem scopedSems_eq : (Finset.univ.filter fun sm : SemLoc sig => sm.isScoped .tc) = ∅ := by decide

theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem after_ops (V : Valuation τ sig (Elt F)) :
    after ops V = after ops22 (after ops21 (after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 (V))))))))))))))))))))))) := by
  unfold ops
  simp only [after_app]

theorem after_ops_kept (V : Valuation τ sig (Elt F)) (r : Ref sig .tc)
    (h : r ∉ ops0_outs ∧ r ∉ ops1_outs ∧ r ∉ ops2_outs ∧ r ∉ ops3_outs ∧ r ∉ ops4_outs ∧ r ∉ ops5_outs ∧ r ∉ ops6_outs ∧ r ∉ ops7_outs ∧ r ∉ ops8_outs ∧ r ∉ ops9_outs ∧ r ∉ ops10_outs ∧ r ∉ ops11_outs ∧ r ∉ ops12_outs ∧ r ∉ ops13_outs ∧ r ∉ ops14_outs ∧ r ∉ ops15_outs ∧ r ∉ ops16_outs ∧ r ∉ ops17_outs ∧ r ∉ ops18_outs ∧ r ∉ ops19_outs ∧ r ∉ ops20_outs ∧ r ∉ ops21_outs ∧ r ∉ ops22_outs) :
    after ops V (Proc.devRef .tc r) = V (Proc.devRef .tc r) := by
  obtain ⟨h0, h1, h2, h3, h4, h5, h6, h7, h8, h9, h10, h11, h12, h13, h14, h15, h16, h17, h18, h19, h20, h21, h22⟩ := h
  rw [after_ops, after_of_writes_sub ops22 _ ops22_writes h22, after_of_writes_sub ops21 _ ops21_writes h21, after_of_writes_sub ops20 _ ops20_writes h20, after_of_writes_sub ops19 _ ops19_writes h19, after_of_writes_sub ops18 _ ops18_writes h18, after_of_writes_sub ops17 _ ops17_writes h17, after_of_writes_sub ops16 _ ops16_writes h16, after_of_writes_sub ops15 _ ops15_writes h15, after_of_writes_sub ops14 _ ops14_writes h14, after_of_writes_sub ops13 _ ops13_writes h13, after_of_writes_sub ops12 _ ops12_writes h12, after_of_writes_sub ops11 _ ops11_writes h11, after_of_writes_sub ops10 _ ops10_writes h10, after_of_writes_sub ops9 _ ops9_writes h9, after_of_writes_sub ops8 _ ops8_writes h8, after_of_writes_sub ops7 _ ops7_writes h7, after_of_writes_sub ops6 _ ops6_writes h6, after_of_writes_sub ops5 _ ops5_writes h5, after_of_writes_sub ops4 _ ops4_writes h4, after_of_writes_sub ops3 _ ops3_writes h3, after_of_writes_sub ops2 _ ops2_writes h2, after_of_writes_sub ops1 _ ops1_writes h1, after_of_writes_sub ops0 _ ops0_writes h0]

macro "not_written" : tactic =>
  `(tactic| (refine ⟨?_, ?_, ?_, ?_, ?_, ?_, ?_, ?_, ?_, ?_, ?_, ?_, ?_, ?_, ?_, ?_, ?_, ?_, ?_, ?_, ?_, ?_, ?_⟩ <;> decide))

theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1053) = after ops (launchContents m c) (Proc.devRef .tc main_v1053)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v1053,
      (h c main_arg0).trans (after_ops_kept _ main_arg0 (by not_written)),
      (h c main_arg1).trans (after_ops_kept _ main_arg1 (by not_written)),
      (h c main_arg2).trans (after_ops_kept _ main_arg2 (by not_written)),
      (h c main_arg3).trans (after_ops_kept _ main_arg3 (by not_written)),
      (h c main_arg4).trans (after_ops_kept _ main_arg4 (by not_written))⟩)
    (run_raw m ρ)

end Cert.ReferenceIdeal.RRun

end
-- ==== Proof.RRunInvA.lean ====
/- Each line of operations carries the invariant at its cut to the next cut: a buffer it does not write keeps its contents, a buffer it writes holds the line's composition over live buffers, which is that buffer's stage by definition. -/
import proofs.«104267_j36455682409092_2_alg».proof.Proof.RRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F)) (x0 : (⟨S1x1x1x1048576x3, .f32⟩ : BufTy).Contents (Elt F)) (x1 : (⟨S1x4x32x32x32, .f32⟩ : BufTy).Contents (Elt F)) (x2 : (⟨S1x4x64x64x64, .f32⟩ : BufTy).Contents (Elt F)) (x3 : (⟨S1x4x128x128x128, .f32⟩ : BufTy).Contents (Elt F)) (x4 : (⟨S1x4x256x256x256, .f32⟩ : BufTy).Contents (Elt F))

set_option maxRecDepth 8192 in
set_option maxHeartbeats 4000000 in
theorem inv0 (h : Live0 W x0 x1 x2 x3 x4) : Live1 (after ops0 W) x0 x1 x2 x3 x4 := by
  obtain ⟨h0, h1, h2, h3, h4⟩ := h
  refine ⟨?_, ?_, ?_, ?_, ?_, ?_, ?_, ?_, ?_, ?_, ?_, ?_, ?_, ?_, ?_⟩ <;> stage_step ops0 ops0_writes

set_option maxRecDepth 8192 in
set_option maxHeartbeats 4000000 in
theorem inv1 (h : Live1 W x0 x1 x2 x3 x4) : Live2 (after ops1 W) x0 x1 x2 x3 x4 := by
  obtain ⟨h0, h1, h2, h3, h4, h5, h6, h7, h8, h9, h10, h11, h12, h13, h14⟩ := h
  refine ⟨?_, ?_, ?_, ?_, ?_, ?_, ?_, ?_, ?_, ?_, ?_, ?_, ?_, ?_, ?_, ?_, ?_⟩ <;> stage_step ops1 ops1_writes

set_option maxRecDepth 8192 in
set_option maxHeartbeats 4000000 in
theorem inv2 (h : Live2 W x0 x1 x2 x3 x4) : Live3 (after ops2 W) x0 x1 x2 x3 x4 := by
  obtain ⟨h0, h1, h2, h3, h4, h5, h6, h7, h8, h9, h10, h11, h12, h13, h14, h15, h16⟩ := h
  refine ⟨?_, ?_, ?_, ?_, ?_, ?_, ?_, ?_, ?_, ?_, ?_, ?_, ?_, ?_, ?_, ?_, ?_, ?_, ?_⟩ <;> stage_step ops2 ops2_writes

set_option maxRecDepth 8192 in
set_option maxHeartbeats 4000000 in
theorem inv3 (h : Live3 W x0 x1 x2 x3 x4) : Live4 (after ops3 W) x0 x1 x2 x3 x4 := by
  obtain ⟨h0, h1, h2, h3, h4, h5, h6, h7, h8, h9, h10, h11, h12, h13, h14, h15, h16, h17, h18⟩ := h
  refine ⟨?_, ?_, ?_, ?_, ?_, ?_, ?_, ?_, ?_, ?_, ?_, ?_, ?_, ?_, ?_, ?_, ?_, ?_, ?_, ?_, ?_, ?_⟩ <;> stage_step ops3 ops3_writes

set_option maxRecDepth 8192 in
set_option maxHeartbeats 4000000 in
theorem inv4 (h : Live4 W x0 x1 x2 x3 x4) : Live5 (after ops4 W) x0 x1 x2 x3 x4 := by
  obtain ⟨h0, h1, h2, h3, h4, h5, h6, h7, h8, h9, h10, h11, h12, h13, h14, h15, h16, h17, h18, h19, h20, h21⟩ := h
  refine ⟨?_, ?_, ?_, ?_, ?_, ?_, ?_, ?_, ?_, ?_, ?_, ?_, ?_, ?_, ?_, ?_, ?_, ?_, ?_, ?_⟩ <;> stage_step ops4 ops4_writes

set_option maxRecDepth 8192 in
set_option maxHeartbeats 4000000 in
theorem inv5 (h : Live5 W x0 x1 x2 x3 x4) : Live6 (after ops5 W) x0 x1 x2 x3 x4 := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_⟩ <;> stage_step ops5 ops5_writes

end Cert.ReferenceIdeal.RRun

end
-- ==== Proof.RRunInvB.lean ====
/- Each line of operations carries the invariant at its cut to the next cut: a buffer it does not write keeps its contents, a buffer it writes holds the line's composition over live buffers, which is that buffer's stage by definition. -/
import proofs.«104267_j36455682409092_2_alg».proof.Proof.RRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F)) (x0 : (⟨S1x1x1x1048576x3, .f32⟩ : BufTy).Contents (Elt F)) (x1 : (⟨S1x4x32x32x32, .f32⟩ : BufTy).Contents (Elt F)) (x2 : (⟨S1x4x64x64x64, .f32⟩ : BufTy).Contents (Elt F)) (x3 : (⟨S1x4x128x128x128, .f32⟩ : BufTy).Contents (Elt F)) (x4 : (⟨S1x4x256x256x256, .f32⟩ : BufTy).Contents (Elt F))

set_option maxRecDepth 8192 in
set_option maxHeartbeats 4000000 in
theorem inv6 (h : Live6 W x0 x1 x2 x3 x4) : Live7 (after ops6 W) x0 x1 x2 x3 x4 := by
  obtain ⟨h0, h1, h2, h3, h4, h5, h6, h7, h8, h9, h10⟩ := h
  refine ⟨?_, ?_, ?_, ?_, ?_, ?_, ?_, ?_, ?_, ?_, ?_, ?_, ?_, ?_, ?_⟩ <;> stage_step ops6 ops6_writes

set_option maxRecDepth 8192 in
set_option maxHeartbeats 4000000 in
theorem inv7 (h : Live7 W x0 x1 x2 x3 x4) : Live8 (after ops7 W) x0 x1 x2 x3 x4 := by
  obtain ⟨h0, h1, h2, h3, h4, h5, h6, h7, h8, h9, h10, h11, h12, h13, h14⟩ := h
  refine ⟨?_, ?_, ?_, ?_, ?_, ?_, ?_, ?_, ?_, ?_, ?_, ?_, ?_, ?_, ?_, ?_, ?_, ?_, ?_, ?_, ?_⟩ <;> stage_step ops7 ops7_writes

set_option maxRecDepth 8192 in
set_option maxHeartbeats 4000000 in
theorem inv8 (h : Live8 W x0 x1 x2 x3 x4) : Live9 (after ops8 W) x0 x1 x2 x3 x4 := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_, ?_⟩ <;> stage_step ops8 ops8_writes

set_option maxRecDepth 8192 in
set_option maxHeartbeats 4000000 in
theorem inv9 (h : Live9 W x0 x1 x2 x3 x4) : Live10 (after ops9 W) x0 x1 x2 x3 x4 := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_, ?_, ?_, ?_, ?_⟩ <;> stage_step ops9 ops9_writes

set_option maxRecDepth 8192 in
set_option maxHeartbeats 4000000 in
theorem inv10 (h : Live10 W x0 x1 x2 x3 x4) : Live11 (after ops10 W) x0 x1 x2 x3 x4 := by
  obtain ⟨h0, h1, h2, h3, h4, h5, h6, h7, h8, h9, h10, h11, h12, h13, h14, h15, h16, h17, h18, h19, h20, h21, h22, h23⟩ := h
  refine ⟨?_, ?_, ?_, ?_, ?_, ?_, ?_, ?_, ?_, ?_, ?_, ?_, ?_, ?_⟩ <;> stage_step ops10 ops10_writes

set_option maxRecDepth 8192 in
set_option maxHeartbeats 4000000 in
theorem inv11 (h : Live11 W x0 x1 x2 x3 x4) : Live12 (after ops11 W) x0 x1 x2 x3 x4 := by
  obtain ⟨h0, h1, h2, h3, h4, h5, h6, h7, h8, h9, h10, h11, h12, h13⟩ := h
  refine ⟨?_, ?_, ?_, ?_, ?_, ?_, ?_, ?_, ?_, ?_, ?_, ?_⟩ <;> stage_step ops11 ops11_writes

end Cert.ReferenceIdeal.RRun

end
-- ==== Proof.RRunInvC.lean ====
/- Each line of operations carries the invariant at its cut to the next cut: a buffer it does not write keeps its contents, a buffer it writes holds the line's composition over live buffers, which is that buffer's stage by definition. -/
import proofs.«104267_j36455682409092_2_alg».proof.Proof.RRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F)) (x0 : (⟨S1x1x1x1048576x3, .f32⟩ : BufTy).Contents (Elt F)) (x1 : (⟨S1x4x32x32x32, .f32⟩ : BufTy).Contents (Elt F)) (x2 : (⟨S1x4x64x64x64, .f32⟩ : BufTy).Contents (Elt F)) (x3 : (⟨S1x4x128x128x128, .f32⟩ : BufTy).Contents (Elt F)) (x4 : (⟨S1x4x256x256x256, .f32⟩ : BufTy).Contents (Elt F))

set_option maxRecDepth 8192 in
set_option maxHeartbeats 4000000 in
theorem inv12 (h : Live12 W x0 x1 x2 x3 x4) : Live13 (after ops12 W) x0 x1 x2 x3 x4 := by
  obtain ⟨h0, h1, h2, h3, h4, h5, h6, h7, h8, h9, h10, h11⟩ := h
  refine ⟨?_, ?_, ?_, ?_, ?_, ?_, ?_, ?_, ?_, ?_, ?_, ?_, ?_, ?_, ?_, ?_, ?_, ?_, ?_, ?_⟩ <;> stage_step ops12 ops12_writes

set_option maxRecDepth 8192 in
set_option maxHeartbeats 4000000 in
theorem inv13 (h : Live13 W x0 x1 x2 x3 x4) : Live14 (after ops13 W) x0 x1 x2 x3 x4 := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_, ?_, ?_, ?_⟩ <;> stage_step ops13 ops13_writes

set_option maxRecDepth 8192 in
set_option maxHeartbeats 4000000 in
theorem inv14 (h : Live14 W x0 x1 x2 x3 x4) : Live15 (after ops14 W) x0 x1 x2 x3 x4 := by
  obtain ⟨h0, h1, h2, h3, h4, h5, h6, h7, h8, h9, h10, h11, h12, h13, h14, h15, h16, h17, h18, h19, h20, h21, h22⟩ := h
  refine ⟨?_, ?_, ?_, ?_, ?_, ?_, ?_, ?_, ?_, ?_, ?_, ?_, ?_, ?_, ?_, ?_, ?_, ?_, ?_, ?_, ?_, ?_⟩ <;> stage_step ops14 ops14_writes

set_option maxRecDepth 8192 in
set_option maxHeartbeats 4000000 in
theorem inv15 (h : Live15 W x0 x1 x2 x3 x4) : Live16 (after ops15 W) x0 x1 x2 x3 x4 := by
  obtain ⟨h0, h1, h2, h3, h4, h5, h6, h7, h8, h9, h10, h11, h12, h13, h14, h15, h16, h17, h18, h19, h20, h21⟩ := h
  refine ⟨?_, ?_, ?_, ?_, ?_, ?_, ?_, ?_, ?_, ?_, ?_, ?_, ?_, ?_, ?_, ?_, ?_, ?_, ?_, ?_, ?_, ?_⟩ <;> stage_step ops15 ops15_writes

set_option maxRecDepth 8192 in
set_option maxHeartbeats 4000000 in
theorem inv16 (h : Live16 W x0 x1 x2 x3 x4) : Live17 (after ops16 W) x0 x1 x2 x3 x4 := by
  obtain ⟨h0, h1, h2, h3, h4, h5, h6, h7, h8, h9, h10, h11, h12, h13, h14, h15, h16, h17, h18, h19, h20, h21⟩ := h
  refine ⟨?_, ?_, ?_, ?_, ?_, ?_, ?_, ?_, ?_, ?_, ?_, ?_⟩ <;> stage_step ops16 ops16_writes

set_option maxRecDepth 8192 in
set_option maxHeartbeats 4000000 in
theorem inv17 (h : Live17 W x0 x1 x2 x3 x4) : Live18 (after ops17 W) x0 x1 x2 x3 x4 := by
  obtain ⟨h0, h1, h2, h3, h4, h5, h6, h7, h8, h9, h10, h11⟩ := h
  refine ⟨?_, ?_, ?_, ?_, ?_, ?_, ?_, ?_, ?_, ?_, ?_, ?_, ?_, ?_, ?_⟩ <;> stage_step ops17 ops17_writes

end Cert.ReferenceIdeal.RRun

end
-- ==== Proof.RRunInvD.lean ====
/- Each line of operations carries the invariant at its cut to the next cut: a buffer it does not write keeps its contents, a buffer it writes holds the line's composition over live buffers, which is that buffer's stage by definition. -/
import proofs.«104267_j36455682409092_2_alg».proof.Proof.RRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F)) (x0 : (⟨S1x1x1x1048576x3, .f32⟩ : BufTy).Contents (Elt F)) (x1 : (⟨S1x4x32x32x32, .f32⟩ : BufTy).Contents (Elt F)) (x2 : (⟨S1x4x64x64x64, .f32⟩ : BufTy).Contents (Elt F)) (x3 : (⟨S1x4x128x128x128, .f32⟩ : BufTy).Contents (Elt F)) (x4 : (⟨S1x4x256x256x256, .f32⟩ : BufTy).Contents (Elt F))

set_option maxRecDepth 8192 in
set_option maxHeartbeats 4000000 in
theorem inv18 (h : Live18 W x0 x1 x2 x3 x4) : Live19 (after ops18 W) x0 x1 x2 x3 x4 := by
  obtain ⟨h0, h1, h2, h3, h4, h5, h6, h7, h8, h9, h10, h11, h12, h13, h14⟩ := h
  refine ⟨?_, ?_, ?_, ?_, ?_, ?_, ?_, ?_, ?_, ?_, ?_, ?_, ?_, ?_, ?_, ?_, ?_, ?_, ?_, ?_, ?_⟩ <;> stage_step ops18 ops18_writes

set_option maxRecDepth 8192 in
set_option maxHeartbeats 4000000 in
theorem inv19 (h : Live19 W x0 x1 x2 x3 x4) : Live20 (after ops19 W) x0 x1 x2 x3 x4 := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_, ?_, ?_, ?_⟩ <;> stage_step ops19 ops19_writes

set_option maxRecDepth 8192 in
set_option maxHeartbeats 4000000 in
theorem inv20 (h : Live20 W x0 x1 x2 x3 x4) : Live21 (after ops20 W) x0 x1 x2 x3 x4 := by
  obtain ⟨h0, h1, h2, h3, h4, h5, h6, h7, h8, h9, h10, h11, h12, h13, h14, h15, h16, h17, h18, h19, h20, h21, h22⟩ := h
  refine ⟨?_, ?_, ?_, ?_, ?_, ?_, ?_, ?_, ?_, ?_, ?_, ?_, ?_, ?_, ?_, ?_, ?_, ?_, ?_, ?_, ?_, ?_, ?_, ?_⟩ <;> stage_step ops20 ops20_writes

set_option maxRecDepth 8192 in
set_option maxHeartbeats 4000000 in
theorem inv21 (h : Live21 W x0 x1 x2 x3 x4) : Live22 (after ops21 W) x0 x1 x2 x3 x4 := by
  obtain ⟨h0, h1, h2, h3, h4, h5, h6, h7, h8, h9, h10, h11, h12, h13, h14, h15, h16, h17, h18, h19, h20, h21, h22, h23⟩ := h
  refine ⟨?_, ?_, ?_, ?_, ?_, ?_, ?_, ?_, ?_, ?_, ?_, ?_, ?_, ?_, ?_, ?_, ?_, ?_, ?_, ?_⟩ <;> stage_step ops21 ops21_writes

set_option maxRecDepth 8192 in
set_option maxHeartbeats 4000000 in
theorem inv22 (h : Live22 W x0 x1 x2 x3 x4) : Live23 (after ops22 W) x0 x1 x2 x3 x4 := by
  obtain ⟨h0, h1, h2, h3, h4, h5, h6, h7, h8, h9, h10, h11, h12, h13, h14, h15, h16, h17, h18, h19⟩ := h
  refine ⟨?_, ?_, ?_, ?_, ?_, ?_⟩ <;> stage_step ops22 ops22_writes

end Cert.ReferenceIdeal.RRun

end
-- ==== Proof.RRun.lean ====
/- The invariant holds at launch and is carried across each of the 23 lines, so the result buffer ends at `ReadP.val_main_v1053` of the arguments. -/
import proofs.«104267_j36455682409092_2_alg».proof.Proof.RRunRaw
import proofs.«104267_j36455682409092_2_alg».proof.Proof.RRunInvA
import proofs.«104267_j36455682409092_2_alg».proof.Proof.RRunInvB
import proofs.«104267_j36455682409092_2_alg».proof.Proof.RRunInvC
import proofs.«104267_j36455682409092_2_alg».proof.Proof.RRunInvD

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

theorem stages (V : Valuation τ sig (Elt F)) (x0 : (⟨S1x1x1x1048576x3, .f32⟩ : BufTy).Contents (Elt F)) (x1 : (⟨S1x4x32x32x32, .f32⟩ : BufTy).Contents (Elt F)) (x2 : (⟨S1x4x64x64x64, .f32⟩ : BufTy).Contents (Elt F)) (x3 : (⟨S1x4x128x128x128, .f32⟩ : BufTy).Contents (Elt F)) (x4 : (⟨S1x4x256x256x256, .f32⟩ : BufTy).Contents (Elt F))
    (h : Live0 V x0 x1 x2 x3 x4) : Live23 (after ops V) x0 x1 x2 x3 x4 := by
  rw [after_ops]
  have s1 := inv0 _ x0 x1 x2 x3 x4 h
  have s2 := inv1 _ x0 x1 x2 x3 x4 s1
  have s3 := inv2 _ x0 x1 x2 x3 x4 s2
  have s4 := inv3 _ x0 x1 x2 x3 x4 s3
  have s5 := inv4 _ x0 x1 x2 x3 x4 s4
  have s6 := inv5 _ x0 x1 x2 x3 x4 s5
  have s7 := inv6 _ x0 x1 x2 x3 x4 s6
  have s8 := inv7 _ x0 x1 x2 x3 x4 s7
  have s9 := inv8 _ x0 x1 x2 x3 x4 s8
  have s10 := inv9 _ x0 x1 x2 x3 x4 s9
  have s11 := inv10 _ x0 x1 x2 x3 x4 s10
  have s12 := inv11 _ x0 x1 x2 x3 x4 s11
  have s13 := inv12 _ x0 x1 x2 x3 x4 s12
  have s14 := inv13 _ x0 x1 x2 x3 x4 s13
  have s15 := inv14 _ x0 x1 x2 x3 x4 s14
  have s16 := inv15 _ x0 x1 x2 x3 x4 s15
  have s17 := inv16 _ x0 x1 x2 x3 x4 s16
  have s18 := inv17 _ x0 x1 x2 x3 x4 s17
  have s19 := inv18 _ x0 x1 x2 x3 x4 s18
  have s20 := inv19 _ x0 x1 x2 x3 x4 s19
  have s21 := inv20 _ x0 x1 x2 x3 x4 s20
  have s22 := inv21 _ x0 x1 x2 x3 x4 s21
  have s23 := inv22 _ x0 x1 x2 x3 x4 s22
  exact s23

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1053) = ReadP.val_main_v1053 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨a0, a1, a2, a3, a4, hv⟩ := stages (launchContents m c)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) ⟨rfl, rfl, rfl, rfl, rfl⟩
      exact ⟨(h c main_v1053).trans hv, (h c main_arg0).trans a0, (h c main_arg1).trans a1,
        (h c main_arg2).trans a2, (h c main_arg3).trans a3, (h c main_arg4).trans a4⟩)
    (run_raw m ρ)

end Cert.ReferenceIdeal.RRun

end
-- ==== Proof.RValLib.lean ====
/-
  One volume of extent S sampled at the points, as the reference computes it, said once for every S: per axis the
  coordinate in cell units, its smoothstep weight and the two cells; eight gathers at the stacked (z, y, x) cells, each
  clamped into its axis as the specification's read is; seven interpolations a + (b − a)·t, the specification's nest.
-/
import proofs.«104267_j36455682409092_2_alg».proof.Proof.Gen.ReferenceIdeal
import proofs.«104267_j36455682409092_2_alg».proof.Proof.Sampling
import proofs.«104267_j36455682409092_2_alg».proof.Proof.LibIndex
import Idealize.ShloMosaic.Lib.ValueIdx
import Idealize.ShloMosaic.Lib.Pipeline.Value
import Idealize.ShloMosaic.Lib.ValueLayout

noncomputable section

namespace Cert.ReferenceIdeal.RVal

open Idealize.ShloMosaic Idealize.ShloMosaic.ValueIdx Cert.ReferenceIdeal Cert.ReferenceIdeal.Gen Cert.Sampling

section Gather
variable {α : Type}

/-- Operand [4, S, S, S], start indices [N, 3] holding (z, y, x), result [4, N]: the channel axis is kept whole, each spatial axis is one cell. -/
abbrev cornerDims (S N : Nat)
    (wf : GatherDims.WF ⟨4, ![4, S, S, S]⟩ ⟨2, ![N, 3]⟩ ⟨2, ![4, N]⟩ [0] [1, 2, 3] [] [1, 2, 3] [] 1 ![4, 1, 1, 1]) :
    GatherDims ⟨4, ![4, S, S, S]⟩ ⟨2, ![N, 3]⟩ ⟨2, ![4, N]⟩ where
  offsetDims := [0]
  collapsedSliceDims := [1, 2, 3]
  operandBatchingDims := []
  startIndicesBatchingDims := []
  startIndexMap := [1, 2, 3]
  indexVectorDim := 1
  sliceSizes := ![4, 1, 1, 1]
  wf := wf

/-- On the channel axis the operand coordinate of result (ch, n) is ch. -/
theorem corner_axis0 {S N : Nat}
    (wf : GatherDims.WF ⟨4, ![4, S, S, S]⟩ ⟨2, ![N, 3]⟩ ⟨2, ![4, N]⟩ [0] [1, 2, 3] [] [1, 2, 3] [] 1 ![4, 1, 1, 1])
    (idx : IVec ⟨2, ![N, 3]⟩ 32) (ch : Fin 4) (n : Fin N) :
    (cornerDims S N wf).start (ix2 ch n) idx (0 : Fin 4) + (cornerDims S N wf).batchCoord (ix2 ch n) (0 : Fin 4)
        + (cornerDims S N wf).offCoord (ix2 ch n) (0 : Fin 4) = ch.val := by
  have hm : (0 : Fin 4) ∉ (cornerDims S N wf).startIndexMap := by
    show (0 : Fin 4) ∉ ([1, 2, 3] : List (Fin 4)); decide
  have hk : (0 : Fin 4) ∈ (cornerDims S N wf).sKept :=
    (GatherDims.mem_sKept _ _).mpr ⟨by show (0 : Fin 4) ∉ ([1, 2, 3] : List (Fin 4)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- On spatial axis k + 1 it is component k of row n of the start indices, read signed and clamped to S − 1. -/
theorem corner_axis {S N : Nat}
    (wf : GatherDims.WF ⟨4, ![4, S, S, S]⟩ ⟨2, ![N, 3]⟩ ⟨2, ![4, N]⟩ [0] [1, 2, 3] [] [1, 2, 3] [] 1 ![4, 1, 1, 1])
    (idx : IVec ⟨2, ![N, 3]⟩ 32) (ch : Fin 4) (n : Fin N) (k : Fin 3) :
    (cornerDims S N wf).start (ix2 ch n) idx k.succ + (cornerDims S N wf).batchCoord (ix2 ch n) k.succ
        + (cornerDims S N wf).offCoord (ix2 ch n) k.succ
      = min (idx (ix2 n k)).toInt.toNat (S - 1) := by
  have hm : k.succ ∈ ([1, 2, 3] : List (Fin 4)) := by fin_cases k <;> decide
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm]
  have hsi : (cornerDims S N wf).siIdx (ix2 ch n) ⟨List.idxOf k.succ (cornerDims S N wf).startIndexMap,
      List.idxOf_lt_length_iff.2 hm⟩ = ix2 n k := by
    funext b; refine Fin.ext ?_
    fin_cases k <;> match b with
      | ⟨0, _⟩ => rfl
      | ⟨1, _⟩ => rfl
  rw [hsi]
  fin_cases k <;> rfl

/-- The gather at (ch, n): the operand at channel ch and the three clamped cells row n names. -/
theorem corner_gather_apply {S N : Nat} (hS : 0 < S)
    (wf : GatherDims.WF ⟨4, ![4, S, S, S]⟩ ⟨2, ![N, 3]⟩ ⟨2, ![4, N]⟩ [0] [1, 2, 3] [] [1, 2, 3] [] 1 ![4, 1, 1, 1])
    (x : (⟨4, ![4, S, S, S]⟩ : Shape).Idx → α) (idx : IVec ⟨2, ![N, 3]⟩ 32) (ch : Fin 4) (n : Fin N) :
    Host.gather (cornerDims S N wf) x idx (ix2 ch n)
      = x (ix4 ch (Cert.Sampling.clampFin S hS (idx (ix2 n (0 : Fin 3))))
          (Cert.Sampling.clampFin S hS (idx (ix2 n (1 : Fin 3))))
          (Cert.Sampling.clampFin S hS (idx (ix2 n (2 : Fin 3))))) := by
  unfold Host.gather
  congr 1
  funext a
  refine Fin.ext ?_
  show (cornerDims S N wf).start (ix2 ch n) idx a + (cornerDims S N wf).batchCoord (ix2 ch n) a
    + (cornerDims S N wf).offCoord (ix2 ch n) a = _
  match a with
  | ⟨0, _⟩ => exact corner_axis0 wf idx ch n
  | ⟨1, _⟩ => exact corner_axis wf idx ch n 0
  | ⟨2, _⟩ => exact corner_axis wf idx ch n 1
  | ⟨3, _⟩ => exact corner_axis wf idx ch n 2

end Gather

section Casts
variable {α : Type}

/-- Dropping a unit axis keeps the row-major position. -/
theorem volCast_apply {C S : Nat} (x : (⟨5, ![1, C, S, S, S]⟩ : Shape).Idx → α)
    (h : (⟨5, ![1, C, S, S, S]⟩ : Shape).ShapeCasts ⟨4, ![C, S, S, S]⟩) (c : Fin C) (z y w : Fin S) :
    shapeCast ⟨4, ![C, S, S, S]⟩ x h (ix4 c z y w) = x (ix5 (0 : Fin 1) c z y w) := by
  refine shapeCast_apply x h _ _ ?_
  rw [Shape.rowMajor_val_five, Shape.rowMajor_val_four]
  show (((0 * C + c.val) * S + z.val) * S + y.val) * S + w.val = ((c.val * S + z.val) * S + y.val) * S + w.val
  rw [Nat.zero_mul, Nat.zero_add]

/-- So does inserting unit axes. -/
theorem rowsCast_apply {C N : Nat} (x : (⟨2, ![C, N]⟩ : Shape).Idx → α)
    (h : (⟨2, ![C, N]⟩ : Shape).ShapeCasts ⟨5, ![1, C, 1, 1, N]⟩) (c : Fin C) (n : Fin N) :
    shapeCast ⟨5, ![1, C, 1, 1, N]⟩ x h (ix5 (0 : Fin 1) c (0 : Fin 1) (0 : Fin 1) n) = x (ix2 c n) := by
  refine shapeCast_apply x h _ _ ?_
  rw [Shape.rowMajor_val_five, Shape.rowMajor_val_two]
  show c.val * N + n.val = (((0 * C + c.val) * 1 + 0) * 1 + 0) * N + n.val
  simp only [Nat.zero_mul, Nat.zero_add, Nat.mul_one, Nat.add_zero]

end Casts

/-- A per-point quantity as a column [N, 1]. -/
def col {α : Type} (f : S1048576.Idx → α) : S1048576x1.Idx → α :=
  broadcastInDim S1048576x1 ![0] bcast_S1048576_S1048576x1_0 f

/-- Three columns joined into [N, 3], read at (n, k): the k-th of them at point n. -/
theorem cols_at {α : Type} (a b c : S1048576.Idx → α) (n : Fin 1048576) (k : Fin 3) :
    concatenate S1048576x3 1 [⟨S1048576x1, col a⟩, ⟨S1048576x1, col b⟩, ⟨S1048576x1, col c⟩]
        concatenates_S1048576x1_S1048576x1_S1048576x1_S1048576x3_d1 (ix2 n k) = ![a, b, c] k (ix1 n) :=
  (concatenate_ofFn_unit_apply (t := S1048576x3) (s₁ := S1048576x1) (N := 3) (1 : Fin 2) (fun k => col (![a, b, c] k))
    concatenates_S1048576x1_S1048576x1_S1048576x1_S1048576x3_d1 rfl rfl (ix2 n k) k rfl (ix2 n (0 : Fin 1))
    fun b hb => match b, hb with
      | ⟨0, _⟩, _ => rfl
      | ⟨1, _⟩, hb => absurd rfl hb).trans
    (broadcastInDim_apply _ _ _ _ _ fun a => match a with | ⟨0, _⟩ => rfl)

/-- A corner read: the volume gathered at the stacked (z, y, x) start indices is the specification's clamped read. -/
theorem corner_apply {S : Nat} (hS : 0 < S)
    (wf : GatherDims.WF ⟨4, ![4, S, S, S]⟩ S1048576x3 S4x1048576 [0] [1, 2, 3] [] [1, 2, 3] [] 1 ![4, 1, 1, 1])
    (hc : (⟨5, ![1, 4, S, S, S]⟩ : Shape).ShapeCasts ⟨4, ![4, S, S, S]⟩)
    (vol : (⟨5, ![1, 4, S, S, S]⟩ : Shape).Idx → EReal) (iz iy ix : S1048576.Idx → BitVec 32) (ch : Fin 4)
    (n : Fin 1048576) :
    Host.gather (cornerDims S 1048576 wf) (shapeCast ⟨4, ![4, S, S, S]⟩ vol hc)
        (concatenate S1048576x3 1 [⟨S1048576x1, col iz⟩, ⟨S1048576x1, col iy⟩, ⟨S1048576x1, col ix⟩]
          concatenates_S1048576x1_S1048576x1_S1048576x1_S1048576x3_d1) (ix2 ch n)
      = volRead hS vol ch (iz (ix1 n)) (iy (ix1 n)) (ix (ix1 n)) := by
  rw [corner_gather_apply hS, volCast_apply, cols_at, cols_at, cols_at]
  rfl

/-- A per-point weight spread over the four channels [4, N]. -/
def spread (t : S1048576.Idx → EReal) : S4x1048576.Idx → EReal :=
  broadcastInDim S4x1048576 ![0, 1] bcast_S1x1048576_S4x1048576_0_1
    (broadcastInDim S1x1048576 ![1] bcast_S1048576_S1x1048576_1 t)

/-- Reading either broadcast at (ch, n) reads the operand at n. -/
theorem spread_apply (t : S1048576.Idx → EReal) (ch : Fin 4) (n : Fin 1048576) : spread t (ix2 ch n) = t (ix1 n) :=
  (broadcastInDim_apply _ _ _ _ (ix2 (0 : Fin 1) n) fun a => match a with | ⟨0, _⟩ => rfl | ⟨1, _⟩ => rfl).trans
    (broadcastInDim_apply _ _ t _ _ fun a => match a with | ⟨0, _⟩ => rfl)

theorem slices3 : ∀ k : Fin 3, S1048576x3.Slices ![0, k.val] S1048576x1 := by decide

/-- Component k of the points, as a vector over the points. -/
def comp (k : Fin 3) (x0 : S1x1x1x1048576x3.Idx → EReal) : S1048576.Idx → EReal :=
  shapeCast S1048576 (extractStridedSlice S1048576x1 ![0, k.val]
    (shapeCast S1048576x3 x0 shapeCasts_S1x1x1x1048576x3_S1048576x3) (slices3 k)) shapeCasts_S1048576x1_S1048576

/-- Row-major position n·3 + k of the grid, through the slice and the two reshapes. -/
theorem comp_apply (k : Fin 3) (x0 : S1x1x1x1048576x3.Idx → EReal) (n : Fin 1048576) :
    comp k x0 (ix1 n) = x0 (ix5 (0 : Fin 1) (0 : Fin 1) (0 : Fin 1) n k) := by
  unfold comp
  rw [shapeCast_apply _ _ _ (ix2 n (0 : Fin 1)) (by rw [Shape.rowMajor_val_two, Shape.rowMajor_val_one]; show n.val * 1 + 0 = n.val; omega),
    extractStridedSlice_apply _ _ _ _ (ix2 n k) (fun a => match a with | ⟨0, _⟩ => (Nat.zero_add _).symm | ⟨1, _⟩ => rfl),
    shapeCast_apply _ _ _ (ix5 (0 : Fin 1) (0 : Fin 1) (0 : Fin 1) n k)]
  rw [Shape.rowMajor_val_five, Shape.rowMajor_val_two]
  show (((0 * 1 + 0) * 1 + 0) * 1048576 + n.val) * 3 + k.val = n.val * 3 + k.val
  omega

section Volume
variable {S : Nat} (sw d : BitVec 32)

/-- The coordinate along one axis in cell units, the upper bound spelled as the integer S − 1 converted. -/
def crd (g : S1048576.Idx → EReal) : S1048576.Idx → EReal := fun i =>
  min ((((BitVec.ofNat 32 (S - 1)).toInt : ℝ) : EReal)) (max (Ideal.ofBits .f32 0x00000000#32)
    ((g i + Ideal.ofBits .f32 0x3F800000#32) * Ideal.ofBits .f32 0x3F000000#32 * Ideal.ofBits .f32 sw))

/-- The wrap of a negative index: c < 0 ? c + d : c. -/
def wrap (c : BitVec 32) : BitVec 32 := Scalar.select (IntOp.cmpi .slt c 0#32) (IntOp.addi c d) c

/-- The start index along one axis of a corner: the lower or the upper cell, wrapped. -/
def start (g : S1048576.Idx → EReal) (b : Bool) : S1048576.Idx → BitVec 32 := fun i =>
  wrap d (pick (BitVec.ofNat 32 (S - 1)) (Ideal.fptosi 32 (Ideal.liftRound Int.floor (crd (S := S) sw g i))) b)

/-- One volume's four rows as the reference computes them. -/
def rows (wf : GatherDims.WF ⟨4, ![4, S, S, S]⟩ S1048576x3 S4x1048576 [0] [1, 2, 3] [] [1, 2, 3] [] 1 ![4, 1, 1, 1])
    (hc : (⟨5, ![1, 4, S, S, S]⟩ : Shape).ShapeCasts ⟨4, ![4, S, S, S]⟩)
    (x0 : S1x1x1x1048576x3.Idx → EReal) (vol : (⟨5, ![1, 4, S, S, S]⟩ : Shape).Idx → EReal) :
    S1x4x1x1x1048576.Idx → EReal :=
  shapeCast S1x4x1x1x1048576 (fun j => trilerp
    (fun bz bY bx => Host.gather (cornerDims S 1048576 wf) (shapeCast ⟨4, ![4, S, S, S]⟩ vol hc)
      (concatenate S1048576x3 1
        [⟨S1048576x1, col (start (S := S) sw d (comp 2 x0) bz)⟩, ⟨S1048576x1, col (start (S := S) sw d (comp 1 x0) bY)⟩,
         ⟨S1048576x1, col (start (S := S) sw d (comp 0 x0) bx)⟩]
        concatenates_S1048576x1_S1048576x1_S1048576x1_S1048576x3_d1) j)
    (spread (fun i => smooth (crd (S := S) sw (comp 0 x0) i)) j)
    (spread (fun i => smooth (crd (S := S) sw (comp 1 x0) i)) j)
    (spread (fun i => smooth (crd (S := S) sw (comp 2 x0) i)) j))
    shapeCasts_S4x1048576_S1x4x1x1x1048576

variable {sw}

/-- The converted integer S − 1 is the float word of S − 1. -/
theorem crd_eq (hsw : (((BitVec.ofNat 32 (S - 1)).toInt : ℝ) : EReal) = Ideal.ofBits .f32 sw)
    (g : S1048576.Idx → EReal) (i : S1048576.Idx) : crd (S := S) sw g i = coord sw (g i) := by
  unfold crd coord; rw [hsw]

/-- A cell is not negative, so the wrap leaves it alone. -/
theorem start_eq (hS : 0 < S) (hS' : S ≤ 256)
    (hsw : (((BitVec.ofNat 32 (S - 1)).toInt : ℝ) : EReal) = Ideal.ofBits .f32 sw)
    (hin : ∀ p, Inb S (cell sw p)) (g : S1048576.Idx → EReal) (b : Bool) (i : S1048576.Idx) :
    start (S := S) sw d g b i = pick (BitVec.ofNat 32 (S - 1)) (cell sw (g i)) b := by
  unfold start; rw [crd_eq hsw]; exact wrap_eq (pick_inb hS hS' (hin _) b) d

/-- Read at (channel, point), the reference's rows are the specification's sample, term for term. -/
theorem rows_apply (hS : 0 < S) (hS' : S ≤ 256)
    (wf : GatherDims.WF ⟨4, ![4, S, S, S]⟩ S1048576x3 S4x1048576 [0] [1, 2, 3] [] [1, 2, 3] [] 1 ![4, 1, 1, 1])
    (hc : (⟨5, ![1, 4, S, S, S]⟩ : Shape).ShapeCasts ⟨4, ![4, S, S, S]⟩)
    (hsw : (((BitVec.ofNat 32 (S - 1)).toInt : ℝ) : EReal) = Ideal.ofBits .f32 sw)
    (hin : ∀ p, Inb S (cell sw p))
    (x0 : S1x1x1x1048576x3.Idx → EReal) (vol : (⟨5, ![1, 4, S, S, S]⟩ : Shape).Idx → EReal) (ch : Fin 4)
    (n : Fin 1048576) :
    rows (S := S) sw d wf hc x0 vol (ix5 (0 : Fin 1) ch (0 : Fin 1) (0 : Fin 1) n)
      = feat hS sw (BitVec.ofNat 32 (S - 1)) x0 vol ch n := by
  unfold rows
  rw [rowsCast_apply]
  simp only [spread_apply, corner_apply hS, start_eq d hS hS' hsw hin, crd_eq hsw, comp_apply]
  rfl

end Volume

end Cert.ReferenceIdeal.RVal

end
-- ==== Proof.RValAll.lean ====
/-
  The reference's result: each volume's four rows are `RVal.rows` at that volume's extent, by unfolding its operations;
  the sixteen rows are the four pieces joined along the row axis, piece r / 4 at row r mod 4.
-/
import proofs.«104267_j36455682409092_2_alg».proof.Proof.RefRead
import proofs.«104267_j36455682409092_2_alg».proof.Proof.RValLib

noncomputable section

namespace Cert.ReferenceIdeal

open Idealize.ShloMosaic Idealize.ShloMosaic.ValueIdx Cert.ReferenceIdeal.Gen Cert.ReferenceIdeal.ReadP

theorem RVal0.feat0 (x0 : S1x1x1x1048576x3.Idx → EReal) (x1 : S1x4x32x32x32.Idx → EReal) (ch : Fin 4) (n : Fin 1048576) :
    val_main_v263 (F := Ideal) x0 x1 (ix5 (0 : Fin 1) ch (0 : Fin 1) (0 : Fin 1) n)
      = Cert.Sampling.feat (S := 32) (by omega) 0x41F80000#32 31#32 x0 x1 ch n :=
  RVal.rows_apply (S := 32) 32#32 (by omega) (by omega) gather_S4x32x32x32_S1048576x3_S4x1048576_0_123_n_n_123_1_4111_wf
    shapeCasts_S1x4x32x32x32_S4x32x32x32 Cert.Sampling.sitofp_31 Cert.Sampling.cell_inb_32 x0 x1 ch n

theorem RVal1.feat1 (x0 : S1x1x1x1048576x3.Idx → EReal) (x2 : S1x4x64x64x64.Idx → EReal) (ch : Fin 4) (n : Fin 1048576) :
    val_main_v526 (F := Ideal) x0 x2 (ix5 (0 : Fin 1) ch (0 : Fin 1) (0 : Fin 1) n)
      = Cert.Sampling.feat (S := 64) (by omega) 0x427C0000#32 63#32 x0 x2 ch n :=
  RVal.rows_apply (S := 64) 64#32 (by omega) (by omega) gather_S4x64x64x64_S1048576x3_S4x1048576_0_123_n_n_123_1_4111_wf
    shapeCasts_S1x4x64x64x64_S4x64x64x64 Cert.Sampling.sitofp_63 Cert.Sampling.cell_inb_64 x0 x2 ch n

theorem RVal2.feat2 (x0 : S1x1x1x1048576x3.Idx → EReal) (x3 : S1x4x128x128x128.Idx → EReal) (ch : Fin 4) (n : Fin 1048576) :
    val_main_v789 (F := Ideal) x0 x3 (ix5 (0 : Fin 1) ch (0 : Fin 1) (0 : Fin 1) n)
      = Cert.Sampling.feat (S := 128) (by omega) 0x42FE0000#32 127#32 x0 x3 ch n :=
  RVal.rows_apply (S := 128) 128#32 (by omega) (by omega) gather_S4x128x128x128_S1048576x3_S4x1048576_0_123_n_n_123_1_4111_wf
    shapeCasts_S1x4x128x128x128_S4x128x128x128 Cert.Sampling.sitofp_127 Cert.Sampling.cell_inb_128 x0 x3 ch n

theorem RVal3.feat3 (x0 : S1x1x1x1048576x3.Idx → EReal) (x4 : S1x4x256x256x256.Idx → EReal) (ch : Fin 4) (n : Fin 1048576) :
    val_main_v1052 (F := Ideal) x0 x4 (ix5 (0 : Fin 1) ch (0 : Fin 1) (0 : Fin 1) n)
      = Cert.Sampling.feat (S := 256) (by omega) 0x437F0000#32 255#32 x0 x4 ch n :=
  RVal.rows_apply (S := 256) 256#32 (by omega) (by omega) gather_S4x256x256x256_S1048576x3_S4x1048576_0_123_n_n_123_1_4111_wf
    shapeCasts_S1x4x256x256x256_S4x256x256x256 Cert.Sampling.sitofp_255 Cert.Sampling.cell_inb_256 x0 x4 ch n

theorem RVal0.result_of_feats (x0 : S1x1x1x1048576x3.Idx → EReal) (x1 : S1x4x32x32x32.Idx → EReal)
    (x2 : S1x4x64x64x64.Idx → EReal) (x3 : S1x4x128x128x128.Idx → EReal) (x4 : S1x4x256x256x256.Idx → EReal)
    (h0 : ∀ ch n, val_main_v263 (F := Ideal) x0 x1 (ix5 (0 : Fin 1) ch (0 : Fin 1) (0 : Fin 1) n)
      = Cert.Sampling.feat (S := 32) (by omega) 0x41F80000#32 31#32 x0 x1 ch n)
    (h1 : ∀ ch n, val_main_v526 (F := Ideal) x0 x2 (ix5 (0 : Fin 1) ch (0 : Fin 1) (0 : Fin 1) n)
      = Cert.Sampling.feat (S := 64) (by omega) 0x427C0000#32 63#32 x0 x2 ch n)
    (h2 : ∀ ch n, val_main_v789 (F := Ideal) x0 x3 (ix5 (0 : Fin 1) ch (0 : Fin 1) (0 : Fin 1) n)
      = Cert.Sampling.feat (S := 128) (by omega) 0x42FE0000#32 127#32 x0 x3 ch n)
    (h3 : ∀ ch n, val_main_v1052 (F := Ideal) x0 x4 (ix5 (0 : Fin 1) ch (0 : Fin 1) (0 : Fin 1) n)
      = Cert.Sampling.feat (S := 256) (by omega) 0x437F0000#32 255#32 x0 x4 ch n) :
    val_main_v1053 (F := Ideal) x0 x1 x2 x3 x4 = Cert.Sampling.result x0 x1 x2 x3 x4 := by
  funext i
  obtain ⟨a, r, b, c, n, rfl⟩ : ∃ (a : Fin 1) (r : Fin 16) (b c : Fin 1) (n : Fin 1048576), i = ix5 a r b c n :=
    ⟨i 0, i 1, i 2, i 3, i 4, eq_ix5 i⟩
  obtain rfl : a = 0 := Subsingleton.elim _ _
  obtain rfl : b = 0 := Subsingleton.elim _ _
  obtain rfl : c = 0 := Subsingleton.elim _ _
  have hr := r.isLt
  have rd (q m : Fin 4) (hq : r.val / 4 = q.val) (hm : m.val = r.val % 4) :=
    concatenate_ofFn_apply (t := S1x16x1x1x1048576) (s₁ := S1x4x1x1x1048576) (N := 4) (1 : Fin 5)
      ![val_main_v263 (F := Ideal) x0 x1, val_main_v526 (F := Ideal) x0 x2, val_main_v789 (F := Ideal) x0 x3,
        val_main_v1052 (F := Ideal) x0 x4]
      concatenates_S1x4x1x1x1048576_S1x4x1x1x1048576_S1x4x1x1x1048576_S1x4x1x1x1048576_S1x16x1x1x1048576_d1 rfl 4 rfl
      (ix5 (0 : Fin 1) r (0 : Fin 1) (0 : Fin 1) n) q hq (ix5 (0 : Fin 1) m (0 : Fin 1) (0 : Fin 1) n) hm
      fun b hb => match b, hb with
        | ⟨0, _⟩, _ => rfl
        | ⟨1, _⟩, hb => absurd rfl hb
        | ⟨2, _⟩, _ => rfl
        | ⟨3, _⟩, _ => rfl
        | ⟨4, _⟩, _ => rfl
  show _ = Cert.Sampling.row16 x0 x1 x2 x3 x4 r n
  unfold Cert.Sampling.row16
  by_cases c0 : r.val < 4
  · rw [dif_pos c0]
    exact (rd 0 ⟨r.val, c0⟩ (by show r.val / 4 = 0; omega) (by show r.val = r.val % 4; omega)).trans (h0 _ n)
  rw [dif_neg c0]
  by_cases c1 : r.val < 8
  · rw [dif_pos c1]
    exact (rd 1 ⟨r.val - 4, by omega⟩ (by show r.val / 4 = 1; omega) (by show r.val - 4 = r.val % 4; omega)).trans (h1 _ n)
  rw [dif_neg c1]
  by_cases c2 : r.val < 12
  · rw [dif_pos c2]
    exact (rd 2 ⟨r.val - 8, by omega⟩ (by show r.val / 4 = 2; omega) (by show r.val - 8 = r.val % 4; omega)).trans (h2 _ n)
  rw [dif_neg c2]
  exact (rd 3 ⟨r.val - 12, by omega⟩ (by show r.val / 4 = 3; omega) (by show r.val - 12 = r.val % 4; omega)).trans (h3 _ n)

end Cert.ReferenceIdeal

end
-- ==== Proof.lean ====
/- Four volumes of extents 32, 64, 128 and 256 are sampled trilinearly (smoothstep weights, coordinates clamped to the border) at 2^20 points. For every point and channel both programs compute `Cert.Sampling.feat`: the same seven interpolations a + (b − a)·t, nested along x, then y, then z, of the same eight corner values. The kernel reads a corner through the flat index z·S² + y·S + x into the volume laid channels-last, the reference indexes the volume by (z, y, x); the cells are floors of coordinates clamped to [0, S − 1], so both reads are the volume at the same cells. No finiteness of the inputs is used. -/
import proofs.«104267_j36455682409092_2_alg».proof.Defs
import proofs.«104267_j36455682409092_2_alg».proof.Proof.Gen.Kernel
import proofs.«104267_j36455682409092_2_alg».proof.Proof.Gen.KernelIdeal
import proofs.«104267_j36455682409092_2_alg».proof.Proof.Gen.ReferenceIdeal
import proofs.«104267_j36455682409092_2_alg».proof.Proof.Gen.Pre_finite_inputs
import proofs.«104267_j36455682409092_2_alg».proof.Proof.KFrame
import proofs.«104267_j36455682409092_2_alg».proof.Proof.KFrameBits
import proofs.«104267_j36455682409092_2_alg».proof.Proof.KValue
import proofs.«104267_j36455682409092_2_alg».proof.Proof.RRun
import proofs.«104267_j36455682409092_2_alg».proof.Proof.RValAll
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame (F := Bits) m ρ

theorem frame_kernelIdeal : Cert.frame_KernelIdeal := fun m ρ _ => Cert.KernelIdeal.Frm.frame (F := Ideal) m ρ

theorem frame_reference : Cert.frame_ReferenceIdeal := fun m ρ _ =>
  (θ_run (Cert.ReferenceIdeal.defs (F := Ideal)) _ _).mono (fun _ h c => (h c).2) (Cert.ReferenceIdeal.RRun.run (F := Ideal) m ρ)

theorem reference_result (x0 : Cert.ReferenceIdeal.S1x1x1x1048576x3.Idx → EReal) (x1 : Cert.ReferenceIdeal.S1x4x32x32x32.Idx → EReal) (x2 : Cert.ReferenceIdeal.S1x4x64x64x64.Idx → EReal)
    (x3 : Cert.ReferenceIdeal.S1x4x128x128x128.Idx → EReal) (x4 : Cert.ReferenceIdeal.S1x4x256x256x256.Idx → EReal) :
    Cert.ReferenceIdeal.ReadP.val_main_v1053 (F := Ideal) x0 x1 x2 x3 x4 = Cert.Sampling.result x0 x1 x2 x3 x4 :=
  Cert.ReferenceIdeal.RVal0.result_of_feats x0 x1 x2 x3 x4 (Cert.ReferenceIdeal.RVal0.feat0 x0 x1) (Cert.ReferenceIdeal.RVal1.feat1 x0 x2) (Cert.ReferenceIdeal.RVal2.feat2 x0 x3) (Cert.ReferenceIdeal.RVal3.feat3 x0 x4)

theorem algebraic : Cert.algebraic_KernelIdeal_ReferenceIdeal := by
  intro m ρ m' ρ' _ hagree
  refine ⟨fun c => Cert.Sampling.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KVal.run m ρ, ?_⟩
  refine (θ_run (Cert.ReferenceIdeal.defs (F := Ideal)) _ _).mono (fun _ h c => ⟨?_, (h c).2⟩) (Cert.ReferenceIdeal.RRun.run (F := Ideal) m' ρ')
  rw [(h c).1, reference_result, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
